-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x22x3x3 : Shape := ⟨5, ![16, 2048, 22, 3, 3]⟩
abbrev S55x3 : Shape := ⟨2, ![55, 3]⟩
abbrev S55 : Shape := ⟨1, ![55]⟩
abbrev S_ : Shape := ⟨0, ![]⟩

class Facts : Prop where
  bcast_S_S16x2048x22x3x3 : S_.BroadcastsInDim S16x2048x22x3x3 (![] : Fin 0 → Fin S16x2048x22x3x3.rank)
  reducesTo_S16x2048x22x3x3_S_d0_1_2_3_4 : S16x2048x22x3x3.ReducesTo [0, 1, 2, 3, 4] S_
  h_S_ : 0 < S_.numel
  bcast_S_S55x3 : S_.BroadcastsInDim S55x3 (![] : Fin 0 → Fin S55x3.rank)
  reducesTo_S55x3_S_d0_1 : S55x3.ReducesTo [0, 1] S_

variable [Facts]

def fn {F : FTy → Type} [FloatOps F] (main_arg0 : FVec F S16x2048x22x3x3 .f32) (main_arg1 : FVec F S55x3 .f32) (main_arg2 : IVec S55 32) : IVec S_ 1 :=
  let main_v0 : FVec F S16x2048x22x3x3 .f32 := Host.absf main_arg0
  let main_cst : FVec F S_ .f32 := constant S_ .f32 0x7F800000#32
  let main_v1 : FVec F S16x2048x22x3x3 .f32 := broadcastInDim S16x2048x22x3x3 ![] bcast_S_S16x2048x22x3x3 main_cst
  let main_v2 : IVec S16x2048x22x3x3 1 := cmpf .olt main_v0 main_v1
  let main_c : IVec S_ 1 := constantI S_ 1 1#1
  let main_v3 : IVec S_ 1 := (fun x v => Host.reduce IntOp.andi x v reducesTo_S16x2048x22x3x3_S_d0_1_2_3_4 h_S_) main_v2 main_c
  let main_v4 : FVec F S55x3 .f32 := Host.absf main_arg1
  let main_cst_0 : FVec F S_ .f32 := constant S_ .f32 0x7F800000#32
  let main_v5 : FVec F S55x3 .f32 := broadcastInDim S55x3 ![] bcast_S_S55x3 main_cst_0
  let main_v6 : IVec S55x3 1 := cmpf .olt main_v4 main_v5
  let main_c_1 : IVec S_ 1 := constantI S_ 1 1#1
  let main_v7 : IVec S_ 1 := (fun x v => Host.reduce IntOp.andi x v reducesTo_S55x3_S_d0_1 h_S_) main_v6 main_c_1
  let main_v8 : IVec S_ 1 := andi main_v3 main_v7
  main_v8
-- ==== Kernel.lean ====
abbrev S16x2048x22x3x3 : Shape := ⟨5, ![16, 2048, 22, 3, 3]⟩
abbrev S55x3 : Shape := ⟨2, ![55, 3]⟩
abbrev S55 : Shape := ⟨1, ![55]⟩
abbrev S54 : Shape := ⟨1, ![54]⟩
abbrev S32768x198 : Shape := ⟨2, ![32768, 198]⟩
abbrev S198x32768 : Shape := ⟨2, ![198, 32768]⟩
abbrev S1x3 : Shape := ⟨2, ![1, 3]⟩
abbrev S54x3 : Shape := ⟨2, ![54, 3]⟩
abbrev S_ : Shape := ⟨0, ![]⟩
abbrev S54x1 : Shape := ⟨2, ![54, 1]⟩
abbrev S3x55 : Shape := ⟨2, ![3, 55]⟩
abbrev S165x32768 : Shape := ⟨2, ![165, 32768]⟩
abbrev S198x4096 : Shape := ⟨2, ![198, 4096]⟩
abbrev S165x4096 : Shape := ⟨2, ![165, 4096]⟩
abbrev S1x4096 : Shape := ⟨2, ![1, 4096]⟩
abbrev S4096 : Shape := ⟨1, ![4096]⟩
abbrev S1x1 : Shape := ⟨2, ![1, 1]⟩
abbrev S32768x165 : Shape := ⟨2, ![32768, 165]⟩
abbrev S16x2048x55x3 : Shape := ⟨4, ![16, 2048, 55, 3]⟩

abbrev nBuf : Space → Nat
  | .hbm => 21
  | .vmem => 5
  | .smem => 0
  | _ => 0

abbrev bufTy : (tb : Table) → Fin (tcTables nBuf tb) → BufTy
  | .hbm, ⟨0, _⟩ => ⟨S16x2048x22x3x3, .f32⟩
  | .hbm, ⟨1, _⟩ => ⟨S55x3, .f32⟩
  | .hbm, ⟨2, _⟩ => ⟨S55, .i32⟩
  | .hbm, ⟨3, _⟩ => ⟨S54, .i32⟩
  | .hbm, ⟨4, _⟩ => ⟨S54, .i1⟩
  | .hbm, ⟨5, _⟩ => ⟨S32768x198, .f32⟩
  | .hbm, ⟨6, _⟩ => ⟨S198x32768, .f32⟩
  | .hbm, ⟨7, _⟩ => ⟨S1x3, .f32⟩
  | .hbm, ⟨8, _⟩ => ⟨S54x3, .f32⟩
  | .hbm, ⟨9, _⟩ => ⟨S_, .i32⟩
  | .hbm, ⟨10, _⟩ => ⟨S54, .i32⟩
  | .hbm, ⟨11, _⟩ => ⟨S54, .i32⟩
  | .hbm, ⟨12, _⟩ => ⟨S54, .i32⟩
  | .hbm, ⟨13, _⟩ => ⟨S54x1, .i32⟩
  | .hbm, ⟨14, _⟩ => ⟨S54x3, .f32⟩
  | .hbm, ⟨15, _⟩ => ⟨S54x3, .f32⟩
  | .hbm, ⟨16, _⟩ => ⟨S55x3, .f32⟩
  | .hbm, ⟨17, _⟩ => ⟨S3x55, .f32⟩
  | .hbm, ⟨18, _⟩ => ⟨S165x32768, .f32⟩
  | .hbm, ⟨19, _⟩ => ⟨S32768x165, .f32⟩
  | .hbm, ⟨20, _⟩ => ⟨S16x2048x55x3, .f32⟩
  | .local _ .vmem, ⟨0, _⟩ => ⟨S198x4096, .f32⟩
  | .local _ .vmem, ⟨1, _⟩ => ⟨S198x4096, .f32⟩
  | .local _ .vmem, ⟨2, _⟩ => ⟨S3x55, .f32⟩
  | .local _ .vmem, ⟨3, _⟩ => ⟨S165x4096, .f32⟩
  | .local _ .vmem, ⟨4, _⟩ => ⟨S165x4096, .f32⟩
  | _, _ => ⟨S16x2048x22x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S198x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x55 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S165x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x2048x22x3x3_S32768x198 : S16x2048x22x3x3.ShapeCasts S32768x198
  transposes_S32768x198_S198x32768_1_0 : S32768x198.Transposes [1, 0] S198x32768
  slices_S55x3_S1x3_0_0 : S55x3.Slices ![0, 0] S1x3
  slices_S55x3_S54x3_1_0 : S55x3.Slices ![1, 0] S54x3
  bcast_S_S54 : S_.BroadcastsInDim S54 (![] : Fin 0 → Fin S54.rank)
  bcast_S54_S54x1_0 : S54.BroadcastsInDim S54x1 (![0] : Fin 1 → Fin S54x1.rank)
  concatenates_S1x3_S54x3_S55x3_d0 : Shape.Concatenates [S1x3, S54x3] S55x3 0
  transposes_S55x3_S3x55_1_0 : S55x3.Transposes [1, 0] S3x55
  inb_S198x4096_S1x4096_0_0 : ∀ a, (![0, 0] : Fin 2 → Nat) a + S1x4096.size a ≤ S198x4096.size a
  h_S1x4096 : 0 < S1x4096.numel
  shapeCasts_S1x4096_S4096 : S1x4096.ShapeCasts S4096
  inb_S198x4096_S1x4096_1_0 : ∀ a, (![1, 0] : Fin 2 → Nat) a + S1x4096.size a ≤ S198x4096.size a
  inb_S198x4096_S1x4096_2_0 : ∀ a, (![2, 0] : Fin 2 → Nat) a + S1x4096.size a ≤ S198x4096.size a
  inb_S198x4096_S1x4096_3_0 : ∀ a, (![3, 0] : Fin 2 → Nat) a + S1x4096.size a ≤ S198x4096.size a
  inb_S198x4096_S1x4096_4_0 : ∀ a, (![4, 0] : Fin 2 → Nat) a + S1x4096.size a ≤ S198x4096.size a
  inb_S198x4096_S1x4096_5_0 : ∀ a, (![5, 0] : Fin 2 → Nat) a + S1x4096.size a ≤ S198x4096.size a
  inb_S198x4096_S1x4096_6_0 : ∀ a, (![6, 0] : Fin 2 → Nat) a + S1x4096.size a ≤ S198x4096.size a
  inb_S198x4096_S1x4096_7_0 : ∀ a, (![7, 0] : Fin 2 → Nat) a + S1x4096.size a ≤ S198x4096.size a
  inb_S198x4096_S1x4096_8_0 : ∀ a, (![8, 0] : Fin 2 → Nat) a + S1x4096.size a ≤ S198x4096.size a
  inb_S3x55_S1x1_0_0 : ∀ a, (![0, 0] : Fin 2 → Nat) a + S1x1.size a ≤ S3x55.size a
  h_S1x1 : 0 < S1x1.numel
  inpos_S1x1_p0_0 : ∀ a, (![0, 0] : Fin 2 → Nat) a < S1x1.size a
  inb_S3x55_S1x1_1_0 : ∀ a, (![1, 0] : Fin 2 → Nat) a + S1x1.size a ≤ S3x55.size a
  inb_S3x55_S1x1_2_0 : ∀ a, (![2, 0] : Fin 2 → Nat) a + S1x1.size a ≤ S3x55.size a
  inb_S198x4096_S1x4096_9_0 : ∀ a, (![9, 0] : Fin 2 → Nat) a + S1x4096.size a ≤ S198x4096.size a
  inb_S198x4096_S1x4096_10_0 : ∀ a, (![10, 0] : Fin 2 → Nat) a + S1x4096.size a ≤ S198x4096.size a
  inb_S198x4096_S1x4096_11_0 : ∀ a, (![11, 0] : Fin 2 → Nat) a + S1x4096.size a ≤ S198x4096.size a
  inb_S198x4096_S1x4096_12_0 : ∀ a, (![12, 0] : Fin 2 → Nat) a + S1x4096.size a ≤ S198x4096.size a
  inb_S198x4096_S1x4096_13_0 : ∀ a, (![13, 0] : Fin 2 → Nat) a + S1x4096.size a ≤ S198x4096.size a
  inb_S198x4096_S1x4096_14_0 : ∀ a, (![14, 0] : Fin 2 → Nat) a + S1x4096.size a ≤ S198x4096.size a
  inb_S198x4096_S1x4096_15_0 : ∀ a, (![15, 0] : Fin 2 → Nat) a + S1x4096.size a ≤ S198x4096.size a
  inb_S198x4096_S1x4096_16_0 : ∀ a, (![16, 0] : Fin 2 → Nat) a + S1x4096.size a ≤ S198x4096.size a
  inb_S198x4096_S1x4096_17_0 : ∀ a, (![17, 0] : Fin 2 → Nat) a + S1x4096.size a ≤ S198x4096.size a
  inb_S3x55_S1x1_0_1 : ∀ a, (![0, 1] : Fin 2 → Nat) a + S1x1.size a ≤ S3x55.size a
  inb_S3x55_S1x1_1_1 : ∀ a, (![1, 1] : Fin 2 → Nat) a + S1x1.size a ≤ S3x55.size a
  inb_S3x55_S1x1_2_1 : ∀ a, (![2, 1] : Fin 2 → Nat) a + S1x1.size a ≤ S3x55.size a
  inb_S198x4096_S1x4096_18_0 : ∀ a, (![18, 0] : Fin 2 → Nat) a + S1x4096.size a ≤ S198x4096.size a
  inb_S198x4096_S1x4096_19_0 : ∀ a, (![19, 0] : Fin 2 → Nat) a + S1x4096.size a ≤ S198x4096.size a
  inb_S198x4096_S1x4096_20_0 : ∀ a, (![20, 0] : Fin 2 → Nat) a + S1x4096.size a ≤ S198x4096.size a
  inb_S198x4096_S1x4096_21_0 : ∀ a, (![21, 0] : Fin 2 → Nat) a + S1x4096.size a ≤ S198x4096.size a
  inb_S198x4096_S1x4096_22_0 : ∀ a, (![22, 0] : Fin 2 → Nat) a + S1x4096.size a ≤ S198x4096.size a
  inb_S198x4096_S1x4096_23_0 : ∀ a, (![23, 0] : Fin 2 → Nat) a + S1x4096.size a ≤ S198x4096.size a
  inb_S198x4096_S1x4096_24_0 : ∀ a, (![24, 0] : Fin 2 → Nat) a + S1x4096.size a ≤ S198x4096.size a
  inb_S198x4096_S1x4096_25_0 : ∀ a, (![25, 0] : Fin 2 → Nat) a + S1x4096.size a ≤ S198x4096.size a
  inb_S198x4096_S1x4096_26_0 : ∀ a, (![26, 0] : Fin 2 → Nat) a + S1x4096.size a ≤ S198x4096.size a
  inb_S3x55_S1x1_0_2 : ∀ a, (![0, 2] : Fin 2 → Nat) a + S1x1.size a ≤ S3x55.size a
  inb_S3x55_S1x1_1_2 : ∀ a, (![1, 2] : Fin 2 → Nat) a + S1x1.size a ≤ S3x55.size a
  inb_S3x55_S1x1_2_2 : ∀ a, (![2, 2] : Fin 2 → Nat) a + S1x1.size a ≤ S3x55.size a
  inb_S198x4096_S1x4096_27_0 : ∀ a, (![27, 0] : Fin 2 → Nat) a + S1x4096.size a ≤ S198x4096.size a
  inb_S198x4096_S1x4096_28_0 : ∀ a, (![28, 0] : Fin 2 → Nat) a + S1x4096.size a ≤ S198x4096.size a
  inb_S198x4096_S1x4096_29_0 : ∀ a, (![29, 0] : Fin 2 → Nat) a + S1x4096.size a ≤ S198x4096.size a
  inb_S198x4096_S1x4096_30_0 : ∀ a, (![30, 0] : Fin 2 → Nat) a + S1x4096.size a ≤ S198x4096.size a
  inb_S198x4096_S1x4096_31_0 : ∀ a, (![31, 0] : Fin 2 → Nat) a + S1x4096.size a ≤ S198x4096.size a
  inb_S198x4096_S1x4096_32_0 : ∀ a, (![32, 0] : Fin 2 → Nat) a + S1x4096.size a ≤ S198x4096.size a
  inb_S198x4096_S1x4096_33_0 : ∀ a, (![33, 0] : Fin 2 → Nat) a + S1x4096.size a ≤ S198x4096.size a
  inb_S198x4096_S1x4096_34_0 : ∀ a, (![34, 0] : Fin 2 → Nat) a + S1x4096.size a ≤ S198x4096.size a
  inb_S198x4096_S1x4096_35_0 : ∀ a, (![35, 0] : Fin 2 → Nat) a + S1x4096.size a ≤ S198x4096.size a
  inb_S3x55_S1x1_0_3 : ∀ a, (![0, 3] : Fin 2 → Nat) a + S1x1.size a ≤ S3x55.size a
  inb_S3x55_S1x1_1_3 : ∀ a, (![1, 3] : Fin 2 → Nat) a + S1x1.size a ≤ S3x55.size a
  inb_S3x55_S1x1_2_3 : ∀ a, (![2, 3] : Fin 2 → Nat) a + S1x1.size a ≤ S3x55.size a
  inb_S198x4096_S1x4096_36_0 : ∀ a, (![36, 0] : Fin 2 → Nat) a + S1x4096.size a ≤ S198x4096.size a
  inb_S198x4096_S1x4096_37_0 : ∀ a, (![37, 0] : Fin 2 → Nat) a + S1x4096.size a ≤ S198x4096.size a
  inb_S198x4096_S1x4096_38_0 : ∀ a, (![38, 0] : Fin 2 → Nat) a + S1x4096.size a ≤ S198x4096.size a
  inb_S198x4096_S1x4096_39_0 : ∀ a, (![39, 0] : Fin 2 → Nat) a + S1x4096.size a ≤ S198x4096.size a
  inb_S198x4096_S1x4096_40_0 : ∀ a, (![40, 0] : Fin 2 → Nat) a + S1x4096.size a ≤ S198x4096.size a
  inb_S198x4096_S1x4096_41_0 : ∀ a, (![41, 0] : Fin 2 → Nat) a + S1x4096.size a ≤ S198x4096.size a
  inb_S198x4096_S1x4096_42_0 : ∀ a, (![42, 0] : Fin 2 → Nat) a + S1x4096.size a ≤ S198x4096.size a
  inb_S198x4096_S1x4096_43_0 : ∀ a, (![43, 0] : Fin 2 → Nat) a + S1x4096.size a ≤ S198x4096.size a
  inb_S198x4096_S1x4096_44_0 : ∀ a, (![44, 0] : Fin 2 → Nat) a + S1x4096.size a ≤ S198x4096.size a
  inb_S3x55_S1x1_0_4 : ∀ a, (![0, 4] : Fin 2 → Nat) a + S1x1.size a ≤ S3x55.size a
  inb_S3x55_S1x1_1_4 : ∀ a, (![1, 4] : Fin 2 → Nat) a + S1x1.size a ≤ S3x55.size a
  inb_S3x55_S1x1_2_4 : ∀ a, (![2, 4] : Fin 2 → Nat) a + S1x1.size a ≤ S3x55.size a
  inb_S198x4096_S1x4096_45_0 : ∀ a, (![45, 0] : Fin 2 → Nat) a + S1x4096.size a ≤ S198x4096.size a
  inb_S198x4096_S1x4096_46_0 : ∀ a, (![46, 0] : Fin 2 → Nat) a + S1x4096.size a ≤ S198x4096.size a
  inb_S198x4096_S1x4096_47_0 : ∀ a, (![47, 0] : Fin 2 → Nat) a + S1x4096.size a ≤ S198x4096.size a
  inb_S198x4096_S1x4096_48_0 : ∀ a, (![48, 0] : Fin 2 → Nat) a + S1x4096.size a ≤ S198x4096.size a
  inb_S198x4096_S1x4096_49_0 : ∀ a, (![49, 0] : Fin 2 → Nat) a + S1x4096.size a ≤ S198x4096.size a
  inb_S198x4096_S1x4096_50_0 : ∀ a, (![50, 0] : Fin 2 → Nat) a + S1x4096.size a ≤ S198x4096.size a
  inb_S198x4096_S1x4096_51_0 : ∀ a, (![51, 0] : Fin 2 → Nat) a + S1x4096.size a ≤ S198x4096.size a
  inb_S198x4096_S1x4096_52_0 : ∀ a, (![52, 0] : Fin 2 → Nat) a + S1x4096.size a ≤ S198x4096.size a
  inb_S198x4096_S1x4096_53_0 : ∀ a, (![53, 0] : Fin 2 → Nat) a + S1x4096.size a ≤ S198x4096.size a
  inb_S3x55_S1x1_0_5 : ∀ a, (![0, 5] : Fin 2 → Nat) a + S1x1.size a ≤ S3x55.size a
  inb_S3x55_S1x1_1_5 : ∀ a, (![1, 5] : Fin 2 → Nat) a + S1x1.size a ≤ S3x55.size a
  inb_S3x55_S1x1_2_5 : ∀ a, (![2, 5] : Fin 2 → Nat) a + S1x1.size a ≤ S3x55.size a
  inb_S198x4096_S1x4096_54_0 : ∀ a, (![54, 0] : Fin 2 → Nat) a + S1x4096.size a ≤ S198x4096.size a
  inb_S198x4096_S1x4096_55_0 : ∀ a, (![55, 0] : Fin 2 → Nat) a + S1x4096.size a ≤ S198x4096.size a
  inb_S198x4096_S1x4096_56_0 : ∀ a, (![56, 0] : Fin 2 → Nat) a + S1x4096.size a ≤ S198x4096.size a
  inb_S198x4096_S1x4096_57_0 : ∀ a, (![57, 0] : Fin 2 → Nat) a + S1x4096.size a ≤ S198x4096.size a
  inb_S198x4096_S1x4096_58_0 : ∀ a, (![58, 0] : Fin 2 → Nat) a + S1x4096.size a ≤ S198x4096.size a
  inb_S198x4096_S1x4096_59_0 : ∀ a, (![59, 0] : Fin 2 → Nat) a + S1x4096.size a ≤ S198x4096.size a
  inb_S198x4096_S1x4096_60_0 : ∀ a, (![60, 0] : Fin 2 → Nat) a + S1x4096.size a ≤ S198x4096.size a
  inb_S198x4096_S1x4096_61_0 : ∀ a, (![61, 0] : Fin 2 → Nat) a + S1x4096.size a ≤ S198x4096.size a
  inb_S198x4096_S1x4096_62_0 : ∀ a, (![62, 0] : Fin 2 → Nat) a + S1x4096.size a ≤ S198x4096.size a
  inb_S3x55_S1x1_0_6 : ∀ a, (![0, 6] : Fin 2 → Nat) a + S1x1.size a ≤ S3x55.size a
  inb_S3x55_S1x1_1_6 : ∀ a, (![1, 6] : Fin 2 → Nat) a + S1x1.size a ≤ S3x55.size a
  inb_S3x55_S1x1_2_6 : ∀ a, (![2, 6] : Fin 2 → Nat) a + S1x1.size a ≤ S3x55.size a
  inb_S198x4096_S1x4096_63_0 : ∀ a, (![63, 0] : Fin 2 → Nat) a + S1x4096.size a ≤ S198x4096.size a
  inb_S198x4096_S1x4096_64_0 : ∀ a, (![64, 0] : Fin 2 → Nat) a + S1x4096.size a ≤ S198x4096.size a
  inb_S198x4096_S1x4096_65_0 : ∀ a, (![65, 0] : Fin 2 → Nat) a + S1x4096.size a ≤ S198x4096.size a
  inb_S198x4096_S1x4096_66_0 : ∀ a, (![66, 0] : Fin 2 → Nat) a + S1x4096.size a ≤ S198x4096.size a
  inb_S198x4096_S1x4096_67_0 : ∀ a, (![67, 0] : Fin 2 → Nat) a + S1x4096.size a ≤ S198x4096.size a
  inb_S198x4096_S1x4096_68_0 : ∀ a, (![68, 0] : Fin 2 → Nat) a + S1x4096.size a ≤ S198x4096.size a
  inb_S198x4096_S1x4096_69_0 : ∀ a, (![69, 0] : Fin 2 → Nat) a + S1x4096.size a ≤ S198x4096.size a
  inb_S198x4096_S1x4096_70_0 : ∀ a, (![70, 0] : Fin 2 → Nat) a + S1x4096.size a ≤ S198x4096.size a
  inb_S198x4096_S1x4096_71_0 : ∀ a, (![71, 0] : Fin 2 → Nat) a + S1x4096.size a ≤ S198x4096.size a
  inb_S3x55_S1x1_0_7 : ∀ a, (![0, 7] : Fin 2 → Nat) a + S1x1.size a ≤ S3x55.size a
  inb_S3x55_S1x1_1_7 : ∀ a, (![1, 7] : Fin 2 → Nat) a + S1x1.size a ≤ S3x55.size a
  inb_S3x55_S1x1_2_7 : ∀ a, (![2, 7] : Fin 2 → Nat) a + S1x1.size a ≤ S3x55.size a
  inb_S198x4096_S1x4096_72_0 : ∀ a, (![72, 0] : Fin 2 → Nat) a + S1x4096.size a ≤ S198x4096.size a
  inb_S198x4096_S1x4096_73_0 : ∀ a, (![73, 0] : Fin 2 → Nat) a + S1x4096.size a ≤ S198x4096.size a
  inb_S198x4096_S1x4096_74_0 : ∀ a, (![74, 0] : Fin 2 → Nat) a + S1x4096.size a ≤ S198x4096.size a
  inb_S198x4096_S1x4096_75_0 : ∀ a, (![75, 0] : Fin 2 → Nat) a + S1x4096.size a ≤ S198x4096.size a
  inb_S198x4096_S1x4096_76_0 : ∀ a, (![76, 0] : Fin 2 → Nat) a + S1x4096.size a ≤ S198x4096.size a
  inb_S198x4096_S1x4096_77_0 : ∀ a, (![77, 0] : Fin 2 → Nat) a + S1x4096.size a ≤ S198x4096.size a
  inb_S198x4096_S1x4096_78_0 : ∀ a, (![78, 0] : Fin 2 → Nat) a + S1x4096.size a ≤ S198x4096.size a
  inb_S198x4096_S1x4096_79_0 : ∀ a, (![79, 0] : Fin 2 → Nat) a + S1x4096.size a ≤ S198x4096.size a
  inb_S198x4096_S1x4096_80_0 : ∀ a, (![80, 0] : Fin 2 → Nat) a + S1x4096.size a ≤ S198x4096.size a
  inb_S3x55_S1x1_0_8 : ∀ a, (![0, 8] : Fin 2 → Nat) a + S1x1.size a ≤ S3x55.size a
  inb_S3x55_S1x1_1_8 : ∀ a, (![1, 8] : Fin 2 → Nat) a + S1x1.size a ≤ S3x55.size a
  inb_S3x55_S1x1_2_8 : ∀ a, (![2, 8] : Fin 2 → Nat) a + S1x1.size a ≤ S3x55.size a
  inb_S198x4096_S1x4096_81_0 : ∀ a, (![81, 0] : Fin 2 → Nat) a + S1x4096.size a ≤ S198x4096.size a
  inb_S198x4096_S1x4096_82_0 : ∀ a, (![82, 0] : Fin 2 → Nat) a + S1x4096.size a ≤ S198x4096.size a
  inb_S198x4096_S1x4096_83_0 : ∀ a, (![83, 0] : Fin 2 → Nat) a + S1x4096.size a ≤ S198x4096.size a
  inb_S198x4096_S1x4096_84_0 : ∀ a, (![84, 0] : Fin 2 → Nat) a + S1x4096.size a ≤ S198x4096.size a
  inb_S198x4096_S1x4096_85_0 : ∀ a, (![85, 0] : Fin 2 → Nat) a + S1x4096.size a ≤ S198x4096.size a
  inb_S198x4096_S1x4096_86_0 : ∀ a, (![86, 0] : Fin 2 → Nat) a + S1x4096.size a ≤ S198x4096.size a
  inb_S198x4096_S1x4096_87_0 : ∀ a, (![87, 0] : Fin 2 → Nat) a + S1x4096.size a ≤ S198x4096.size a
  inb_S198x4096_S1x4096_88_0 : ∀ a, (![88, 0] : Fin 2 → Nat) a + S1x4096.size a ≤ S198x4096.size a
  inb_S198x4096_S1x4096_89_0 : ∀ a, (![89, 0] : Fin 2 → Nat) a + S1x4096.size a ≤ S198x4096.size a
  inb_S3x55_S1x1_0_9 : ∀ a, (![0, 9] : Fin 2 → Nat) a + S1x1.size a ≤ S3x55.size a
  inb_S3x55_S1x1_1_9 : ∀ a, (![1, 9] : Fin 2 → Nat) a + S1x1.size a ≤ S3x55.size a
  inb_S3x55_S1x1_2_9 : ∀ a, (![2, 9] : Fin 2 → Nat) a + S1x1.size a ≤ S3x55.size a
  inb_S3x55_S1x1_0_10 : ∀ a, (![0, 10] : Fin 2 → Nat) a + S1x1.size a ≤ S3x55.size a
  inb_S3x55_S1x1_1_10 : ∀ a, (![1, 10] : Fin 2 → Nat) a + S1x1.size a ≤ S3x55.size a
  inb_S3x55_S1x1_2_10 : ∀ a, (![2, 10] : Fin 2 → Nat) a + S1x1.size a ≤ S3x55.size a
  inb_S3x55_S1x1_0_11 : ∀ a, (![0, 11] : Fin 2 → Nat) a + S1x1.size a ≤ S3x55.size a
  inb_S3x55_S1x1_1_11 : ∀ a, (![1, 11] : Fin 2 → Nat) a + S1x1.size a ≤ S3x55.size a
  inb_S3x55_S1x1_2_11 : ∀ a, (![2, 11] : Fin 2 → Nat) a + S1x1.size a ≤ S3x55.size a
  inb_S198x4096_S1x4096_108_0 : ∀ a, (![108, 0] : Fin 2 → Nat) a + S1x4096.size a ≤ S198x4096.size a
  inb_S198x4096_S1x4096_109_0 : ∀ a, (![109, 0] : Fin 2 → Nat) a + S1x4096.size a ≤ S198x4096.size a
  inb_S198x4096_S1x4096_110_0 : ∀ a, (![110, 0] : Fin 2 → Nat) a + S1x4096.size a ≤ S198x4096.size a
  inb_S198x4096_S1x4096_111_0 : ∀ a, (![111, 0] : Fin 2 → Nat) a + S1x4096.size a ≤ S198x4096.size a
  inb_S198x4096_S1x4096_112_0 : ∀ a, (![112, 0] : Fin 2 → Nat) a + S1x4096.size a ≤ S198x4096.size a
  inb_S198x4096_S1x4096_113_0 : ∀ a, (![113, 0] : Fin 2 → Nat) a + S1x4096.size a ≤ S198x4096.size a
  inb_S198x4096_S1x4096_114_0 : ∀ a, (![114, 0] : Fin 2 → Nat) a + S1x4096.size a ≤ S198x4096.size a
  inb_S198x4096_S1x4096_115_0 : ∀ a, (![115, 0] : Fin 2 → Nat) a + S1x4096.size a ≤ S198x4096.size a
  inb_S198x4096_S1x4096_116_0 : ∀ a, (![116, 0] : Fin 2 → Nat) a + S1x4096.size a ≤ S198x4096.size a
  inb_S3x55_S1x1_0_12 : ∀ a, (![0, 12] : Fin 2 → Nat) a + S1x1.size a ≤ S3x55.size a
  inb_S3x55_S1x1_1_12 : ∀ a, (![1, 12] : Fin 2 → Nat) a + S1x1.size a ≤ S3x55.size a
  inb_S3x55_S1x1_2_12 : ∀ a, (![2, 12] : Fin 2 → Nat) a + S1x1.size a ≤ S3x55.size a
  inb_S198x4096_S1x4096_117_0 : ∀ a, (![117, 0] : Fin 2 → Nat) a + S1x4096.size a ≤ S198x4096.size a
  inb_S198x4096_S1x4096_118_0 : ∀ a, (![118, 0] : Fin 2 → Nat) a + S1x4096.size a ≤ S198x4096.size a
  inb_S198x4096_S1x4096_119_0 : ∀ a, (![119, 0] : Fin 2 → Nat) a + S1x4096.size a ≤ S198x4096.size a
  inb_S198x4096_S1x4096_120_0 : ∀ a, (![120, 0] : Fin 2 → Nat) a + S1x4096.size a ≤ S198x4096.size a
  inb_S198x4096_S1x4096_121_0 : ∀ a, (![121, 0] : Fin 2 → Nat) a + S1x4096.size a ≤ S198x4096.size a
  inb_S198x4096_S1x4096_122_0 : ∀ a, (![122, 0] : Fin 2 → Nat) a + S1x4096.size a ≤ S198x4096.size a
  inb_S198x4096_S1x4096_123_0 : ∀ a, (![123, 0] : Fin 2 → Nat) a + S1x4096.size a ≤ S198x4096.size a
  inb_S198x4096_S1x4096_124_0 : ∀ a, (![124, 0] : Fin 2 → Nat) a + S1x4096.size a ≤ S198x4096.size a
  inb_S198x4096_S1x4096_125_0 : ∀ a, (![125, 0] : Fin 2 → Nat) a + S1x4096.size a ≤ S198x4096.size a
  inb_S3x55_S1x1_0_13 : ∀ a, (![0, 13] : Fin 2 → Nat) a + S1x1.size a ≤ S3x55.size a
  inb_S3x55_S1x1_1_13 : ∀ a, (![1, 13] : Fin 2 → Nat) a + S1x1.size a ≤ S3x55.size a
  inb_S3x55_S1x1_2_13 : ∀ a, (![2, 13] : Fin 2 → Nat) a + S1x1.size a ≤ S3x55.size a
  inb_S198x4096_S1x4096_126_0 : ∀ a, (![126, 0] : Fin 2 → Nat) a + S1x4096.size a ≤ S198x4096.size a
  inb_S198x4096_S1x4096_127_0 : ∀ a, (![127, 0] : Fin 2 → Nat) a + S1x4096.size a ≤ S198x4096.size a
  inb_S198x4096_S1x4096_128_0 : ∀ a, (![128, 0] : Fin 2 → Nat) a + S1x4096.size a ≤ S198x4096.size a
  inb_S198x4096_S1x4096_129_0 : ∀ a, (![129, 0] : Fin 2 → Nat) a + S1x4096.size a ≤ S198x4096.size a
  inb_S198x4096_S1x4096_130_0 : ∀ a, (![130, 0] : Fin 2 → Nat) a + S1x4096.size a ≤ S198x4096.size a
  inb_S198x4096_S1x4096_131_0 : ∀ a, (![131, 0] : Fin 2 → Nat) a + S1x4096.size a ≤ S198x4096.size a
  inb_S198x4096_S1x4096_132_0 : ∀ a, (![132, 0] : Fin 2 → Nat) a + S1x4096.size a ≤ S198x4096.size a
  inb_S198x4096_S1x4096_133_0 : ∀ a, (![133, 0] : Fin 2 → Nat) a + S1x4096.size a ≤ S198x4096.size a
  inb_S198x4096_S1x4096_134_0 : ∀ a, (![134, 0] : Fin 2 → Nat) a + S1x4096.size a ≤ S198x4096.size a
  inb_S3x55_S1x1_0_14 : ∀ a, (![0, 14] : Fin 2 → Nat) a + S1x1.size a ≤ S3x55.size a
  inb_S3x55_S1x1_1_14 : ∀ a, (![1, 14] : Fin 2 → Nat) a + S1x1.size a ≤ S3x55.size a
  inb_S3x55_S1x1_2_14 : ∀ a, (![2, 14] : Fin 2 → Nat) a + S1x1.size a ≤ S3x55.size a
  inb_S198x4096_S1x4096_135_0 : ∀ a, (![135, 0] : Fin 2 → Nat) a + S1x4096.size a ≤ S198x4096.size a
  inb_S198x4096_S1x4096_136_0 : ∀ a, (![136, 0] : Fin 2 → Nat) a + S1x4096.size a ≤ S198x4096.size a
  inb_S198x4096_S1x4096_137_0 : ∀ a, (![137, 0] : Fin 2 → Nat) a + S1x4096.size a ≤ S198x4096.size a
  inb_S198x4096_S1x4096_138_0 : ∀ a, (![138, 0] : Fin 2 → Nat) a + S1x4096.size a ≤ S198x4096.size a
  inb_S198x4096_S1x4096_139_0 : ∀ a, (![139, 0] : Fin 2 → Nat) a + S1x4096.size a ≤ S198x4096.size a
  inb_S198x4096_S1x4096_140_0 : ∀ a, (![140, 0] : Fin 2 → Nat) a + S1x4096.size a ≤ S198x4096.size a
  inb_S198x4096_S1x4096_141_0 : ∀ a, (![141, 0] : Fin 2 → Nat) a + S1x4096.size a ≤ S198x4096.size a
  inb_S198x4096_S1x4096_142_0 : ∀ a, (![142, 0] : Fin 2 → Nat) a + S1x4096.size a ≤ S198x4096.size a
  inb_S198x4096_S1x4096_143_0 : ∀ a, (![143, 0] : Fin 2 → Nat) a + S1x4096.size a ≤ S198x4096.size a
  inb_S3x55_S1x1_0_15 : ∀ a, (![0, 15] : Fin 2 → Nat) a + S1x1.size a ≤ S3x55.size a
  inb_S3x55_S1x1_1_15 : ∀ a, (![1, 15] : Fin 2 → Nat) a + S1x1.size a ≤ S3x55.size a
  inb_S3x55_S1x1_2_15 : ∀ a, (![2, 15] : Fin 2 → Nat) a + S1x1.size a ≤ S3x55.size a
  inb_S198x4096_S1x4096_144_0 : ∀ a, (![144, 0] : Fin 2 → Nat) a + S1x4096.size a ≤ S198x4096.size a
  inb_S198x4096_S1x4096_145_0 : ∀ a, (![145, 0] : Fin 2 → Nat) a + S1x4096.size a ≤ S198x4096.size a
  inb_S198x4096_S1x4096_146_0 : ∀ a, (![146, 0] : Fin 2 → Nat) a + S1x4096.size a ≤ S198x4096.size a
  inb_S198x4096_S1x4096_147_0 : ∀ a, (![147, 0] : Fin 2 → Nat) a + S1x4096.size a ≤ S198x4096.size a
  inb_S198x4096_S1x4096_148_0 : ∀ a, (![148, 0] : Fin 2 → Nat) a + S1x4096.size a ≤ S198x4096.size a
  inb_S198x4096_S1x4096_149_0 : ∀ a, (![149, 0] : Fin 2 → Nat) a + S1x4096.size a ≤ S198x4096.size a
  inb_S198x4096_S1x4096_150_0 : ∀ a, (![150, 0] : Fin 2 → Nat) a + S1x4096.size a ≤ S198x4096.size a
  inb_S198x4096_S1x4096_151_0 : ∀ a, (![151, 0] : Fin 2 → Nat) a + S1x4096.size a ≤ S198x4096.size a
  inb_S198x4096_S1x4096_152_0 : ∀ a, (![152, 0] : Fin 2 → Nat) a + S1x4096.size a ≤ S198x4096.size a
  inb_S3x55_S1x1_0_16 : ∀ a, (![0, 16] : Fin 2 → Nat) a + S1x1.size a ≤ S3x55.size a
  inb_S3x55_S1x1_1_16 : ∀ a, (![1, 16] : Fin 2 → Nat) a + S1x1.size a ≤ S3x55.size a
  inb_S3x55_S1x1_2_16 : ∀ a, (![2, 16] : Fin 2 → Nat) a + S1x1.size a ≤ S3x55.size a
  inb_S198x4096_S1x4096_153_0 : ∀ a, (![153, 0] : Fin 2 → Nat) a + S1x4096.size a ≤ S198x4096.size a
  inb_S198x4096_S1x4096_154_0 : ∀ a, (![154, 0] : Fin 2 → Nat) a + S1x4096.size a ≤ S198x4096.size a
  inb_S198x4096_S1x4096_155_0 : ∀ a, (![155, 0] : Fin 2 → Nat) a + S1x4096.size a ≤ S198x4096.size a
  inb_S198x4096_S1x4096_156_0 : ∀ a, (![156, 0] : Fin 2 → Nat) a + S1x4096.size a ≤ S198x4096.size a
  inb_S198x4096_S1x4096_157_0 : ∀ a, (![157, 0] : Fin 2 → Nat) a + S1x4096.size a ≤ S198x4096.size a
  inb_S198x4096_S1x4096_158_0 : ∀ a, (![158, 0] : Fin 2 → Nat) a + S1x4096.size a ≤ S198x4096.size a
  inb_S198x4096_S1x4096_159_0 : ∀ a, (![159, 0] : Fin 2 → Nat) a + S1x4096.size a ≤ S198x4096.size a
  inb_S198x4096_S1x4096_160_0 : ∀ a, (![160, 0] : Fin 2 → Nat) a + S1x4096.size a ≤ S198x4096.size a
  inb_S198x4096_S1x4096_161_0 : ∀ a, (![161, 0] : Fin 2 → Nat) a + S1x4096.size a ≤ S198x4096.size a
  inb_S3x55_S1x1_0_17 : ∀ a, (![0, 17] : Fin 2 → Nat) a + S1x1.size a ≤ S3x55.size a
  inb_S3x55_S1x1_1_17 : ∀ a, (![1, 17] : Fin 2 → Nat) a + S1x1.size a ≤ S3x55.size a
  inb_S3x55_S1x1_2_17 : ∀ a, (![2, 17] : Fin 2 → Nat) a + S1x1.size a ≤ S3x55.size a
  inb_S198x4096_S1x4096_162_0 : ∀ a, (![162, 0] : Fin 2 → Nat) a + S1x4096.size a ≤ S198x4096.size a
  inb_S198x4096_S1x4096_163_0 : ∀ a, (![163, 0] : Fin 2 → Nat) a + S1x4096.size a ≤ S198x4096.size a
  inb_S198x4096_S1x4096_164_0 : ∀ a, (![164, 0] : Fin 2 → Nat) a + S1x4096.size a ≤ S198x4096.size a
  inb_S198x4096_S1x4096_165_0 : ∀ a, (![165, 0] : Fin 2 → Nat) a + S1x4096.size a ≤ S198x4096.size a
  inb_S198x4096_S1x4096_166_0 : ∀ a, (![166, 0] : Fin 2 → Nat) a + S1x4096.size a ≤ S198x4096.size a
  inb_S198x4096_S1x4096_167_0 : ∀ a, (![167, 0] : Fin 2 → Nat) a + S1x4096.size a ≤ S198x4096.size a
  inb_S198x4096_S1x4096_168_0 : ∀ a, (![168, 0] : Fin 2 → Nat) a + S1x4096.size a ≤ S198x4096.size a
  inb_S198x4096_S1x4096_169_0 : ∀ a, (![169, 0] : Fin 2 → Nat) a + S1x4096.size a ≤ S198x4096.size a
  inb_S198x4096_S1x4096_170_0 : ∀ a, (![170, 0] : Fin 2 → Nat) a + S1x4096.size a ≤ S198x4096.size a
  inb_S3x55_S1x1_0_18 : ∀ a, (![0, 18] : Fin 2 → Nat) a + S1x1.size a ≤ S3x55.size a
  inb_S3x55_S1x1_1_18 : ∀ a, (![1, 18] : Fin 2 → Nat) a + S1x1.size a ≤ S3x55.size a
  inb_S3x55_S1x1_2_18 : ∀ a, (![2, 18] : Fin 2 → Nat) a + S1x1.size a ≤ S3x55.size a
  inb_S198x4096_S1x4096_171_0 : ∀ a, (![171, 0] : Fin 2 → Nat) a + S1x4096.size a ≤ S198x4096.size a
  inb_S198x4096_S1x4096_172_0 : ∀ a, (![172, 0] : Fin 2 → Nat) a + S1x4096.size a ≤ S198x4096.size a
  inb_S198x4096_S1x4096_173_0 : ∀ a, (![173, 0] : Fin 2 → Nat) a + S1x4096.size a ≤ S198x4096.size a
  inb_S198x4096_S1x4096_174_0 : ∀ a, (![174, 0] : Fin 2 → Nat) a + S1x4096.size a ≤ S198x4096.size a
  inb_S198x4096_S1x4096_175_0 : ∀ a, (![175, 0] : Fin 2 → Nat) a + S1x4096.size a ≤ S198x4096.size a
  inb_S198x4096_S1x4096_176_0 : ∀ a, (![176, 0] : Fin 2 → Nat) a + S1x4096.size a ≤ S198x4096.size a
  inb_S198x4096_S1x4096_177_0 : ∀ a, (![177, 0] : Fin 2 → Nat) a + S1x4096.size a ≤ S198x4096.size a
  inb_S198x4096_S1x4096_178_0 : ∀ a, (![178, 0] : Fin 2 → Nat) a + S1x4096.size a ≤ S198x4096.size a
  inb_S198x4096_S1x4096_179_0 : ∀ a, (![179, 0] : Fin 2 → Nat) a + S1x4096.size a ≤ S198x4096.size a
  inb_S3x55_S1x1_0_19 : ∀ a, (![0, 19] : Fin 2 → Nat) a + S1x1.size a ≤ S3x55.size a
  inb_S3x55_S1x1_1_19 : ∀ a, (![1, 19] : Fin 2 → Nat) a + S1x1.size a ≤ S3x55.size a
  inb_S3x55_S1x1_2_19 : ∀ a, (![2, 19] : Fin 2 → Nat) a + S1x1.size a ≤ S3x55.size a
  inb_S198x4096_S1x4096_180_0 : ∀ a, (![180, 0] : Fin 2 → Nat) a + S1x4096.size a ≤ S198x4096.size a
  inb_S198x4096_S1x4096_181_0 : ∀ a, (![181, 0] : Fin 2 → Nat) a + S1x4096.size a ≤ S198x4096.size a
  inb_S198x4096_S1x4096_182_0 : ∀ a, (![182, 0] : Fin 2 → Nat) a + S1x4096.size a ≤ S198x4096.size a
  inb_S198x4096_S1x4096_183_0 : ∀ a, (![183, 0] : Fin 2 → Nat) a + S1x4096.size a ≤ S198x4096.size a
  inb_S198x4096_S1x4096_184_0 : ∀ a, (![184, 0] : Fin 2 → Nat) a + S1x4096.size a ≤ S198x4096.size a
  inb_S198x4096_S1x4096_185_0 : ∀ a, (![185, 0] : Fin 2 → Nat) a + S1x4096.size a ≤ S198x4096.size a
  inb_S198x4096_S1x4096_186_0 : ∀ a, (![186, 0] : Fin 2 → Nat) a + S1x4096.size a ≤ S198x4096.size a
  inb_S198x4096_S1x4096_187_0 : ∀ a, (![187, 0] : Fin 2 → Nat) a + S1x4096.size a ≤ S198x4096.size a
  inb_S198x4096_S1x4096_188_0 : ∀ a, (![188, 0] : Fin 2 → Nat) a + S1x4096.size a ≤ S198x4096.size a
  inb_S3x55_S1x1_0_20 : ∀ a, (![0, 20] : Fin 2 → Nat) a + S1x1.size a ≤ S3x55.size a
  inb_S3x55_S1x1_1_20 : ∀ a, (![1, 20] : Fin 2 → Nat) a + S1x1.size a ≤ S3x55.size a
  inb_S3x55_S1x1_2_20 : ∀ a, (![2, 20] : Fin 2 → Nat) a + S1x1.size a ≤ S3x55.size a
  inb_S198x4096_S1x4096_189_0 : ∀ a, (![189, 0] : Fin 2 → Nat) a + S1x4096.size a ≤ S198x4096.size a
  inb_S198x4096_S1x4096_190_0 : ∀ a, (![190, 0] : Fin 2 → Nat) a + S1x4096.size a ≤ S198x4096.size a
  inb_S198x4096_S1x4096_191_0 : ∀ a, (![191, 0] : Fin 2 → Nat) a + S1x4096.size a ≤ S198x4096.size a
  inb_S198x4096_S1x4096_192_0 : ∀ a, (![192, 0] : Fin 2 → Nat) a + S1x4096.size a ≤ S198x4096.size a
  inb_S198x4096_S1x4096_193_0 : ∀ a, (![193, 0] : Fin 2 → Nat) a + S1x4096.size a ≤ S198x4096.size a
  inb_S198x4096_S1x4096_194_0 : ∀ a, (![194, 0] : Fin 2 → Nat) a + S1x4096.size a ≤ S198x4096.size a
  inb_S198x4096_S1x4096_195_0 : ∀ a, (![195, 0] : Fin 2 → Nat) a + S1x4096.size a ≤ S198x4096.size a
  inb_S198x4096_S1x4096_196_0 : ∀ a, (![196, 0] : Fin 2 → Nat) a + S1x4096.size a ≤ S198x4096.size a
  inb_S198x4096_S1x4096_197_0 : ∀ a, (![197, 0] : Fin 2 → Nat) a + S1x4096.size a ≤ S198x4096.size a
  inb_S3x55_S1x1_0_21 : ∀ a, (![0, 21] : Fin 2 → Nat) a + S1x1.size a ≤ S3x55.size a
  inb_S3x55_S1x1_1_21 : ∀ a, (![1, 21] : Fin 2 → Nat) a + S1x1.size a ≤ S3x55.size a
  inb_S3x55_S1x1_2_21 : ∀ a, (![2, 21] : Fin 2 → Nat) a + S1x1.size a ≤ S3x55.size a
  inb_S3x55_S1x1_0_22 : ∀ a, (![0, 22] : Fin 2 → Nat) a + S1x1.size a ≤ S3x55.size a
  inb_S3x55_S1x1_1_22 : ∀ a, (![1, 22] : Fin 2 → Nat) a + S1x1.size a ≤ S3x55.size a
  inb_S3x55_S1x1_2_22 : ∀ a, (![2, 22] : Fin 2 → Nat) a + S1x1.size a ≤ S3x55.size a
  inb_S3x55_S1x1_0_23 : ∀ a, (![0, 23] : Fin 2 → Nat) a + S1x1.size a ≤ S3x55.size a
  inb_S3x55_S1x1_1_23 : ∀ a, (![1, 23] : Fin 2 → Nat) a + S1x1.size a ≤ S3x55.size a
  inb_S3x55_S1x1_2_23 : ∀ a, (![2, 23] : Fin 2 → Nat) a + S1x1.size a ≤ S3x55.size a
  inb_S3x55_S1x1_0_24 : ∀ a, (![0, 24] : Fin 2 → Nat) a + S1x1.size a ≤ S3x55.size a
  inb_S3x55_S1x1_1_24 : ∀ a, (![1, 24] : Fin 2 → Nat) a + S1x1.size a ≤ S3x55.size a
  inb_S3x55_S1x1_2_24 : ∀ a, (![2, 24] : Fin 2 → Nat) a + S1x1.size a ≤ S3x55.size a
  inb_S3x55_S1x1_0_25 : ∀ a, (![0, 25] : Fin 2 → Nat) a + S1x1.size a ≤ S3x55.size a
  inb_S3x55_S1x1_1_25 : ∀ a, (![1, 25] : Fin 2 → Nat) a + S1x1.size a ≤ S3x55.size a
  inb_S3x55_S1x1_2_25 : ∀ a, (![2, 25] : Fin 2 → Nat) a + S1x1.size a ≤ S3x55.size a
  inb_S3x55_S1x1_0_26 : ∀ a, (![0, 26] : Fin 2 → Nat) a + S1x1.size a ≤ S3x55.size a
  inb_S3x55_S1x1_1_26 : ∀ a, (![1, 26] : Fin 2 → Nat) a + S1x1.size a ≤ S3x55.size a
  inb_S3x55_S1x1_2_26 : ∀ a, (![2, 26] : Fin 2 → Nat) a + S1x1.size a ≤ S3x55.size a
  inb_S3x55_S1x1_0_27 : ∀ a, (![0, 27] : Fin 2 → Nat) a + S1x1.size a ≤ S3x55.size a
  inb_S3x55_S1x1_1_27 : ∀ a, (![1, 27] : Fin 2 → Nat) a + S1x1.size a ≤ S3x55.size a
  inb_S3x55_S1x1_2_27 : ∀ a, (![2, 27] : Fin 2 → Nat) a + S1x1.size a ≤ S3x55.size a
  inb_S3x55_S1x1_0_28 : ∀ a, (![0, 28] : Fin 2 → Nat) a + S1x1.size a ≤ S3x55.size a
  inb_S3x55_S1x1_1_28 : ∀ a, (![1, 28] : Fin 2 → Nat) a + S1x1.size a ≤ S3x55.size a
  inb_S3x55_S1x1_2_28 : ∀ a, (![2, 28] : Fin 2 → Nat) a + S1x1.size a ≤ S3x55.size a
  inb_S3x55_S1x1_0_29 : ∀ a, (![0, 29] : Fin 2 → Nat) a + S1x1.size a ≤ S3x55.size a
  inb_S3x55_S1x1_1_29 : ∀ a, (![1, 29] : Fin 2 → Nat) a + S1x1.size a ≤ S3x55.size a
  inb_S3x55_S1x1_2_29 : ∀ a, (![2, 29] : Fin 2 → Nat) a + S1x1.size a ≤ S3x55.size a
  inb_S3x55_S1x1_0_30 : ∀ a, (![0, 30] : Fin 2 → Nat) a + S1x1.size a ≤ S3x55.size a
  inb_S3x55_S1x1_1_30 : ∀ a, (![1, 30] : Fin 2 → Nat) a + S1x1.size a ≤ S3x55.size a
  inb_S3x55_S1x1_2_30 : ∀ a, (![2, 30] : Fin 2 → Nat) a + S1x1.size a ≤ S3x55.size a
  inb_S3x55_S1x1_0_31 : ∀ a, (![0, 31] : Fin 2 → Nat) a + S1x1.size a ≤ S3x55.size a
  inb_S3x55_S1x1_1_31 : ∀ a, (![1, 31] : Fin 2 → Nat) a + S1x1.size a ≤ S3x55.size a
  inb_S3x55_S1x1_2_31 : ∀ a, (![2, 31] : Fin 2 → Nat) a + S1x1.size a ≤ S3x55.size a
  inb_S3x55_S1x1_0_32 : ∀ a, (![0, 32] : Fin 2 → Nat) a + S1x1.size a ≤ S3x55.size a
  inb_S3x55_S1x1_1_32 : ∀ a, (![1, 32] : Fin 2 → Nat) a + S1x1.size a ≤ S3x55.size a
  inb_S3x55_S1x1_2_32 : ∀ a, (![2, 32] : Fin 2 → Nat) a + S1x1.size a ≤ S3x55.size a
  inb_S3x55_S1x1_0_33 : ∀ a, (![0, 33] : Fin 2 → Nat) a + S1x1.size a ≤ S3x55.size a
  inb_S3x55_S1x1_1_33 : ∀ a, (![1, 33] : Fin 2 → Nat) a + S1x1.size a ≤ S3x55.size a
  inb_S3x55_S1x1_2_33 : ∀ a, (![2, 33] : Fin 2 → Nat) a + S1x1.size a ≤ S3x55.size a
  inb_S3x55_S1x1_0_34 : ∀ a, (![0, 34] : Fin 2 → Nat) a + S1x1.size a ≤ S3x55.size a
  inb_S3x55_S1x1_1_34 : ∀ a, (![1, 34] : Fin 2 → Nat) a + S1x1.size a ≤ S3x55.size a
  inb_S3x55_S1x1_2_34 : ∀ a, (![2, 34] : Fin 2 → Nat) a + S1x1.size a ≤ S3x55.size a
  inb_S3x55_S1x1_0_35 : ∀ a, (![0, 35] : Fin 2 → Nat) a + S1x1.size a ≤ S3x55.size a
  inb_S3x55_S1x1_1_35 : ∀ a, (![1, 35] : Fin 2 → Nat) a + S1x1.size a ≤ S3x55.size a
  inb_S3x55_S1x1_2_35 : ∀ a, (![2, 35] : Fin 2 → Nat) a + S1x1.size a ≤ S3x55.size a
  inb_S3x55_S1x1_0_36 : ∀ a, (![0, 36] : Fin 2 → Nat) a + S1x1.size a ≤ S3x55.size a
  inb_S3x55_S1x1_1_36 : ∀ a, (![1, 36] : Fin 2 → Nat) a + S1x1.size a ≤ S3x55.size a
  inb_S3x55_S1x1_2_36 : ∀ a, (![2, 36] : Fin 2 → Nat) a + S1x1.size a ≤ S3x55.size a
  inb_S3x55_S1x1_0_37 : ∀ a, (![0, 37] : Fin 2 → Nat) a + S1x1.size a ≤ S3x55.size a
  inb_S3x55_S1x1_1_37 : ∀ a, (![1, 37] : Fin 2 → Nat) a + S1x1.size a ≤ S3x55.size a
  inb_S3x55_S1x1_2_37 : ∀ a, (![2, 37] : Fin 2 → Nat) a + S1x1.size a ≤ S3x55.size a
  inb_S3x55_S1x1_0_38 : ∀ a, (![0, 38] : Fin 2 → Nat) a + S1x1.size a ≤ S3x55.size a
  inb_S3x55_S1x1_1_38 : ∀ a, (![1, 38] : Fin 2 → Nat) a + S1x1.size a ≤ S3x55.size a
  inb_S3x55_S1x1_2_38 : ∀ a, (![2, 38] : Fin 2 → Nat) a + S1x1.size a ≤ S3x55.size a
  inb_S3x55_S1x1_0_39 : ∀ a, (![0, 39] : Fin 2 → Nat) a + S1x1.size a ≤ S3x55.size a
  inb_S3x55_S1x1_1_39 : ∀ a, (![1, 39] : Fin 2 → Nat) a + S1x1.size a ≤ S3x55.size a
  inb_S3x55_S1x1_2_39 : ∀ a, (![2, 39] : Fin 2 → Nat) a + S1x1.size a ≤ S3x55.size a
  inb_S3x55_S1x1_0_40 : ∀ a, (![0, 40] : Fin 2 → Nat) a + S1x1.size a ≤ S3x55.size a
  inb_S3x55_S1x1_1_40 : ∀ a, (![1, 40] : Fin 2 → Nat) a + S1x1.size a ≤ S3x55.size a
  inb_S3x55_S1x1_2_40 : ∀ a, (![2, 40] : Fin 2 → Nat) a + S1x1.size a ≤ S3x55.size a
  inb_S3x55_S1x1_0_41 : ∀ a, (![0, 41] : Fin 2 → Nat) a + S1x1.size a ≤ S3x55.size a
  inb_S3x55_S1x1_1_41 : ∀ a, (![1, 41] : Fin 2 → Nat) a + S1x1.size a ≤ S3x55.size a
  inb_S3x55_S1x1_2_41 : ∀ a, (![2, 41] : Fin 2 → Nat) a + S1x1.size a ≤ S3x55.size a
  inb_S3x55_S1x1_0_42 : ∀ a, (![0, 42] : Fin 2 → Nat) a + S1x1.size a ≤ S3x55.size a
  inb_S3x55_S1x1_1_42 : ∀ a, (![1, 42] : Fin 2 → Nat) a + S1x1.size a ≤ S3x55.size a
  inb_S3x55_S1x1_2_42 : ∀ a, (![2, 42] : Fin 2 → Nat) a + S1x1.size a ≤ S3x55.size a
  inb_S3x55_S1x1_0_43 : ∀ a, (![0, 43] : Fin 2 → Nat) a + S1x1.size a ≤ S3x55.size a
  inb_S3x55_S1x1_1_43 : ∀ a, (![1, 43] : Fin 2 → Nat) a + S1x1.size a ≤ S3x55.size a
  inb_S3x55_S1x1_2_43 : ∀ a, (![2, 43] : Fin 2 → Nat) a + S1x1.size a ≤ S3x55.size a
  inb_S3x55_S1x1_0_44 : ∀ a, (![0, 44] : Fin 2 → Nat) a + S1x1.size a ≤ S3x55.size a
  inb_S3x55_S1x1_1_44 : ∀ a, (![1, 44] : Fin 2 → Nat) a + S1x1.size a ≤ S3x55.size a
  inb_S3x55_S1x1_2_44 : ∀ a, (![2, 44] : Fin 2 → Nat) a + S1x1.size a ≤ S3x55.size a
  inb_S3x55_S1x1_0_45 : ∀ a, (![0, 45] : Fin 2 → Nat) a + S1x1.size a ≤ S3x55.size a
  inb_S3x55_S1x1_1_45 : ∀ a, (![1, 45] : Fin 2 → Nat) a + S1x1.size a ≤ S3x55.size a
  inb_S3x55_S1x1_2_45 : ∀ a, (![2, 45] : Fin 2 → Nat) a + S1x1.size a ≤ S3x55.size a
  inb_S3x55_S1x1_0_46 : ∀ a, (![0, 46] : Fin 2 → Nat) a + S1x1.size a ≤ S3x55.size a
  inb_S3x55_S1x1_1_46 : ∀ a, (![1, 46] : Fin 2 → Nat) a + S1x1.size a ≤ S3x55.size a
  inb_S3x55_S1x1_2_46 : ∀ a, (![2, 46] : Fin 2 → Nat) a + S1x1.size a ≤ S3x55.size a
  inb_S3x55_S1x1_0_47 : ∀ a, (![0, 47] : Fin 2 → Nat) a + S1x1.size a ≤ S3x55.size a
  inb_S3x55_S1x1_1_47 : ∀ a, (![1, 47] : Fin 2 → Nat) a + S1x1.size a ≤ S3x55.size a
  inb_S3x55_S1x1_2_47 : ∀ a, (![2, 47] : Fin 2 → Nat) a + S1x1.size a ≤ S3x55.size a
  inb_S3x55_S1x1_0_48 : ∀ a, (![0, 48] : Fin 2 → Nat) a + S1x1.size a ≤ S3x55.size a
  inb_S3x55_S1x1_1_48 : ∀ a, (![1, 48] : Fin 2 → Nat) a + S1x1.size a ≤ S3x55.size a
  inb_S3x55_S1x1_2_48 : ∀ a, (![2, 48] : Fin 2 → Nat) a + S1x1.size a ≤ S3x55.size a
  inb_S3x55_S1x1_0_49 : ∀ a, (![0, 49] : Fin 2 → Nat) a + S1x1.size a ≤ S3x55.size a
  inb_S3x55_S1x1_1_49 : ∀ a, (![1, 49] : Fin 2 → Nat) a + S1x1.size a ≤ S3x55.size a
  inb_S3x55_S1x1_2_49 : ∀ a, (![2, 49] : Fin 2 → Nat) a + S1x1.size a ≤ S3x55.size a
  inb_S3x55_S1x1_0_50 : ∀ a, (![0, 50] : Fin 2 → Nat) a + S1x1.size a ≤ S3x55.size a
  inb_S3x55_S1x1_1_50 : ∀ a, (![1, 50] : Fin 2 → Nat) a + S1x1.size a ≤ S3x55.size a
  inb_S3x55_S1x1_2_50 : ∀ a, (![2, 50] : Fin 2 → Nat) a + S1x1.size a ≤ S3x55.size a
  inb_S3x55_S1x1_0_51 : ∀ a, (![0, 51] : Fin 2 → Nat) a + S1x1.size a ≤ S3x55.size a
  inb_S3x55_S1x1_1_51 : ∀ a, (![1, 51] : Fin 2 → Nat) a + S1x1.size a ≤ S3x55.size a
  inb_S3x55_S1x1_2_51 : ∀ a, (![2, 51] : Fin 2 → Nat) a + S1x1.size a ≤ S3x55.size a
  inb_S3x55_S1x1_0_52 : ∀ a, (![0, 52] : Fin 2 → Nat) a + S1x1.size a ≤ S3x55.size a
  inb_S3x55_S1x1_1_52 : ∀ a, (![1, 52] : Fin 2 → Nat) a + S1x1.size a ≤ S3x55.size a
  inb_S3x55_S1x1_2_52 : ∀ a, (![2, 52] : Fin 2 → Nat) a + S1x1.size a ≤ S3x55.size a
  inb_S3x55_S1x1_0_53 : ∀ a, (![0, 53] : Fin 2 → Nat) a + S1x1.size a ≤ S3x55.size a
  inb_S3x55_S1x1_1_53 : ∀ a, (![1, 53] : Fin 2 → Nat) a + S1x1.size a ≤ S3x55.size a
  inb_S3x55_S1x1_2_53 : ∀ a, (![2, 53] : Fin 2 → Nat) a + S1x1.size a ≤ S3x55.size a
  inb_S3x55_S1x1_0_54 : ∀ a, (![0, 54] : Fin 2 → Nat) a + S1x1.size a ≤ S3x55.size a
  inb_S3x55_S1x1_1_54 : ∀ a, (![1, 54] : Fin 2 → Nat) a + S1x1.size a ≤ S3x55.size a
  inb_S3x55_S1x1_2_54 : ∀ a, (![2, 54] : Fin 2 → Nat) a + S1x1.size a ≤ S3x55.size a
  inb_S165x4096_S1x4096_0_0 : ∀ a, (![0, 0] : Fin 2 → Nat) a + S1x4096.size a ≤ S165x4096.size a
  shapeCasts_S4096_S1x4096 : S4096.ShapeCasts S1x4096
  inb_S165x4096_S1x4096_1_0 : ∀ a, (![1, 0] : Fin 2 → Nat) a + S1x4096.size a ≤ S165x4096.size a
  inb_S165x4096_S1x4096_2_0 : ∀ a, (![2, 0] : Fin 2 → Nat) a + S1x4096.size a ≤ S165x4096.size a
  inb_S165x4096_S1x4096_3_0 : ∀ a, (![3, 0] : Fin 2 → Nat) a + S1x4096.size a ≤ S165x4096.size a
  inb_S165x4096_S1x4096_4_0 : ∀ a, (![4, 0] : Fin 2 → Nat) a + S1x4096.size a ≤ S165x4096.size a
  inb_S165x4096_S1x4096_5_0 : ∀ a, (![5, 0] : Fin 2 → Nat) a + S1x4096.size a ≤ S165x4096.size a
  inb_S165x4096_S1x4096_6_0 : ∀ a, (![6, 0] : Fin 2 → Nat) a + S1x4096.size a ≤ S165x4096.size a
  inb_S165x4096_S1x4096_7_0 : ∀ a, (![7, 0] : Fin 2 → Nat) a + S1x4096.size a ≤ S165x4096.size a
  inb_S165x4096_S1x4096_8_0 : ∀ a, (![8, 0] : Fin 2 → Nat) a + S1x4096.size a ≤ S165x4096.size a
  inb_S165x4096_S1x4096_9_0 : ∀ a, (![9, 0] : Fin 2 → Nat) a + S1x4096.size a ≤ S165x4096.size a
  inb_S165x4096_S1x4096_10_0 : ∀ a, (![10, 0] : Fin 2 → Nat) a + S1x4096.size a ≤ S165x4096.size a
  inb_S165x4096_S1x4096_11_0 : ∀ a, (![11, 0] : Fin 2 → Nat) a + S1x4096.size a ≤ S165x4096.size a
  inb_S165x4096_S1x4096_12_0 : ∀ a, (![12, 0] : Fin 2 → Nat) a + S1x4096.size a ≤ S165x4096.size a
  inb_S165x4096_S1x4096_13_0 : ∀ a, (![13, 0] : Fin 2 → Nat) a + S1x4096.size a ≤ S165x4096.size a
  inb_S165x4096_S1x4096_14_0 : ∀ a, (![14, 0] : Fin 2 → Nat) a + S1x4096.size a ≤ S165x4096.size a
  inb_S165x4096_S1x4096_15_0 : ∀ a, (![15, 0] : Fin 2 → Nat) a + S1x4096.size a ≤ S165x4096.size a
  inb_S165x4096_S1x4096_16_0 : ∀ a, (![16, 0] : Fin 2 → Nat) a + S1x4096.size a ≤ S165x4096.size a
  inb_S165x4096_S1x4096_17_0 : ∀ a, (![17, 0] : Fin 2 → Nat) a + S1x4096.size a ≤ S165x4096.size a
  inb_S165x4096_S1x4096_18_0 : ∀ a, (![18, 0] : Fin 2 → Nat) a + S1x4096.size a ≤ S165x4096.size a
  inb_S165x4096_S1x4096_19_0 : ∀ a, (![19, 0] : Fin 2 → Nat) a + S1x4096.size a ≤ S165x4096.size a
  inb_S165x4096_S1x4096_20_0 : ∀ a, (![20, 0] : Fin 2 → Nat) a + S1x4096.size a ≤ S165x4096.size a
  inb_S165x4096_S1x4096_21_0 : ∀ a, (![21, 0] : Fin 2 → Nat) a + S1x4096.size a ≤ S165x4096.size a
  inb_S165x4096_S1x4096_22_0 : ∀ a, (![22, 0] : Fin 2 → Nat) a + S1x4096.size a ≤ S165x4096.size a
  inb_S165x4096_S1x4096_23_0 : ∀ a, (![23, 0] : Fin 2 → Nat) a + S1x4096.size a ≤ S165x4096.size a
  inb_S165x4096_S1x4096_24_0 : ∀ a, (![24, 0] : Fin 2 → Nat) a + S1x4096.size a ≤ S165x4096.size a
  inb_S165x4096_S1x4096_25_0 : ∀ a, (![25, 0] : Fin 2 → Nat) a + S1x4096.size a ≤ S165x4096.size a
  inb_S165x4096_S1x4096_26_0 : ∀ a, (![26, 0] : Fin 2 → Nat) a + S1x4096.size a ≤ S165x4096.size a
  inb_S165x4096_S1x4096_27_0 : ∀ a, (![27, 0] : Fin 2 → Nat) a + S1x4096.size a ≤ S165x4096.size a
  inb_S165x4096_S1x4096_28_0 : ∀ a, (![28, 0] : Fin 2 → Nat) a + S1x4096.size a ≤ S165x4096.size a
  inb_S165x4096_S1x4096_29_0 : ∀ a, (![29, 0] : Fin 2 → Nat) a + S1x4096.size a ≤ S165x4096.size a
  inb_S165x4096_S1x4096_30_0 : ∀ a, (![30, 0] : Fin 2 → Nat) a + S1x4096.size a ≤ S165x4096.size a
  inb_S165x4096_S1x4096_31_0 : ∀ a, (![31, 0] : Fin 2 → Nat) a + S1x4096.size a ≤ S165x4096.size a
  inb_S165x4096_S1x4096_32_0 : ∀ a, (![32, 0] : Fin 2 → Nat) a + S1x4096.size a ≤ S165x4096.size a
  inb_S165x4096_S1x4096_33_0 : ∀ a, (![33, 0] : Fin 2 → Nat) a + S1x4096.size a ≤ S165x4096.size a
  inb_S165x4096_S1x4096_34_0 : ∀ a, (![34, 0] : Fin 2 → Nat) a + S1x4096.size a ≤ S165x4096.size a
  inb_S165x4096_S1x4096_35_0 : ∀ a, (![35, 0] : Fin 2 → Nat) a + S1x4096.size a ≤ S165x4096.size a
  inb_S165x4096_S1x4096_36_0 : ∀ a, (![36, 0] : Fin 2 → Nat) a + S1x4096.size a ≤ S165x4096.size a
  inb_S165x4096_S1x4096_37_0 : ∀ a, (![37, 0] : Fin 2 → Nat) a + S1x4096.size a ≤ S165x4096.size a
  inb_S165x4096_S1x4096_38_0 : ∀ a, (![38, 0] : Fin 2 → Nat) a + S1x4096.size a ≤ S165x4096.size a
  inb_S165x4096_S1x4096_39_0 : ∀ a, (![39, 0] : Fin 2 → Nat) a + S1x4096.size a ≤ S165x4096.size a
  inb_S165x4096_S1x4096_40_0 : ∀ a, (![40, 0] : Fin 2 → Nat) a + S1x4096.size a ≤ S165x4096.size a
  inb_S165x4096_S1x4096_41_0 : ∀ a, (![41, 0] : Fin 2 → Nat) a + S1x4096.size a ≤ S165x4096.size a
  inb_S165x4096_S1x4096_42_0 : ∀ a, (![42, 0] : Fin 2 → Nat) a + S1x4096.size a ≤ S165x4096.size a
  inb_S165x4096_S1x4096_43_0 : ∀ a, (![43, 0] : Fin 2 → Nat) a + S1x4096.size a ≤ S165x4096.size a
  inb_S165x4096_S1x4096_44_0 : ∀ a, (![44, 0] : Fin 2 → Nat) a + S1x4096.size a ≤ S165x4096.size a
  inb_S165x4096_S1x4096_45_0 : ∀ a, (![45, 0] : Fin 2 → Nat) a + S1x4096.size a ≤ S165x4096.size a
  inb_S165x4096_S1x4096_46_0 : ∀ a, (![46, 0] : Fin 2 → Nat) a + S1x4096.size a ≤ S165x4096.size a
  inb_S165x4096_S1x4096_47_0 : ∀ a, (![47, 0] : Fin 2 → Nat) a + S1x4096.size a ≤ S165x4096.size a
  inb_S165x4096_S1x4096_48_0 : ∀ a, (![48, 0] : Fin 2 → Nat) a + S1x4096.size a ≤ S165x4096.size a
  inb_S165x4096_S1x4096_49_0 : ∀ a, (![49, 0] : Fin 2 → Nat) a + S1x4096.size a ≤ S165x4096.size a
  inb_S165x4096_S1x4096_50_0 : ∀ a, (![50, 0] : Fin 2 → Nat) a + S1x4096.size a ≤ S165x4096.size a
  inb_S165x4096_S1x4096_51_0 : ∀ a, (![51, 0] : Fin 2 → Nat) a + S1x4096.size a ≤ S165x4096.size a
  inb_S165x4096_S1x4096_52_0 : ∀ a, (![52, 0] : Fin 2 → Nat) a + S1x4096.size a ≤ S165x4096.size a
  inb_S165x4096_S1x4096_53_0 : ∀ a, (![53, 0] : Fin 2 → Nat) a + S1x4096.size a ≤ S165x4096.size a
  inb_S165x4096_S1x4096_54_0 : ∀ a, (![54, 0] : Fin 2 → Nat) a + S1x4096.size a ≤ S165x4096.size a
  inb_S165x4096_S1x4096_55_0 : ∀ a, (![55, 0] : Fin 2 → Nat) a + S1x4096.size a ≤ S165x4096.size a
  inb_S165x4096_S1x4096_56_0 : ∀ a, (![56, 0] : Fin 2 → Nat) a + S1x4096.size a ≤ S165x4096.size a
  inb_S165x4096_S1x4096_57_0 : ∀ a, (![57, 0] : Fin 2 → Nat) a + S1x4096.size a ≤ S165x4096.size a
  inb_S165x4096_S1x4096_58_0 : ∀ a, (![58, 0] : Fin 2 → Nat) a + S1x4096.size a ≤ S165x4096.size a
  inb_S165x4096_S1x4096_59_0 : ∀ a, (![59, 0] : Fin 2 → Nat) a + S1x4096.size a ≤ S165x4096.size a
  inb_S165x4096_S1x4096_60_0 : ∀ a, (![60, 0] : Fin 2 → Nat) a + S1x4096.size a ≤ S165x4096.size a
  inb_S165x4096_S1x4096_61_0 : ∀ a, (![61, 0] : Fin 2 → Nat) a + S1x4096.size a ≤ S165x4096.size a
  inb_S165x4096_S1x4096_62_0 : ∀ a, (![62, 0] : Fin 2 → Nat) a + S1x4096.size a ≤ S165x4096.size a
  inb_S165x4096_S1x4096_63_0 : ∀ a, (![63, 0] : Fin 2 → Nat) a + S1x4096.size a ≤ S165x4096.size a
  inb_S165x4096_S1x4096_64_0 : ∀ a, (![64, 0] : Fin 2 → Nat) a + S1x4096.size a ≤ S165x4096.size a
  inb_S165x4096_S1x4096_65_0 : ∀ a, (![65, 0] : Fin 2 → Nat) a + S1x4096.size a ≤ S165x4096.size a
  inb_S165x4096_S1x4096_66_0 : ∀ a, (![66, 0] : Fin 2 → Nat) a + S1x4096.size a ≤ S165x4096.size a
  inb_S165x4096_S1x4096_67_0 : ∀ a, (![67, 0] : Fin 2 → Nat) a + S1x4096.size a ≤ S165x4096.size a
  inb_S165x4096_S1x4096_68_0 : ∀ a, (![68, 0] : Fin 2 → Nat) a + S1x4096.size a ≤ S165x4096.size a
  inb_S165x4096_S1x4096_69_0 : ∀ a, (![69, 0] : Fin 2 → Nat) a + S1x4096.size a ≤ S165x4096.size a
  inb_S165x4096_S1x4096_70_0 : ∀ a, (![70, 0] : Fin 2 → Nat) a + S1x4096.size a ≤ S165x4096.size a
  inb_S165x4096_S1x4096_71_0 : ∀ a, (![71, 0] : Fin 2 → Nat) a + S1x4096.size a ≤ S165x4096.size a
  inb_S165x4096_S1x4096_72_0 : ∀ a, (![72, 0] : Fin 2 → Nat) a + S1x4096.size a ≤ S165x4096.size a
  inb_S165x4096_S1x4096_73_0 : ∀ a, (![73, 0] : Fin 2 → Nat) a + S1x4096.size a ≤ S165x4096.size a
  inb_S165x4096_S1x4096_74_0 : ∀ a, (![74, 0] : Fin 2 → Nat) a + S1x4096.size a ≤ S165x4096.size a
  inb_S165x4096_S1x4096_75_0 : ∀ a, (![75, 0] : Fin 2 → Nat) a + S1x4096.size a ≤ S165x4096.size a
  inb_S165x4096_S1x4096_76_0 : ∀ a, (![76, 0] : Fin 2 → Nat) a + S1x4096.size a ≤ S165x4096.size a
  inb_S165x4096_S1x4096_77_0 : ∀ a, (![77, 0] : Fin 2 → Nat) a + S1x4096.size a ≤ S165x4096.size a
  inb_S165x4096_S1x4096_78_0 : ∀ a, (![78, 0] : Fin 2 → Nat) a + S1x4096.size a ≤ S165x4096.size a
  inb_S165x4096_S1x4096_79_0 : ∀ a, (![79, 0] : Fin 2 → Nat) a + S1x4096.size a ≤ S165x4096.size a
  inb_S165x4096_S1x4096_80_0 : ∀ a, (![80, 0] : Fin 2 → Nat) a + S1x4096.size a ≤ S165x4096.size a
  inb_S165x4096_S1x4096_81_0 : ∀ a, (![81, 0] : Fin 2 → Nat) a + S1x4096.size a ≤ S165x4096.size a
  inb_S165x4096_S1x4096_82_0 : ∀ a, (![82, 0] : Fin 2 → Nat) a + S1x4096.size a ≤ S165x4096.size a
  inb_S165x4096_S1x4096_83_0 : ∀ a, (![83, 0] : Fin 2 → Nat) a + S1x4096.size a ≤ S165x4096.size a
  inb_S165x4096_S1x4096_84_0 : ∀ a, (![84, 0] : Fin 2 → Nat) a + S1x4096.size a ≤ S165x4096.size a
  inb_S165x4096_S1x4096_85_0 : ∀ a, (![85, 0] : Fin 2 → Nat) a + S1x4096.size a ≤ S165x4096.size a
  inb_S165x4096_S1x4096_86_0 : ∀ a, (![86, 0] : Fin 2 → Nat) a + S1x4096.size a ≤ S165x4096.size a
  inb_S165x4096_S1x4096_87_0 : ∀ a, (![87, 0] : Fin 2 → Nat) a + S1x4096.size a ≤ S165x4096.size a
  inb_S165x4096_S1x4096_88_0 : ∀ a, (![88, 0] : Fin 2 → Nat) a + S1x4096.size a ≤ S165x4096.size a
  inb_S165x4096_S1x4096_89_0 : ∀ a, (![89, 0] : Fin 2 → Nat) a + S1x4096.size a ≤ S165x4096.size a
  inb_S165x4096_S1x4096_90_0 : ∀ a, (![90, 0] : Fin 2 → Nat) a + S1x4096.size a ≤ S165x4096.size a
  inb_S165x4096_S1x4096_91_0 : ∀ a, (![91, 0] : Fin 2 → Nat) a + S1x4096.size a ≤ S165x4096.size a
  inb_S165x4096_S1x4096_92_0 : ∀ a, (![92, 0] : Fin 2 → Nat) a + S1x4096.size a ≤ S165x4096.size a
  inb_S165x4096_S1x4096_93_0 : ∀ a, (![93, 0] : Fin 2 → Nat) a + S1x4096.size a ≤ S165x4096.size a
  inb_S165x4096_S1x4096_94_0 : ∀ a, (![94, 0] : Fin 2 → Nat) a + S1x4096.size a ≤ S165x4096.size a
  inb_S165x4096_S1x4096_95_0 : ∀ a, (![95, 0] : Fin 2 → Nat) a + S1x4096.size a ≤ S165x4096.size a
  inb_S165x4096_S1x4096_96_0 : ∀ a, (![96, 0] : Fin 2 → Nat) a + S1x4096.size a ≤ S165x4096.size a
  inb_S165x4096_S1x4096_97_0 : ∀ a, (![97, 0] : Fin 2 → Nat) a + S1x4096.size a ≤ S165x4096.size a
  inb_S165x4096_S1x4096_98_0 : ∀ a, (![98, 0] : Fin 2 → Nat) a + S1x4096.size a ≤ S165x4096.size a
  inb_S165x4096_S1x4096_99_0 : ∀ a, (![99, 0] : Fin 2 → Nat) a + S1x4096.size a ≤ S165x4096.size a
  inb_S165x4096_S1x4096_100_0 : ∀ a, (![100, 0] : Fin 2 → Nat) a + S1x4096.size a ≤ S165x4096.size a
  inb_S165x4096_S1x4096_101_0 : ∀ a, (![101, 0] : Fin 2 → Nat) a + S1x4096.size a ≤ S165x4096.size a
  inb_S165x4096_S1x4096_102_0 : ∀ a, (![102, 0] : Fin 2 → Nat) a + S1x4096.size a ≤ S165x4096.size a
  inb_S165x4096_S1x4096_103_0 : ∀ a, (![103, 0] : Fin 2 → Nat) a + S1x4096.size a ≤ S165x4096.size a
  inb_S165x4096_S1x4096_104_0 : ∀ a, (![104, 0] : Fin 2 → Nat) a + S1x4096.size a ≤ S165x4096.size a
  inb_S165x4096_S1x4096_105_0 : ∀ a, (![105, 0] : Fin 2 → Nat) a + S1x4096.size a ≤ S165x4096.size a
  inb_S165x4096_S1x4096_106_0 : ∀ a, (![106, 0] : Fin 2 → Nat) a + S1x4096.size a ≤ S165x4096.size a
  inb_S165x4096_S1x4096_107_0 : ∀ a, (![107, 0] : Fin 2 → Nat) a + S1x4096.size a ≤ S165x4096.size a
  inb_S165x4096_S1x4096_108_0 : ∀ a, (![108, 0] : Fin 2 → Nat) a + S1x4096.size a ≤ S165x4096.size a
  inb_S165x4096_S1x4096_109_0 : ∀ a, (![109, 0] : Fin 2 → Nat) a + S1x4096.size a ≤ S165x4096.size a
  inb_S165x4096_S1x4096_110_0 : ∀ a, (![110, 0] : Fin 2 → Nat) a + S1x4096.size a ≤ S165x4096.size a
  inb_S165x4096_S1x4096_111_0 : ∀ a, (![111, 0] : Fin 2 → Nat) a + S1x4096.size a ≤ S165x4096.size a
  inb_S165x4096_S1x4096_112_0 : ∀ a, (![112, 0] : Fin 2 → Nat) a + S1x4096.size a ≤ S165x4096.size a
  inb_S165x4096_S1x4096_113_0 : ∀ a, (![113, 0] : Fin 2 → Nat) a + S1x4096.size a ≤ S165x4096.size a
  inb_S165x4096_S1x4096_114_0 : ∀ a, (![114, 0] : Fin 2 → Nat) a + S1x4096.size a ≤ S165x4096.size a
  inb_S165x4096_S1x4096_115_0 : ∀ a, (![115, 0] : Fin 2 → Nat) a + S1x4096.size a ≤ S165x4096.size a
  inb_S165x4096_S1x4096_116_0 : ∀ a, (![116, 0] : Fin 2 → Nat) a + S1x4096.size a ≤ S165x4096.size a
  inb_S165x4096_S1x4096_117_0 : ∀ a, (![117, 0] : Fin 2 → Nat) a + S1x4096.size a ≤ S165x4096.size a
  inb_S165x4096_S1x4096_118_0 : ∀ a, (![118, 0] : Fin 2 → Nat) a + S1x4096.size a ≤ S165x4096.size a
  inb_S165x4096_S1x4096_119_0 : ∀ a, (![119, 0] : Fin 2 → Nat) a + S1x4096.size a ≤ S165x4096.size a
  inb_S165x4096_S1x4096_120_0 : ∀ a, (![120, 0] : Fin 2 → Nat) a + S1x4096.size a ≤ S165x4096.size a
  inb_S165x4096_S1x4096_121_0 : ∀ a, (![121, 0] : Fin 2 → Nat) a + S1x4096.size a ≤ S165x4096.size a
  inb_S165x4096_S1x4096_122_0 : ∀ a, (![122, 0] : Fin 2 → Nat) a + S1x4096.size a ≤ S165x4096.size a
  inb_S165x4096_S1x4096_123_0 : ∀ a, (![123, 0] : Fin 2 → Nat) a + S1x4096.size a ≤ S165x4096.size a
  inb_S165x4096_S1x4096_124_0 : ∀ a, (![124, 0] : Fin 2 → Nat) a + S1x4096.size a ≤ S165x4096.size a
  inb_S165x4096_S1x4096_125_0 : ∀ a, (![125, 0] : Fin 2 → Nat) a + S1x4096.size a ≤ S165x4096.size a
  inb_S165x4096_S1x4096_126_0 : ∀ a, (![126, 0] : Fin 2 → Nat) a + S1x4096.size a ≤ S165x4096.size a
  inb_S165x4096_S1x4096_127_0 : ∀ a, (![127, 0] : Fin 2 → Nat) a + S1x4096.size a ≤ S165x4096.size a
  inb_S165x4096_S1x4096_128_0 : ∀ a, (![128, 0] : Fin 2 → Nat) a + S1x4096.size a ≤ S165x4096.size a
  inb_S165x4096_S1x4096_129_0 : ∀ a, (![129, 0] : Fin 2 → Nat) a + S1x4096.size a ≤ S165x4096.size a
  inb_S165x4096_S1x4096_130_0 : ∀ a, (![130, 0] : Fin 2 → Nat) a + S1x4096.size a ≤ S165x4096.size a
  inb_S165x4096_S1x4096_131_0 : ∀ a, (![131, 0] : Fin 2 → Nat) a + S1x4096.size a ≤ S165x4096.size a
  inb_S165x4096_S1x4096_132_0 : ∀ a, (![132, 0] : Fin 2 → Nat) a + S1x4096.size a ≤ S165x4096.size a
  inb_S165x4096_S1x4096_133_0 : ∀ a, (![133, 0] : Fin 2 → Nat) a + S1x4096.size a ≤ S165x4096.size a
  inb_S165x4096_S1x4096_134_0 : ∀ a, (![134, 0] : Fin 2 → Nat) a + S1x4096.size a ≤ S165x4096.size a
  inb_S165x4096_S1x4096_135_0 : ∀ a, (![135, 0] : Fin 2 → Nat) a + S1x4096.size a ≤ S165x4096.size a
  inb_S165x4096_S1x4096_136_0 : ∀ a, (![136, 0] : Fin 2 → Nat) a + S1x4096.size a ≤ S165x4096.size a
  inb_S165x4096_S1x4096_137_0 : ∀ a, (![137, 0] : Fin 2 → Nat) a + S1x4096.size a ≤ S165x4096.size a
  inb_S165x4096_S1x4096_138_0 : ∀ a, (![138, 0] : Fin 2 → Nat) a + S1x4096.size a ≤ S165x4096.size a
  inb_S165x4096_S1x4096_139_0 : ∀ a, (![139, 0] : Fin 2 → Nat) a + S1x4096.size a ≤ S165x4096.size a
  inb_S165x4096_S1x4096_140_0 : ∀ a, (![140, 0] : Fin 2 → Nat) a + S1x4096.size a ≤ S165x4096.size a
  inb_S165x4096_S1x4096_141_0 : ∀ a, (![141, 0] : Fin 2 → Nat) a + S1x4096.size a ≤ S165x4096.size a
  inb_S165x4096_S1x4096_142_0 : ∀ a, (![142, 0] : Fin 2 → Nat) a + S1x4096.size a ≤ S165x4096.size a
  inb_S165x4096_S1x4096_143_0 : ∀ a, (![143, 0] : Fin 2 → Nat) a + S1x4096.size a ≤ S165x4096.size a
  inb_S165x4096_S1x4096_144_0 : ∀ a, (![144, 0] : Fin 2 → Nat) a + S1x4096.size a ≤ S165x4096.size a
  inb_S165x4096_S1x4096_145_0 : ∀ a, (![145, 0] : Fin 2 → Nat) a + S1x4096.size a ≤ S165x4096.size a
  inb_S165x4096_S1x4096_146_0 : ∀ a, (![146, 0] : Fin 2 → Nat) a + S1x4096.size a ≤ S165x4096.size a
  inb_S165x4096_S1x4096_147_0 : ∀ a, (![147, 0] : Fin 2 → Nat) a + S1x4096.size a ≤ S165x4096.size a
  inb_S165x4096_S1x4096_148_0 : ∀ a, (![148, 0] : Fin 2 → Nat) a + S1x4096.size a ≤ S165x4096.size a
  inb_S165x4096_S1x4096_149_0 : ∀ a, (![149, 0] : Fin 2 → Nat) a + S1x4096.size a ≤ S165x4096.size a
  inb_S165x4096_S1x4096_150_0 : ∀ a, (![150, 0] : Fin 2 → Nat) a + S1x4096.size a ≤ S165x4096.size a
  inb_S165x4096_S1x4096_151_0 : ∀ a, (![151, 0] : Fin 2 → Nat) a + S1x4096.size a ≤ S165x4096.size a
  inb_S165x4096_S1x4096_152_0 : ∀ a, (![152, 0] : Fin 2 → Nat) a + S1x4096.size a ≤ S165x4096.size a
  inb_S165x4096_S1x4096_153_0 : ∀ a, (![153, 0] : Fin 2 → Nat) a + S1x4096.size a ≤ S165x4096.size a
  inb_S165x4096_S1x4096_154_0 : ∀ a, (![154, 0] : Fin 2 → Nat) a + S1x4096.size a ≤ S165x4096.size a
  inb_S165x4096_S1x4096_155_0 : ∀ a, (![155, 0] : Fin 2 → Nat) a + S1x4096.size a ≤ S165x4096.size a
  inb_S165x4096_S1x4096_156_0 : ∀ a, (![156, 0] : Fin 2 → Nat) a + S1x4096.size a ≤ S165x4096.size a
  inb_S165x4096_S1x4096_157_0 : ∀ a, (![157, 0] : Fin 2 → Nat) a + S1x4096.size a ≤ S165x4096.size a
  inb_S165x4096_S1x4096_158_0 : ∀ a, (![158, 0] : Fin 2 → Nat) a + S1x4096.size a ≤ S165x4096.size a
  inb_S165x4096_S1x4096_159_0 : ∀ a, (![159, 0] : Fin 2 → Nat) a + S1x4096.size a ≤ S165x4096.size a
  inb_S165x4096_S1x4096_160_0 : ∀ a, (![160, 0] : Fin 2 → Nat) a + S1x4096.size a ≤ S165x4096.size a
  inb_S165x4096_S1x4096_161_0 : ∀ a, (![161, 0] : Fin 2 → Nat) a + S1x4096.size a ≤ S165x4096.size a
  inb_S165x4096_S1x4096_162_0 : ∀ a, (![162, 0] : Fin 2 → Nat) a + S1x4096.size a ≤ S165x4096.size a
  inb_S165x4096_S1x4096_163_0 : ∀ a, (![163, 0] : Fin 2 → Nat) a + S1x4096.size a ≤ S165x4096.size a
  inb_S165x4096_S1x4096_164_0 : ∀ a, (![164, 0] : Fin 2 → Nat) a + S1x4096.size a ≤ S165x4096.size a
  transposes_S165x32768_S32768x165_1_0 : S165x32768.Transposes [1, 0] S32768x165
  shapeCasts_S32768x165_S16x2048x55x3 : S32768x165.ShapeCasts S16x2048x55x3
  gather_S55x3_S54x1_S54x3_1_0_n_n_0_1_13_wf : GatherDims.WF S55x3 S54x1 S54x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S198x4096.size a ≤ S198x32768.size a
  hwx0_0 : ∀ i : grid0.Coords, EltTy.bits .f32 = 32 ∨ (Rect.block (s := S198x32768) S198x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x55.size a ≤ S3x55.size a
  hwx0_1 : ∀ i : grid0.Coords, EltTy.bits .f32 = 32 ∨ (Rect.block (s := S3x55) S3x55.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S165x4096.size a ≤ S165x32768.size a
  hwx0_2 : ∀ i : grid0.Coords, EltTy.bits .f32 = 32 ∨ (Rect.block (s := S165x32768) S165x4096.size (cc0_transform_2 i) (hinb0_2 i)).WholeWords (EltTy.packing .f32)

variable [Facts₀]

def gather_S55x3_S54x1_S54x3_1_0_n_n_0_1_13 : GatherDims S55x3 S54x1 S54x3 where
  offsetDims := [1]
  collapsedSliceDims := [0]
  operandBatchingDims := []
  startIndicesBatchingDims := []
  startIndexMap := [0]
  indexVectorDim := 1
  sliceSizes := ![1, 3]
  wf := gather_S55x3_S54x1_S54x3_1_0_n_n_0_1_13_wf

abbrev win0_0 : Pipeline.Window sig grid0 :=
  Pipeline.Window.ofSpec (Memref.whole main_v1) S198x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3x55.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S165x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x22x3x3 : Shape := ⟨5, ![16, 2048, 22, 3, 3]⟩
abbrev S55x3 : Shape := ⟨2, ![55, 3]⟩
abbrev S55 : Shape := ⟨1, ![55]⟩
abbrev S54 : Shape := ⟨1, ![54]⟩
abbrev S4 : Shape := ⟨1, ![4]⟩
abbrev S32768x22x3x3 : Shape := ⟨4, ![32768, 22, 3, 3]⟩
abbrev S3x3 : Shape := ⟨2, ![3, 3]⟩
abbrev S_ : Shape := ⟨0, ![]⟩
abbrev S32768x33x3x3 : Shape := ⟨4, ![32768, 33, 3, 3]⟩
abbrev S32768x55x3x3 : Shape := ⟨4, ![32768, 55, 3, 3]⟩
abbrev S32768x55x3 : Shape := ⟨3, ![32768, 55, 3]⟩
abbrev S54x1 : Shape := ⟨2, ![54, 1]⟩
abbrev S32768x54x3 : Shape := ⟨3, ![32768, 54, 3]⟩
abbrev S1 : Shape := ⟨1, ![1]⟩
abbrev S32768x55x3x1 : Shape := ⟨4, ![32768, 55, 3, 1]⟩
abbrev S32768x55x3x4 : Shape := ⟨4, ![32768, 55, 3, 4]⟩
abbrev S32768x55x1x4 : Shape := ⟨4, ![32768, 55, 1, 4]⟩
abbrev S32768x55x4x4 : Shape := ⟨4, ![32768, 55, 4, 4]⟩
abbrev S32768x1x4x4 : Shape := ⟨4, ![32768, 1, 4, 4]⟩
abbrev S32768x4x4 : Shape := ⟨3, ![32768, 4, 4]⟩
abbrev S32768x16x4x4 : Shape := ⟨4, ![32768, 16, 4, 4]⟩
abbrev S32768x7x4x4 : Shape := ⟨4, ![32768, 7, 4, 4]⟩
abbrev S16x2048x55x3 : Shape := ⟨4, ![16, 2048, 55, 3]⟩

abbrev nBuf : Space → Nat
  | .hbm => 258
  | .vmem => 0
  | .smem => 0
  | _ => 0

abbrev hbmTy0_0 (i : Nat) : BufTy := match i % 128 with
  | 0 => ⟨S16x2048x22x3x3, .f32⟩
  | 1 => ⟨S55x3, .f32⟩
  | 2 => ⟨S55, .i32⟩
  | 3 => ⟨S54, .i32⟩
  | 4 => ⟨S54, .i1⟩
  | 5 => ⟨S4, .f32⟩
  | 6 => ⟨S32768x22x3x3, .f32⟩
  | 7 => ⟨S3x3, .i32⟩
  | 8 => ⟨S3x3, .i32⟩
  | 9 => ⟨S_, .i32⟩
  | 10 => ⟨S3x3, .i32⟩
  | 11 => ⟨S3x3, .i32⟩
  | 12 => ⟨S3x3, .i1⟩
  | 13 => ⟨S3x3, .f32⟩
  | 14 => ⟨S32768x33x3x3, .f32⟩
  | 15 => ⟨S32768x55x3x3, .f32⟩
  | 16 => ⟨S32768x55x3, .f32⟩
  | 17 => ⟨S_, .i32⟩
  | 18 => ⟨S54, .i32⟩
  | 19 => ⟨S54, .i32⟩
  | 20 => ⟨S54, .i32⟩
  | 21 => ⟨S54x1, .i32⟩
  | 22 => ⟨S32768x54x3, .f32⟩
  | 23 => ⟨S32768x54x3, .f32⟩
  | 24 => ⟨S_, .i32⟩
  | 25 => ⟨S1, .i32⟩
  | 26 => ⟨S32768x55x3, .f32⟩
  | 27 => ⟨S32768x55x3x1, .f32⟩
  | 28 => ⟨S32768x55x3x4, .f32⟩
  | 29 => ⟨S32768x55x1x4, .f32⟩
  | 30 => ⟨S32768x55x4x4, .f32⟩
  | 31 => ⟨S32768x1x4x4, .f32⟩
  | 32 => ⟨S32768x4x4, .f32⟩
  | 33 => ⟨S32768x1x4x4, .f32⟩
  | 34 => ⟨S32768x4x4, .f32⟩
  | 35 => ⟨S32768x4x4, .f32⟩
  | 36 => ⟨S32768x1x4x4, .f32⟩
  | 37 => ⟨S32768x4x4, .f32⟩
  | 38 => ⟨S32768x4x4, .f32⟩
  | 39 => ⟨S32768x1x4x4, .f32⟩
  | 40 => ⟨S32768x4x4, .f32⟩
  | 41 => ⟨S32768x4x4, .f32⟩
  | 42 => ⟨S32768x1x4x4, .f32⟩
  | 43 => ⟨S32768x4x4, .f32⟩
  | 44 => ⟨S32768x4x4, .f32⟩
  | 45 => ⟨S32768x1x4x4, .f32⟩
  | 46 => ⟨S32768x4x4, .f32⟩
  | 47 => ⟨S32768x4x4, .f32⟩
  | 48 => ⟨S32768x1x4x4, .f32⟩
  | 49 => ⟨S32768x4x4, .f32⟩
  | 50 => ⟨S32768x4x4, .f32⟩
  | 51 => ⟨S32768x1x4x4, .f32⟩
  | 52 => ⟨S32768x4x4, .f32⟩
  | 53 => ⟨S32768x4x4, .f32⟩
  | 54 => ⟨S32768x1x4x4, .f32⟩
  | 55 => ⟨S32768x4x4, .f32⟩
  | 56 => ⟨S32768x4x4, .f32⟩
  | 57 => ⟨S32768x1x4x4, .f32⟩
  | 58 => ⟨S32768x4x4, .f32⟩
  | 59 => ⟨S32768x4x4, .f32⟩
  | 60 => ⟨S32768x1x4x4, .f32⟩
  | 61 => ⟨S32768x4x4, .f32⟩
  | 62 => ⟨S32768x4x4, .f32⟩
  | 63 => ⟨S32768x1x4x4, .f32⟩
  | 64 => ⟨S32768x4x4, .f32⟩
  | 65 => ⟨S32768x4x4, .f32⟩
  | 66 => ⟨S32768x1x4x4, .f32⟩
  | 67 => ⟨S32768x4x4, .f32⟩
  | 68 => ⟨S32768x4x4, .f32⟩
  | 69 => ⟨S32768x1x4x4, .f32⟩
  | 70 => ⟨S32768x4x4, .f32⟩
  | 71 => ⟨S32768x4x4, .f32⟩
  | 72 => ⟨S32768x1x4x4, .f32⟩
  | 73 => ⟨S32768x4x4, .f32⟩
  | 74 => ⟨S32768x4x4, .f32⟩
  | 75 => ⟨S32768x1x4x4, .f32⟩
  | 76 => ⟨S32768x4x4, .f32⟩
  | 77 => ⟨S32768x4x4, .f32⟩
  | 78 => ⟨S32768x1x4x4, .f32⟩
  | 79 => ⟨S32768x4x4, .f32⟩
  | 80 => ⟨S32768x4x4, .f32⟩
  | 81 => ⟨S32768x1x4x4, .f32⟩
  | 82 => ⟨S32768x4x4, .f32⟩
  | 83 => ⟨S32768x4x4, .f32⟩
  | 84 => ⟨S32768x1x4x4, .f32⟩
  | 85 => ⟨S32768x4x4, .f32⟩
  | 86 => ⟨S32768x4x4, .f32⟩
  | 87 => ⟨S32768x1x4x4, .f32⟩
  | 88 => ⟨S32768x4x4, .f32⟩
  | 89 => ⟨S32768x4x4, .f32⟩
  | 90 => ⟨S32768x1x4x4, .f32⟩
  | 91 => ⟨S32768x4x4, .f32⟩
  | 92 => ⟨S32768x4x4, .f32⟩
  | 93 => ⟨S32768x1x4x4, .f32⟩
  | 94 => ⟨S32768x4x4, .f32⟩
  | 95 => ⟨S32768x4x4, .f32⟩
  | 96 => ⟨S32768x1x4x4, .f32⟩
  | 97 => ⟨S32768x4x4, .f32⟩
  | 98 => ⟨S32768x4x4, .f32⟩
  | 99 => ⟨S32768x1x4x4, .f32⟩
  | 100 => ⟨S32768x4x4, .f32⟩
  | 101 => ⟨S32768x4x4, .f32⟩
  | 102 => ⟨S32768x1x4x4, .f32⟩
  | 103 => ⟨S32768x4x4, .f32⟩
  | 104 => ⟨S32768x4x4, .f32⟩
  | 105 => ⟨S32768x1x4x4, .f32⟩
  | 106 => ⟨S32768x4x4, .f32⟩
  | 107 => ⟨S32768x4x4, .f32⟩
  | 108 => ⟨S32768x1x4x4, .f32⟩
  | 109 => ⟨S32768x4x4, .f32⟩
  | 110 => ⟨S32768x4x4, .f32⟩
  | 111 => ⟨S32768x1x4x4, .f32⟩
  | 112 => ⟨S32768x4x4, .f32⟩
  | 113 => ⟨S32768x4x4, .f32⟩
  | 114 => ⟨S32768x1x4x4, .f32⟩
  | 115 => ⟨S32768x4x4, .f32⟩
  | 116 => ⟨S32768x4x4, .f32⟩
  | 117 => ⟨S32768x1x4x4, .f32⟩
  | 118 => ⟨S32768x4x4, .f32⟩
  | 119 => ⟨S32768x4x4, .f32⟩
  | 120 => ⟨S32768x1x4x4, .f32⟩
  | 121 => ⟨S32768x4x4, .f32⟩
  | 122 => ⟨S32768x4x4, .f32⟩
  | 123 => ⟨S32768x1x4x4, .f32⟩
  | 124 => ⟨S32768x4x4, .f32⟩
  | 125 => ⟨S32768x4x4, .f32⟩
  | 126 => ⟨S32768x1x4x4, .f32⟩
  | 127 => ⟨S32768x4x4, .f32⟩
  | _ => ⟨S16x2048x22x3x3, .f32⟩

abbrev hbmTy0_1 (i : Nat) : BufTy := match i % 128 with
  | 0 => ⟨S32768x4x4, .f32⟩
  | 1 => ⟨S32768x1x4x4, .f32⟩
  | 2 => ⟨S32768x4x4, .f32⟩
  | 3 => ⟨S32768x4x4, .f32⟩
  | 4 => ⟨S32768x1x4x4, .f32⟩
  | 5 => ⟨S32768x4x4, .f32⟩
  | 6 => ⟨S32768x4x4, .f32⟩
  | 7 => ⟨S32768x1x4x4, .f32⟩
  | 8 => ⟨S32768x4x4, .f32⟩
  | 9 => ⟨S32768x4x4, .f32⟩
  | 10 => ⟨S32768x1x4x4, .f32⟩
  | 11 => ⟨S32768x4x4, .f32⟩
  | 12 => ⟨S32768x4x4, .f32⟩
  | 13 => ⟨S32768x1x4x4, .f32⟩
  | 14 => ⟨S32768x4x4, .f32⟩
  | 15 => ⟨S32768x4x4, .f32⟩
  | 16 => ⟨S32768x1x4x4, .f32⟩
  | 17 => ⟨S32768x4x4, .f32⟩
  | 18 => ⟨S32768x4x4, .f32⟩
  | 19 => ⟨S32768x1x4x4, .f32⟩
  | 20 => ⟨S32768x4x4, .f32⟩
  | 21 => ⟨S32768x4x4, .f32⟩
  | 22 => ⟨S32768x1x4x4, .f32⟩
  | 23 => ⟨S32768x4x4, .f32⟩
  | 24 => ⟨S32768x4x4, .f32⟩
  | 25 => ⟨S32768x1x4x4, .f32⟩
  | 26 => ⟨S32768x4x4, .f32⟩
  | 27 => ⟨S32768x4x4, .f32⟩
  | 28 => ⟨S32768x1x4x4, .f32⟩
  | 29 => ⟨S32768x4x4, .f32⟩
  | 30 => ⟨S32768x4x4, .f32⟩
  | 31 => ⟨S32768x1x4x4, .f32⟩
  | 32 => ⟨S32768x4x4, .f32⟩
  | 33 => ⟨S32768x4x4, .f32⟩
  | 34 => ⟨S32768x1x4x4, .f32⟩
  | 35 => ⟨S32768x4x4, .f32⟩
  | 36 => ⟨S32768x4x4, .f32⟩
  | 37 => ⟨S32768x1x4x4, .f32⟩
  | 38 => ⟨S32768x4x4, .f32⟩
  | 39 => ⟨S32768x4x4, .f32⟩
  | 40 => ⟨S32768x1x4x4, .f32⟩
  | 41 => ⟨S32768x4x4, .f32⟩
  | 42 => ⟨S32768x4x4, .f32⟩
  | 43 => ⟨S32768x1x4x4, .f32⟩
  | 44 => ⟨S32768x4x4, .f32⟩
  | 45 => ⟨S32768x4x4, .f32⟩
  | 46 => ⟨S32768x1x4x4, .f32⟩
  | 47 => ⟨S32768x4x4, .f32⟩
  | 48 => ⟨S32768x4x4, .f32⟩
  | 49 => ⟨S32768x1x4x4, .f32⟩
  | 50 => ⟨S32768x4x4, .f32⟩
  | 51 => ⟨S32768x4x4, .f32⟩
  | 52 => ⟨S32768x1x4x4, .f32⟩
  | 53 => ⟨S32768x4x4, .f32⟩
  | 54 => ⟨S32768x4x4, .f32⟩
  | 55 => ⟨S32768x1x4x4, .f32⟩
  | 56 => ⟨S32768x4x4, .f32⟩
  | 57 => ⟨S32768x4x4, .f32⟩
  | 58 => ⟨S32768x1x4x4, .f32⟩
  | 59 => ⟨S32768x4x4, .f32⟩
  | 60 => ⟨S32768x4x4, .f32⟩
  | 61 => ⟨S32768x1x4x4, .f32⟩
  | 62 => ⟨S32768x4x4, .f32⟩
  | 63 => ⟨S32768x4x4, .f32⟩
  | 64 => ⟨S32768x1x4x4, .f32⟩
  | 65 => ⟨S32768x4x4, .f32⟩
  | 66 => ⟨S32768x4x4, .f32⟩
  | 67 => ⟨S32768x1x4x4, .f32⟩
  | 68 => ⟨S32768x1x4x4, .f32⟩
  | 69 => ⟨S32768x1x4x4, .f32⟩
  | 70 => ⟨S32768x1x4x4, .f32⟩
  | 71 => ⟨S32768x1x4x4, .f32⟩
  | 72 => ⟨S32768x1x4x4, .f32⟩
  | 73 => ⟨S32768x1x4x4, .f32⟩
  | 74 => ⟨S32768x1x4x4, .f32⟩
  | 75 => ⟨S32768x1x4x4, .f32⟩
  | 76 => ⟨S32768x1x4x4, .f32⟩
  | 77 => ⟨S32768x1x4x4, .f32⟩
  | 78 => ⟨S32768x1x4x4, .f32⟩
  | 79 => ⟨S32768x1x4x4, .f32⟩
  | 80 => ⟨S32768x1x4x4, .f32⟩
  | 81 => ⟨S32768x1x4x4, .f32⟩
  | 82 => ⟨S32768x1x4x4, .f32⟩
  | 83 => ⟨S32768x1x4x4, .f32⟩
  | 84 => ⟨S32768x1x4x4, .f32⟩
  | 85 => ⟨S32768x1x4x4, .f32⟩
  | 86 => ⟨S32768x1x4x4, .f32⟩
  | 87 => ⟨S32768x1x4x4, .f32⟩
  | 88 => ⟨S32768x1x4x4, .f32⟩
  | 89 => ⟨S32768x1x4x4, .f32⟩
  | 90 => ⟨S32768x1x4x4, .f32⟩
  | 91 => ⟨S32768x1x4x4, .f32⟩
  | 92 => ⟨S32768x1x4x4, .f32⟩
  | 93 => ⟨S32768x1x4x4, .f32⟩
  | 94 => ⟨S32768x1x4x4, .f32⟩
  | 95 => ⟨S32768x1x4x4, .f32⟩
  | 96 => ⟨S32768x1x4x4, .f32⟩
  | 97 => ⟨S32768x1x4x4, .f32⟩
  | 98 => ⟨S32768x1x4x4, .f32⟩
  | 99 => ⟨S32768x1x4x4, .f32⟩
  | 100 => ⟨S32768x1x4x4, .f32⟩
  | 101 => ⟨S32768x1x4x4, .f32⟩
  | 102 => ⟨S32768x1x4x4, .f32⟩
  | 103 => ⟨S32768x1x4x4, .f32⟩
  | 104 => ⟨S32768x1x4x4, .f32⟩
  | 105 => ⟨S32768x1x4x4, .f32⟩
  | 106 => ⟨S32768x1x4x4, .f32⟩
  | 107 => ⟨S32768x1x4x4, .f32⟩
  | 108 => ⟨S32768x1x4x4, .f32⟩
  | 109 => ⟨S32768x1x4x4, .f32⟩
  | 110 => ⟨S32768x1x4x4, .f32⟩
  | 111 => ⟨S32768x1x4x4, .f32⟩
  | 112 => ⟨S32768x1x4x4, .f32⟩
  | 113 => ⟨S32768x1x4x4, .f32⟩
  | 114 => ⟨S32768x1x4x4, .f32⟩
  | 115 => ⟨S32768x1x4x4, .f32⟩
  | 116 => ⟨S32768x1x4x4, .f32⟩
  | 117 => ⟨S32768x1x4x4, .f32⟩
  | 118 => ⟨S32768x1x4x4, .f32⟩
  | 119 => ⟨S32768x1x4x4, .f32⟩
  | 120 => ⟨S32768x1x4x4, .f32⟩
  | 121 => ⟨S32768x1x4x4, .f32⟩
  | 122 => ⟨S32768x16x4x4, .f32⟩
  | 123 => ⟨S32768x16x4x4, .f32⟩
  | 124 => ⟨S32768x16x4x4, .f32⟩
  | 125 => ⟨S32768x7x4x4, .f32⟩
  | 126 => ⟨S32768x55x4x4, .f32⟩
  | 127 => ⟨S32768x55x3x1, .f32⟩
  | _ => ⟨S16x2048x22x3x3, .f32⟩

abbrev hbmTy0_2 (i : Nat) : BufTy := match i % 128 with
  | 0 => ⟨S32768x55x3, .f32⟩
  | 1 => ⟨S16x2048x55x3, .f32⟩
  | _ => ⟨S16x2048x22x3x3, .f32⟩

abbrev hbmTy (i : Nat) : BufTy := match i / 128 with
  | 0 => hbmTy0_0 i
  | 1 => hbmTy0_1 i
  | 2 => hbmTy0_2 i
  | _ => ⟨S16x2048x22x3x3, .f32⟩

abbrev bufTy : (tb : Table) → Fin (tcTables nBuf tb) → BufTy
  | .hbm, ⟨i, _⟩ => hbmTy i
  | _, _ => ⟨S16x2048x22x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩

abbrev nD : Nat := 1
abbrev τ : Topo := Topo.v7x

variable {F : FTy → Type} [FloatOps F]

class Facts₀ : Prop where
  shapeCasts_S16x2048x22x3x3_S32768x22x3x3 : S16x2048x22x3x3.ShapeCasts S32768x22x3x3
  bcast_S_S3x3 : S_.BroadcastsInDim S3x3 (![] : Fin 0 → Fin S3x3.rank)
  bcast_S3x3_S32768x33x3x3_2_3 : S3x3.BroadcastsInDim S32768x33x3x3 (![2, 3] : Fin 2 → Fin S32768x33x3x3.rank)
  concatenates_S32768x22x3x3_S32768x33x3x3_S32768x55x3x3_d1 : Shape.Concatenates [S32768x22x3x3, S32768x33x3x3] S32768x55x3x3 1
  bcast_S55x3_S32768x55x3_1_2 : S55x3.BroadcastsInDim S32768x55x3 (![1, 2] : Fin 2 → Fin S32768x55x3.rank)
  bcast_S_S54 : S_.BroadcastsInDim S54 (![] : Fin 0 → Fin S54.rank)
  bcast_S54_S54x1_0 : S54.BroadcastsInDim S54x1 (![0] : Fin 1 → Fin S54x1.rank)
  bcast_S_S1 : S_.BroadcastsInDim S1 (![] : Fin 0 → Fin S1.rank)
  bcast_S32768x55x3_S32768x55x3x1_0_1_2 : S32768x55x3.BroadcastsInDim S32768x55x3x1 (![0, 1, 2] : Fin 3 → Fin S32768x55x3x1.rank)
  concatenates_S32768x55x3x3_S32768x55x3x1_S32768x55x3x4_d3 : Shape.Concatenates [S32768x55x3x3, S32768x55x3x1] S32768x55x3x4 3
  bcast_S4_S32768x55x1x4_3 : S4.BroadcastsInDim S32768x55x1x4 (![3] : Fin 1 → Fin S32768x55x1x4.rank)
  concatenates_S32768x55x3x4_S32768x55x1x4_S32768x55x4x4_d2 : Shape.Concatenates [S32768x55x3x4, S32768x55x1x4] S32768x55x4x4 2
  slices_S32768x55x4x4_S32768x1x4x4_0_0_0_0 : S32768x55x4x4.Slices ![0, 0, 0, 0] S32768x1x4x4
  shapeCasts_S32768x1x4x4_S32768x4x4 : S32768x1x4x4.ShapeCasts S32768x4x4
  slices_S32768x55x4x4_S32768x1x4x4_0_1_0_0 : S32768x55x4x4.Slices ![0, 1, 0, 0] S32768x1x4x4
  slices_S32768x55x4x4_S32768x1x4x4_0_2_0_0 : S32768x55x4x4.Slices ![0, 2, 0, 0] S32768x1x4x4
  slices_S32768x55x4x4_S32768x1x4x4_0_3_0_0 : S32768x55x4x4.Slices ![0, 3, 0, 0] S32768x1x4x4
  slices_S32768x55x4x4_S32768x1x4x4_0_4_0_0 : S32768x55x4x4.Slices ![0, 4, 0, 0] S32768x1x4x4
  slices_S32768x55x4x4_S32768x1x4x4_0_5_0_0 : S32768x55x4x4.Slices ![0, 5, 0, 0] S32768x1x4x4
  slices_S32768x55x4x4_S32768x1x4x4_0_6_0_0 : S32768x55x4x4.Slices ![0, 6, 0, 0] S32768x1x4x4
  slices_S32768x55x4x4_S32768x1x4x4_0_7_0_0 : S32768x55x4x4.Slices ![0, 7, 0, 0] S32768x1x4x4
  slices_S32768x55x4x4_S32768x1x4x4_0_8_0_0 : S32768x55x4x4.Slices ![0, 8, 0, 0] S32768x1x4x4
  slices_S32768x55x4x4_S32768x1x4x4_0_9_0_0 : S32768x55x4x4.Slices ![0, 9, 0, 0] S32768x1x4x4
  slices_S32768x55x4x4_S32768x1x4x4_0_10_0_0 : S32768x55x4x4.Slices ![0, 10, 0, 0] S32768x1x4x4
  slices_S32768x55x4x4_S32768x1x4x4_0_11_0_0 : S32768x55x4x4.Slices ![0, 11, 0, 0] S32768x1x4x4
  slices_S32768x55x4x4_S32768x1x4x4_0_12_0_0 : S32768x55x4x4.Slices ![0, 12, 0, 0] S32768x1x4x4
  slices_S32768x55x4x4_S32768x1x4x4_0_13_0_0 : S32768x55x4x4.Slices ![0, 13, 0, 0] S32768x1x4x4
  slices_S32768x55x4x4_S32768x1x4x4_0_14_0_0 : S32768x55x4x4.Slices ![0, 14, 0, 0] S32768x1x4x4
  slices_S32768x55x4x4_S32768x1x4x4_0_15_0_0 : S32768x55x4x4.Slices ![0, 15, 0, 0] S32768x1x4x4
  slices_S32768x55x4x4_S32768x1x4x4_0_16_0_0 : S32768x55x4x4.Slices ![0, 16, 0, 0] S32768x1x4x4
  slices_S32768x55x4x4_S32768x1x4x4_0_17_0_0 : S32768x55x4x4.Slices ![0, 17, 0, 0] S32768x1x4x4
  slices_S32768x55x4x4_S32768x1x4x4_0_18_0_0 : S32768x55x4x4.Slices ![0, 18, 0, 0] S32768x1x4x4
  slices_S32768x55x4x4_S32768x1x4x4_0_19_0_0 : S32768x55x4x4.Slices ![0, 19, 0, 0] S32768x1x4x4
  slices_S32768x55x4x4_S32768x1x4x4_0_20_0_0 : S32768x55x4x4.Slices ![0, 20, 0, 0] S32768x1x4x4
  slices_S32768x55x4x4_S32768x1x4x4_0_21_0_0 : S32768x55x4x4.Slices ![0, 21, 0, 0] S32768x1x4x4
  slices_S32768x55x4x4_S32768x1x4x4_0_22_0_0 : S32768x55x4x4.Slices ![0, 22, 0, 0] S32768x1x4x4
  slices_S32768x55x4x4_S32768x1x4x4_0_23_0_0 : S32768x55x4x4.Slices ![0, 23, 0, 0] S32768x1x4x4
  slices_S32768x55x4x4_S32768x1x4x4_0_24_0_0 : S32768x55x4x4.Slices ![0, 24, 0, 0] S32768x1x4x4
  slices_S32768x55x4x4_S32768x1x4x4_0_25_0_0 : S32768x55x4x4.Slices ![0, 25, 0, 0] S32768x1x4x4
  slices_S32768x55x4x4_S32768x1x4x4_0_26_0_0 : S32768x55x4x4.Slices ![0, 26, 0, 0] S32768x1x4x4
  slices_S32768x55x4x4_S32768x1x4x4_0_27_0_0 : S32768x55x4x4.Slices ![0, 27, 0, 0] S32768x1x4x4
  slices_S32768x55x4x4_S32768x1x4x4_0_28_0_0 : S32768x55x4x4.Slices ![0, 28, 0, 0] S32768x1x4x4
  slices_S32768x55x4x4_S32768x1x4x4_0_29_0_0 : S32768x55x4x4.Slices ![0, 29, 0, 0] S32768x1x4x4
  slices_S32768x55x4x4_S32768x1x4x4_0_30_0_0 : S32768x55x4x4.Slices ![0, 30, 0, 0] S32768x1x4x4
  slices_S32768x55x4x4_S32768x1x4x4_0_31_0_0 : S32768x55x4x4.Slices ![0, 31, 0, 0] S32768x1x4x4
  slices_S32768x55x4x4_S32768x1x4x4_0_32_0_0 : S32768x55x4x4.Slices ![0, 32, 0, 0] S32768x1x4x4
  slices_S32768x55x4x4_S32768x1x4x4_0_33_0_0 : S32768x55x4x4.Slices ![0, 33, 0, 0] S32768x1x4x4
  slices_S32768x55x4x4_S32768x1x4x4_0_34_0_0 : S32768x55x4x4.Slices ![0, 34, 0, 0] S32768x1x4x4
  slices_S32768x55x4x4_S32768x1x4x4_0_35_0_0 : S32768x55x4x4.Slices ![0, 35, 0, 0] S32768x1x4x4
  slices_S32768x55x4x4_S32768x1x4x4_0_36_0_0 : S32768x55x4x4.Slices ![0, 36, 0, 0] S32768x1x4x4
  slices_S32768x55x4x4_S32768x1x4x4_0_37_0_0 : S32768x55x4x4.Slices ![0, 37, 0, 0] S32768x1x4x4
  slices_S32768x55x4x4_S32768x1x4x4_0_38_0_0 : S32768x55x4x4.Slices ![0, 38, 0, 0] S32768x1x4x4
  slices_S32768x55x4x4_S32768x1x4x4_0_39_0_0 : S32768x55x4x4.Slices ![0, 39, 0, 0] S32768x1x4x4
  slices_S32768x55x4x4_S32768x1x4x4_0_40_0_0 : S32768x55x4x4.Slices ![0, 40, 0, 0] S32768x1x4x4
  slices_S32768x55x4x4_S32768x1x4x4_0_41_0_0 : S32768x55x4x4.Slices ![0, 41, 0, 0] S32768x1x4x4
  slices_S32768x55x4x4_S32768x1x4x4_0_42_0_0 : S32768x55x4x4.Slices ![0, 42, 0, 0] S32768x1x4x4
  slices_S32768x55x4x4_S32768x1x4x4_0_43_0_0 : S32768x55x4x4.Slices ![0, 43, 0, 0] S32768x1x4x4
  slices_S32768x55x4x4_S32768x1x4x4_0_44_0_0 : S32768x55x4x4.Slices ![0, 44, 0, 0] S32768x1x4x4
  slices_S32768x55x4x4_S32768x1x4x4_0_45_0_0 : S32768x55x4x4.Slices ![0, 45, 0, 0] S32768x1x4x4
  slices_S32768x55x4x4_S32768x1x4x4_0_46_0_0 : S32768x55x4x4.Slices ![0, 46, 0, 0] S32768x1x4x4
  slices_S32768x55x4x4_S32768x1x4x4_0_47_0_0 : S32768x55x4x4.Slices ![0, 47, 0, 0] S32768x1x4x4
  slices_S32768x55x4x4_S32768x1x4x4_0_48_0_0 : S32768x55x4x4.Slices ![0, 48, 0, 0] S32768x1x4x4
  slices_S32768x55x4x4_S32768x1x4x4_0_49_0_0 : S32768x55x4x4.Slices ![0, 49, 0, 0] S32768x1x4x4
  slices_S32768x55x4x4_S32768x1x4x4_0_50_0_0 : S32768x55x4x4.Slices ![0, 50, 0, 0] S32768x1x4x4
  slices_S32768x55x4x4_S32768x1x4x4_0_51_0_0 : S32768x55x4x4.Slices ![0, 51, 0, 0] S32768x1x4x4
  slices_S32768x55x4x4_S32768x1x4x4_0_52_0_0 : S32768x55x4x4.Slices ![0, 52, 0, 0] S32768x1x4x4
  slices_S32768x55x4x4_S32768x1x4x4_0_53_0_0 : S32768x55x4x4.Slices ![0, 53, 0, 0] S32768x1x4x4
  slices_S32768x55x4x4_S32768x1x4x4_0_54_0_0 : S32768x55x4x4.Slices ![0, 54, 0, 0] S32768x1x4x4
  bcast_S32768x4x4_S32768x1x4x4_0_2_3 : S32768x4x4.BroadcastsInDim S32768x1x4x4 (![0, 2, 3] : Fin 3 → Fin S32768x1x4x4.rank)
  concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1 : Shape.Concatenates [S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4, S32768x1x4x4] S32768x16x4x4 1
  concatenates_S32768x1x4x4_S32768x1x4x4_S32768x1x4x4_S32768x1x4x4_S32768x1x4x4_S32768x1x4x4_S32768x1x4x4_S32768x7x4x4_d1 : Shape.Concatenates [S32768x1x4x4, S32768x1x4x4, S32768x1x4x4, S32768x1x4x4, S32768x1x4x4, S32768x1x4x4, S32768x1x4x4] S32768x7x4x4 1
  concatenates_S32768x16x4x4_S32768x16x4x4_S32768x16x4x4_S32768x7x4x4_S32768x55x4x4_d1 : Shape.Concatenates [S32768x16x4x4, S32768x16x4x4, S32768x16x4x4, S32768x7x4x4] S32768x55x4x4 1
  slices_S32768x55x4x4_S32768x55x3x1_0_0_0_3 : S32768x55x4x4.Slices ![0, 0, 0, 3] S32768x55x3x1
  shapeCasts_S32768x55x3x1_S32768x55x3 : S32768x55x3x1.ShapeCasts S32768x55x3
  shapeCasts_S32768x55x3_S16x2048x55x3 : S32768x55x3.ShapeCasts S16x2048x55x3
  gather_S32768x55x3_S54x1_S32768x54x3_02_1_n_n_1_1_3276813_wf : GatherDims.WF S32768x55x3 S54x1 S32768x54x3 [0, 2] [1] [] [1] [] 1 ![32768, 1, 3]
  scatter_S32768x55x3_S1_S32768x54x3_012_n_1_0_wf : ScatterDims.WF S32768x55x3 S1 S32768x54x3 [0, 1, 2] [] [1] 0
  dot_S32768x4x4_S32768x4x4_S32768x4x4_2_1_1_2_0_0_wf : DotDims.WF S32768x4x4 S32768x4x4 S32768x4x4 [2] [1] [1] [2] [0] [0]

variable [Facts₀]

def gather_S32768x55x3_S54x1_S32768x54x3_02_1_n_n_1_1_3276813 : GatherDims S32768x55x3 S54x1 S32768x54x3 where
  offsetDims := [0, 2]
  collapsedSliceDims := [1]
  operandBatchingDims := []
  startIndicesBatchingDims := []
  startIndexMap := [1]
  indexVectorDim := 1
  sliceSizes := ![32768, 1, 3]
  wf := gather_S32768x55x3_S54x1_S32768x54x3_02_1_n_n_1_1_3276813_wf
def scatter_S32768x55x3_S1_S32768x54x3_012_n_1_0 : ScatterDims S32768x55x3 S1 S32768x54x3 where
  updateWindowDims := [0, 1, 2]
  insertedWindowDims := []
  scatterDimsToOperandDims := [1]
  indexVectorDim := 0
  wf := scatter_S32768x55x3_S1_S32768x54x3_012_n_1_0_wf
def dot_S32768x4x4_S32768x4x4_S32768x4x4_2_1_1_2_0_0 : DotDims S32768x4x4 S32768x4x4 S32768x4x4 where
  lhsContracting := [2]
  rhsContracting := [1]
  lhsNonContracting := [1]
  rhsNonContracting := [2]
  lhsBatch := [0]
  rhsBatch := [0]
  wf := dot_S32768x4x4_S32768x4x4_S32768x4x4_2_1_1_2_0_0_wf

class Facts : Prop extends Facts₀ where

variable [Facts]
-- ==== Proof.RefOps.lean ====
import proofs.«134826_j18760417149409_1_alg».proof.Proof.Gen.ReferenceIdeal
import Idealize.ShloMosaic.Lib.StableHlo.Run

set_option maxRecDepth 16384

noncomputable section

namespace Cert.FK.Ref

open Cert.ReferenceIdeal Cert.ReferenceIdeal.Gen Idealize.ShloMosaic Idealize.ShloMosaic.TcCoe Idealize.SL.Sem

variable {F : FTy → Type} [FloatOps F]

abbrev ops0 : List (HloOp τ sig (Elt F)) :=
  [ StableHlo.nullary main_c (fun i => lit0 (S54.rowMajor i)),
    StableHlo.nullary main_c_0 (constantI S54 1 0#1),
    StableHlo.nullary main_cst (fun i => FloatOps.ofBits .f32 (lit1 (S4.rowMajor i))),
    StableHlo.reshape main_arg0 main_v0 rfl shapeCasts_S16x2048x22x3x3_S32768x22x3x3,
    StableHlo.nullary main_v1 (iotaInDim S3x3 32 0),
    StableHlo.nullary main_v2 (iotaInDim S3x3 32 1),
    StableHlo.nullary main_c_1 (constantI S_ 32 0#32),
    StableHlo.unary main_c_1 main_v3 (broadcastInDim S3x3 ![] bcast_S_S3x3 : Vec F S_ .i32 → Vec F S3x3 .i32),
    StableHlo.binary main_v1 main_v3 main_v4 (addi : Vec F S3x3 .i32 → Vec F S3x3 .i32 → Vec F S3x3 .i32),
    StableHlo.binary main_v4 main_v2 main_v5 (cmpi .eq : Vec F S3x3 .i32 → Vec F S3x3 .i32 → Vec F S3x3 .i1),
    StableHlo.unary main_v5 main_v6 (uitofp .f32 : Vec F S3x3 .i1 → Vec F S3x3 .f32),
    StableHlo.unary main_v6 main_v7 (broadcastInDim S32768x33x3x3 ![2, 3] bcast_S3x3_S32768x33x3x3_2_3 : Vec F S3x3 .f32 → Vec F S32768x33x3x3 .f32),
    StableHlo.binary main_v0 main_v7 main_v8 ((fun a b => concatenate S32768x55x3x3 1 [⟨S32768x22x3x3, a⟩, ⟨S32768x33x3x3, b⟩] concatenates_S32768x22x3x3_S32768x33x3x3_S32768x55x3x3_d1) : Vec F S32768x22x3x3 .f32 → Vec F S32768x33x3x3 .f32 → Vec F S32768x55x3x3 .f32),
    StableHlo.unary main_arg1 main_v9 (broadcastInDim S32768x55x3 ![1, 2] bcast_S55x3_S32768x55x3_1_2 : Vec F S55x3 .f32 → Vec F S32768x55x3 .f32),
    StableHlo.nullary main_c_2 (constantI S_ 32 55#32),
    StableHlo.unary main_c_2 main_v10 (broadcastInDim S54 ![] bcast_S_S54 : Vec F S_ .i32 → Vec F S54 .i32),
    StableHlo.binary main_c main_v10 main_v11 (addi : Vec F S54 .i32 → Vec F S54 .i32 → Vec F S54 .i32),
    StableHlo.ternary main_c_0 main_v11 main_c main_v12 (select : Vec F S54 .i1 → Vec F S54 .i32 → Vec F S54 .i32 → Vec F S54 .i32),
    StableHlo.unary main_v12 main_v13 (broadcastInDim S54x1 ![0] bcast_S54_S54x1_0 : Vec F S54 .i32 → Vec F S54x1 .i32),
    StableHlo.binary main_v9 main_v13 main_v14 ((fun x i => Host.gather gather_S32768x55x3_S54x1_S32768x54x3_02_1_n_n_1_1_3276813 x i) : Vec F S32768x55x3 .f32 → Vec F S54x1 .i32 → Vec F S32768x54x3 .f32),
    StableHlo.unary main_v14 main_v15 (Host.negf : Vec F S32768x54x3 .f32 → Vec F S32768x54x3 .f32),
    StableHlo.nullary main_c_3 (constantI S_ 32 1#32),
    StableHlo.unary main_c_3 main_v16 (broadcastInDim S1 ![] bcast_S_S1 : Vec F S_ .i32 → Vec F S1 .i32),
    StableHlo.ternary main_v9 main_v16 main_v15 main_v17 ((fun x i u => Host.scatter scatter_S32768x55x3_S1_S32768x54x3_012_n_1_0 FloatOps.addf x i u) : Vec F S32768x55x3 .f32 → Vec F S1 .i32 → Vec F S32768x54x3 .f32 → Vec F S32768x55x3 .f32),
    StableHlo.unary main_v17 main_v18 (broadcastInDim S32768x55x3x1 ![0, 1, 2] bcast_S32768x55x3_S32768x55x3x1_0_1_2 : Vec F S32768x55x3 .f32 → Vec F S32768x55x3x1 .f32),
    StableHlo.binary main_v8 main_v18 main_v19 ((fun a b => concatenate S32768x55x3x4 3 [⟨S32768x55x3x3, a⟩, ⟨S32768x55x3x1, b⟩] concatenates_S32768x55x3x3_S32768x55x3x1_S32768x55x3x4_d3) : Vec F S32768x55x3x3 .f32 → Vec F S32768x55x3x1 .f32 → Vec F S32768x55x3x4 .f32),
    StableHlo.unary main_cst main_v20 (broadcastInDim S32768x55x1x4 ![3] bcast_S4_S32768x55x1x4_3 : Vec F S4 .f32 → Vec F S32768x55x1x4 .f32),
    StableHlo.binary main_v19 main_v20 main_v21 ((fun a b => concatenate S32768x55x4x4 2 [⟨S32768x55x3x4, a⟩, ⟨S32768x55x1x4, b⟩] concatenates_S32768x55x3x4_S32768x55x1x4_S32768x55x4x4_d2) : Vec F S32768x55x3x4 .f32 → Vec F S32768x55x1x4 .f32 → Vec F S32768x55x4x4 .f32),
    StableHlo.unary main_v21 main_v22 ((extractStridedSlice S32768x1x4x4 ![0, 0, 0, 0] · slices_S32768x55x4x4_S32768x1x4x4_0_0_0_0) : Vec F S32768x55x4x4 .f32 → Vec F S32768x1x4x4 .f32),
    StableHlo.reshape main_v22 main_v23 rfl shapeCasts_S32768x1x4x4_S32768x4x4,
    StableHlo.unary main_v21 main_v24 ((extractStridedSlice S32768x1x4x4 ![0, 1, 0, 0] · slices_S32768x55x4x4_S32768x1x4x4_0_1_0_0) : Vec F S32768x55x4x4 .f32 → Vec F S32768x1x4x4 .f32),
    StableHlo.reshape main_v24 main_v25 rfl shapeCasts_S32768x1x4x4_S32768x4x4,
    StableHlo.binary main_v23 main_v25 main_v26 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v27 ((extractStridedSlice S32768x1x4x4 ![0, 2, 0, 0] · slices_S32768x55x4x4_S32768x1x4x4_0_2_0_0) : Vec F S32768x55x4x4 .f32 → Vec F S32768x1x4x4 .f32),
    StableHlo.reshape main_v27 main_v28 rfl shapeCasts_S32768x1x4x4_S32768x4x4,
    StableHlo.binary main_v23 main_v28 main_v29 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v30 ((extractStridedSlice S32768x1x4x4 ![0, 3, 0, 0] · slices_S32768x55x4x4_S32768x1x4x4_0_3_0_0) : Vec F S32768x55x4x4 .f32 → Vec F S32768x1x4x4 .f32),
    StableHlo.reshape main_v30 main_v31 rfl shapeCasts_S32768x1x4x4_S32768x4x4,
    StableHlo.binary main_v23 main_v31 main_v32 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v33 ((extractStridedSlice S32768x1x4x4 ![0, 4, 0, 0] · slices_S32768x55x4x4_S32768x1x4x4_0_4_0_0) : Vec F S32768x55x4x4 .f32 → Vec F S32768x1x4x4 .f32),
    StableHlo.reshape main_v33 main_v34 rfl shapeCasts_S32768x1x4x4_S32768x4x4,
    StableHlo.binary main_v26 main_v34 main_v35 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v36 ((extractStridedSlice S32768x1x4x4 ![0, 5, 0, 0] · slices_S32768x55x4x4_S32768x1x4x4_0_5_0_0) : Vec F S32768x55x4x4 .f32 → Vec F S32768x1x4x4 .f32),
    StableHlo.reshape main_v36 main_v37 rfl shapeCasts_S32768x1x4x4_S32768x4x4,
    StableHlo.binary main_v29 main_v37 main_v38 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v39 ((extractStridedSlice S32768x1x4x4 ![0, 6, 0, 0] · slices_S32768x55x4x4_S32768x1x4x4_0_6_0_0) : Vec F S32768x55x4x4 .f32 → Vec F S32768x1x4x4 .f32),
    StableHlo.reshape main_v39 main_v40 rfl shapeCasts_S32768x1x4x4_S32768x4x4,
    StableHlo.binary main_v32 main_v40 main_v41 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v42 ((extractStridedSlice S32768x1x4x4 ![0, 7, 0, 0] · slices_S32768x55x4x4_S32768x1x4x4_0_7_0_0) : Vec F S32768x55x4x4 .f32 → Vec F S32768x1x4x4 .f32),
    StableHlo.reshape main_v42 main_v43 rfl shapeCasts_S32768x1x4x4_S32768x4x4,
    StableHlo.binary main_v35 main_v43 main_v44 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v45 ((extractStridedSlice S32768x1x4x4 ![0, 8, 0, 0] · slices_S32768x55x4x4_S32768x1x4x4_0_8_0_0) : Vec F S32768x55x4x4 .f32 → Vec F S32768x1x4x4 .f32),
    StableHlo.reshape main_v45 main_v46 rfl shapeCasts_S32768x1x4x4_S32768x4x4,
    StableHlo.binary main_v38 main_v46 main_v47 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v48 ((extractStridedSlice S32768x1x4x4 ![0, 9, 0, 0] · slices_S32768x55x4x4_S32768x1x4x4_0_9_0_0) : Vec F S32768x55x4x4 .f32 → Vec F S32768x1x4x4 .f32),
    StableHlo.reshape main_v48 main_v49 rfl shapeCasts_S32768x1x4x4_S32768x4x4,
    StableHlo.binary main_v41 main_v49 main_v50 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v51 ((extractStridedSlice S32768x1x4x4 ![0, 10, 0, 0] · slices_S32768x55x4x4_S32768x1x4x4_0_10_0_0) : Vec F S32768x55x4x4 .f32 → Vec F S32768x1x4x4 .f32),
    StableHlo.reshape main_v51 main_v52 rfl shapeCasts_S32768x1x4x4_S32768x4x4,
    StableHlo.binary main_v44 main_v52 main_v53 ((fun l r => Host.dotGeneral dot_S32768x4x4_S32768x4x4_S32768x4x4_2_1_1_2_0_0 none l r) : Vec F S32768x4x4 .f32 → Vec F S32768x4x4 .f32 → Vec F S32768x4x4 .f32) ]

abbrev ops1 : List (HloOp τ sig (Elt F)) :=
  [ StableHlo.unary main_v21 main_v54 ((extractStridedSlice S32768x1x4x4 ![0, 11, 0, 0] · slices_S32768x55x4x4_S32768x1x4x4_0_11_0_0) : Vec F S32768x55x4x4 .f32 → Vec F S32768x1x4x4 .f32),
    StableHlo.reshape main_v54 main_v55 rfl shapeCasts_S32768x1x4x4_S32768x4x4,
    StableHlo.binary main_v47 main_v55 main_v56 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v57 ((extractStridedSlice S32768x1x4x4 ![0, 12, 0, 0] · slices_S32768x55x4x4_S32768x1x4x4_0_12_0_0) : Vec F S32768x55x4x4 .f32 → Vec F S32768x1x4x4 .f32),
    StableHlo.reshape main_v57 main_v58 rfl shapeCasts_S32768x1x4x4_S32768x4x4,
    StableHlo.binary main_v50 main_v58 main_v59 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v60 ((extractStridedSlice S32768x1x4x4 ![0, 13, 0, 0] · slices_S32768x55x4x4_S32768x1x4x4_0_13_0_0) : Vec F S32768x55x4x4 .f32 → Vec F S32768x1x4x4 .f32),
    StableHlo.reshape main_v60 main_v61 rfl shapeCasts_S32768x1x4x4_S32768x4x4,
    StableHlo.binary main_v50 main_v61 main_v62 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v63 ((extractStridedSlice S32768x1x4x4 ![0, 14, 0, 0] · slices_S32768x55x4x4_S32768x1x4x4_0_14_0_0) : Vec F S32768x55x4x4 .f32 → Vec F S32768x1x4x4 .f32),
    StableHlo.reshape main_v63 main_v64 rfl shapeCasts_S32768x1x4x4_S32768x4x4,
    StableHlo.binary main_v50 main_v64 main_v65 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v66 ((extractStridedSlice S32768x1x4x4 ![0, 15, 0, 0] · slices_S32768x55x4x4_S32768x1x4x4_0_15_0_0) : Vec F S32768x55x4x4 .f32 → Vec F S32768x1x4x4 .f32),
    StableHlo.reshape main_v66 main_v67 rfl shapeCasts_S32768x1x4x4_S32768x4x4,
    StableHlo.binary main_v59 main_v67 main_v68 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v69 ((extractStridedSlice S32768x1x4x4 ![0, 16, 0, 0] · slices_S32768x55x4x4_S32768x1x4x4_0_16_0_0) : Vec F S32768x55x4x4 .f32 → Vec F S32768x1x4x4 .f32),
    StableHlo.reshape main_v69 main_v70 rfl shapeCasts_S32768x1x4x4_S32768x4x4,
    StableHlo.binary main_v62 main_v70 main_v71 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v72 ((extractStridedSlice S32768x1x4x4 ![0, 17, 0, 0] · slices_S32768x55x4x4_S32768x1x4x4_0_17_0_0) : Vec F S32768x55x4x4 .f32 → Vec F S32768x1x4x4 .f32),
    StableHlo.reshape main_v72 main_v73 rfl shapeCasts_S32768x1x4x4_S32768x4x4,
    StableHlo.binary main_v65 main_v73 main_v74 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v75 ((extractStridedSlice S32768x1x4x4 ![0, 18, 0, 0] · slices_S32768x55x4x4_S32768x1x4x4_0_18_0_0) : Vec F S32768x55x4x4 .f32 → Vec F S32768x1x4x4 .f32),
    StableHlo.reshape main_v75 main_v76 rfl shapeCasts_S32768x1x4x4_S32768x4x4,
    StableHlo.binary main_v71 main_v76 main_v77 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v78 ((extractStridedSlice S32768x1x4x4 ![0, 19, 0, 0] · slices_S32768x55x4x4_S32768x1x4x4_0_19_0_0) : Vec F S32768x55x4x4 .f32 → Vec F S32768x1x4x4 .f32),
    StableHlo.reshape main_v78 main_v79 rfl shapeCasts_S32768x1x4x4_S32768x4x4,
    StableHlo.binary main_v74 main_v79 main_v80 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v81 ((extractStridedSlice S32768x1x4x4 ![0, 20, 0, 0] · slices_S32768x55x4x4_S32768x1x4x4_0_20_0_0) : Vec F S32768x55x4x4 .f32 → Vec F S32768x1x4x4 .f32),
    StableHlo.reshape main_v81 main_v82 rfl shapeCasts_S32768x1x4x4_S32768x4x4,
    StableHlo.binary main_v77 main_v82 main_v83 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v84 ((extractStridedSlice S32768x1x4x4 ![0, 21, 0, 0] · slices_S32768x55x4x4_S32768x1x4x4_0_21_0_0) : Vec F S32768x55x4x4 .f32 → Vec F S32768x1x4x4 .f32),
    StableHlo.reshape main_v84 main_v85 rfl shapeCasts_S32768x1x4x4_S32768x4x4,
    StableHlo.binary main_v80 main_v85 main_v86 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v87 ((extractStridedSlice S32768x1x4x4 ![0, 22, 0, 0] · slices_S32768x55x4x4_S32768x1x4x4_0_22_0_0) : Vec F S32768x55x4x4 .f32 → Vec F S32768x1x4x4 .f32),
    StableHlo.reshape main_v87 main_v88 rfl shapeCasts_S32768x1x4x4_S32768x4x4,
    StableHlo.binary main_v68 main_v88 main_v89 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v90 ((extractStridedSlice S32768x1x4x4 ![0, 23, 0, 0] · slices_S32768x55x4x4_S32768x1x4x4_0_23_0_0) : Vec F S32768x55x4x4 .f32 → Vec F S32768x1x4x4 .f32),
    StableHlo.reshape main_v90 main_v91 rfl shapeCasts_S32768x1x4x4_S32768x4x4,
    StableHlo.binary main_v68 main_v91 main_v92 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v93 ((extractStridedSlice S32768x1x4x4 ![0, 24, 0, 0] · slices_S32768x55x4x4_S32768x1x4x4_0_24_0_0) : Vec F S32768x55x4x4 .f32 → Vec F S32768x1x4x4 .f32),
    StableHlo.reshape main_v93 main_v94 rfl shapeCasts_S32768x1x4x4_S32768x4x4,
    StableHlo.binary main_v68 main_v94 main_v95 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v96 ((extractStridedSlice S32768x1x4x4 ![0, 25, 0, 0] · slices_S32768x55x4x4_S32768x1x4x4_0_25_0_0) : Vec F S32768x55x4x4 .f32 → Vec F S32768x1x4x4 .f32),
    StableHlo.reshape main_v96 main_v97 rfl shapeCasts_S32768x1x4x4_S32768x4x4,
    StableHlo.binary main_v83 main_v97 main_v98 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v99 ((extractStridedSlice S32768x1x4x4 ![0, 26, 0, 0] · slices_S32768x55x4x4_S32768x1x4x4_0_26_0_0) : Vec F S32768x55x4x4 .f32 → Vec F S32768x1x4x4 .f32),
    StableHlo.reshape main_v99 main_v100 rfl shapeCasts_S32768x1x4x4_S32768x4x4,
    StableHlo.binary main_v98 main_v100 main_v101 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v102 ((extractStridedSlice S32768x1x4x4 ![0, 27, 0, 0] · slices_S32768x55x4x4_S32768x1x4x4_0_27_0_0) : Vec F S32768x55x4x4 .f32 → Vec F S32768x1x4x4 .f32),
    StableHlo.reshape main_v102 main_v103 rfl shapeCasts_S32768x1x4x4_S32768x4x4,
    StableHlo.binary main_v101 main_v103 main_v104 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v105 ((extractStridedSlice S32768x1x4x4 ![0, 28, 0, 0] · slices_S32768x55x4x4_S32768x1x4x4_0_28_0_0) : Vec F S32768x55x4x4 .f32 → Vec F S32768x1x4x4 .f32),
    StableHlo.reshape main_v105 main_v106 rfl shapeCasts_S32768x1x4x4_S32768x4x4,
    StableHlo.binary main_v83 main_v106 main_v107 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v108 ((extractStridedSlice S32768x1x4x4 ![0, 29, 0, 0] · slices_S32768x55x4x4_S32768x1x4x4_0_29_0_0) : Vec F S32768x55x4x4 .f32 → Vec F S32768x1x4x4 .f32),
    StableHlo.reshape main_v108 main_v109 rfl shapeCasts_S32768x1x4x4_S32768x4x4,
    StableHlo.binary main_v107 main_v109 main_v110 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v111 ((extractStridedSlice S32768x1x4x4 ![0, 30, 0, 0] · slices_S32768x55x4x4_S32768x1x4x4_0_30_0_0) : Vec F S32768x55x4x4 .f32 → Vec F S32768x1x4x4 .f32),
    StableHlo.reshape main_v111 main_v112 rfl shapeCasts_S32768x1x4x4_S32768x4x4,
    StableHlo.binary main_v110 main_v112 main_v113 ((fun l r => Host.dotGeneral dot_S32768x4x4_S32768x4x4_S32768x4x4_2_1_1_2_0_0 none l r) : Vec F S32768x4x4 .f32 → Vec F S32768x4x4 .f32 → Vec F S32768x4x4 .f32) ]

abbrev ops2 : List (HloOp τ sig (Elt F)) :=
  [ StableHlo.unary main_v21 main_v114 ((extractStridedSlice S32768x1x4x4 ![0, 31, 0, 0] · slices_S32768x55x4x4_S32768x1x4x4_0_31_0_0) : Vec F S32768x55x4x4 .f32 → Vec F S32768x1x4x4 .f32),
    StableHlo.reshape main_v114 main_v115 rfl shapeCasts_S32768x1x4x4_S32768x4x4,
    StableHlo.binary main_v83 main_v115 main_v116 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v117 ((extractStridedSlice S32768x1x4x4 ![0, 32, 0, 0] · slices_S32768x55x4x4_S32768x1x4x4_0_32_0_0) : Vec F S32768x55x4x4 .f32 → Vec F S32768x1x4x4 .f32),
    StableHlo.reshape main_v117 main_v118 rfl shapeCasts_S32768x1x4x4_S32768x4x4,
    StableHlo.binary main_v116 main_v118 main_v119 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v120 ((extractStridedSlice S32768x1x4x4 ![0, 33, 0, 0] · slices_S32768x55x4x4_S32768x1x4x4_0_33_0_0) : Vec F S32768x55x4x4 .f32 → Vec F S32768x1x4x4 .f32),
    StableHlo.reshape main_v120 main_v121 rfl shapeCasts_S32768x1x4x4_S32768x4x4,
    StableHlo.binary main_v119 main_v121 main_v122 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v123 ((extractStridedSlice S32768x1x4x4 ![0, 34, 0, 0] · slices_S32768x55x4x4_S32768x1x4x4_0_34_0_0) : Vec F S32768x55x4x4 .f32 → Vec F S32768x1x4x4 .f32),
    StableHlo.reshape main_v123 main_v124 rfl shapeCasts_S32768x1x4x4_S32768x4x4,
    StableHlo.binary main_v83 main_v124 main_v125 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v126 ((extractStridedSlice S32768x1x4x4 ![0, 35, 0, 0] · slices_S32768x55x4x4_S32768x1x4x4_0_35_0_0) : Vec F S32768x55x4x4 .f32 → Vec F S32768x1x4x4 .f32),
    StableHlo.reshape main_v126 main_v127 rfl shapeCasts_S32768x1x4x4_S32768x4x4,
    StableHlo.binary main_v125 main_v127 main_v128 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v129 ((extractStridedSlice S32768x1x4x4 ![0, 36, 0, 0] · slices_S32768x55x4x4_S32768x1x4x4_0_36_0_0) : Vec F S32768x55x4x4 .f32 → Vec F S32768x1x4x4 .f32),
    StableHlo.reshape main_v129 main_v130 rfl shapeCasts_S32768x1x4x4_S32768x4x4,
    StableHlo.binary main_v128 main_v130 main_v131 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v132 ((extractStridedSlice S32768x1x4x4 ![0, 37, 0, 0] · slices_S32768x55x4x4_S32768x1x4x4_0_37_0_0) : Vec F S32768x55x4x4 .f32 → Vec F S32768x1x4x4 .f32),
    StableHlo.reshape main_v132 main_v133 rfl shapeCasts_S32768x1x4x4_S32768x4x4,
    StableHlo.binary main_v83 main_v133 main_v134 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v135 ((extractStridedSlice S32768x1x4x4 ![0, 38, 0, 0] · slices_S32768x55x4x4_S32768x1x4x4_0_38_0_0) : Vec F S32768x55x4x4 .f32 → Vec F S32768x1x4x4 .f32),
    StableHlo.reshape main_v135 main_v136 rfl shapeCasts_S32768x1x4x4_S32768x4x4,
    StableHlo.binary main_v134 main_v136 main_v137 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v138 ((extractStridedSlice S32768x1x4x4 ![0, 39, 0, 0] · slices_S32768x55x4x4_S32768x1x4x4_0_39_0_0) : Vec F S32768x55x4x4 .f32 → Vec F S32768x1x4x4 .f32),
    StableHlo.reshape main_v138 main_v139 rfl shapeCasts_S32768x1x4x4_S32768x4x4,
    StableHlo.binary main_v137 main_v139 main_v140 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v141 ((extractStridedSlice S32768x1x4x4 ![0, 40, 0, 0] · slices_S32768x55x4x4_S32768x1x4x4_0_40_0_0) : Vec F S32768x55x4x4 .f32 → Vec F S32768x1x4x4 .f32),
    StableHlo.reshape main_v141 main_v142 rfl shapeCasts_S32768x1x4x4_S32768x4x4,
    StableHlo.binary main_v86 main_v142 main_v143 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v144 ((extractStridedSlice S32768x1x4x4 ![0, 41, 0, 0] · slices_S32768x55x4x4_S32768x1x4x4_0_41_0_0) : Vec F S32768x55x4x4 .f32 → Vec F S32768x1x4x4 .f32),
    StableHlo.reshape main_v144 main_v145 rfl shapeCasts_S32768x1x4x4_S32768x4x4,
    StableHlo.binary main_v143 main_v145 main_v146 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v147 ((extractStridedSlice S32768x1x4x4 ![0, 42, 0, 0] · slices_S32768x55x4x4_S32768x1x4x4_0_42_0_0) : Vec F S32768x55x4x4 .f32 → Vec F S32768x1x4x4 .f32),
    StableHlo.reshape main_v147 main_v148 rfl shapeCasts_S32768x1x4x4_S32768x4x4,
    StableHlo.binary main_v146 main_v148 main_v149 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v150 ((extractStridedSlice S32768x1x4x4 ![0, 43, 0, 0] · slices_S32768x55x4x4_S32768x1x4x4_0_43_0_0) : Vec F S32768x55x4x4 .f32 → Vec F S32768x1x4x4 .f32),
    StableHlo.reshape main_v150 main_v151 rfl shapeCasts_S32768x1x4x4_S32768x4x4,
    StableHlo.binary main_v86 main_v151 main_v152 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v153 ((extractStridedSlice S32768x1x4x4 ![0, 44, 0, 0] · slices_S32768x55x4x4_S32768x1x4x4_0_44_0_0) : Vec F S32768x55x4x4 .f32 → Vec F S32768x1x4x4 .f32),
    StableHlo.reshape main_v153 main_v154 rfl shapeCasts_S32768x1x4x4_S32768x4x4,
    StableHlo.binary main_v152 main_v154 main_v155 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v156 ((extractStridedSlice S32768x1x4x4 ![0, 45, 0, 0] · slices_S32768x55x4x4_S32768x1x4x4_0_45_0_0) : Vec F S32768x55x4x4 .f32 → Vec F S32768x1x4x4 .f32),
    StableHlo.reshape main_v156 main_v157 rfl shapeCasts_S32768x1x4x4_S32768x4x4,
    StableHlo.binary main_v155 main_v157 main_v158 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v159 ((extractStridedSlice S32768x1x4x4 ![0, 46, 0, 0] · slices_S32768x55x4x4_S32768x1x4x4_0_46_0_0) : Vec F S32768x55x4x4 .f32 → Vec F S32768x1x4x4 .f32),
    StableHlo.reshape main_v159 main_v160 rfl shapeCasts_S32768x1x4x4_S32768x4x4,
    StableHlo.binary main_v86 main_v160 main_v161 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v162 ((extractStridedSlice S32768x1x4x4 ![0, 47, 0, 0] · slices_S32768x55x4x4_S32768x1x4x4_0_47_0_0) : Vec F S32768x55x4x4 .f32 → Vec F S32768x1x4x4 .f32),
    StableHlo.reshape main_v162 main_v163 rfl shapeCasts_S32768x1x4x4_S32768x4x4,
    StableHlo.binary main_v161 main_v163 main_v164 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v165 ((extractStridedSlice S32768x1x4x4 ![0, 48, 0, 0] · slices_S32768x55x4x4_S32768x1x4x4_0_48_0_0) : Vec F S32768x55x4x4 .f32 → Vec F S32768x1x4x4 .f32),
    StableHlo.reshape main_v165 main_v166 rfl shapeCasts_S32768x1x4x4_S32768x4x4,
    StableHlo.binary main_v164 main_v166 main_v167 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v168 ((extractStridedSlice S32768x1x4x4 ![0, 49, 0, 0] · slices_S32768x55x4x4_S32768x1x4x4_0_49_0_0) : Vec F S32768x55x4x4 .f32 → Vec F S32768x1x4x4 .f32),
    StableHlo.reshape main_v168 main_v169 rfl shapeCasts_S32768x1x4x4_S32768x4x4,
    StableHlo.binary main_v86 main_v169 main_v170 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v171 ((extractStridedSlice S32768x1x4x4 ![0, 50, 0, 0] · slices_S32768x55x4x4_S32768x1x4x4_0_50_0_0) : Vec F S32768x55x4x4 .f32 → Vec F S32768x1x4x4 .f32),
    StableHlo.reshape main_v171 main_v172 rfl shapeCasts_S32768x1x4x4_S32768x4x4,
    StableHlo.binary main_v170 main_v172 main_v173 ((fun l r => Host.dotGeneral dot_S32768x4x4_S32768x4x4_S32768x4x4_2_1_1_2_0_0 none l r) : Vec F S32768x4x4 .f32 → Vec F S32768x4x4 .f32 → Vec F S32768x4x4 .f32) ]

abbrev ops3 : List (HloOp τ sig (Elt F)) :=
  [ StableHlo.unary main_v21 main_v174 ((extractStridedSlice S32768x1x4x4 ![0, 51, 0, 0] · slices_S32768x55x4x4_S32768x1x4x4_0_51_0_0) : Vec F S32768x55x4x4 .f32 → Vec F S32768x1x4x4 .f32),
    StableHlo.reshape main_v174 main_v175 rfl shapeCasts_S32768x1x4x4_S32768x4x4,
    StableHlo.binary main_v173 main_v175 main_v176 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v177 ((extractStridedSlice S32768x1x4x4 ![0, 52, 0, 0] · slices_S32768x55x4x4_S32768x1x4x4_0_52_0_0) : Vec F S32768x55x4x4 .f32 → Vec F S32768x1x4x4 .f32),
    StableHlo.reshape main_v177 main_v178 rfl shapeCasts_S32768x1x4x4_S32768x4x4,
    StableHlo.binary main_v86 main_v178 main_v179 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v180 ((extractStridedSlice S32768x1x4x4 ![0, 53, 0, 0] · slices_S32768x55x4x4_S32768x1x4x4_0_53_0_0) : Vec F S32768x55x4x4 .f32 → Vec F S32768x1x4x4 .f32),
    StableHlo.reshape main_v180 main_v181 rfl shapeCasts_S32768x1x4x4_S32768x4x4,
    StableHlo.binary main_v179 main_v181 main_v182 ((fun l r => Host.dotGeneral dot_S32768x4x4_S32768x4x4_S32768x4x4_2_1_1_2_0_0 none l r) : Vec F S32768x4x4 .f32 → Vec F S32768x4x4 .f32 → Vec F S32768x4x4 .f32),
    StableHlo.unary main_v21 main_v183 ((extractStridedSlice S32768x1x4x4 ![0, 54, 0, 0] · slices_S32768x55x4x4_S32768x1x4x4_0_54_0_0) : Vec F S32768x55x4x4 .f32 → Vec F S32768x1x4x4 .f32),
    StableHlo.reshape main_v183 main_v184 rfl shapeCasts_S32768x1x4x4_S32768x4x4,
    StableHlo.binary main_v182 main_v184 main_v185 ((fun l r => Host.dotGeneral dot_S32768x4x4_S32768x4x4_S32768x4x4_2_1_1_2_0_0 none l r) : Vec F S32768x4x4 .f32 → Vec F S32768x4x4 .f32 → Vec F S32768x4x4 .f32),
    StableHlo.unary main_v23 main_v186 (broadcastInDim S32768x1x4x4 ![0, 2, 3] bcast_S32768x4x4_S32768x1x4x4_0_2_3 : Vec F S32768x4x4 .f32 → Vec F S32768x1x4x4 .f32),
    StableHlo.unary main_v26 main_v187 (broadcastInDim S32768x1x4x4 ![0, 2, 3] bcast_S32768x4x4_S32768x1x4x4_0_2_3 : Vec F S32768x4x4 .f32 → Vec F S32768x1x4x4 .f32),
    StableHlo.unary main_v29 main_v188 (broadcastInDim S32768x1x4x4 ![0, 2, 3] bcast_S32768x4x4_S32768x1x4x4_0_2_3 : Vec F S32768x4x4 .f32 → Vec F S32768x1x4x4 .f32),
    StableHlo.unary main_v32 main_v189 (broadcastInDim S32768x1x4x4 ![0, 2, 3] bcast_S32768x4x4_S32768x1x4x4_0_2_3 : Vec F S32768x4x4 .f32 → Vec F S32768x1x4x4 .f32),
    StableHlo.unary main_v35 main_v190 (broadcastInDim S32768x1x4x4 ![0, 2, 3] bcast_S32768x4x4_S32768x1x4x4_0_2_3 : Vec F S32768x4x4 .f32 → Vec F S32768x1x4x4 .f32),
    StableHlo.unary main_v38 main_v191 (broadcastInDim S32768x1x4x4 ![0, 2, 3] bcast_S32768x4x4_S32768x1x4x4_0_2_3 : Vec F S32768x4x4 .f32 → Vec F S32768x1x4x4 .f32),
    StableHlo.unary main_v41 main_v192 (broadcastInDim S32768x1x4x4 ![0, 2, 3] bcast_S32768x4x4_S32768x1x4x4_0_2_3 : Vec F S32768x4x4 .f32 → Vec F S32768x1x4x4 .f32),
    StableHlo.unary main_v44 main_v193 (broadcastInDim S32768x1x4x4 ![0, 2, 3] bcast_S32768x4x4_S32768x1x4x4_0_2_3 : Vec F S32768x4x4 .f32 → Vec F S32768x1x4x4 .f32),
    StableHlo.unary main_v47 main_v194 (broadcastInDim S32768x1x4x4 ![0, 2, 3] bcast_S32768x4x4_S32768x1x4x4_0_2_3 : Vec F S32768x4x4 .f32 → Vec F S32768x1x4x4 .f32),
    StableHlo.unary main_v50 main_v195 (broadcastInDim S32768x1x4x4 ![0, 2, 3] bcast_S32768x4x4_S32768x1x4x4_0_2_3 : Vec F S32768x4x4 .f32 → Vec F S32768x1x4x4 .f32),
    StableHlo.unary main_v53 main_v196 (broadcastInDim S32768x1x4x4 ![0, 2, 3] bcast_S32768x4x4_S32768x1x4x4_0_2_3 : Vec F S32768x4x4 .f32 → Vec F S32768x1x4x4 .f32),
    StableHlo.unary main_v56 main_v197 (broadcastInDim S32768x1x4x4 ![0, 2, 3] bcast_S32768x4x4_S32768x1x4x4_0_2_3 : Vec F S32768x4x4 .f32 → Vec F S32768x1x4x4 .f32),
    StableHlo.unary main_v59 main_v198 (broadcastInDim S32768x1x4x4 ![0, 2, 3] bcast_S32768x4x4_S32768x1x4x4_0_2_3 : Vec F S32768x4x4 .f32 → Vec F S32768x1x4x4 .f32),
    StableHlo.unary main_v62 main_v199 (broadcastInDim S32768x1x4x4 ![0, 2, 3] bcast_S32768x4x4_S32768x1x4x4_0_2_3 : Vec F S32768x4x4 .f32 → Vec F S32768x1x4x4 .f32),
    StableHlo.unary main_v65 main_v200 (broadcastInDim S32768x1x4x4 ![0, 2, 3] bcast_S32768x4x4_S32768x1x4x4_0_2_3 : Vec F S32768x4x4 .f32 → Vec F S32768x1x4x4 .f32),
    StableHlo.unary main_v68 main_v201 (broadcastInDim S32768x1x4x4 ![0, 2, 3] bcast_S32768x4x4_S32768x1x4x4_0_2_3 : Vec F S32768x4x4 .f32 → Vec F S32768x1x4x4 .f32),
    StableHlo.unary main_v71 main_v202 (broadcastInDim S32768x1x4x4 ![0, 2, 3] bcast_S32768x4x4_S32768x1x4x4_0_2_3 : Vec F S32768x4x4 .f32 → Vec F S32768x1x4x4 .f32),
    StableHlo.unary main_v74 main_v203 (broadcastInDim S32768x1x4x4 ![0, 2, 3] bcast_S32768x4x4_S32768x1x4x4_0_2_3 : Vec F S32768x4x4 .f32 → Vec F S32768x1x4x4 .f32),
    StableHlo.unary main_v77 main_v204 (broadcastInDim S32768x1x4x4 ![0, 2, 3] bcast_S32768x4x4_S32768x1x4x4_0_2_3 : Vec F S32768x4x4 .f32 → Vec F S32768x1x4x4 .f32),
    StableHlo.unary main_v80 main_v205 (broadcastInDim S32768x1x4x4 ![0, 2, 3] bcast_S32768x4x4_S32768x1x4x4_0_2_3 : Vec F S32768x4x4 .f32 → Vec F S32768x1x4x4 .f32),
    StableHlo.unary main_v83 main_v206 (broadcastInDim S32768x1x4x4 ![0, 2, 3] bcast_S32768x4x4_S32768x1x4x4_0_2_3 : Vec F S32768x4x4 .f32 → Vec F S32768x1x4x4 .f32),
    StableHlo.unary main_v86 main_v207 (broadcastInDim S32768x1x4x4 ![0, 2, 3] bcast_S32768x4x4_S32768x1x4x4_0_2_3 : Vec F S32768x4x4 .f32 → Vec F S32768x1x4x4 .f32),
    StableHlo.unary main_v89 main_v208 (broadcastInDim S32768x1x4x4 ![0, 2, 3] bcast_S32768x4x4_S32768x1x4x4_0_2_3 : Vec F S32768x4x4 .f32 → Vec F S32768x1x4x4 .f32),
    StableHlo.unary main_v92 main_v209 (broadcastInDim S32768x1x4x4 ![0, 2, 3] bcast_S32768x4x4_S32768x1x4x4_0_2_3 : Vec F S32768x4x4 .f32 → Vec F S32768x1x4x4 .f32),
    StableHlo.unary main_v95 main_v210 (broadcastInDim S32768x1x4x4 ![0, 2, 3] bcast_S32768x4x4_S32768x1x4x4_0_2_3 : Vec F S32768x4x4 .f32 → Vec F S32768x1x4x4 .f32),
    StableHlo.unary main_v98 main_v211 (broadcastInDim S32768x1x4x4 ![0, 2, 3] bcast_S32768x4x4_S32768x1x4x4_0_2_3 : Vec F S32768x4x4 .f32 → Vec F S32768x1x4x4 .f32),
    StableHlo.unary main_v101 main_v212 (broadcastInDim S32768x1x4x4 ![0, 2, 3] bcast_S32768x4x4_S32768x1x4x4_0_2_3 : Vec F S32768x4x4 .f32 → Vec F S32768x1x4x4 .f32),
    StableHlo.unary main_v104 main_v213 (broadcastInDim S32768x1x4x4 ![0, 2, 3] bcast_S32768x4x4_S32768x1x4x4_0_2_3 : Vec F S32768x4x4 .f32 → Vec F S32768x1x4x4 .f32),
    StableHlo.unary main_v107 main_v214 (broadcastInDim S32768x1x4x4 ![0, 2, 3] bcast_S32768x4x4_S32768x1x4x4_0_2_3 : Vec F S32768x4x4 .f32 → Vec F S32768x1x4x4 .f32),
    StableHlo.unary main_v110 main_v215 (broadcastInDim S32768x1x4x4 ![0, 2, 3] bcast_S32768x4x4_S32768x1x4x4_0_2_3 : Vec F S32768x4x4 .f32 → Vec F S32768x1x4x4 .f32),
    StableHlo.unary main_v113 main_v216 (broadcastInDim S32768x1x4x4 ![0, 2, 3] bcast_S32768x4x4_S32768x1x4x4_0_2_3 : Vec F S32768x4x4 .f32 → Vec F S32768x1x4x4 .f32),
    StableHlo.unary main_v116 main_v217 (broadcastInDim S32768x1x4x4 ![0, 2, 3] bcast_S32768x4x4_S32768x1x4x4_0_2_3 : Vec F S32768x4x4 .f32 → Vec F S32768x1x4x4 .f32),
    StableHlo.unary main_v119 main_v218 (broadcastInDim S32768x1x4x4 ![0, 2, 3] bcast_S32768x4x4_S32768x1x4x4_0_2_3 : Vec F S32768x4x4 .f32 → Vec F S32768x1x4x4 .f32),
    StableHlo.unary main_v122 main_v219 (broadcastInDim S32768x1x4x4 ![0, 2, 3] bcast_S32768x4x4_S32768x1x4x4_0_2_3 : Vec F S32768x4x4 .f32 → Vec F S32768x1x4x4 .f32),
    StableHlo.unary main_v125 main_v220 (broadcastInDim S32768x1x4x4 ![0, 2, 3] bcast_S32768x4x4_S32768x1x4x4_0_2_3 : Vec F S32768x4x4 .f32 → Vec F S32768x1x4x4 .f32),
    StableHlo.unary main_v128 main_v221 (broadcastInDim S32768x1x4x4 ![0, 2, 3] bcast_S32768x4x4_S32768x1x4x4_0_2_3 : Vec F S32768x4x4 .f32 → Vec F S32768x1x4x4 .f32),
    StableHlo.unary main_v131 main_v222 (broadcastInDim S32768x1x4x4 ![0, 2, 3] bcast_S32768x4x4_S32768x1x4x4_0_2_3 : Vec F S32768x4x4 .f32 → Vec F S32768x1x4x4 .f32),
    StableHlo.unary main_v134 main_v223 (broadcastInDim S32768x1x4x4 ![0, 2, 3] bcast_S32768x4x4_S32768x1x4x4_0_2_3 : Vec F S32768x4x4 .f32 → Vec F S32768x1x4x4 .f32),
    StableHlo.unary main_v137 main_v224 (broadcastInDim S32768x1x4x4 ![0, 2, 3] bcast_S32768x4x4_S32768x1x4x4_0_2_3 : Vec F S32768x4x4 .f32 → Vec F S32768x1x4x4 .f32),
    StableHlo.unary main_v140 main_v225 (broadcastInDim S32768x1x4x4 ![0, 2, 3] bcast_S32768x4x4_S32768x1x4x4_0_2_3 : Vec F S32768x4x4 .f32 → Vec F S32768x1x4x4 .f32),
    StableHlo.unary main_v143 main_v226 (broadcastInDim S32768x1x4x4 ![0, 2, 3] bcast_S32768x4x4_S32768x1x4x4_0_2_3 : Vec F S32768x4x4 .f32 → Vec F S32768x1x4x4 .f32),
    StableHlo.unary main_v146 main_v227 (broadcastInDim S32768x1x4x4 ![0, 2, 3] bcast_S32768x4x4_S32768x1x4x4_0_2_3 : Vec F S32768x4x4 .f32 → Vec F S32768x1x4x4 .f32),
    StableHlo.unary main_v149 main_v228 (broadcastInDim S32768x1x4x4 ![0, 2, 3] bcast_S32768x4x4_S32768x1x4x4_0_2_3 : Vec F S32768x4x4 .f32 → Vec F S32768x1x4x4 .f32),
    StableHlo.unary main_v152 main_v229 (broadcastInDim S32768x1x4x4 ![0, 2, 3] bcast_S32768x4x4_S32768x1x4x4_0_2_3 : Vec F S32768x4x4 .f32 → Vec F S32768x1x4x4 .f32),
    StableHlo.unary main_v155 main_v230 (broadcastInDim S32768x1x4x4 ![0, 2, 3] bcast_S32768x4x4_S32768x1x4x4_0_2_3 : Vec F S32768x4x4 .f32 → Vec F S32768x1x4x4 .f32),
    StableHlo.unary main_v158 main_v231 (broadcastInDim S32768x1x4x4 ![0, 2, 3] bcast_S32768x4x4_S32768x1x4x4_0_2_3 : Vec F S32768x4x4 .f32 → Vec F S32768x1x4x4 .f32),
    StableHlo.unary main_v161 main_v232 (broadcastInDim S32768x1x4x4 ![0, 2, 3] bcast_S32768x4x4_S32768x1x4x4_0_2_3 : Vec F S32768x4x4 .f32 → Vec F S32768x1x4x4 .f32),
    StableHlo.unary main_v164 main_v233 (broadcastInDim S32768x1x4x4 ![0, 2, 3] bcast_S32768x4x4_S32768x1x4x4_0_2_3 : Vec F S32768x4x4 .f32 → Vec F S32768x1x4x4 .f32) ]

abbrev ops4 : List (HloOp τ sig (Elt F)) :=
  [ StableHlo.unary main_v167 main_v234 (broadcastInDim S32768x1x4x4 ![0, 2, 3] bcast_S32768x4x4_S32768x1x4x4_0_2_3 : Vec F S32768x4x4 .f32 → Vec F S32768x1x4x4 .f32),
    StableHlo.unary main_v170 main_v235 (broadcastInDim S32768x1x4x4 ![0, 2, 3] bcast_S32768x4x4_S32768x1x4x4_0_2_3 : Vec F S32768x4x4 .f32 → Vec F S32768x1x4x4 .f32),
    StableHlo.unary main_v173 main_v236 (broadcastInDim S32768x1x4x4 ![0, 2, 3] bcast_S32768x4x4_S32768x1x4x4_0_2_3 : Vec F S32768x4x4 .f32 → Vec F S32768x1x4x4 .f32),
    StableHlo.unary main_v176 main_v237 (broadcastInDim S32768x1x4x4 ![0, 2, 3] bcast_S32768x4x4_S32768x1x4x4_0_2_3 : Vec F S32768x4x4 .f32 → Vec F S32768x1x4x4 .f32),
    StableHlo.unary main_v179 main_v238 (broadcastInDim S32768x1x4x4 ![0, 2, 3] bcast_S32768x4x4_S32768x1x4x4_0_2_3 : Vec F S32768x4x4 .f32 → Vec F S32768x1x4x4 .f32),
    StableHlo.unary main_v182 main_v239 (broadcastInDim S32768x1x4x4 ![0, 2, 3] bcast_S32768x4x4_S32768x1x4x4_0_2_3 : Vec F S32768x4x4 .f32 → Vec F S32768x1x4x4 .f32),
    StableHlo.unary main_v185 main_v240 (broadcastInDim S32768x1x4x4 ![0, 2, 3] bcast_S32768x4x4_S32768x1x4x4_0_2_3 : Vec F S32768x4x4 .f32 → Vec F S32768x1x4x4 .f32),
    StableHlo.nary ![main_v186, main_v187, main_v188, main_v189, main_v190, main_v191, main_v192, main_v193, main_v194, main_v195, main_v196, main_v197, main_v198, main_v199, main_v200, main_v201] main_v241 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    StableHlo.nary ![main_v202, main_v203, main_v204, main_v205, main_v206, main_v207, main_v208, main_v209, main_v210, main_v211, main_v212, main_v213, main_v214, main_v215, main_v216, main_v217] main_v242 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    StableHlo.nary ![main_v218, main_v219, main_v220, main_v221, main_v222, main_v223, main_v224, main_v225, main_v226, main_v227, main_v228, main_v229, main_v230, main_v231, main_v232, main_v233] main_v243 (fun u => concatenate S32768x16x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩, ⟨S32768x1x4x4, u 7⟩, ⟨S32768x1x4x4, u 8⟩, ⟨S32768x1x4x4, u 9⟩, ⟨S32768x1x4x4, u 10⟩, ⟨S32768x1x4x4, u 11⟩, ⟨S32768x1x4x4, u 12⟩, ⟨S32768x1x4x4, u 13⟩, ⟨S32768x1x4x4, u 14⟩, ⟨S32768x1x4x4, u 15⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1),
    StableHlo.nary ![main_v234, main_v235, main_v236, main_v237, main_v238, main_v239, main_v240] main_v244 (fun u => concatenate S32768x7x4x4 1 [⟨S32768x1x4x4, u 0⟩, ⟨S32768x1x4x4, u 1⟩, ⟨S32768x1x4x4, u 2⟩, ⟨S32768x1x4x4, u 3⟩, ⟨S32768x1x4x4, u 4⟩, ⟨S32768x1x4x4, u 5⟩, ⟨S32768x1x4x4, u 6⟩] concatenates_S32768x1x4x4_S32768x1x4x4_S32768x1x4x4_S32768x1x4x4_S32768x1x4x4_S32768x1x4x4_S32768x1x4x4_S32768x7x4x4_d1),
    StableHlo.nary ![main_v241, main_v242, main_v243, main_v244] main_v245 (fun u => concatenate S32768x55x4x4 1 [⟨S32768x16x4x4, u 0⟩, ⟨S32768x16x4x4, u 1⟩, ⟨S32768x16x4x4, u 2⟩, ⟨S32768x7x4x4, u 3⟩] concatenates_S32768x16x4x4_S32768x16x4x4_S32768x16x4x4_S32768x7x4x4_S32768x55x4x4_d1),
    StableHlo.unary main_v245 main_v246 ((extractStridedSlice S32768x55x3x1 ![0, 0, 0, 3] · slices_S32768x55x4x4_S32768x55x3x1_0_0_0_3) : Vec F S32768x55x4x4 .f32 → Vec F S32768x55x3x1 .f32),
    StableHlo.reshape main_v246 main_v247 rfl shapeCasts_S32768x55x3x1_S32768x55x3,
    StableHlo.reshape main_v247 main_v248 rfl shapeCasts_S32768x55x3_S16x2048x55x3 ]

end Cert.FK.Ref

end
-- ==== Proof.RefStages.lean ====
import proofs.«134826_j18760417149409_1_alg».proof.Proof.Gen.ReferenceIdeal
import Idealize.ShloMosaic.Lib.StableHlo.Run

set_option maxRecDepth 16384

noncomputable section

namespace Cert.FK.Ref

open Cert.ReferenceIdeal Cert.ReferenceIdeal.Gen Idealize.ShloMosaic Idealize.ShloMosaic.TcCoe Idealize.SL.Sem

variable {F : FTy → Type} [FloatOps F]

def s_c (M : Vec F S16x2048x22x3x3 .f32) (J : Vec F S55x3 .f32) : Vec F S54 .i32 :=
  (fun i => lit0 (S54.rowMajor i))

def s_c_0 (M : Vec F S16x2048x22x3x3 .f32) (J : Vec F S55x3 .f32) : Vec F S54 .i1 :=
  (constantI S54 1 0#1)

def s_cst (M : Vec F S16x2048x22x3x3 .f32) (J : Vec F S55x3 .f32) : Vec F S4 .f32 :=
  (fun i => FloatOps.ofBits .f32 (lit1 (S4.rowMajor i)))

def s_v0 (M : Vec F S16x2048x22x3x3 .f32) (J : Vec F S55x3 .f32) : Vec F S32768x22x3x3 .f32 :=
  shapeCast S32768x22x3x3 M shapeCasts_S16x2048x22x3x3_S32768x22x3x3

def s_v1 (M : Vec F S16x2048x22x3x3 .f32) (J : Vec F S55x3 .f32) : Vec F S3x3 .i32 :=
  (iotaInDim S3x3 32 0)

def s_v2 (M : Vec F S16x2048x22x3x3 .f32) (J : Vec F S55x3 .f32) : Vec F S3x3 .i32 :=
  (iotaInDim S3x3 32 1)

def s_c_1 (M : Vec F S16x2048x22x3x3 .f32) (J : Vec F S55x3 .f32) : Vec F S_ .i32 :=
  (constantI S_ 32 0#32)

def s_v3 (M : Vec F S16x2048x22x3x3 .f32) (J : Vec F S55x3 .f32) : Vec F S3x3 .i32 :=
  (broadcastInDim S3x3 ![] bcast_S_S3x3 : Vec F S_ .i32 → Vec F S3x3 .i32) (s_c_1 M J)

def s_v4 (M : Vec F S16x2048x22x3x3 .f32) (J : Vec F S55x3 .f32) : Vec F S3x3 .i32 :=
  (addi : Vec F S3x3 .i32 → Vec F S3x3 .i32 → Vec F S3x3 .i32) (s_v1 M J) (s_v3 M J)

def s_v5 (M : Vec F S16x2048x22x3x3 .f32) (J : Vec F S55x3 .f32) : Vec F S3x3 .i1 :=
  (cmpi .eq : Vec F S3x3 .i32 → Vec F S3x3 .i32 → Vec F S3x3 .i1) (s_v4 M J) (s_v2 M J)

def s_v6 (M : Vec F S16x2048x22x3x3 .f32) (J : Vec F S55x3 .f32) : Vec F S3x3 .f32 :=
  (uitofp .f32 : Vec F S3x3 .i1 → Vec F S3x3 .f32) (s_v5 M J)

def s_v7 (M : Vec F S16x2048x22x3x3 .f32) (J : Vec F S55x3 .f32) : Vec F S32768x33x3x3 .f32 :=
  (broadcastInDim S32768x33x3x3 ![2, 3] bcast_S3x3_S32768x33x3x3_2_3 : Vec F S3x3 .f32 → Vec F S32768x33x3x3 .f32) (s_v6 M J)

def s_v8 (M : Vec F S16x2048x22x3x3 .f32) (J : Vec F S55x3 .f32) : Vec F S32768x55x3x3 .f32 :=
  ((fun a b => concatenate S32768x55x3x3 1 [⟨S32768x22x3x3, a⟩, ⟨S32768x33x3x3, b⟩] concatenates_S32768x22x3x3_S32768x33x3x3_S32768x55x3x3_d1) : Vec F S32768x22x3x3 .f32 → Vec F S32768x33x3x3 .f32 → Vec F S32768x55x3x3 .f32) (s_v0 M J) (s_v7 M J)

def s_v9 (M : Vec F S16x2048x22x3x3 .f32) (J : Vec F S55x3 .f32) : Vec F S32768x55x3 .f32 :=
  (broadcastInDim S32768x55x3 ![1, 2] bcast_S55x3_S32768x55x3_1_2 : Vec F S55x3 .f32 → Vec F S32768x55x3 .f32) J

def s_c_2 (M : Vec F S16x2048x22x3x3 .f32) (J : Vec F S55x3 .f32) : Vec F S_ .i32 :=
  (constantI S_ 32 55#32)

def s_v10 (M : Vec F S16x2048x22x3x3 .f32) (J : Vec F S55x3 .f32) : Vec F S54 .i32 :=
  (broadcastInDim S54 ![] bcast_S_S54 : Vec F S_ .i32 → Vec F S54 .i32) (s_c_2 M J)

def s_v11 (M : Vec F S16x2048x22x3x3 .f32) (J : Vec F S55x3 .f32) : Vec F S54 .i32 :=
  (addi : Vec F S54 .i32 → Vec F S54 .i32 → Vec F S54 .i32) (s_c M J) (s_v10 M J)

def s_v12 (M : Vec F S16x2048x22x3x3 .f32) (J : Vec F S55x3 .f32) : Vec F S54 .i32 :=
  (select : Vec F S54 .i1 → Vec F S54 .i32 → Vec F S54 .i32 → Vec F S54 .i32) (s_c_0 M J) (s_v11 M J) (s_c M J)

def s_v13 (M : Vec F S16x2048x22x3x3 .f32) (J : Vec F S55x3 .f32) : Vec F S54x1 .i32 :=
  (broadcastInDim S54x1 ![0] bcast_S54_S54x1_0 : Vec F S54 .i32 → Vec F S54x1 .i32) (s_v12 M J)

def s_v14 (M : Vec F S16x2048x22x3x3 .f32) (J : Vec F S55x3 .f32) : Vec F S32768x54x3 .f32 :=
  ((fun x i => Host.gather gather_S32768x55x3_S54x1_S32768x54x3_02_1_n_n_1_1_3276813 x i) : Vec F S32768x55x3 .f32 → Vec F S54x1 .i32 → Vec F S32768x54x3 .f32) (s_v9 M J) (s_v13 M J)

def s_v15 (M : Vec F S16x2048x22x3x3 .f32) (J : Vec F S55x3 .f32) : Vec F S32768x54x3 .f32 :=
  (Host.negf : Vec F S32768x54x3 .f32 → Vec F S32768x54x3 .f32) (s_v14 M J)

def s_c_3 (M : Vec F S16x2048x22x3x3 .f32) (J : Vec F S55x3 .f32) : Vec F S_ .i32 :=
  (constantI S_ 32 1#32)

def s_v16 (M : Vec F S16x2048x22x3x3 .f32) (J : Vec F S55x3 .f32) : Vec F S1 .i32 :=
  (broadcastInDim S1 ![] bcast_S_S1 : Vec F S_ .i32 → Vec F S1 .i32) (s_c_3 M J)

def s_v17 (M : Vec F S16x2048x22x3x3 .f32) (J : Vec F S55x3 .f32) : Vec F S32768x55x3 .f32 :=
  ((fun x i u => Host.scatter scatter_S32768x55x3_S1_S32768x54x3_012_n_1_0 FloatOps.addf x i u) : Vec F S32768x55x3 .f32 → Vec F S1 .i32 → Vec F S32768x54x3 .f32 → Vec F S32768x55x3 .f32) (s_v9 M J) (s_v16 M J) (s_v15 M J)

def s_v18 (M : Vec F S16x2048x22x3x3 .f32) (J : Vec F S55x3 .f32) : Vec F S32768x55x3x1 .f32 :=
  (broadcastInDim S32768x55x3x1 ![0, 1, 2] bcast_S32768x55x3_S32768x55x3x1_0_1_2 : Vec F S32768x55x3 .f32 → Vec F S32768x55x3x1 .f32) (s_v17 M J)

def s_v19 (M : Vec F S16x2048x22x3x3 .f32) (J : Vec F S55x3 .f32) : Vec F S32768x55x3x4 .f32 :=
  ((fun a b => concatenate S32768x55x3x4 3 [⟨S32768x55x3x3, a⟩, ⟨S32768x55x3x1, b⟩] concatenates_S32768x55x3x3_S32768x55x3x1_S32768x55x3x4_d3) : Vec F S32768x55x3x3 .f32 → Vec F S32768x55x3x1 .f32 → Vec F S32768x55x3x4 .f32) (s_v8 M J) (s_v18 M J)

def s_v20 (M : Vec F S16x2048x22x3x3 .f32) (J : Vec F S55x3 .f32) : Vec F S32768x55x1x4 .f32 :=
  (broadcastInDim S32768x55x1x4 ![3] bcast_S4_S32768x55x1x4_3 : Vec F S4 .f32 → Vec F S32768x55x1x4 .f32) (s_cst M J)

def s_v21 (M : Vec F S16x2048x22x3x3 .f32) (J : Vec F S55x3 .f32) : Vec F S32768x55x4x4 .f32 :=
  ((fun a b => concatenate S32768x55x4x4 2 [⟨S32768x55x3x4, a⟩, ⟨S32768x55x1x4, b⟩] concatenates_S32768x55x3x4_S32768x55x1x4_S32768x55x4x4_d2) : Vec F S32768x55x3x4 .f32 → Vec F S32768x55x1x4 .f32 → Vec F S32768x55x4x4 .f32) (s_v19 M J) (s_v20 M J)

def s_v22 (M : Vec F S16x2048x22x3x3 .f32) (J : Vec F S55x3 .f32) : Vec F S32768x1x4x4 .f32 :=
  ((extractStridedSlice S32768x1x4x4 ![0, 0, 0, 0] · slices_S32768x55x4x4_S32768x1x4x4_0_0_0_0) : Vec F S32768x55x4x4 .f32 → Vec F S32768x1x4x4 .f32) (s_v21 M J)

def s_v23 (M : Vec F S16x2048x22x3x3 .f32) (J : Vec F S55x3 .f32) : Vec F S32768x4x4 .f32 :=
  shapeCast S32768x4x4 (s_v22 M J) shapeCasts_S32768x1x4x4_S32768x4x4

def s_v24 (M : Vec F S16x2048x22x3x3 .f32) (J : Vec F S55x3 .f32) : Vec F S32768x1x4x4 .f32 :=
  ((extractStridedSlice S32768x1x4x4 ![0, 1, 0, 0] · slices_S32768x55x4x4_S32768x1x4x4_0_1_0_0) : Vec F S32768x55x4x4 .f32 → Vec F S32768x1x4x4 .f32) (s_v21 M J)

def s_v25 (M : Vec F S16x2048x22x3x3 .f32) (J : Vec F S55x3 .f32) : Vec F S32768x4x4 .f32 :=
  shapeCast S32768x4x4 (s_v24 M J) shapeCasts_S32768x1x4x4_S32768x4x4

def s_v26 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v23 M J) (s_v25 M J)

def s_v27 (M : Vec F S16x2048x22x3x3 .f32) (J : Vec F S55x3 .f32) : Vec F S32768x1x4x4 .f32 :=
  ((extractStridedSlice S32768x1x4x4 ![0, 2, 0, 0] · slices_S32768x55x4x4_S32768x1x4x4_0_2_0_0) : Vec F S32768x55x4x4 .f32 → Vec F S32768x1x4x4 .f32) (s_v21 M J)

def s_v28 (M : Vec F S16x2048x22x3x3 .f32) (J : Vec F S55x3 .f32) : Vec F S32768x4x4 .f32 :=
  shapeCast S32768x4x4 (s_v27 M J) shapeCasts_S32768x1x4x4_S32768x4x4

def s_v29 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v23 M J) (s_v28 M J)

def s_v30 (M : Vec F S16x2048x22x3x3 .f32) (J : Vec F S55x3 .f32) : Vec F S32768x1x4x4 .f32 :=
  ((extractStridedSlice S32768x1x4x4 ![0, 3, 0, 0] · slices_S32768x55x4x4_S32768x1x4x4_0_3_0_0) : Vec F S32768x55x4x4 .f32 → Vec F S32768x1x4x4 .f32) (s_v21 M J)

def s_v31 (M : Vec F S16x2048x22x3x3 .f32) (J : Vec F S55x3 .f32) : Vec F S32768x4x4 .f32 :=
  shapeCast S32768x4x4 (s_v30 M J) shapeCasts_S32768x1x4x4_S32768x4x4

def s_v32 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v23 M J) (s_v31 M J)

def s_v33 (M : Vec F S16x2048x22x3x3 .f32) (J : Vec F S55x3 .f32) : Vec F S32768x1x4x4 .f32 :=
  ((extractStridedSlice S32768x1x4x4 ![0, 4, 0, 0] · slices_S32768x55x4x4_S32768x1x4x4_0_4_0_0) : Vec F S32768x55x4x4 .f32 → Vec F S32768x1x4x4 .f32) (s_v21 M J)

def s_v34 (M : Vec F S16x2048x22x3x3 .f32) (J : Vec F S55x3 .f32) : Vec F S32768x4x4 .f32 :=
  shapeCast S32768x4x4 (s_v33 M J) shapeCasts_S32768x1x4x4_S32768x4x4

def s_v35 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v26 M J) (s_v34 M J)

def s_v36 (M : Vec F S16x2048x22x3x3 .f32) (J : Vec F S55x3 .f32) : Vec F S32768x1x4x4 .f32 :=
  ((extractStridedSlice S32768x1x4x4 ![0, 5, 0, 0] · slices_S32768x55x4x4_S32768x1x4x4_0_5_0_0) : Vec F S32768x55x4x4 .f32 → Vec F S32768x1x4x4 .f32) (s_v21 M J)

def s_v37 (M : Vec F S16x2048x22x3x3 .f32) (J : Vec F S55x3 .f32) : Vec F S32768x4x4 .f32 :=
  shapeCast S32768x4x4 (s_v36 M J) shapeCasts_S32768x1x4x4_S32768x4x4

def s_v38 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v29 M J) (s_v37 M J)

def s_v39 (M : Vec F S16x2048x22x3x3 .f32) (J : Vec F S55x3 .f32) : Vec F S32768x1x4x4 .f32 :=
  ((extractStridedSlice S32768x1x4x4 ![0, 6, 0, 0] · slices_S32768x55x4x4_S32768x1x4x4_0_6_0_0) : Vec F S32768x55x4x4 .f32 → Vec F S32768x1x4x4 .f32) (s_v21 M J)

def s_v40 (M : Vec F S16x2048x22x3x3 .f32) (J : Vec F S55x3 .f32) : Vec F S32768x4x4 .f32 :=
  shapeCast S32768x4x4 (s_v39 M J) shapeCasts_S32768x1x4x4_S32768x4x4

def s_v41 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v32 M J) (s_v40 M J)

def s_v42 (M : Vec F S16x2048x22x3x3 .f32) (J : Vec F S55x3 .f32) : Vec F S32768x1x4x4 .f32 :=
  ((extractStridedSlice S32768x1x4x4 ![0, 7, 0, 0] · slices_S32768x55x4x4_S32768x1x4x4_0_7_0_0) : Vec F S32768x55x4x4 .f32 → Vec F S32768x1x4x4 .f32) (s_v21 M J)

def s_v43 (M : Vec F S16x2048x22x3x3 .f32) (J : Vec F S55x3 .f32) : Vec F S32768x4x4 .f32 :=
  shapeCast S32768x4x4 (s_v42 M J) shapeCasts_S32768x1x4x4_S32768x4x4

def s_v44 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v35 M J) (s_v43 M J)

def s_v45 (M : Vec F S16x2048x22x3x3 .f32) (J : Vec F S55x3 .f32) : Vec F S32768x1x4x4 .f32 :=
  ((extractStridedSlice S32768x1x4x4 ![0, 8, 0, 0] · slices_S32768x55x4x4_S32768x1x4x4_0_8_0_0) : Vec F S32768x55x4x4 .f32 → Vec F S32768x1x4x4 .f32) (s_v21 M J)

def s_v46 (M : Vec F S16x2048x22x3x3 .f32) (J : Vec F S55x3 .f32) : Vec F S32768x4x4 .f32 :=
  shapeCast S32768x4x4 (s_v45 M J) shapeCasts_S32768x1x4x4_S32768x4x4

def s_v47 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v38 M J) (s_v46 M J)

def s_v48 (M : Vec F S16x2048x22x3x3 .f32) (J : Vec F S55x3 .f32) : Vec F S32768x1x4x4 .f32 :=
  ((extractStridedSlice S32768x1x4x4 ![0, 9, 0, 0] · slices_S32768x55x4x4_S32768x1x4x4_0_9_0_0) : Vec F S32768x55x4x4 .f32 → Vec F S32768x1x4x4 .f32) (s_v21 M J)

def s_v49 (M : Vec F S16x2048x22x3x3 .f32) (J : Vec F S55x3 .f32) : Vec F S32768x4x4 .f32 :=
  shapeCast S32768x4x4 (s_v48 M J) shapeCasts_S32768x1x4x4_S32768x4x4

def s_v50 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v41 M J) (s_v49 M J)

def s_v51 (M : Vec F S16x2048x22x3x3 .f32) (J : Vec F S55x3 .f32) : Vec F S32768x1x4x4 .f32 :=
  ((extractStridedSlice S32768x1x4x4 ![0, 10, 0, 0] · slices_S32768x55x4x4_S32768x1x4x4_0_10_0_0) : Vec F S32768x55x4x4 .f32 → Vec F S32768x1x4x4 .f32) (s_v21 M J)

def s_v52 (M : Vec F S16x2048x22x3x3 .f32) (J : Vec F S55x3 .f32) : Vec F S32768x4x4 .f32 :=
  shapeCast S32768x4x4 (s_v51 M J) shapeCasts_S32768x1x4x4_S32768x4x4

def s_v53 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v44 M J) (s_v52 M J)

def s_v54 (M : Vec F S16x2048x22x3x3 .f32) (J : Vec F S55x3 .f32) : Vec F S32768x1x4x4 .f32 :=
  ((extractStridedSlice S32768x1x4x4 ![0, 11, 0, 0] · slices_S32768x55x4x4_S32768x1x4x4_0_11_0_0) : Vec F S32768x55x4x4 .f32 → Vec F S32768x1x4x4 .f32) (s_v21 M J)

def s_v55 (M : Vec F S16x2048x22x3x3 .f32) (J : Vec F S55x3 .f32) : Vec F S32768x4x4 .f32 :=
  shapeCast S32768x4x4 (s_v54 M J) shapeCasts_S32768x1x4x4_S32768x4x4

def s_v56 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v47 M J) (s_v55 M J)

def s_v57 (M : Vec F S16x2048x22x3x3 .f32) (J : Vec F S55x3 .f32) : Vec F S32768x1x4x4 .f32 :=
  ((extractStridedSlice S32768x1x4x4 ![0, 12, 0, 0] · slices_S32768x55x4x4_S32768x1x4x4_0_12_0_0) : Vec F S32768x55x4x4 .f32 → Vec F S32768x1x4x4 .f32) (s_v21 M J)

def s_v58 (M : Vec F S16x2048x22x3x3 .f32) (J : Vec F S55x3 .f32) : Vec F S32768x4x4 .f32 :=
  shapeCast S32768x4x4 (s_v57 M J) shapeCasts_S32768x1x4x4_S32768x4x4

def s_v59 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v50 M J) (s_v58 M J)

def s_v60 (M : Vec F S16x2048x22x3x3 .f32) (J : Vec F S55x3 .f32) : Vec F S32768x1x4x4 .f32 :=
  ((extractStridedSlice S32768x1x4x4 ![0, 13, 0, 0] · slices_S32768x55x4x4_S32768x1x4x4_0_13_0_0) : Vec F S32768x55x4x4 .f32 → Vec F S32768x1x4x4 .f32) (s_v21 M J)

def s_v61 (M : Vec F S16x2048x22x3x3 .f32) (J : Vec F S55x3 .f32) : Vec F S32768x4x4 .f32 :=
  shapeCast S32768x4x4 (s_v60 M J) shapeCasts_S32768x1x4x4_S32768x4x4

def s_v62 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v50 M J) (s_v61 M J)

def s_v63 (M : Vec F S16x2048x22x3x3 .f32) (J : Vec F S55x3 .f32) : Vec F S32768x1x4x4 .f32 :=
  ((extractStridedSlice S32768x1x4x4 ![0, 14, 0, 0] · slices_S32768x55x4x4_S32768x1x4x4_0_14_0_0) : Vec F S32768x55x4x4 .f32 → Vec F S32768x1x4x4 .f32) (s_v21 M J)

def s_v64 (M : Vec F S16x2048x22x3x3 .f32) (J : Vec F S55x3 .f32) : Vec F S32768x4x4 .f32 :=
  shapeCast S32768x4x4 (s_v63 M J) shapeCasts_S32768x1x4x4_S32768x4x4

def s_v65 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v50 M J) (s_v64 M J)

def s_v66 (M : Vec F S16x2048x22x3x3 .f32) (J : Vec F S55x3 .f32) : Vec F S32768x1x4x4 .f32 :=
  ((extractStridedSlice S32768x1x4x4 ![0, 15, 0, 0] · slices_S32768x55x4x4_S32768x1x4x4_0_15_0_0) : Vec F S32768x55x4x4 .f32 → Vec F S32768x1x4x4 .f32) (s_v21 M J)

def s_v67 (M : Vec F S16x2048x22x3x3 .f32) (J : Vec F S55x3 .f32) : Vec F S32768x4x4 .f32 :=
  shapeCast S32768x4x4 (s_v66 M J) shapeCasts_S32768x1x4x4_S32768x4x4

def s_v68 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v59 M J) (s_v67 M J)

def s_v69 (M : Vec F S16x2048x22x3x3 .f32) (J : Vec F S55x3 .f32) : Vec F S32768x1x4x4 .f32 :=
  ((extractStridedSlice S32768x1x4x4 ![0, 16, 0, 0] · slices_S32768x55x4x4_S32768x1x4x4_0_16_0_0) : Vec F S32768x55x4x4 .f32 → Vec F S32768x1x4x4 .f32) (s_v21 M J)

def s_v70 (M : Vec F S16x2048x22x3x3 .f32) (J : Vec F S55x3 .f32) : Vec F S32768x4x4 .f32 :=
  shapeCast S32768x4x4 (s_v69 M J) shapeCasts_S32768x1x4x4_S32768x4x4

def s_v71 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v62 M J) (s_v70 M J)

def s_v72 (M : Vec F S16x2048x22x3x3 .f32) (J : Vec F S55x3 .f32) : Vec F S32768x1x4x4 .f32 :=
  ((extractStridedSlice S32768x1x4x4 ![0, 17, 0, 0] · slices_S32768x55x4x4_S32768x1x4x4_0_17_0_0) : Vec F S32768x55x4x4 .f32 → Vec F S32768x1x4x4 .f32) (s_v21 M J)

def s_v73 (M : Vec F S16x2048x22x3x3 .f32) (J : Vec F S55x3 .f32) : Vec F S32768x4x4 .f32 :=
  shapeCast S32768x4x4 (s_v72 M J) shapeCasts_S32768x1x4x4_S32768x4x4

def s_v74 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v65 M J) (s_v73 M J)

def s_v75 (M : Vec F S16x2048x22x3x3 .f32) (J : Vec F S55x3 .f32) : Vec F S32768x1x4x4 .f32 :=
  ((extractStridedSlice S32768x1x4x4 ![0, 18, 0, 0] · slices_S32768x55x4x4_S32768x1x4x4_0_18_0_0) : Vec F S32768x55x4x4 .f32 → Vec F S32768x1x4x4 .f32) (s_v21 M J)

def s_v76 (M : Vec F S16x2048x22x3x3 .f32) (J : Vec F S55x3 .f32) : Vec F S32768x4x4 .f32 :=
  shapeCast S32768x4x4 (s_v75 M J) shapeCasts_S32768x1x4x4_S32768x4x4

def s_v77 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v71 M J) (s_v76 M J)

def s_v78 (M : Vec F S16x2048x22x3x3 .f32) (J : Vec F S55x3 .f32) : Vec F S32768x1x4x4 .f32 :=
  ((extractStridedSlice S32768x1x4x4 ![0, 19, 0, 0] · slices_S32768x55x4x4_S32768x1x4x4_0_19_0_0) : Vec F S32768x55x4x4 .f32 → Vec F S32768x1x4x4 .f32) (s_v21 M J)

def s_v79 (M : Vec F S16x2048x22x3x3 .f32) (J : Vec F S55x3 .f32) : Vec F S32768x4x4 .f32 :=
  shapeCast S32768x4x4 (s_v78 M J) shapeCasts_S32768x1x4x4_S32768x4x4

def s_v80 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v74 M J) (s_v79 M J)

def s_v81 (M : Vec F S16x2048x22x3x3 .f32) (J : Vec F S55x3 .f32) : Vec F S32768x1x4x4 .f32 :=
  ((extractStridedSlice S32768x1x4x4 ![0, 20, 0, 0] · slices_S32768x55x4x4_S32768x1x4x4_0_20_0_0) : Vec F S32768x55x4x4 .f32 → Vec F S32768x1x4x4 .f32) (s_v21 M J)

def s_v82 (M : Vec F S16x2048x22x3x3 .f32) (J : Vec F S55x3 .f32) : Vec F S32768x4x4 .f32 :=
  shapeCast S32768x4x4 (s_v81 M J) shapeCasts_S32768x1x4x4_S32768x4x4

def s_v83 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v77 M J) (s_v82 M J)

def s_v84 (M : Vec F S16x2048x22x3x3 .f32) (J : Vec F S55x3 .f32) : Vec F S32768x1x4x4 .f32 :=
  ((extractStridedSlice S32768x1x4x4 ![0, 21, 0, 0] · slices_S32768x55x4x4_S32768x1x4x4_0_21_0_0) : Vec F S32768x55x4x4 .f32 → Vec F S32768x1x4x4 .f32) (s_v21 M J)

def s_v85 (M : Vec F S16x2048x22x3x3 .f32) (J : Vec F S55x3 .f32) : Vec F S32768x4x4 .f32 :=
  shapeCast S32768x4x4 (s_v84 M J) shapeCasts_S32768x1x4x4_S32768x4x4

def s_v86 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v80 M J) (s_v85 M J)

def s_v87 (M : Vec F S16x2048x22x3x3 .f32) (J : Vec F S55x3 .f32) : Vec F S32768x1x4x4 .f32 :=
  ((extractStridedSlice S32768x1x4x4 ![0, 22, 0, 0] · slices_S32768x55x4x4_S32768x1x4x4_0_22_0_0) : Vec F S32768x55x4x4 .f32 → Vec F S32768x1x4x4 .f32) (s_v21 M J)

def s_v88 (M : Vec F S16x2048x22x3x3 .f32) (J : Vec F S55x3 .f32) : Vec F S32768x4x4 .f32 :=
  shapeCast S32768x4x4 (s_v87 M J) shapeCasts_S32768x1x4x4_S32768x4x4

def s_v89 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v68 M J) (s_v88 M J)

def s_v90 (M : Vec F S16x2048x22x3x3 .f32) (J : Vec F S55x3 .f32) : Vec F S32768x1x4x4 .f32 :=
  ((extractStridedSlice S32768x1x4x4 ![0, 23, 0, 0] · slices_S32768x55x4x4_S32768x1x4x4_0_23_0_0) : Vec F S32768x55x4x4 .f32 → Vec F S32768x1x4x4 .f32) (s_v21 M J)

def s_v91 (M : Vec F S16x2048x22x3x3 .f32) (J : Vec F S55x3 .f32) : Vec F S32768x4x4 .f32 :=
  shapeCast S32768x4x4 (s_v90 M J) shapeCasts_S32768x1x4x4_S32768x4x4

def s_v92 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v68 M J) (s_v91 M J)

def s_v93 (M : Vec F S16x2048x22x3x3 .f32) (J : Vec F S55x3 .f32) : Vec F S32768x1x4x4 .f32 :=
  ((extractStridedSlice S32768x1x4x4 ![0, 24, 0, 0] · slices_S32768x55x4x4_S32768x1x4x4_0_24_0_0) : Vec F S32768x55x4x4 .f32 → Vec F S32768x1x4x4 .f32) (s_v21 M J)

def s_v94 (M : Vec F S16x2048x22x3x3 .f32) (J : Vec F S55x3 .f32) : Vec F S32768x4x4 .f32 :=
  shapeCast S32768x4x4 (s_v93 M J) shapeCasts_S32768x1x4x4_S32768x4x4

def s_v95 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v68 M J) (s_v94 M J)

def s_v96 (M : Vec F S16x2048x22x3x3 .f32) (J : Vec F S55x3 .f32) : Vec F S32768x1x4x4 .f32 :=
  ((extractStridedSlice S32768x1x4x4 ![0, 25, 0, 0] · slices_S32768x55x4x4_S32768x1x4x4_0_25_0_0) : Vec F S32768x55x4x4 .f32 → Vec F S32768x1x4x4 .f32) (s_v21 M J)

def s_v97 (M : Vec F S16x2048x22x3x3 .f32) (J : Vec F S55x3 .f32) : Vec F S32768x4x4 .f32 :=
  shapeCast S32768x4x4 (s_v96 M J) shapeCasts_S32768x1x4x4_S32768x4x4

def s_v98 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v83 M J) (s_v97 M J)

def s_v99 (M : Vec F S16x2048x22x3x3 .f32) (J : Vec F S55x3 .f32) : Vec F S32768x1x4x4 .f32 :=
  ((extractStridedSlice S32768x1x4x4 ![0, 26, 0, 0] · slices_S32768x55x4x4_S32768x1x4x4_0_26_0_0) : Vec F S32768x55x4x4 .f32 → Vec F S32768x1x4x4 .f32) (s_v21 M J)

def s_v100 (M : Vec F S16x2048x22x3x3 .f32) (J : Vec F S55x3 .f32) : Vec F S32768x4x4 .f32 :=
  shapeCast S32768x4x4 (s_v99 M J) shapeCasts_S32768x1x4x4_S32768x4x4

def s_v101 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v98 M J) (s_v100 M J)

def s_v102 (M : Vec F S16x2048x22x3x3 .f32) (J : Vec F S55x3 .f32) : Vec F S32768x1x4x4 .f32 :=
  ((extractStridedSlice S32768x1x4x4 ![0, 27, 0, 0] · slices_S32768x55x4x4_S32768x1x4x4_0_27_0_0) : Vec F S32768x55x4x4 .f32 → Vec F S32768x1x4x4 .f32) (s_v21 M J)

def s_v103 (M : Vec F S16x2048x22x3x3 .f32) (J : Vec F S55x3 .f32) : Vec F S32768x4x4 .f32 :=
  shapeCast S32768x4x4 (s_v102 M J) shapeCasts_S32768x1x4x4_S32768x4x4

def s_v104 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v101 M J) (s_v103 M J)

def s_v105 (M : Vec F S16x2048x22x3x3 .f32) (J : Vec F S55x3 .f32) : Vec F S32768x1x4x4 .f32 :=
  ((extractStridedSlice S32768x1x4x4 ![0, 28, 0, 0] · slices_S32768x55x4x4_S32768x1x4x4_0_28_0_0) : Vec F S32768x55x4x4 .f32 → Vec F S32768x1x4x4 .f32) (s_v21 M J)

def s_v106 (M : Vec F S16x2048x22x3x3 .f32) (J : Vec F S55x3 .f32) : Vec F S32768x4x4 .f32 :=
  shapeCast S32768x4x4 (s_v105 M J) shapeCasts_S32768x1x4x4_S32768x4x4

def s_v107 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v83 M J) (s_v106 M J)

def s_v108 (M : Vec F S16x2048x22x3x3 .f32) (J : Vec F S55x3 .f32) : Vec F S32768x1x4x4 .f32 :=
  ((extractStridedSlice S32768x1x4x4 ![0, 29, 0, 0] · slices_S32768x55x4x4_S32768x1x4x4_0_29_0_0) : Vec F S32768x55x4x4 .f32 → Vec F S32768x1x4x4 .f32) (s_v21 M J)

def s_v109 (M : Vec F S16x2048x22x3x3 .f32) (J : Vec F S55x3 .f32) : Vec F S32768x4x4 .f32 :=
  shapeCast S32768x4x4 (s_v108 M J) shapeCasts_S32768x1x4x4_S32768x4x4

def s_v110 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v107 M J) (s_v109 M J)

def s_v111 (M : Vec F S16x2048x22x3x3 .f32) (J : Vec F S55x3 .f32) : Vec F S32768x1x4x4 .f32 :=
  ((extractStridedSlice S32768x1x4x4 ![0, 30, 0, 0] · slices_S32768x55x4x4_S32768x1x4x4_0_30_0_0) : Vec F S32768x55x4x4 .f32 → Vec F S32768x1x4x4 .f32) (s_v21 M J)

def s_v112 (M : Vec F S16x2048x22x3x3 .f32) (J : Vec F S55x3 .f32) : Vec F S32768x4x4 .f32 :=
  shapeCast S32768x4x4 (s_v111 M J) shapeCasts_S32768x1x4x4_S32768x4x4

def s_v113 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v110 M J) (s_v112 M J)

def s_v114 (M : Vec F S16x2048x22x3x3 .f32) (J : Vec F S55x3 .f32) : Vec F S32768x1x4x4 .f32 :=
  ((extractStridedSlice S32768x1x4x4 ![0, 31, 0, 0] · slices_S32768x55x4x4_S32768x1x4x4_0_31_0_0) : Vec F S32768x55x4x4 .f32 → Vec F S32768x1x4x4 .f32) (s_v21 M J)

def s_v115 (M : Vec F S16x2048x22x3x3 .f32) (J : Vec F S55x3 .f32) : Vec F S32768x4x4 .f32 :=
  shapeCast S32768x4x4 (s_v114 M J) shapeCasts_S32768x1x4x4_S32768x4x4

def s_v116 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v83 M J) (s_v115 M J)

def s_v117 (M : Vec F S16x2048x22x3x3 .f32) (J : Vec F S55x3 .f32) : Vec F S32768x1x4x4 .f32 :=
  ((extractStridedSlice S32768x1x4x4 ![0, 32, 0, 0] · slices_S32768x55x4x4_S32768x1x4x4_0_32_0_0) : Vec F S32768x55x4x4 .f32 → Vec F S32768x1x4x4 .f32) (s_v21 M J)

def s_v118 (M : Vec F S16x2048x22x3x3 .f32) (J : Vec F S55x3 .f32) : Vec F S32768x4x4 .f32 :=
  shapeCast S32768x4x4 (s_v117 M J) shapeCasts_S32768x1x4x4_S32768x4x4

def s_v119 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v116 M J) (s_v118 M J)

def s_v120 (M : Vec F S16x2048x22x3x3 .f32) (J : Vec F S55x3 .f32) : Vec F S32768x1x4x4 .f32 :=
  ((extractStridedSlice S32768x1x4x4 ![0, 33, 0, 0] · slices_S32768x55x4x4_S32768x1x4x4_0_33_0_0) : Vec F S32768x55x4x4 .f32 → Vec F S32768x1x4x4 .f32) (s_v21 M J)

def s_v121 (M : Vec F S16x2048x22x3x3 .f32) (J : Vec F S55x3 .f32) : Vec F S32768x4x4 .f32 :=
  shapeCast S32768x4x4 (s_v120 M J) shapeCasts_S32768x1x4x4_S32768x4x4

def s_v122 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v119 M J) (s_v121 M J)

def s_v123 (M : Vec F S16x2048x22x3x3 .f32) (J : Vec F S55x3 .f32) : Vec F S32768x1x4x4 .f32 :=
  ((extractStridedSlice S32768x1x4x4 ![0, 34, 0, 0] · slices_S32768x55x4x4_S32768x1x4x4_0_34_0_0) : Vec F S32768x55x4x4 .f32 → Vec F S32768x1x4x4 .f32) (s_v21 M J)

def s_v124 (M : Vec F S16x2048x22x3x3 .f32) (J : Vec F S55x3 .f32) : Vec F S32768x4x4 .f32 :=
  shapeCast S32768x4x4 (s_v123 M J) shapeCasts_S32768x1x4x4_S32768x4x4

def s_v125 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v83 M J) (s_v124 M J)

def s_v126 (M : Vec F S16x2048x22x3x3 .f32) (J : Vec F S55x3 .f32) : Vec F S32768x1x4x4 .f32 :=
  ((extractStridedSlice S32768x1x4x4 ![0, 35, 0, 0] · slices_S32768x55x4x4_S32768x1x4x4_0_35_0_0) : Vec F S32768x55x4x4 .f32 → Vec F S32768x1x4x4 .f32) (s_v21 M J)

def s_v127 (M : Vec F S16x2048x22x3x3 .f32) (J : Vec F S55x3 .f32) : Vec F S32768x4x4 .f32 :=
  shapeCast S32768x4x4 (s_v126 M J) shapeCasts_S32768x1x4x4_S32768x4x4

def s_v128 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v125 M J) (s_v127 M J)

def s_v129 (M : Vec F S16x2048x22x3x3 .f32) (J : Vec F S55x3 .f32) : Vec F S32768x1x4x4 .f32 :=
  ((extractStridedSlice S32768x1x4x4 ![0, 36, 0, 0] · slices_S32768x55x4x4_S32768x1x4x4_0_36_0_0) : Vec F S32768x55x4x4 .f32 → Vec F S32768x1x4x4 .f32) (s_v21 M J)

def s_v130 (M : Vec F S16x2048x22x3x3 .f32) (J : Vec F S55x3 .f32) : Vec F S32768x4x4 .f32 :=
  shapeCast S32768x4x4 (s_v129 M J) shapeCasts_S32768x1x4x4_S32768x4x4

def s_v131 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v128 M J) (s_v130 M J)

def s_v132 (M : Vec F S16x2048x22x3x3 .f32) (J : Vec F S55x3 .f32) : Vec F S32768x1x4x4 .f32 :=
  ((extractStridedSlice S32768x1x4x4 ![0, 37, 0, 0] · slices_S32768x55x4x4_S32768x1x4x4_0_37_0_0) : Vec F S32768x55x4x4 .f32 → Vec F S32768x1x4x4 .f32) (s_v21 M J)

def s_v133 (M : Vec F S16x2048x22x3x3 .f32) (J : Vec F S55x3 .f32) : Vec F S32768x4x4 .f32 :=
  shapeCast S32768x4x4 (s_v132 M J) shapeCasts_S32768x1x4x4_S32768x4x4

def s_v134 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v83 M J) (s_v133 M J)

def s_v135 (M : Vec F S16x2048x22x3x3 .f32) (J : Vec F S55x3 .f32) : Vec F S32768x1x4x4 .f32 :=
  ((extractStridedSlice S32768x1x4x4 ![0, 38, 0, 0] · slices_S32768x55x4x4_S32768x1x4x4_0_38_0_0) : Vec F S32768x55x4x4 .f32 → Vec F S32768x1x4x4 .f32) (s_v21 M J)

def s_v136 (M : Vec F S16x2048x22x3x3 .f32) (J : Vec F S55x3 .f32) : Vec F S32768x4x4 .f32 :=
  shapeCast S32768x4x4 (s_v135 M J) shapeCasts_S32768x1x4x4_S32768x4x4

def s_v137 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v134 M J) (s_v136 M J)

def s_v138 (M : Vec F S16x2048x22x3x3 .f32) (J : Vec F S55x3 .f32) : Vec F S32768x1x4x4 .f32 :=
  ((extractStridedSlice S32768x1x4x4 ![0, 39, 0, 0] · slices_S32768x55x4x4_S32768x1x4x4_0_39_0_0) : Vec F S32768x55x4x4 .f32 → Vec F S32768x1x4x4 .f32) (s_v21 M J)

def s_v139 (M : Vec F S16x2048x22x3x3 .f32) (J : Vec F S55x3 .f32) : Vec F S32768x4x4 .f32 :=
  shapeCast S32768x4x4 (s_v138 M J) shapeCasts_S32768x1x4x4_S32768x4x4

def s_v140 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v137 M J) (s_v139 M J)

def s_v141 (M : Vec F S16x2048x22x3x3 .f32) (J : Vec F S55x3 .f32) : Vec F S32768x1x4x4 .f32 :=
  ((extractStridedSlice S32768x1x4x4 ![0, 40, 0, 0] · slices_S32768x55x4x4_S32768x1x4x4_0_40_0_0) : Vec F S32768x55x4x4 .f32 → Vec F S32768x1x4x4 .f32) (s_v21 M J)

def s_v142 (M : Vec F S16x2048x22x3x3 .f32) (J : Vec F S55x3 .f32) : Vec F S32768x4x4 .f32 :=
  shapeCast S32768x4x4 (s_v141 M J) shapeCasts_S32768x1x4x4_S32768x4x4

def s_v143 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v86 M J) (s_v142 M J)

def s_v144 (M : Vec F S16x2048x22x3x3 .f32) (J : Vec F S55x3 .f32) : Vec F S32768x1x4x4 .f32 :=
  ((extractStridedSlice S32768x1x4x4 ![0, 41, 0, 0] · slices_S32768x55x4x4_S32768x1x4x4_0_41_0_0) : Vec F S32768x55x4x4 .f32 → Vec F S32768x1x4x4 .f32) (s_v21 M J)

def s_v145 (M : Vec F S16x2048x22x3x3 .f32) (J : Vec F S55x3 .f32) : Vec F S32768x4x4 .f32 :=
  shapeCast S32768x4x4 (s_v144 M J) shapeCasts_S32768x1x4x4_S32768x4x4

def s_v146 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v143 M J) (s_v145 M J)

def s_v147 (M : Vec F S16x2048x22x3x3 .f32) (J : Vec F S55x3 .f32) : Vec F S32768x1x4x4 .f32 :=
  ((extractStridedSlice S32768x1x4x4 ![0, 42, 0, 0] · slices_S32768x55x4x4_S32768x1x4x4_0_42_0_0) : Vec F S32768x55x4x4 .f32 → Vec F S32768x1x4x4 .f32) (s_v21 M J)

def s_v148 (M : Vec F S16x2048x22x3x3 .f32) (J : Vec F S55x3 .f32) : Vec F S32768x4x4 .f32 :=
  shapeCast S32768x4x4 (s_v147 M J) shapeCasts_S32768x1x4x4_S32768x4x4

def s_v149 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v146 M J) (s_v148 M J)

def s_v150 (M : Vec F S16x2048x22x3x3 .f32) (J : Vec F S55x3 .f32) : Vec F S32768x1x4x4 .f32 :=
  ((extractStridedSlice S32768x1x4x4 ![0, 43, 0, 0] · slices_S32768x55x4x4_S32768x1x4x4_0_43_0_0) : Vec F S32768x55x4x4 .f32 → Vec F S32768x1x4x4 .f32) (s_v21 M J)

def s_v151 (M : Vec F S16x2048x22x3x3 .f32) (J : Vec F S55x3 .f32) : Vec F S32768x4x4 .f32 :=
  shapeCast S32768x4x4 (s_v150 M J) shapeCasts_S32768x1x4x4_S32768x4x4

def s_v152 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v86 M J) (s_v151 M J)

def s_v153 (M : Vec F S16x2048x22x3x3 .f32) (J : Vec F S55x3 .f32) : Vec F S32768x1x4x4 .f32 :=
  ((extractStridedSlice S32768x1x4x4 ![0, 44, 0, 0] · slices_S32768x55x4x4_S32768x1x4x4_0_44_0_0) : Vec F S32768x55x4x4 .f32 → Vec F S32768x1x4x4 .f32) (s_v21 M J)

def s_v154 (M : Vec F S16x2048x22x3x3 .f32) (J : Vec F S55x3 .f32) : Vec F S32768x4x4 .f32 :=
  shapeCast S32768x4x4 (s_v153 M J) shapeCasts_S32768x1x4x4_S32768x4x4

def s_v155 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v152 M J) (s_v154 M J)

def s_v156 (M : Vec F S16x2048x22x3x3 .f32) (J : Vec F S55x3 .f32) : Vec F S32768x1x4x4 .f32 :=
  ((extractStridedSlice S32768x1x4x4 ![0, 45, 0, 0] · slices_S32768x55x4x4_S32768x1x4x4_0_45_0_0) : Vec F S32768x55x4x4 .f32 → Vec F S32768x1x4x4 .f32) (s_v21 M J)

def s_v157 (M : Vec F S16x2048x22x3x3 .f32) (J : Vec F S55x3 .f32) : Vec F S32768x4x4 .f32 :=
  shapeCast S32768x4x4 (s_v156 M J) shapeCasts_S32768x1x4x4_S32768x4x4

def s_v158 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v155 M J) (s_v157 M J)

def s_v159 (M : Vec F S16x2048x22x3x3 .f32) (J : Vec F S55x3 .f32) : Vec F S32768x1x4x4 .f32 :=
  ((extractStridedSlice S32768x1x4x4 ![0, 46, 0, 0] · slices_S32768x55x4x4_S32768x1x4x4_0_46_0_0) : Vec F S32768x55x4x4 .f32 → Vec F S32768x1x4x4 .f32) (s_v21 M J)

def s_v160 (M : Vec F S16x2048x22x3x3 .f32) (J : Vec F S55x3 .f32) : Vec F S32768x4x4 .f32 :=
  shapeCast S32768x4x4 (s_v159 M J) shapeCasts_S32768x1x4x4_S32768x4x4

def s_v161 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v86 M J) (s_v160 M J)

def s_v162 (M : Vec F S16x2048x22x3x3 .f32) (J : Vec F S55x3 .f32) : Vec F S32768x1x4x4 .f32 :=
  ((extractStridedSlice S32768x1x4x4 ![0, 47, 0, 0] · slices_S32768x55x4x4_S32768x1x4x4_0_47_0_0) : Vec F S32768x55x4x4 .f32 → Vec F S32768x1x4x4 .f32) (s_v21 M J)

def s_v163 (M : Vec F S16x2048x22x3x3 .f32) (J : Vec F S55x3 .f32) : Vec F S32768x4x4 .f32 :=
  shapeCast S32768x4x4 (s_v162 M J) shapeCasts_S32768x1x4x4_S32768x4x4

def s_v164 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v161 M J) (s_v163 M J)

def s_v165 (M : Vec F S16x2048x22x3x3 .f32) (J : Vec F S55x3 .f32) : Vec F S32768x1x4x4 .f32 :=
  ((extractStridedSlice S32768x1x4x4 ![0, 48, 0, 0] · slices_S32768x55x4x4_S32768x1x4x4_0_48_0_0) : Vec F S32768x55x4x4 .f32 → Vec F S32768x1x4x4 .f32) (s_v21 M J)

def s_v166 (M : Vec F S16x2048x22x3x3 .f32) (J : Vec F S55x3 .f32) : Vec F S32768x4x4 .f32 :=
  shapeCast S32768x4x4 (s_v165 M J) shapeCasts_S32768x1x4x4_S32768x4x4

def s_v167 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v164 M J) (s_v166 M J)

def s_v168 (M : Vec F S16x2048x22x3x3 .f32) (J : Vec F S55x3 .f32) : Vec F S32768x1x4x4 .f32 :=
  ((extractStridedSlice S32768x1x4x4 ![0, 49, 0, 0] · slices_S32768x55x4x4_S32768x1x4x4_0_49_0_0) : Vec F S32768x55x4x4 .f32 → Vec F S32768x1x4x4 .f32) (s_v21 M J)

def s_v169 (M : Vec F S16x2048x22x3x3 .f32) (J : Vec F S55x3 .f32) : Vec F S32768x4x4 .f32 :=
  shapeCast S32768x4x4 (s_v168 M J) shapeCasts_S32768x1x4x4_S32768x4x4

def s_v170 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v86 M J) (s_v169 M J)

def s_v171 (M : Vec F S16x2048x22x3x3 .f32) (J : Vec F S55x3 .f32) : Vec F S32768x1x4x4 .f32 :=
  ((extractStridedSlice S32768x1x4x4 ![0, 50, 0, 0] · slices_S32768x55x4x4_S32768x1x4x4_0_50_0_0) : Vec F S32768x55x4x4 .f32 → Vec F S32768x1x4x4 .f32) (s_v21 M J)

def s_v172 (M : Vec F S16x2048x22x3x3 .f32) (J : Vec F S55x3 .f32) : Vec F S32768x4x4 .f32 :=
  shapeCast S32768x4x4 (s_v171 M J) shapeCasts_S32768x1x4x4_S32768x4x4

def s_v173 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v170 M J) (s_v172 M J)

def s_v174 (M : Vec F S16x2048x22x3x3 .f32) (J : Vec F S55x3 .f32) : Vec F S32768x1x4x4 .f32 :=
  ((extractStridedSlice S32768x1x4x4 ![0, 51, 0, 0] · slices_S32768x55x4x4_S32768x1x4x4_0_51_0_0) : Vec F S32768x55x4x4 .f32 → Vec F S32768x1x4x4 .f32) (s_v21 M J)

def s_v175 (M : Vec F S16x2048x22x3x3 .f32) (J : Vec F S55x3 .f32) : Vec F S32768x4x4 .f32 :=
  shapeCast S32768x4x4 (s_v174 M J) shapeCasts_S32768x1x4x4_S32768x4x4

def s_v176 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v173 M J) (s_v175 M J)

def s_v177 (M : Vec F S16x2048x22x3x3 .f32) (J : Vec F S55x3 .f32) : Vec F S32768x1x4x4 .f32 :=
  ((extractStridedSlice S32768x1x4x4 ![0, 52, 0, 0] · slices_S32768x55x4x4_S32768x1x4x4_0_52_0_0) : Vec F S32768x55x4x4 .f32 → Vec F S32768x1x4x4 .f32) (s_v21 M J)

def s_v178 (M : Vec F S16x2048x22x3x3 .f32) (J : Vec F S55x3 .f32) : Vec F S32768x4x4 .f32 :=
  shapeCast S32768x4x4 (s_v177 M J) shapeCasts_S32768x1x4x4_S32768x4x4

def s_v179 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v86 M J) (s_v178 M J)

def s_v180 (M : Vec F S16x2048x22x3x3 .f32) (J : Vec F S55x3 .f32) : Vec F S32768x1x4x4 .f32 :=
  ((extractStridedSlice S32768x1x4x4 ![0, 53, 0, 0] · slices_S32768x55x4x4_S32768x1x4x4_0_53_0_0) : Vec F S32768x55x4x4 .f32 → Vec F S32768x1x4x4 .f32) (s_v21 M J)

def s_v181 (M : Vec F S16x2048x22x3x3 .f32) (J : Vec F S55x3 .f32) : Vec F S32768x4x4 .f32 :=
  shapeCast S32768x4x4 (s_v180 M J) shapeCasts_S32768x1x4x4_S32768x4x4

def s_v182 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v179 M J) (s_v181 M J)

def s_v183 (M : Vec F S16x2048x22x3x3 .f32) (J : Vec F S55x3 .f32) : Vec F S32768x1x4x4 .f32 :=
  ((extractStridedSlice S32768x1x4x4 ![0, 54, 0, 0] · slices_S32768x55x4x4_S32768x1x4x4_0_54_0_0) : Vec F S32768x55x4x4 .f32 → Vec F S32768x1x4x4 .f32) (s_v21 M J)

def s_v184 (M : Vec F S16x2048x22x3x3 .f32) (J : Vec F S55x3 .f32) : Vec F S32768x4x4 .f32 :=
  shapeCast S32768x4x4 (s_v183 M J) shapeCasts_S32768x1x4x4_S32768x4x4

def s_v185 (M : Vec F S16x2048x22x3x3 .f32) (J : Vec F S55x3 .f32) : Vec F S32768x4x4 .f32 :=
  ((fun l r => Host.dotGeneral dot_S32768x4x4_S32768x4x4_S32768x4x4_2_1_1_2_0_0 none l r) : Vec F S32768x4x4 .f32 → Vec F S32768x4x4 .f32 → Vec F S32768x4x4 .f32) (s_v182 M J) (s_v184 M J)

def s_v186 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v23 M J)

def s_v187 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v26 M J)

def s_v188 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v29 M J)

def s_v189 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v32 M J)

def s_v190 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v35 M J)

def s_v191 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v38 M J)

def s_v192 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v41 M J)

def s_v193 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v44 M J)

def s_v194 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v47 M J)

def s_v195 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v50 M J)

def s_v196 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v53 M J)

def s_v197 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v56 M J)

def s_v198 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v59 M J)

def s_v199 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v62 M J)

def s_v200 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v65 M J)

def s_v201 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v68 M J)

def s_v202 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v71 M J)

def s_v203 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v74 M J)

def s_v204 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v77 M J)

def s_v205 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v80 M J)

def s_v206 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v83 M J)

def s_v207 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v86 M J)

def s_v208 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v89 M J)

def s_v209 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v92 M J)

def s_v210 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v95 M J)

def s_v211 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v98 M J)

def s_v212 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v101 M J)

def s_v213 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v104 M J)

def s_v214 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v107 M J)

def s_v215 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v110 M J)

def s_v216 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v113 M J)

def s_v217 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v116 M J)

def s_v218 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v119 M J)

def s_v219 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v122 M J)

def s_v220 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v125 M J)

def s_v221 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v128 M J)

def s_v222 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v131 M J)

def s_v223 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v134 M J)

def s_v224 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v137 M J)

def s_v225 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v140 M J)

def s_v226 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v143 M J)

def s_v227 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v146 M J)

def s_v228 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v149 M J)

def s_v229 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v152 M J)

def s_v230 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v155 M J)

def s_v231 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v158 M J)

def s_v232 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v161 M J)

def s_v233 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v164 M J)

def s_v234 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v167 M J)

def s_v235 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v170 M J)

def s_v236 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v173 M J)

def s_v237 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v176 M J)

def s_v238 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v179 M J)

def s_v239 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v182 M J)

def s_v240 (M : Vec F S16x2048x22x3x3 .f32) (J : Vec F S55x3 .f32) : Vec F S32768x1x4x4 .f32 :=
  (broadcastInDim S32768x1x4x4 ![0, 2, 3] bcast_S32768x4x4_S32768x1x4x4_0_2_3 : Vec F S32768x4x4 .f32 → Vec F S32768x1x4x4 .f32) (s_v185 M J)

def s_v241 (M : Vec F S16x2048x22x3x3 .f32) (J : Vec F S55x3 .f32) : Vec F S32768x16x4x4 .f32 :=
  concatenate S32768x16x4x4 1 [⟨S32768x1x4x4, (s_v186 M J)⟩, ⟨S32768x1x4x4, (s_v187 M J)⟩, ⟨S32768x1x4x4, (s_v188 M J)⟩, ⟨S32768x1x4x4, (s_v189 M J)⟩, ⟨S32768x1x4x4, (s_v190 M J)⟩, ⟨S32768x1x4x4, (s_v191 M J)⟩, ⟨S32768x1x4x4, (s_v192 M J)⟩, ⟨S32768x1x4x4, (s_v193 M J)⟩, ⟨S32768x1x4x4, (s_v194 M J)⟩, ⟨S32768x1x4x4, (s_v195 M J)⟩, ⟨S32768x1x4x4, (s_v196 M J)⟩, ⟨S32768x1x4x4, (s_v197 M J)⟩, ⟨S32768x1x4x4, (s_v198 M J)⟩, ⟨S32768x1x4x4, (s_v199 M J)⟩, ⟨S32768x1x4x4, (s_v200 M J)⟩, ⟨S32768x1x4x4, (s_v201 M J)⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1

def s_v242 (M : Vec F S16x2048x22x3x3 .f32) (J : Vec F S55x3 .f32) : Vec F S32768x16x4x4 .f32 :=
  concatenate S32768x16x4x4 1 [⟨S32768x1x4x4, (s_v202 M J)⟩, ⟨S32768x1x4x4, (s_v203 M J)⟩, ⟨S32768x1x4x4, (s_v204 M J)⟩, ⟨S32768x1x4x4, (s_v205 M J)⟩, ⟨S32768x1x4x4, (s_v206 M J)⟩, ⟨S32768x1x4x4, (s_v207 M J)⟩, ⟨S32768x1x4x4, (s_v208 M J)⟩, ⟨S32768x1x4x4, (s_v209 M J)⟩, ⟨S32768x1x4x4, (s_v210 M J)⟩, ⟨S32768x1x4x4, (s_v211 M J)⟩, ⟨S32768x1x4x4, (s_v212 M J)⟩, ⟨S32768x1x4x4, (s_v213 M J)⟩, ⟨S32768x1x4x4, (s_v214 M J)⟩, ⟨S32768x1x4x4, (s_v215 M J)⟩, ⟨S32768x1x4x4, (s_v216 M J)⟩, ⟨S32768x1x4x4, (s_v217 M J)⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1

def s_v243 (M : Vec F S16x2048x22x3x3 .f32) (J : Vec F S55x3 .f32) : Vec F S32768x16x4x4 .f32 :=
  concatenate S32768x16x4x4 1 [⟨S32768x1x4x4, (s_v218 M J)⟩, ⟨S32768x1x4x4, (s_v219 M J)⟩, ⟨S32768x1x4x4, (s_v220 M J)⟩, ⟨S32768x1x4x4, (s_v221 M J)⟩, ⟨S32768x1x4x4, (s_v222 M J)⟩, ⟨S32768x1x4x4, (s_v223 M J)⟩, ⟨S32768x1x4x4, (s_v224 M J)⟩, ⟨S32768x1x4x4, (s_v225 M J)⟩, ⟨S32768x1x4x4, (s_v226 M J)⟩, ⟨S32768x1x4x4, (s_v227 M J)⟩, ⟨S32768x1x4x4, (s_v228 M J)⟩, ⟨S32768x1x4x4, (s_v229 M J)⟩, ⟨S32768x1x4x4, (s_v230 M J)⟩, ⟨S32768x1x4x4, (s_v231 M J)⟩, ⟨S32768x1x4x4, (s_v232 M J)⟩, ⟨S32768x1x4x4, (s_v233 M J)⟩] concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1

def s_v244 (M : Vec F S16x2048x22x3x3 .f32) (J : Vec F S55x3 .f32) : Vec F S32768x7x4x4 .f32 :=
  concatenate S32768x7x4x4 1 [⟨S32768x1x4x4, (s_v234 M J)⟩, ⟨S32768x1x4x4, (s_v235 M J)⟩, ⟨S32768x1x4x4, (s_v236 M J)⟩, ⟨S32768x1x4x4, (s_v237 M J)⟩, ⟨S32768x1x4x4, (s_v238 M J)⟩, ⟨S32768x1x4x4, (s_v239 M J)⟩, ⟨S32768x1x4x4, (s_v240 M J)⟩] concatenates_S32768x1x4x4_S32768x1x4x4_S32768x1x4x4_S32768x1x4x4_S32768x1x4x4_S32768x1x4x4_S32768x1x4x4_S32768x7x4x4_d1

def s_v245 (M : Vec F S16x2048x22x3x3 .f32) (J : Vec F S55x3 .f32) : Vec F S32768x55x4x4 .f32 :=
  concatenate S32768x55x4x4 1 [⟨S32768x16x4x4, (s_v241 M J)⟩, ⟨S32768x16x4x4, (s_v242 M J)⟩, ⟨S32768x16x4x4, (s_v243 M J)⟩, ⟨S32768x7x4x4, (s_v244 M J)⟩] concatenates_S32768x16x4x4_S32768x16x4x4_S32768x16x4x4_S32768x7x4x4_S32768x55x4x4_d1

def s_v246 (M : Vec F S16x2048x22x3x3 .f32) (J : Vec F S55x3 .f32) : Vec F S32768x55x3x1 .f32 :=
  ((extractStridedSlice S32768x55x3x1 ![0, 0, 0, 3] · slices_S32768x55x4x4_S32768x55x3x1_0_0_0_3) : Vec F S32768x55x4x4 .f32 → Vec F S32768x55x3x1 .f32) (s_v245 M J)

def s_v247 (M : Vec F S16x2048x22x3x3 .f32) (J : Vec F S55x3 .f32) : Vec F S32768x55x3 .f32 :=
  shapeCast S32768x55x3 (s_v246 M J) shapeCasts_S32768x55x3x1_S32768x55x3

def s_v248 (M : Vec F S16x2048x22x3x3 .f32) (J : Vec F S55x3 .f32) : Vec F S16x2048x55x3 .f32 :=
  shapeCast S16x2048x55x3 (s_v247 M J) shapeCasts_S32768x55x3_S16x2048x55x3

end Cert.FK.Ref

end
-- ==== Proof.RefRun.lean ====
import proofs.«134826_j18760417149409_1_alg».proof.Proof.RefOps
import proofs.«134826_j18760417149409_1_alg».proof.Proof.RefStages

-- The reference's run: its straight line of single-assignment operations leaves in each buffer that buffer's stage term of the two float arguments.

set_option maxRecDepth 16384

noncomputable section

namespace Cert.FK.Ref

open Cert.ReferenceIdeal Cert.ReferenceIdeal.Gen Idealize.ShloMosaic Idealize.ShloMosaic.TcCoe Idealize.SL.Sem Idealize.ShloMosaic.StableHlo

section Table

variable {τ : Topo} {sig : RefSig} {Val : EltTy → Type}

abbrev Ent (sig : RefSig) (Val : EltTy → Type) := Σ r : Ref sig .tc, r.ty.Contents Val

structure Holds (V : Valuation τ sig Val) (L : List (Ent sig Val)) (k : Nat) : Prop where
  val : ∀ p ∈ L, V (Proc.devRef .tc p.1) = p.2
  lt : ∀ p ∈ L, p.1.idx.val < k

theorem Holds.step {V : Valuation τ sig Val} {L : List (Ent sig Val)} {k : Nat} (h : Holds V L k) (op : HloOp τ sig Val)
    (y : Ref sig .tc) (vy : y.ty.Contents Val) (hw : op.writes = {Proc.devRef .tc y}) (hk : y.idx.val = k)
    (hres : op.result V (Proc.devRef .tc y) = vy) : Holds (op.result V) (⟨y, vy⟩ :: L) (k + 1) where
  val p hp := by
    rcases List.mem_cons.mp hp with rfl | hp
    · exact hres
    · have hne : p.1 ≠ y := fun e => by
        have hlt := h.lt p hp
        rw [e, hk] at hlt
        exact Nat.lt_irrefl _ hlt
      rw [op.result_of_not_mem V (by rw [hw, Finset.mem_singleton]; exact devRef_ne_of_ne hne)]
      exact h.val p hp
  lt p hp := by
    rcases List.mem_cons.mp hp with rfl | hp
    · exact hk ▸ Nat.lt_succ_self _
    · exact Nat.lt_succ_of_lt (h.lt p hp)

variable {V : Valuation τ sig Val} {L T : List (Ent sig Val)} {k n : Nat} {rest : List (HloOp τ sig Val)}

theorem Holds.nullary (h : Holds V L k) {y : Ref sig .tc} {v : y.ty.Contents Val} {hy} (vy : y.ty.Contents Val)
    (hv : v = vy) (hk : y.idx.val = k)
    (K : ∀ V' : Valuation τ sig Val, Holds V' (⟨y, vy⟩ :: L) (k + 1) → Holds (after rest V') T n) :
    Holds (after (StableHlo.nullary y v hy :: rest) V) T n :=
  K _ (h.step _ y vy rfl hk ((nullary_result y v hy V).trans hv))

theorem Holds.unary (h : Holds V L k) {x y : Ref sig .tc} {f : x.ty.Contents Val → y.ty.Contents Val} {hx hy}
    (vx : x.ty.Contents Val) (vy : y.ty.Contents Val) (mx : (⟨x, vx⟩ : Ent sig Val) ∈ L) (hv : f vx = vy) (hk : y.idx.val = k)
    (K : ∀ V' : Valuation τ sig Val, Holds V' (⟨y, vy⟩ :: L) (k + 1) → Holds (after rest V') T n) :
    Holds (after (StableHlo.unary x y f hx hy :: rest) V) T n :=
  K _ (h.step _ y vy rfl hk ((unary_result x y f hx hy V).trans ((congrArg f (h.val _ mx)).trans hv)))

theorem Holds.binary (h : Holds V L k) {a b y : Ref sig .tc} {f : a.ty.Contents Val → b.ty.Contents Val → y.ty.Contents Val}
    {ha hb hy} (va : a.ty.Contents Val) (vb : b.ty.Contents Val) (vy : y.ty.Contents Val)
    (ma : (⟨a, va⟩ : Ent sig Val) ∈ L) (mb : (⟨b, vb⟩ : Ent sig Val) ∈ L) (hv : f va vb = vy) (hk : y.idx.val = k)
    (K : ∀ V' : Valuation τ sig Val, Holds V' (⟨y, vy⟩ :: L) (k + 1) → Holds (after rest V') T n) :
    Holds (after (StableHlo.binary a b y f ha hb hy :: rest) V) T n :=
  K _ (h.step _ y vy rfl hk
    ((binary_result a b y f ha hb hy V).trans ((congrArg₂ f (h.val _ ma) (h.val _ mb)).trans hv)))

theorem Holds.ternary (h : Holds V L k) {c a b y : Ref sig .tc}
    {f : c.ty.Contents Val → a.ty.Contents Val → b.ty.Contents Val → y.ty.Contents Val} {hc ha hb hy}
    (vc : c.ty.Contents Val) (va : a.ty.Contents Val) (vb : b.ty.Contents Val) (vy : y.ty.Contents Val)
    (mc : (⟨c, vc⟩ : Ent sig Val) ∈ L) (ma : (⟨a, va⟩ : Ent sig Val) ∈ L) (mb : (⟨b, vb⟩ : Ent sig Val) ∈ L)
    (hv : f vc va vb = vy) (hk : y.idx.val = k)
    (K : ∀ V' : Valuation τ sig Val, Holds V' (⟨y, vy⟩ :: L) (k + 1) → Holds (after rest V') T n) :
    Holds (after (StableHlo.ternary c a b y f hc ha hb hy :: rest) V) T n :=
  K _ (h.step _ y vy rfl hk
    ((ternary_result c a b y f hc ha hb hy V).trans
      ((by rw [h.val _ mc, h.val _ ma, h.val _ mb] : f (V (Proc.devRef .tc c)) (V (Proc.devRef .tc a)) (V (Proc.devRef .tc b)) = f vc va vb).trans hv)))

theorem Holds.reshape (h : Holds V L k) {x y : Ref sig .tc} {he : x.ty.elt = y.ty.elt} {hn : x.ty.shape.ShapeCasts y.ty.shape} {hx hy}
    (vx : x.ty.Contents Val) (vy : y.ty.Contents Val) (mx : (⟨x, vx⟩ : Ent sig Val) ∈ L)
    (hv : ∀ W : Valuation τ sig Val, W (Proc.devRef .tc x) = vx →
      (StableHlo.reshape x y he hn hx hy : HloOp τ sig Val).result W (Proc.devRef .tc y) = vy) (hk : y.idx.val = k)
    (K : ∀ V' : Valuation τ sig Val, Holds V' (⟨y, vy⟩ :: L) (k + 1) → Holds (after rest V') T n) :
    Holds (after (StableHlo.reshape x y he hn hx hy :: rest) V) T n :=
  K _ (h.step _ y vy rfl hk (hv V (h.val _ mx)))

theorem Holds.nary (h : Holds V L k) {m : Nat} {xs : Fin m → Ref sig .tc} {y : Ref sig .tc}
    {f : ((j : Fin m) → (xs j).ty.Contents Val) → y.ty.Contents Val} {hxs hy}
    (vs : (j : Fin m) → (xs j).ty.Contents Val) (vy : y.ty.Contents Val) (ms : ∀ j, (⟨xs j, vs j⟩ : Ent sig Val) ∈ L)
    (hv : f vs = vy) (hk : y.idx.val = k)
    (K : ∀ V' : Valuation τ sig Val, Holds V' (⟨y, vy⟩ :: L) (k + 1) → Holds (after rest V') T n) :
    Holds (after (StableHlo.nary xs y f hxs hy :: rest) V) T n :=
  K _ (h.step _ y vy rfl hk
    ((nary_result xs y f hxs hy V).trans ((congrArg f (funext fun j => h.val _ (ms j))).trans hv)))

theorem Holds.done (h : Holds V T n) : Holds (after [] V) T n := h

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

end Table

open Lean in

macro "mem_at " n:num : term => do
  let mut t ← `(List.Mem.head _)
  for _ in [0:n.getNat] do
    t ← `(List.Mem.tail _ $t)
  return t

variable {F : FTy → Type} [FloatOps F]

abbrev tab0 (M : Vec F S16x2048x22x3x3 .f32) (J : Vec F S55x3 .f32) (P : main_arg2.ty.Contents (Elt F)) : List (Ent sig (Elt F)) :=
  [⟨main_arg2, P⟩, ⟨main_arg1, J⟩, ⟨main_arg0, M⟩]

abbrev tab1 (M : Vec F S16x2048x22x3x3 .f32) (J : Vec F S55x3 .f32) (P : main_arg2.ty.Contents (Elt F)) : List (Ent sig (Elt F)) :=
  ⟨main_v53, s_v53 M J⟩ ::
  ⟨main_v52, s_v52 M J⟩ ::
  ⟨main_v51, s_v51 M J⟩ ::
  ⟨main_v50, s_v50 M J⟩ ::
  ⟨main_v49, s_v49 M J⟩ ::
  ⟨main_v48, s_v48 M J⟩ ::
  ⟨main_v47, s_v47 M J⟩ ::
  ⟨main_v46, s_v46 M J⟩ ::
  ⟨main_v45, s_v45 M J⟩ ::
  ⟨main_v44, s_v44 M J⟩ ::
  ⟨main_v43, s_v43 M J⟩ ::
  ⟨main_v42, s_v42 M J⟩ ::
  ⟨main_v41, s_v41 M J⟩ ::
  ⟨main_v40, s_v40 M J⟩ ::
  ⟨main_v39, s_v39 M J⟩ ::
  ⟨main_v38, s_v38 M J⟩ ::
  ⟨main_v37, s_v37 M J⟩ ::
  ⟨main_v36, s_v36 M J⟩ ::
  ⟨main_v35, s_v35 M J⟩ ::
  ⟨main_v34, s_v34 M J⟩ ::
  ⟨main_v33, s_v33 M J⟩ ::
  ⟨main_v32, s_v32 M J⟩ ::
  ⟨main_v31, s_v31 M J⟩ ::
  ⟨main_v30, s_v30 M J⟩ ::
  ⟨main_v29, s_v29 M J⟩ ::
  ⟨main_v28, s_v28 M J⟩ ::
  ⟨main_v27, s_v27 M J⟩ ::
  ⟨main_v26, s_v26 M J⟩ ::
  ⟨main_v25, s_v25 M J⟩ ::
  ⟨main_v24, s_v24 M J⟩ ::
  ⟨main_v23, s_v23 M J⟩ ::
  ⟨main_v22, s_v22 M J⟩ ::
  ⟨main_v21, s_v21 M J⟩ ::
  ⟨main_v20, s_v20 M J⟩ ::
  ⟨main_v19, s_v19 M J⟩ ::
  ⟨main_v18, s_v18 M J⟩ ::
  ⟨main_v17, s_v17 M J⟩ ::
  ⟨main_v16, s_v16 M J⟩ ::
  ⟨main_c_3, s_c_3 M J⟩ ::
  ⟨main_v15, s_v15 M J⟩ ::
  ⟨main_v14, s_v14 M J⟩ ::
  ⟨main_v13, s_v13 M J⟩ ::
  ⟨main_v12, s_v12 M J⟩ ::
  ⟨main_v11, s_v11 M J⟩ ::
  ⟨main_v10, s_v10 M J⟩ ::
  ⟨main_c_2, s_c_2 M J⟩ ::
  ⟨main_v9, s_v9 M J⟩ ::
  ⟨main_v8, s_v8 M J⟩ ::
  ⟨main_v7, s_v7 M J⟩ ::
  ⟨main_v6, s_v6 M J⟩ ::
  ⟨main_v5, s_v5 M J⟩ ::
  ⟨main_v4, s_v4 M J⟩ ::
  ⟨main_v3, s_v3 M J⟩ ::
  ⟨main_c_1, s_c_1 M J⟩ ::
  ⟨main_v2, s_v2 M J⟩ ::
  ⟨main_v1, s_v1 M J⟩ ::
  ⟨main_v0, s_v0 M J⟩ ::
  ⟨main_cst, s_cst M J⟩ ::
  ⟨main_c_0, s_c_0 M J⟩ ::
  ⟨main_c, s_c M J⟩ ::
  tab0 M J P

set_option maxHeartbeats 4000000 in

theorem win0 (M : Vec F S16x2048x22x3x3 .f32) (J : Vec F S55x3 .f32) (P : main_arg2.ty.Contents (Elt F)) (W : Valuation τ sig (Elt F))
    (h : Holds W (tab0 M J P) 3) : Holds (after ops0 W) (tab1 M J P) 63 := by
  refine h.nullary (s_c M J) rfl rfl fun V h => ?_
  refine h.nullary (s_c_0 M J) rfl rfl fun V h => ?_
  refine h.nullary (s_cst M J) rfl rfl fun V h => ?_
  refine h.reshape M (s_v0 M J) (mem_at 5) (fun W e => by rw [reshape_result, e]; rfl) rfl fun V h => ?_
  refine h.nullary (s_v1 M J) rfl rfl fun V h => ?_
  refine h.nullary (s_v2 M J) rfl rfl fun V h => ?_
  refine h.nullary (s_c_1 M J) rfl rfl fun V h => ?_
  refine h.unary (s_c_1 M J) (s_v3 M J) (mem_at 0) rfl rfl fun V h => ?_
  refine h.binary (s_v1 M J) (s_v3 M J) (s_v4 M J) (mem_at 3) (mem_at 0) rfl rfl fun V h => ?_
  refine h.binary (s_v4 M J) (s_v2 M J) (s_v5 M J) (mem_at 0) (mem_at 3) rfl rfl fun V h => ?_
  refine h.unary (s_v5 M J) (s_v6 M J) (mem_at 0) rfl rfl fun V h => ?_
  refine h.unary (s_v6 M J) (s_v7 M J) (mem_at 0) rfl rfl fun V h => ?_
  refine h.binary (s_v0 M J) (s_v7 M J) (s_v8 M J) (mem_at 8) (mem_at 0) rfl rfl fun V h => ?_
  refine h.unary J (s_v9 M J) (mem_at 14) rfl rfl fun V h => ?_
  refine h.nullary (s_c_2 M J) rfl rfl fun V h => ?_
  refine h.unary (s_c_2 M J) (s_v10 M J) (mem_at 0) rfl rfl fun V h => ?_
  refine h.binary (s_c M J) (s_v10 M J) (s_v11 M J) (mem_at 15) (mem_at 0) rfl rfl fun V h => ?_
  refine h.ternary (s_c_0 M J) (s_v11 M J) (s_c M J) (s_v12 M J) (mem_at 15) (mem_at 0) (mem_at 16) rfl rfl fun V h => ?_
  refine h.unary (s_v12 M J) (s_v13 M J) (mem_at 0) rfl rfl fun V h => ?_
  refine h.binary (s_v9 M J) (s_v13 M J) (s_v14 M J) (mem_at 5) (mem_at 0) rfl rfl fun V h => ?_
  refine h.unary (s_v14 M J) (s_v15 M J) (mem_at 0) rfl rfl fun V h => ?_
  refine h.nullary (s_c_3 M J) rfl rfl fun V h => ?_
  refine h.unary (s_c_3 M J) (s_v16 M J) (mem_at 0) rfl rfl fun V h => ?_
  refine h.ternary (s_v9 M J) (s_v16 M J) (s_v15 M J) (s_v17 M J) (mem_at 9) (mem_at 0) (mem_at 2) rfl rfl fun V h => ?_
  refine h.unary (s_v17 M J) (s_v18 M J) (mem_at 0) rfl rfl fun V h => ?_
  refine h.binary (s_v8 M J) (s_v18 M J) (s_v19 M J) (mem_at 12) (mem_at 0) rfl rfl fun V h => ?_
  refine h.unary (s_cst M J) (s_v20 M J) (mem_at 23) rfl rfl fun V h => ?_
  refine h.binary (s_v19 M J) (s_v20 M J) (s_v21 M J) (mem_at 1) (mem_at 0) rfl rfl fun V h => ?_
  refine h.unary (s_v21 M J) (s_v22 M J) (mem_at 0) rfl rfl fun V h => ?_
  refine h.reshape (s_v22 M J) (s_v23 M J) (mem_at 0) (fun W e => by rw [reshape_result, e]; rfl) rfl fun V h => ?_
  refine h.unary (s_v21 M J) (s_v24 M J) (mem_at 2) rfl rfl fun V h => ?_
  refine h.reshape (s_v24 M J) (s_v25 M J) (mem_at 0) (fun W e => by rw [reshape_result, e]; rfl) rfl fun V h => ?_
  refine h.binary (s_v23 M J) (s_v25 M J) (s_v26 M J) (mem_at 2) (mem_at 0) rfl rfl fun V h => ?_
  refine h.unary (s_v21 M J) (s_v27 M J) (mem_at 5) rfl rfl fun V h => ?_
  refine h.reshape (s_v27 M J) (s_v28 M J) (mem_at 0) (fun W e => by rw [reshape_result, e]; rfl) rfl fun V h => ?_
  refine h.binary (s_v23 M J) (s_v28 M J) (s_v29 M J) (mem_at 5) (mem_at 0) rfl rfl fun V h => ?_
  refine h.unary (s_v21 M J) (s_v30 M J) (mem_at 8) rfl rfl fun V h => ?_
  refine h.reshape (s_v30 M J) (s_v31 M J) (mem_at 0) (fun W e => by rw [reshape_result, e]; rfl) rfl fun V h => ?_
  refine h.binary (s_v23 M J) (s_v31 M J) (s_v32 M J) (mem_at 8) (mem_at 0) rfl rfl fun V h => ?_
  refine h.unary (s_v21 M J) (s_v33 M J) (mem_at 11) rfl rfl fun V h => ?_
  refine h.reshape (s_v33 M J) (s_v34 M J) (mem_at 0) (fun W e => by rw [reshape_result, e]; rfl) rfl fun V h => ?_
  refine h.binary (s_v26 M J) (s_v34 M J) (s_v35 M J) (mem_at 8) (mem_at 0) rfl rfl fun V h => ?_
  refine h.unary (s_v21 M J) (s_v36 M J) (mem_at 14) rfl rfl fun V h => ?_
  refine h.reshape (s_v36 M J) (s_v37 M J) (mem_at 0) (fun W e => by rw [reshape_result, e]; rfl) rfl fun V h => ?_
  refine h.binary (s_v29 M J) (s_v37 M J) (s_v38 M J) (mem_at 8) (mem_at 0) rfl rfl fun V h => ?_
  refine h.unary (s_v21 M J) (s_v39 M J) (mem_at 17) rfl rfl fun V h => ?_
  refine h.reshape (s_v39 M J) (s_v40 M J) (mem_at 0) (fun W e => by rw [reshape_result, e]; rfl) rfl fun V h => ?_
  refine h.binary (s_v32 M J) (s_v40 M J) (s_v41 M J) (mem_at 8) (mem_at 0) rfl rfl fun V h => ?_
  refine h.unary (s_v21 M J) (s_v42 M J) (mem_at 20) rfl rfl fun V h => ?_
  refine h.reshape (s_v42 M J) (s_v43 M J) (mem_at 0) (fun W e => by rw [reshape_result, e]; rfl) rfl fun V h => ?_
  refine h.binary (s_v35 M J) (s_v43 M J) (s_v44 M J) (mem_at 8) (mem_at 0) rfl rfl fun V h => ?_
  refine h.unary (s_v21 M J) (s_v45 M J) (mem_at 23) rfl rfl fun V h => ?_
  refine h.reshape (s_v45 M J) (s_v46 M J) (mem_at 0) (fun W e => by rw [reshape_result, e]; rfl) rfl fun V h => ?_
  refine h.binary (s_v38 M J) (s_v46 M J) (s_v47 M J) (mem_at 8) (mem_at 0) rfl rfl fun V h => ?_
  refine h.unary (s_v21 M J) (s_v48 M J) (mem_at 26) rfl rfl fun V h => ?_
  refine h.reshape (s_v48 M J) (s_v49 M J) (mem_at 0) (fun W e => by rw [reshape_result, e]; rfl) rfl fun V h => ?_
  refine h.binary (s_v41 M J) (s_v49 M J) (s_v50 M J) (mem_at 8) (mem_at 0) rfl rfl fun V h => ?_
  refine h.unary (s_v21 M J) (s_v51 M J) (mem_at 29) rfl rfl fun V h => ?_
  refine h.reshape (s_v51 M J) (s_v52 M J) (mem_at 0) (fun W e => by rw [reshape_result, e]; rfl) rfl fun V h => ?_
  refine h.binary (s_v44 M J) (s_v52 M J) (s_v53 M J) (mem_at 8) (mem_at 0) rfl rfl fun V h => ?_
  exact h.done

abbrev tab2 (M : Vec F S16x2048x22x3x3 .f32) (J : Vec F S55x3 .f32) (P : main_arg2.ty.Contents (Elt F)) : List (Ent sig (Elt F)) :=
  ⟨main_v113, s_v113 M J⟩ ::
  ⟨main_v112, s_v112 M J⟩ ::
  ⟨main_v111, s_v111 M J⟩ ::
  ⟨main_v110, s_v110 M J⟩ ::
  ⟨main_v109, s_v109 M J⟩ ::
  ⟨main_v108, s_v108 M J⟩ ::
  ⟨main_v107, s_v107 M J⟩ ::
  ⟨main_v106, s_v106 M J⟩ ::
  ⟨main_v105, s_v105 M J⟩ ::
  ⟨main_v104, s_v104 M J⟩ ::
  ⟨main_v103, s_v103 M J⟩ ::
  ⟨main_v102, s_v102 M J⟩ ::
  ⟨main_v101, s_v101 M J⟩ ::
  ⟨main_v100, s_v100 M J⟩ ::
  ⟨main_v99, s_v99 M J⟩ ::
  ⟨main_v98, s_v98 M J⟩ ::
  ⟨main_v97, s_v97 M J⟩ ::
  ⟨main_v96, s_v96 M J⟩ ::
  ⟨main_v95, s_v95 M J⟩ ::
  ⟨main_v94, s_v94 M J⟩ ::
  ⟨main_v93, s_v93 M J⟩ ::
  ⟨main_v92, s_v92 M J⟩ ::
  ⟨main_v91, s_v91 M J⟩ ::
  ⟨main_v90, s_v90 M J⟩ ::
  ⟨main_v89, s_v89 M J⟩ ::
  ⟨main_v88, s_v88 M J⟩ ::
  ⟨main_v87, s_v87 M J⟩ ::
  ⟨main_v86, s_v86 M J⟩ ::
  ⟨main_v85, s_v85 M J⟩ ::
  ⟨main_v84, s_v84 M J⟩ ::
  ⟨main_v83, s_v83 M J⟩ ::
  ⟨main_v82, s_v82 M J⟩ ::
  ⟨main_v81, s_v81 M J⟩ ::
  ⟨main_v80, s_v80 M J⟩ ::
  ⟨main_v79, s_v79 M J⟩ ::
  ⟨main_v78, s_v78 M J⟩ ::
  ⟨main_v77, s_v77 M J⟩ ::
  ⟨main_v76, s_v76 M J⟩ ::
  ⟨main_v75, s_v75 M J⟩ ::
  ⟨main_v74, s_v74 M J⟩ ::
  ⟨main_v73, s_v73 M J⟩ ::
  ⟨main_v72, s_v72 M J⟩ ::
  ⟨main_v71, s_v71 M J⟩ ::
  ⟨main_v70, s_v70 M J⟩ ::
  ⟨main_v69, s_v69 M J⟩ ::
  ⟨main_v68, s_v68 M J⟩ ::
  ⟨main_v67, s_v67 M J⟩ ::
  ⟨main_v66, s_v66 M J⟩ ::
  ⟨main_v65, s_v65 M J⟩ ::
  ⟨main_v64, s_v64 M J⟩ ::
  ⟨main_v63, s_v63 M J⟩ ::
  ⟨main_v62, s_v62 M J⟩ ::
  ⟨main_v61, s_v61 M J⟩ ::
  ⟨main_v60, s_v60 M J⟩ ::
  ⟨main_v59, s_v59 M J⟩ ::
  ⟨main_v58, s_v58 M J⟩ ::
  ⟨main_v57, s_v57 M J⟩ ::
  ⟨main_v56, s_v56 M J⟩ ::
  ⟨main_v55, s_v55 M J⟩ ::
  ⟨main_v54, s_v54 M J⟩ ::
  tab1 M J P

set_option maxHeartbeats 4000000 in

theorem win1 (M : Vec F S16x2048x22x3x3 .f32) (J : Vec F S55x3 .f32) (P : main_arg2.ty.Contents (Elt F)) (W : Valuation τ sig (Elt F))
    (h : Holds W (tab1 M J P) 63) : Holds (after ops1 W) (tab2 M J P) 123 := by
  refine h.unary (s_v21 M J) (s_v54 M J) (mem_at 32) rfl rfl fun V h => ?_
  refine h.reshape (s_v54 M J) (s_v55 M J) (mem_at 0) (fun W e => by rw [reshape_result, e]; rfl) rfl fun V h => ?_
  refine h.binary (s_v47 M J) (s_v55 M J) (s_v56 M J) (mem_at 8) (mem_at 0) rfl rfl fun V h => ?_
  refine h.unary (s_v21 M J) (s_v57 M J) (mem_at 35) rfl rfl fun V h => ?_
  refine h.reshape (s_v57 M J) (s_v58 M J) (mem_at 0) (fun W e => by rw [reshape_result, e]; rfl) rfl fun V h => ?_
  refine h.binary (s_v50 M J) (s_v58 M J) (s_v59 M J) (mem_at 8) (mem_at 0) rfl rfl fun V h => ?_
  refine h.unary (s_v21 M J) (s_v60 M J) (mem_at 38) rfl rfl fun V h => ?_
  refine h.reshape (s_v60 M J) (s_v61 M J) (mem_at 0) (fun W e => by rw [reshape_result, e]; rfl) rfl fun V h => ?_
  refine h.binary (s_v50 M J) (s_v61 M J) (s_v62 M J) (mem_at 11) (mem_at 0) rfl rfl fun V h => ?_
  refine h.unary (s_v21 M J) (s_v63 M J) (mem_at 41) rfl rfl fun V h => ?_
  refine h.reshape (s_v63 M J) (s_v64 M J) (mem_at 0) (fun W e => by rw [reshape_result, e]; rfl) rfl fun V h => ?_
  refine h.binary (s_v50 M J) (s_v64 M J) (s_v65 M J) (mem_at 14) (mem_at 0) rfl rfl fun V h => ?_
  refine h.unary (s_v21 M J) (s_v66 M J) (mem_at 44) rfl rfl fun V h => ?_
  refine h.reshape (s_v66 M J) (s_v67 M J) (mem_at 0) (fun W e => by rw [reshape_result, e]; rfl) rfl fun V h => ?_
  refine h.binary (s_v59 M J) (s_v67 M J) (s_v68 M J) (mem_at 8) (mem_at 0) rfl rfl fun V h => ?_
  refine h.unary (s_v21 M J) (s_v69 M J) (mem_at 47) rfl rfl fun V h => ?_
  refine h.reshape (s_v69 M J) (s_v70 M J) (mem_at 0) (fun W e => by rw [reshape_result, e]; rfl) rfl fun V h => ?_
  refine h.binary (s_v62 M J) (s_v70 M J) (s_v71 M J) (mem_at 8) (mem_at 0) rfl rfl fun V h => ?_
  refine h.unary (s_v21 M J) (s_v72 M J) (mem_at 50) rfl rfl fun V h => ?_
  refine h.reshape (s_v72 M J) (s_v73 M J) (mem_at 0) (fun W e => by rw [reshape_result, e]; rfl) rfl fun V h => ?_
  refine h.binary (s_v65 M J) (s_v73 M J) (s_v74 M J) (mem_at 8) (mem_at 0) rfl rfl fun V h => ?_
  refine h.unary (s_v21 M J) (s_v75 M J) (mem_at 53) rfl rfl fun V h => ?_
  refine h.reshape (s_v75 M J) (s_v76 M J) (mem_at 0) (fun W e => by rw [reshape_result, e]; rfl) rfl fun V h => ?_
  refine h.binary (s_v71 M J) (s_v76 M J) (s_v77 M J) (mem_at 5) (mem_at 0) rfl rfl fun V h => ?_
  refine h.unary (s_v21 M J) (s_v78 M J) (mem_at 56) rfl rfl fun V h => ?_
  refine h.reshape (s_v78 M J) (s_v79 M J) (mem_at 0) (fun W e => by rw [reshape_result, e]; rfl) rfl fun V h => ?_
  refine h.binary (s_v74 M J) (s_v79 M J) (s_v80 M J) (mem_at 5) (mem_at 0) rfl rfl fun V h => ?_
  refine h.unary (s_v21 M J) (s_v81 M J) (mem_at 59) rfl rfl fun V h => ?_
  refine h.reshape (s_v81 M J) (s_v82 M J) (mem_at 0) (fun W e => by rw [reshape_result, e]; rfl) rfl fun V h => ?_
  refine h.binary (s_v77 M J) (s_v82 M J) (s_v83 M J) (mem_at 5) (mem_at 0) rfl rfl fun V h => ?_
  refine h.unary (s_v21 M J) (s_v84 M J) (mem_at 62) rfl rfl fun V h => ?_
  refine h.reshape (s_v84 M J) (s_v85 M J) (mem_at 0) (fun W e => by rw [reshape_result, e]; rfl) rfl fun V h => ?_
  refine h.binary (s_v80 M J) (s_v85 M J) (s_v86 M J) (mem_at 5) (mem_at 0) rfl rfl fun V h => ?_
  refine h.unary (s_v21 M J) (s_v87 M J) (mem_at 65) rfl rfl fun V h => ?_
  refine h.reshape (s_v87 M J) (s_v88 M J) (mem_at 0) (fun W e => by rw [reshape_result, e]; rfl) rfl fun V h => ?_
  refine h.binary (s_v68 M J) (s_v88 M J) (s_v89 M J) (mem_at 20) (mem_at 0) rfl rfl fun V h => ?_
  refine h.unary (s_v21 M J) (s_v90 M J) (mem_at 68) rfl rfl fun V h => ?_
  refine h.reshape (s_v90 M J) (s_v91 M J) (mem_at 0) (fun W e => by rw [reshape_result, e]; rfl) rfl fun V h => ?_
  refine h.binary (s_v68 M J) (s_v91 M J) (s_v92 M J) (mem_at 23) (mem_at 0) rfl rfl fun V h => ?_
  refine h.unary (s_v21 M J) (s_v93 M J) (mem_at 71) rfl rfl fun V h => ?_
  refine h.reshape (s_v93 M J) (s_v94 M J) (mem_at 0) (fun W e => by rw [reshape_result, e]; rfl) rfl fun V h => ?_
  refine h.binary (s_v68 M J) (s_v94 M J) (s_v95 M J) (mem_at 26) (mem_at 0) rfl rfl fun V h => ?_
  refine h.unary (s_v21 M J) (s_v96 M J) (mem_at 74) rfl rfl fun V h => ?_
  refine h.reshape (s_v96 M J) (s_v97 M J) (mem_at 0) (fun W e => by rw [reshape_result, e]; rfl) rfl fun V h => ?_
  refine h.binary (s_v83 M J) (s_v97 M J) (s_v98 M J) (mem_at 14) (mem_at 0) rfl rfl fun V h => ?_
  refine h.unary (s_v21 M J) (s_v99 M J) (mem_at 77) rfl rfl fun V h => ?_
  refine h.reshape (s_v99 M J) (s_v100 M J) (mem_at 0) (fun W e => by rw [reshape_result, e]; rfl) rfl fun V h => ?_
  refine h.binary (s_v98 M J) (s_v100 M J) (s_v101 M J) (mem_at 2) (mem_at 0) rfl rfl fun V h => ?_
  refine h.unary (s_v21 M J) (s_v102 M J) (mem_at 80) rfl rfl fun V h => ?_
  refine h.reshape (s_v102 M J) (s_v103 M J) (mem_at 0) (fun W e => by rw [reshape_result, e]; rfl) rfl fun V h => ?_
  refine h.binary (s_v101 M J) (s_v103 M J) (s_v104 M J) (mem_at 2) (mem_at 0) rfl rfl fun V h => ?_
  refine h.unary (s_v21 M J) (s_v105 M J) (mem_at 83) rfl rfl fun V h => ?_
  refine h.reshape (s_v105 M J) (s_v106 M J) (mem_at 0) (fun W e => by rw [reshape_result, e]; rfl) rfl fun V h => ?_
  refine h.binary (s_v83 M J) (s_v106 M J) (s_v107 M J) (mem_at 23) (mem_at 0) rfl rfl fun V h => ?_
  refine h.unary (s_v21 M J) (s_v108 M J) (mem_at 86) rfl rfl fun V h => ?_
  refine h.reshape (s_v108 M J) (s_v109 M J) (mem_at 0) (fun W e => by rw [reshape_result, e]; rfl) rfl fun V h => ?_
  refine h.binary (s_v107 M J) (s_v109 M J) (s_v110 M J) (mem_at 2) (mem_at 0) rfl rfl fun V h => ?_
  refine h.unary (s_v21 M J) (s_v111 M J) (mem_at 89) rfl rfl fun V h => ?_
  refine h.reshape (s_v111 M J) (s_v112 M J) (mem_at 0) (fun W e => by rw [reshape_result, e]; rfl) rfl fun V h => ?_
  refine h.binary (s_v110 M J) (s_v112 M J) (s_v113 M J) (mem_at 2) (mem_at 0) rfl rfl fun V h => ?_
  exact h.done

abbrev tab3 (M : Vec F S16x2048x22x3x3 .f32) (J : Vec F S55x3 .f32) (P : main_arg2.ty.Contents (Elt F)) : List (Ent sig (Elt F)) :=
  ⟨main_v173, s_v173 M J⟩ ::
  ⟨main_v172, s_v172 M J⟩ ::
  ⟨main_v171, s_v171 M J⟩ ::
  ⟨main_v170, s_v170 M J⟩ ::
  ⟨main_v169, s_v169 M J⟩ ::
  ⟨main_v168, s_v168 M J⟩ ::
  ⟨main_v167, s_v167 M J⟩ ::
  ⟨main_v166, s_v166 M J⟩ ::
  ⟨main_v165, s_v165 M J⟩ ::
  ⟨main_v164, s_v164 M J⟩ ::
  ⟨main_v163, s_v163 M J⟩ ::
  ⟨main_v162, s_v162 M J⟩ ::
  ⟨main_v161, s_v161 M J⟩ ::
  ⟨main_v160, s_v160 M J⟩ ::
  ⟨main_v159, s_v159 M J⟩ ::
  ⟨main_v158, s_v158 M J⟩ ::
  ⟨main_v157, s_v157 M J⟩ ::
  ⟨main_v156, s_v156 M J⟩ ::
  ⟨main_v155, s_v155 M J⟩ ::
  ⟨main_v154, s_v154 M J⟩ ::
  ⟨main_v153, s_v153 M J⟩ ::
  ⟨main_v152, s_v152 M J⟩ ::
  ⟨main_v151, s_v151 M J⟩ ::
  ⟨main_v150, s_v150 M J⟩ ::
  ⟨main_v149, s_v149 M J⟩ ::
  ⟨main_v148, s_v148 M J⟩ ::
  ⟨main_v147, s_v147 M J⟩ ::
  ⟨main_v146, s_v146 M J⟩ ::
  ⟨main_v145, s_v145 M J⟩ ::
  ⟨main_v144, s_v144 M J⟩ ::
  ⟨main_v143, s_v143 M J⟩ ::
  ⟨main_v142, s_v142 M J⟩ ::
  ⟨main_v141, s_v141 M J⟩ ::
  ⟨main_v140, s_v140 M J⟩ ::
  ⟨main_v139, s_v139 M J⟩ ::
  ⟨main_v138, s_v138 M J⟩ ::
  ⟨main_v137, s_v137 M J⟩ ::
  ⟨main_v136, s_v136 M J⟩ ::
  ⟨main_v135, s_v135 M J⟩ ::
  ⟨main_v134, s_v134 M J⟩ ::
  ⟨main_v133, s_v133 M J⟩ ::
  ⟨main_v132, s_v132 M J⟩ ::
  ⟨main_v131, s_v131 M J⟩ ::
  ⟨main_v130, s_v130 M J⟩ ::
  ⟨main_v129, s_v129 M J⟩ ::
  ⟨main_v128, s_v128 M J⟩ ::
  ⟨main_v127, s_v127 M J⟩ ::
  ⟨main_v126, s_v126 M J⟩ ::
  ⟨main_v125, s_v125 M J⟩ ::
  ⟨main_v124, s_v124 M J⟩ ::
  ⟨main_v123, s_v123 M J⟩ ::
  ⟨main_v122, s_v122 M J⟩ ::
  ⟨main_v121, s_v121 M J⟩ ::
  ⟨main_v120, s_v120 M J⟩ ::
  ⟨main_v119, s_v119 M J⟩ ::
  ⟨main_v118, s_v118 M J⟩ ::
  ⟨main_v117, s_v117 M J⟩ ::
  ⟨main_v116, s_v116 M J⟩ ::
  ⟨main_v115, s_v115 M J⟩ ::
  ⟨main_v114, s_v114 M J⟩ ::
  tab2 M J P

set_option maxHeartbeats 4000000 in

theorem win2 (M : Vec F S16x2048x22x3x3 .f32) (J : Vec F S55x3 .f32) (P : main_arg2.ty.Contents (Elt F)) (W : Valuation τ sig (Elt F))
    (h : Holds W (tab2 M J P) 123) : Holds (after ops2 W) (tab3 M J P) 183 := by
  refine h.unary (s_v21 M J) (s_v114 M J) (mem_at 92) rfl rfl fun V h => ?_
  refine h.reshape (s_v114 M J) (s_v115 M J) (mem_at 0) (fun W e => by rw [reshape_result, e]; rfl) rfl fun V h => ?_
  refine h.binary (s_v83 M J) (s_v115 M J) (s_v116 M J) (mem_at 32) (mem_at 0) rfl rfl fun V h => ?_
  refine h.unary (s_v21 M J) (s_v117 M J) (mem_at 95) rfl rfl fun V h => ?_
  refine h.reshape (s_v117 M J) (s_v118 M J) (mem_at 0) (fun W e => by rw [reshape_result, e]; rfl) rfl fun V h => ?_
  refine h.binary (s_v116 M J) (s_v118 M J) (s_v119 M J) (mem_at 2) (mem_at 0) rfl rfl fun V h => ?_
  refine h.unary (s_v21 M J) (s_v120 M J) (mem_at 98) rfl rfl fun V h => ?_
  refine h.reshape (s_v120 M J) (s_v121 M J) (mem_at 0) (fun W e => by rw [reshape_result, e]; rfl) rfl fun V h => ?_
  refine h.binary (s_v119 M J) (s_v121 M J) (s_v122 M J) (mem_at 2) (mem_at 0) rfl rfl fun V h => ?_
  refine h.unary (s_v21 M J) (s_v123 M J) (mem_at 101) rfl rfl fun V h => ?_
  refine h.reshape (s_v123 M J) (s_v124 M J) (mem_at 0) (fun W e => by rw [reshape_result, e]; rfl) rfl fun V h => ?_
  refine h.binary (s_v83 M J) (s_v124 M J) (s_v125 M J) (mem_at 41) (mem_at 0) rfl rfl fun V h => ?_
  refine h.unary (s_v21 M J) (s_v126 M J) (mem_at 104) rfl rfl fun V h => ?_
  refine h.reshape (s_v126 M J) (s_v127 M J) (mem_at 0) (fun W e => by rw [reshape_result, e]; rfl) rfl fun V h => ?_
  refine h.binary (s_v125 M J) (s_v127 M J) (s_v128 M J) (mem_at 2) (mem_at 0) rfl rfl fun V h => ?_
  refine h.unary (s_v21 M J) (s_v129 M J) (mem_at 107) rfl rfl fun V h => ?_
  refine h.reshape (s_v129 M J) (s_v130 M J) (mem_at 0) (fun W e => by rw [reshape_result, e]; rfl) rfl fun V h => ?_
  refine h.binary (s_v128 M J) (s_v130 M J) (s_v131 M J) (mem_at 2) (mem_at 0) rfl rfl fun V h => ?_
  refine h.unary (s_v21 M J) (s_v132 M J) (mem_at 110) rfl rfl fun V h => ?_
  refine h.reshape (s_v132 M J) (s_v133 M J) (mem_at 0) (fun W e => by rw [reshape_result, e]; rfl) rfl fun V h => ?_
  refine h.binary (s_v83 M J) (s_v133 M J) (s_v134 M J) (mem_at 50) (mem_at 0) rfl rfl fun V h => ?_
  refine h.unary (s_v21 M J) (s_v135 M J) (mem_at 113) rfl rfl fun V h => ?_
  refine h.reshape (s_v135 M J) (s_v136 M J) (mem_at 0) (fun W e => by rw [reshape_result, e]; rfl) rfl fun V h => ?_
  refine h.binary (s_v134 M J) (s_v136 M J) (s_v137 M J) (mem_at 2) (mem_at 0) rfl rfl fun V h => ?_
  refine h.unary (s_v21 M J) (s_v138 M J) (mem_at 116) rfl rfl fun V h => ?_
  refine h.reshape (s_v138 M J) (s_v139 M J) (mem_at 0) (fun W e => by rw [reshape_result, e]; rfl) rfl fun V h => ?_
  refine h.binary (s_v137 M J) (s_v139 M J) (s_v140 M J) (mem_at 2) (mem_at 0) rfl rfl fun V h => ?_
  refine h.unary (s_v21 M J) (s_v141 M J) (mem_at 119) rfl rfl fun V h => ?_
  refine h.reshape (s_v141 M J) (s_v142 M J) (mem_at 0) (fun W e => by rw [reshape_result, e]; rfl) rfl fun V h => ?_
  refine h.binary (s_v86 M J) (s_v142 M J) (s_v143 M J) (mem_at 56) (mem_at 0) rfl rfl fun V h => ?_
  refine h.unary (s_v21 M J) (s_v144 M J) (mem_at 122) rfl rfl fun V h => ?_
  refine h.reshape (s_v144 M J) (s_v145 M J) (mem_at 0) (fun W e => by rw [reshape_result, e]; rfl) rfl fun V h => ?_
  refine h.binary (s_v143 M J) (s_v145 M J) (s_v146 M J) (mem_at 2) (mem_at 0) rfl rfl fun V h => ?_
  refine h.unary (s_v21 M J) (s_v147 M J) (mem_at 125) rfl rfl fun V h => ?_
  refine h.reshape (s_v147 M J) (s_v148 M J) (mem_at 0) (fun W e => by rw [reshape_result, e]; rfl) rfl fun V h => ?_
  refine h.binary (s_v146 M J) (s_v148 M J) (s_v149 M J) (mem_at 2) (mem_at 0) rfl rfl fun V h => ?_
  refine h.unary (s_v21 M J) (s_v150 M J) (mem_at 128) rfl rfl fun V h => ?_
  refine h.reshape (s_v150 M J) (s_v151 M J) (mem_at 0) (fun W e => by rw [reshape_result, e]; rfl) rfl fun V h => ?_
  refine h.binary (s_v86 M J) (s_v151 M J) (s_v152 M J) (mem_at 65) (mem_at 0) rfl rfl fun V h => ?_
  refine h.unary (s_v21 M J) (s_v153 M J) (mem_at 131) rfl rfl fun V h => ?_
  refine h.reshape (s_v153 M J) (s_v154 M J) (mem_at 0) (fun W e => by rw [reshape_result, e]; rfl) rfl fun V h => ?_
  refine h.binary (s_v152 M J) (s_v154 M J) (s_v155 M J) (mem_at 2) (mem_at 0) rfl rfl fun V h => ?_
  refine h.unary (s_v21 M J) (s_v156 M J) (mem_at 134) rfl rfl fun V h => ?_
  refine h.reshape (s_v156 M J) (s_v157 M J) (mem_at 0) (fun W e => by rw [reshape_result, e]; rfl) rfl fun V h => ?_
  refine h.binary (s_v155 M J) (s_v157 M J) (s_v158 M J) (mem_at 2) (mem_at 0) rfl rfl fun V h => ?_
  refine h.unary (s_v21 M J) (s_v159 M J) (mem_at 137) rfl rfl fun V h => ?_
  refine h.reshape (s_v159 M J) (s_v160 M J) (mem_at 0) (fun W e => by rw [reshape_result, e]; rfl) rfl fun V h => ?_
  refine h.binary (s_v86 M J) (s_v160 M J) (s_v161 M J) (mem_at 74) (mem_at 0) rfl rfl fun V h => ?_
  refine h.unary (s_v21 M J) (s_v162 M J) (mem_at 140) rfl rfl fun V h => ?_
  refine h.reshape (s_v162 M J) (s_v163 M J) (mem_at 0) (fun W e => by rw [reshape_result, e]; rfl) rfl fun V h => ?_
  refine h.binary (s_v161 M J) (s_v163 M J) (s_v164 M J) (mem_at 2) (mem_at 0) rfl rfl fun V h => ?_
  refine h.unary (s_v21 M J) (s_v165 M J) (mem_at 143) rfl rfl fun V h => ?_
  refine h.reshape (s_v165 M J) (s_v166 M J) (mem_at 0) (fun W e => by rw [reshape_result, e]; rfl) rfl fun V h => ?_
  refine h.binary (s_v164 M J) (s_v166 M J) (s_v167 M J) (mem_at 2) (mem_at 0) rfl rfl fun V h => ?_
  refine h.unary (s_v21 M J) (s_v168 M J) (mem_at 146) rfl rfl fun V h => ?_
  refine h.reshape (s_v168 M J) (s_v169 M J) (mem_at 0) (fun W e => by rw [reshape_result, e]; rfl) rfl fun V h => ?_
  refine h.binary (s_v86 M J) (s_v169 M J) (s_v170 M J) (mem_at 83) (mem_at 0) rfl rfl fun V h => ?_
  refine h.unary (s_v21 M J) (s_v171 M J) (mem_at 149) rfl rfl fun V h => ?_
  refine h.reshape (s_v171 M J) (s_v172 M J) (mem_at 0) (fun W e => by rw [reshape_result, e]; rfl) rfl fun V h => ?_
  refine h.binary (s_v170 M J) (s_v172 M J) (s_v173 M J) (mem_at 2) (mem_at 0) rfl rfl fun V h => ?_
  exact h.done

abbrev tab4 (M : Vec F S16x2048x22x3x3 .f32) (J : Vec F S55x3 .f32) (P : main_arg2.ty.Contents (Elt F)) : List (Ent sig (Elt F)) :=
  ⟨main_v233, s_v233 M J⟩ ::
  ⟨main_v232, s_v232 M J⟩ ::
  ⟨main_v231, s_v231 M J⟩ ::
  ⟨main_v230, s_v230 M J⟩ ::
  ⟨main_v229, s_v229 M J⟩ ::
  ⟨main_v228, s_v228 M J⟩ ::
  ⟨main_v227, s_v227 M J⟩ ::
  ⟨main_v226, s_v226 M J⟩ ::
  ⟨main_v225, s_v225 M J⟩ ::
  ⟨main_v224, s_v224 M J⟩ ::
  ⟨main_v223, s_v223 M J⟩ ::
  ⟨main_v222, s_v222 M J⟩ ::
  ⟨main_v221, s_v221 M J⟩ ::
  ⟨main_v220, s_v220 M J⟩ ::
  ⟨main_v219, s_v219 M J⟩ ::
  ⟨main_v218, s_v218 M J⟩ ::
  ⟨main_v217, s_v217 M J⟩ ::
  ⟨main_v216, s_v216 M J⟩ ::
  ⟨main_v215, s_v215 M J⟩ ::
  ⟨main_v214, s_v214 M J⟩ ::
  ⟨main_v213, s_v213 M J⟩ ::
  ⟨main_v212, s_v212 M J⟩ ::
  ⟨main_v211, s_v211 M J⟩ ::
  ⟨main_v210, s_v210 M J⟩ ::
  ⟨main_v209, s_v209 M J⟩ ::
  ⟨main_v208, s_v208 M J⟩ ::
  ⟨main_v207, s_v207 M J⟩ ::
  ⟨main_v206, s_v206 M J⟩ ::
  ⟨main_v205, s_v205 M J⟩ ::
  ⟨main_v204, s_v204 M J⟩ ::
  ⟨main_v203, s_v203 M J⟩ ::
  ⟨main_v202, s_v202 M J⟩ ::
  ⟨main_v201, s_v201 M J⟩ ::
  ⟨main_v200, s_v200 M J⟩ ::
  ⟨main_v199, s_v199 M J⟩ ::
  ⟨main_v198, s_v198 M J⟩ ::
  ⟨main_v197, s_v197 M J⟩ ::
  ⟨main_v196, s_v196 M J⟩ ::
  ⟨main_v195, s_v195 M J⟩ ::
  ⟨main_v194, s_v194 M J⟩ ::
  ⟨main_v193, s_v193 M J⟩ ::
  ⟨main_v192, s_v192 M J⟩ ::
  ⟨main_v191, s_v191 M J⟩ ::
  ⟨main_v190, s_v190 M J⟩ ::
  ⟨main_v189, s_v189 M J⟩ ::
  ⟨main_v188, s_v188 M J⟩ ::
  ⟨main_v187, s_v187 M J⟩ ::
  ⟨main_v186, s_v186 M J⟩ ::
  ⟨main_v185, s_v185 M J⟩ ::
  ⟨main_v184, s_v184 M J⟩ ::
  ⟨main_v183, s_v183 M J⟩ ::
  ⟨main_v182, s_v182 M J⟩ ::
  ⟨main_v181, s_v181 M J⟩ ::
  ⟨main_v180, s_v180 M J⟩ ::
  ⟨main_v179, s_v179 M J⟩ ::
  ⟨main_v178, s_v178 M J⟩ ::
  ⟨main_v177, s_v177 M J⟩ ::
  ⟨main_v176, s_v176 M J⟩ ::
  ⟨main_v175, s_v175 M J⟩ ::
  ⟨main_v174, s_v174 M J⟩ ::
  tab3 M J P

set_option maxHeartbeats 4000000 in

theorem win3 (M : Vec F S16x2048x22x3x3 .f32) (J : Vec F S55x3 .f32) (P : main_arg2.ty.Contents (Elt F)) (W : Valuation τ sig (Elt F))
    (h : Holds W (tab3 M J P) 183) : Holds (after ops3 W) (tab4 M J P) 243 := by
  refine h.unary (s_v21 M J) (s_v174 M J) (mem_at 152) rfl rfl fun V h => ?_
  refine h.reshape (s_v174 M J) (s_v175 M J) (mem_at 0) (fun W e => by rw [reshape_result, e]; rfl) rfl fun V h => ?_
  refine h.binary (s_v173 M J) (s_v175 M J) (s_v176 M J) (mem_at 2) (mem_at 0) rfl rfl fun V h => ?_
  refine h.unary (s_v21 M J) (s_v177 M J) (mem_at 155) rfl rfl fun V h => ?_
  refine h.reshape (s_v177 M J) (s_v178 M J) (mem_at 0) (fun W e => by rw [reshape_result, e]; rfl) rfl fun V h => ?_
  refine h.binary (s_v86 M J) (s_v178 M J) (s_v179 M J) (mem_at 92) (mem_at 0) rfl rfl fun V h => ?_
  refine h.unary (s_v21 M J) (s_v180 M J) (mem_at 158) rfl rfl fun V h => ?_
  refine h.reshape (s_v180 M J) (s_v181 M J) (mem_at 0) (fun W e => by rw [reshape_result, e]; rfl) rfl fun V h => ?_
  refine h.binary (s_v179 M J) (s_v181 M J) (s_v182 M J) (mem_at 2) (mem_at 0) rfl rfl fun V h => ?_
  refine h.unary (s_v21 M J) (s_v183 M J) (mem_at 161) rfl rfl fun V h => ?_
  refine h.reshape (s_v183 M J) (s_v184 M J) (mem_at 0) (fun W e => by rw [reshape_result, e]; rfl) rfl fun V h => ?_
  refine h.binary (s_v182 M J) (s_v184 M J) (s_v185 M J) (mem_at 2) (mem_at 0) rfl rfl fun V h => ?_
  refine h.unary (s_v23 M J) (s_v186 M J) (mem_at 162) rfl rfl fun V h => ?_
  refine h.unary (s_v26 M J) (s_v187 M J) (mem_at 160) rfl rfl fun V h => ?_
  refine h.unary (s_v29 M J) (s_v188 M J) (mem_at 158) rfl rfl fun V h => ?_
  refine h.unary (s_v32 M J) (s_v189 M J) (mem_at 156) rfl rfl fun V h => ?_
  refine h.unary (s_v35 M J) (s_v190 M J) (mem_at 154) rfl rfl fun V h => ?_
  refine h.unary (s_v38 M J) (s_v191 M J) (mem_at 152) rfl rfl fun V h => ?_
  refine h.unary (s_v41 M J) (s_v192 M J) (mem_at 150) rfl rfl fun V h => ?_
  refine h.unary (s_v44 M J) (s_v193 M J) (mem_at 148) rfl rfl fun V h => ?_
  refine h.unary (s_v47 M J) (s_v194 M J) (mem_at 146) rfl rfl fun V h => ?_
  refine h.unary (s_v50 M J) (s_v195 M J) (mem_at 144) rfl rfl fun V h => ?_
  refine h.unary (s_v53 M J) (s_v196 M J) (mem_at 142) rfl rfl fun V h => ?_
  refine h.unary (s_v56 M J) (s_v197 M J) (mem_at 140) rfl rfl fun V h => ?_
  refine h.unary (s_v59 M J) (s_v198 M J) (mem_at 138) rfl rfl fun V h => ?_
  refine h.unary (s_v62 M J) (s_v199 M J) (mem_at 136) rfl rfl fun V h => ?_
  refine h.unary (s_v65 M J) (s_v200 M J) (mem_at 134) rfl rfl fun V h => ?_
  refine h.unary (s_v68 M J) (s_v201 M J) (mem_at 132) rfl rfl fun V h => ?_
  refine h.unary (s_v71 M J) (s_v202 M J) (mem_at 130) rfl rfl fun V h => ?_
  refine h.unary (s_v74 M J) (s_v203 M J) (mem_at 128) rfl rfl fun V h => ?_
  refine h.unary (s_v77 M J) (s_v204 M J) (mem_at 126) rfl rfl fun V h => ?_
  refine h.unary (s_v80 M J) (s_v205 M J) (mem_at 124) rfl rfl fun V h => ?_
  refine h.unary (s_v83 M J) (s_v206 M J) (mem_at 122) rfl rfl fun V h => ?_
  refine h.unary (s_v86 M J) (s_v207 M J) (mem_at 120) rfl rfl fun V h => ?_
  refine h.unary (s_v89 M J) (s_v208 M J) (mem_at 118) rfl rfl fun V h => ?_
  refine h.unary (s_v92 M J) (s_v209 M J) (mem_at 116) rfl rfl fun V h => ?_
  refine h.unary (s_v95 M J) (s_v210 M J) (mem_at 114) rfl rfl fun V h => ?_
  refine h.unary (s_v98 M J) (s_v211 M J) (mem_at 112) rfl rfl fun V h => ?_
  refine h.unary (s_v101 M J) (s_v212 M J) (mem_at 110) rfl rfl fun V h => ?_
  refine h.unary (s_v104 M J) (s_v213 M J) (mem_at 108) rfl rfl fun V h => ?_
  refine h.unary (s_v107 M J) (s_v214 M J) (mem_at 106) rfl rfl fun V h => ?_
  refine h.unary (s_v110 M J) (s_v215 M J) (mem_at 104) rfl rfl fun V h => ?_
  refine h.unary (s_v113 M J) (s_v216 M J) (mem_at 102) rfl rfl fun V h => ?_
  refine h.unary (s_v116 M J) (s_v217 M J) (mem_at 100) rfl rfl fun V h => ?_
  refine h.unary (s_v119 M J) (s_v218 M J) (mem_at 98) rfl rfl fun V h => ?_
  refine h.unary (s_v122 M J) (s_v219 M J) (mem_at 96) rfl rfl fun V h => ?_
  refine h.unary (s_v125 M J) (s_v220 M J) (mem_at 94) rfl rfl fun V h => ?_
  refine h.unary (s_v128 M J) (s_v221 M J) (mem_at 92) rfl rfl fun V h => ?_
  refine h.unary (s_v131 M J) (s_v222 M J) (mem_at 90) rfl rfl fun V h => ?_
  refine h.unary (s_v134 M J) (s_v223 M J) (mem_at 88) rfl rfl fun V h => ?_
  refine h.unary (s_v137 M J) (s_v224 M J) (mem_at 86) rfl rfl fun V h => ?_
  refine h.unary (s_v140 M J) (s_v225 M J) (mem_at 84) rfl rfl fun V h => ?_
  refine h.unary (s_v143 M J) (s_v226 M J) (mem_at 82) rfl rfl fun V h => ?_
  refine h.unary (s_v146 M J) (s_v227 M J) (mem_at 80) rfl rfl fun V h => ?_
  refine h.unary (s_v149 M J) (s_v228 M J) (mem_at 78) rfl rfl fun V h => ?_
  refine h.unary (s_v152 M J) (s_v229 M J) (mem_at 76) rfl rfl fun V h => ?_
  refine h.unary (s_v155 M J) (s_v230 M J) (mem_at 74) rfl rfl fun V h => ?_
  refine h.unary (s_v158 M J) (s_v231 M J) (mem_at 72) rfl rfl fun V h => ?_
  refine h.unary (s_v161 M J) (s_v232 M J) (mem_at 70) rfl rfl fun V h => ?_
  refine h.unary (s_v164 M J) (s_v233 M J) (mem_at 68) rfl rfl fun V h => ?_
  exact h.done

abbrev tab5 (M : Vec F S16x2048x22x3x3 .f32) (J : Vec F S55x3 .f32) (P : main_arg2.ty.Contents (Elt F)) : List (Ent sig (Elt F)) :=
  ⟨main_v248, s_v248 M J⟩ ::
  ⟨main_v247, s_v247 M J⟩ ::
  ⟨main_v246, s_v246 M J⟩ ::
  ⟨main_v245, s_v245 M J⟩ ::
  ⟨main_v244, s_v244 M J⟩ ::
  ⟨main_v243, s_v243 M J⟩ ::
  ⟨main_v242, s_v242 M J⟩ ::
  ⟨main_v241, s_v241 M J⟩ ::
  ⟨main_v240, s_v240 M J⟩ ::
  ⟨main_v239, s_v239 M J⟩ ::
  ⟨main_v238, s_v238 M J⟩ ::
  ⟨main_v237, s_v237 M J⟩ ::
  ⟨main_v236, s_v236 M J⟩ ::
  ⟨main_v235, s_v235 M J⟩ ::
  ⟨main_v234, s_v234 M J⟩ ::
  tab4 M J P

set_option maxHeartbeats 4000000 in

theorem win4 (M : Vec F S16x2048x22x3x3 .f32) (J : Vec F S55x3 .f32) (P : main_arg2.ty.Contents (Elt F)) (W : Valuation τ sig (Elt F))
    (h : Holds W (tab4 M J P) 243) : Holds (after ops4 W) (tab5 M J P) 258 := by
  refine h.unary (s_v167 M J) (s_v234 M J) (mem_at 66) rfl rfl fun V h => ?_
  refine h.unary (s_v170 M J) (s_v235 M J) (mem_at 64) rfl rfl fun V h => ?_
  refine h.unary (s_v173 M J) (s_v236 M J) (mem_at 62) rfl rfl fun V h => ?_
  refine h.unary (s_v176 M J) (s_v237 M J) (mem_at 60) rfl rfl fun V h => ?_
  refine h.unary (s_v179 M J) (s_v238 M J) (mem_at 58) rfl rfl fun V h => ?_
  refine h.unary (s_v182 M J) (s_v239 M J) (mem_at 56) rfl rfl fun V h => ?_
  refine h.unary (s_v185 M J) (s_v240 M J) (mem_at 54) rfl rfl fun V h => ?_
  refine h.nary (Fin.cons (s_v186 M J) (Fin.cons (s_v187 M J) (Fin.cons (s_v188 M J) (Fin.cons (s_v189 M J) (Fin.cons (s_v190 M J) (Fin.cons (s_v191 M J) (Fin.cons (s_v192 M J) (Fin.cons (s_v193 M J) (Fin.cons (s_v194 M J) (Fin.cons (s_v195 M J) (Fin.cons (s_v196 M J) (Fin.cons (s_v197 M J) (Fin.cons (s_v198 M J) (Fin.cons (s_v199 M J) (Fin.cons (s_v200 M J) (Fin.cons (s_v201 M J) (fun i => i.elim0))))))))))))))))) (s_v241 M J) (by intro j; fin_cases j; exacts [mem_at 54, mem_at 53, mem_at 52, mem_at 51, mem_at 50, mem_at 49, mem_at 48, mem_at 47, mem_at 46, mem_at 45, mem_at 44, mem_at 43, mem_at 42, mem_at 41, mem_at 40, mem_at 39]) rfl rfl fun V h => ?_
  refine h.nary (Fin.cons (s_v202 M J) (Fin.cons (s_v203 M J) (Fin.cons (s_v204 M J) (Fin.cons (s_v205 M J) (Fin.cons (s_v206 M J) (Fin.cons (s_v207 M J) (Fin.cons (s_v208 M J) (Fin.cons (s_v209 M J) (Fin.cons (s_v210 M J) (Fin.cons (s_v211 M J) (Fin.cons (s_v212 M J) (Fin.cons (s_v213 M J) (Fin.cons (s_v214 M J) (Fin.cons (s_v215 M J) (Fin.cons (s_v216 M J) (Fin.cons (s_v217 M J) (fun i => i.elim0))))))))))))))))) (s_v242 M J) (by intro j; fin_cases j; exacts [mem_at 39, mem_at 38, mem_at 37, mem_at 36, mem_at 35, mem_at 34, mem_at 33, mem_at 32, mem_at 31, mem_at 30, mem_at 29, mem_at 28, mem_at 27, mem_at 26, mem_at 25, mem_at 24]) rfl rfl fun V h => ?_
  refine h.nary (Fin.cons (s_v218 M J) (Fin.cons (s_v219 M J) (Fin.cons (s_v220 M J) (Fin.cons (s_v221 M J) (Fin.cons (s_v222 M J) (Fin.cons (s_v223 M J) (Fin.cons (s_v224 M J) (Fin.cons (s_v225 M J) (Fin.cons (s_v226 M J) (Fin.cons (s_v227 M J) (Fin.cons (s_v228 M J) (Fin.cons (s_v229 M J) (Fin.cons (s_v230 M J) (Fin.cons (s_v231 M J) (Fin.cons (s_v232 M J) (Fin.cons (s_v233 M J) (fun i => i.elim0))))))))))))))))) (s_v243 M J) (by intro j; fin_cases j; exacts [mem_at 24, mem_at 23, mem_at 22, mem_at 21, mem_at 20, mem_at 19, mem_at 18, mem_at 17, mem_at 16, mem_at 15, mem_at 14, mem_at 13, mem_at 12, mem_at 11, mem_at 10, mem_at 9]) rfl rfl fun V h => ?_
  refine h.nary (Fin.cons (s_v234 M J) (Fin.cons (s_v235 M J) (Fin.cons (s_v236 M J) (Fin.cons (s_v237 M J) (Fin.cons (s_v238 M J) (Fin.cons (s_v239 M J) (Fin.cons (s_v240 M J) (fun i => i.elim0)))))))) (s_v244 M J) (by intro j; fin_cases j; exacts [mem_at 9, mem_at 8, mem_at 7, mem_at 6, mem_at 5, mem_at 4, mem_at 3]) rfl rfl fun V h => ?_
  refine h.nary (Fin.cons (s_v241 M J) (Fin.cons (s_v242 M J) (Fin.cons (s_v243 M J) (Fin.cons (s_v244 M J) (fun i => i.elim0))))) (s_v245 M J) (by intro j; fin_cases j; exacts [mem_at 3, mem_at 2, mem_at 1, mem_at 0]) rfl rfl fun V h => ?_
  refine h.unary (s_v245 M J) (s_v246 M J) (mem_at 0) rfl rfl fun V h => ?_
  refine h.reshape (s_v246 M J) (s_v247 M J) (mem_at 0) (fun W e => by rw [reshape_result, e]; rfl) rfl fun V h => ?_
  refine h.reshape (s_v247 M J) (s_v248 M J) (mem_at 0) (fun W e => by rw [reshape_result, e]; rfl) rfl fun V h => ?_
  exact h.done

set_option maxHeartbeats 4000000 in
theorem main_part0_eq (c : Dev nD) : main_part0 (F := F) c = seq ops0 := rfl
set_option maxHeartbeats 4000000 in
theorem main_part1_eq (c : Dev nD) : main_part1 (F := F) c = seq ops1 := rfl
set_option maxHeartbeats 4000000 in
theorem main_part2_eq (c : Dev nD) : main_part2 (F := F) c = seq ops2 := rfl
set_option maxHeartbeats 4000000 in
theorem main_part3_eq (c : Dev nD) : main_part3 (F := F) c = seq ops3 := rfl
set_option maxHeartbeats 4000000 in
theorem main_part4_eq (c : Dev nD) : main_part4 (F := F) c = seq ops4 := rfl

abbrev ops : List (HloOp τ sig (Elt F)) := ops0 ++ (ops1 ++ (ops2 ++ (ops3 ++ ops4)))

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., nullary_bufs_sub .., reshape_bufs_sub .., nullary_bufs_sub .., nullary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., ternary_bufs_sub .., unary_bufs_sub .., binary_bufs_sub .., unary_bufs_sub .., nullary_bufs_sub .., unary_bufs_sub .., ternary_bufs_sub .., unary_bufs_sub .., binary_bufs_sub .., unary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_sub : (ops1 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_sub : (ops3 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_sub : (ops4 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., nary_bufs_sub .., nary_bufs_sub .., nary_bufs_sub .., nary_bufs_sub .., unary_bufs_sub .., reshape_bufs_sub .., reshape_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl⟩

theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) := by
  rcases List.mem_append.mp h with h | h
  · exact .inl h
  rcases List.mem_append.mp h with h | h
  · exact .inr (.inl h)
  rcases List.mem_append.mp h with h | h
  · exact .inr (.inr (.inl h))
  rcases List.mem_append.mp h with h | h
  · exact .inr (.inr (.inr (.inl h)))
  · exact .inr (.inr (.inr (.inr h)))

theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops_fresh : ∀ op ∈ (ops : List (HloOp τ sig (Elt F))), op.fresh = ∅ := fun op h => by
  rcases mem_ops h with h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h]

theorem holds_tab0 (V : Valuation τ sig (Elt F)) :
    Holds V (tab0 (V (Proc.devRef .tc main_arg0)) (V (Proc.devRef .tc main_arg1)) (V (Proc.devRef .tc main_arg2))) 3 where
  val p hp := by
    simp only [tab0, List.mem_cons, List.not_mem_nil, or_false] at hp
    rcases hp with rfl | rfl | rfl <;> rfl
  lt p hp := by
    simp only [tab0, List.mem_cons, List.not_mem_nil, or_false] at hp
    rcases hp with rfl | rfl | rfl
    exacts [(by decide : main_arg2.idx.val < 3), (by decide : main_arg1.idx.val < 3), (by decide : main_arg0.idx.val < 3)]

theorem after_ops (V : Valuation τ sig (Elt F)) :
    Holds (after ops V) (tab5 (V (Proc.devRef .tc main_arg0)) (V (Proc.devRef .tc main_arg1)) (V (Proc.devRef .tc main_arg2))) 258 := by
  simp only [ops, after_app]
  exact win4 _ _ _ _ (win3 _ _ _ _ (win2 _ _ _ _ (win1 _ _ _ _ (win0 _ _ _ _ (holds_tab0 V)))))

theorem run (m : (ℓ : Loc nD τ sig) → Buf (Elt F) ℓ) (ρ : Dev nD → PrngReg) :
    θ_run Cert.ReferenceIdeal.defs (onTc (τ := τ) (main (F := F))) ⟨m, fun _ => 0, ρ⟩ fun r => ∀ c : Dev nD,
      r.2.mem ((c.tc : Thread nD τ).loc main_v248) = s_v248 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono (fun _ h c =>
      have H := after_ops (launchContents m c)
      ⟨(h c main_v248).trans (H.val _ (mem_at 0)), (h c main_arg0).trans (H.val _ (mem_at 257)),
        (h c main_arg1).trans (H.val _ (mem_at 256)), (h c main_arg2).trans (H.val _ (mem_at 255))⟩)
    (run_seq scopedRefs_eq scopedSems_eq Cert.ReferenceIdeal.defs main (fun _ => ops) main_eq (fun _ => ops_sub) m ρ
      (fun _ => ops_fresh))

end Cert.FK.Ref

end
-- ==== Proof.Spec.lean ====
import Idealize.ShloMosaic.PureOps.Ideal
import Idealize.ShloMosaic.Lib.ValueIdx

-- Forward kinematics over the fixed 55-joint tree on the extended reals: joint j's transform is its parent's composed with j's own.

noncomputable section

namespace Cert.FK

structure Pose where
  c : Fin 3 → Fin 3 → EReal
  p : Fin 3 → EReal

def Pose.rot (k : Pose) (R : Fin 3 → Fin 3 → EReal) (t : Fin 3 → EReal) : Pose :=
  ⟨fun r c => k.c r 0 * R 0 c + k.c r 1 * R 1 c + k.c r 2 * R 2 c,
   fun r => k.c r 0 * t 0 + k.c r 1 * t 1 + k.c r 2 * t 2 + k.p r⟩

def Pose.move (k : Pose) (t : Fin 3 → EReal) : Pose :=
  ⟨k.c, fun r => k.c r 0 * t 0 + k.c r 1 * t 1 + k.c r 2 * t 2 + k.p r⟩

def parents : List ℕ :=
  [0, 0, 0, 0, 1, 2, 3, 4, 5, 6, 7, 8, 9, 9, 9, 12, 13, 14, 16, 17, 18, 19,
   15, 15, 15,
   20, 25, 26, 20, 28, 29, 20, 31, 32, 20, 34, 35, 20, 37, 38,
   21, 40, 41, 21, 43, 44, 21, 46, 47, 21, 49, 50, 21, 52, 53]

def par (j : ℕ) : ℕ := parents.getD j 0

theorem par_lt (j : ℕ) (h1 : 1 ≤ j) (h2 : j < 55) : par j < j := by
  interval_cases j <;> decide

def pose (R : ℕ → Fin 3 → Fin 3 → EReal) (t : ℕ → Fin 3 → EReal) (j : ℕ) : Pose :=
  if h : 1 ≤ j ∧ j < 55 then
    (if j < 22 then (pose R t (par j)).rot (R j) (t j) else (pose R t (par j)).move (t j))
  else ⟨R 0, t 0⟩
termination_by j
decreasing_by all_goals exact par_lt j h.1 h.2

theorem pose_root (R : ℕ → Fin 3 → Fin 3 → EReal) (t : ℕ → Fin 3 → EReal) : pose R t 0 = ⟨R 0, t 0⟩ := by
  rw [pose]; simp

theorem pose_body (R : ℕ → Fin 3 → Fin 3 → EReal) (t : ℕ → Fin 3 → EReal) (j : ℕ) (h1 : 1 ≤ j) (h2 : j < 22) :
    pose R t j = (pose R t (par j)).rot (R j) (t j) := by
  rw [pose, dif_pos ⟨h1, by omega⟩, if_pos h2]

theorem pose_tip (R : ℕ → Fin 3 → Fin 3 → EReal) (t : ℕ → Fin 3 → EReal) (j : ℕ) (h1 : 22 ≤ j) (h2 : j < 55) :
    pose R t j = (pose R t (par j)).move (t j) := by
  rw [pose, dif_pos ⟨by omega, h2⟩, if_neg (by omega)]

theorem pose_congr {R R' : ℕ → Fin 3 → Fin 3 → EReal} {t t' : ℕ → Fin 3 → EReal}
    (hR : ∀ i, i < 55 → R i = R' i) (ht : ∀ i, i < 55 → t i = t' i) : ∀ j, j < 55 → pose R t j = pose R' t' j := by
  intro j
  induction j using Nat.strong_induction_on with
  | _ j ih =>
    intro hj
    by_cases h0 : 1 ≤ j
    · have hp : par j < j := par_lt j h0 hj
      by_cases h22 : j < 22
      · rw [pose_body R t j h0 h22, pose_body R' t' j h0 h22, ih (par j) hp (by omega), hR j hj, ht j hj]
      · rw [pose_tip R t j (by omega) hj, pose_tip R' t' j (by omega) hj, ih (par j) hp (by omega), ht j hj]
    · have : j = 0 := by omega
      subst this
      rw [pose_root, pose_root, hR 0 (by norm_num), ht 0 (by norm_num)]

end Cert.FK

end
-- ==== Proof.Target.lean ====
import proofs.«134826_j18760417149409_1_alg».proof.Proof.Spec

-- The posed joint positions as one function of the two argument arrays.

noncomputable section

namespace Cert.FK

open Idealize.ShloMosaic Idealize.ShloMosaic.ValueIdx

abbrev SM : Shape := ⟨5, ![16, 2048, 22, 3, 3]⟩
abbrev SJ : Shape := ⟨2, ![55, 3]⟩
abbrev SO : Shape := ⟨4, ![16, 2048, 55, 3]⟩

def rotOf (M : SM.Idx → EReal) (b : Fin 16) (t : Fin 2048) (j : ℕ) (r c : Fin 3) : EReal :=
  if h : j < 22 then M (ix5 b t ⟨j, h⟩ r c) else 0

def restAt (J : SJ.Idx → EReal) (j : ℕ) (r : Fin 3) : EReal :=
  if h : j < 55 then J (ix2 ⟨j, h⟩ r) else 0

def offOf (J : SJ.Idx → EReal) (j : ℕ) (r : Fin 3) : EReal :=
  if j = 0 then restAt J 0 r else restAt J j r - restAt J (par j) r

def posed (M : SM.Idx → EReal) (J : SJ.Idx → EReal) (b : Fin 16) (t : Fin 2048) (j : Fin 55) (r : Fin 3) : EReal :=
  (pose (rotOf M b t) (offOf J) j.val).p r

theorem ext_posed {X Y : SO.Idx → EReal} {M : SM.Idx → EReal} {J : SJ.Idx → EReal}
    (hX : ∀ b t j r, X (ix4 b t j r) = posed M J b t j r) (hY : ∀ b t j r, Y (ix4 b t j r) = posed M J b t j r) : X = Y := by
  funext i
  rw [eq_ix4 i]
  exact (hX _ _ _ _).trans (hY _ _ _ _).symm

end Cert.FK

end
-- ==== Proof.RefTmats.lean ====
import proofs.«134826_j18760417149409_1_alg».proof.Proof.RefStages
import proofs.«134826_j18760417149409_1_alg».proof.Proof.Target
import Idealize.ShloMosaic.Lib.Pipeline.Value
import Idealize.ShloMosaic.Lib.ValueIdx
import Idealize.ShloMosaic.Lib.IdealHost

-- The reference's 4×4 local transforms read at an index: [[R, d], [0, 0, 0, 1]], R the identity from joint 22 on, d the rest position relative to the parent's (the root's own for joint 0).

set_option maxRecDepth 16384

noncomputable section

namespace Cert.FK.Ref

open Cert.ReferenceIdeal Cert.ReferenceIdeal.Gen Idealize.ShloMosaic Idealize.ShloMosaic.TcCoe Idealize.SL.Sem

open Idealize.ShloMosaic.ValueIdx

section ScatterFold
variable {α : Type} {s si u : Shape} {w : Nat}

def scStep (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scStep d f idx upd) x := rfl

theorem scStep_of_ne (d : ScatterDims s si u) (f : α → α → α) (idx : IVec si w) (upd : u.Idx → α) (r : s.Idx → α) (n : Fin u.numel)
    (i : s.Idx) (h : d.resultIdx? (u.rowMajor.symm n) idx ≠ some i) : scStep d f idx upd r n i = r i := by
  unfold scStep
  cases hq : d.resultIdx? (u.rowMajor.symm n) idx with
  | none => rfl
  | some i₁ =>
    show (if i = i₁ then _ else r i) = r i
    rw [if_neg (fun e => h (by rw [hq, e]))]

theorem scStep_of_eq (d : ScatterDims s si u) (f : α → α → α) (idx : IVec si w) (upd : u.Idx → α) (r : s.Idx → α) (n : Fin u.numel)
    (i : s.Idx) (h : d.resultIdx? (u.rowMajor.symm n) idx = some i) :
    scStep d f idx upd r n i = f (r i) (upd (u.rowMajor.symm n)) := by
  unfold scStep
  rw [h]
  show (if i = i then _ else r i) = _
  rw [if_pos rfl]

theorem foldl_scStep_of_none (d : ScatterDims s si u) (f : α → α → α) (idx : IVec si w) (upd : u.Idx → α) (i : s.Idx) :
    ∀ (L : List (Fin u.numel)) (x : s.Idx → α), (∀ n ∈ L, d.resultIdx? (u.rowMajor.symm n) idx ≠ some i) →
      L.foldl (scStep d f idx upd) x i = x i
  | [], x, _ => rfl
  | a :: L, x, h => by
    rw [List.foldl_cons, foldl_scStep_of_none d f idx upd i L _ (fun n hn => h n (List.mem_cons_of_mem _ hn))]
    exact scStep_of_ne d f idx upd x a i (h a (List.mem_cons_self ..))

theorem foldl_scStep_of_unique (d : ScatterDims s si u) (f : α → α → α) (idx : IVec si w) (upd : u.Idx → α) (i : s.Idx) (n₀ : Fin u.numel)
    (h₀ : d.resultIdx? (u.rowMajor.symm n₀) idx = some i) :
    ∀ (L : List (Fin u.numel)) (x : s.Idx → α), L.Nodup → n₀ ∈ L →
      (∀ n ∈ L, d.resultIdx? (u.rowMajor.symm n) idx = some i → n = n₀) →
      L.foldl (scStep d f idx upd) x i = f (x i) (upd (u.rowMajor.symm n₀))
  | [], x, _, hm, _ => absurd hm List.not_mem_nil
  | a :: L, x, hnd, hm, hu => by
    rw [List.foldl_cons]
    have hnd' := List.nodup_cons.1 hnd
    by_cases ha : a = n₀
    · subst ha
      rw [foldl_scStep_of_none d f idx upd i L _ (fun n hn e => hnd'.1 (by rw [← hu n (List.mem_cons_of_mem _ hn) e]; exact hn))]
      exact scStep_of_eq d f idx upd x a i h₀
    · have hm' : n₀ ∈ L := by
        rcases List.mem_cons.1 hm with e | e
        · exact absurd e.symm ha
        · exact e
      rw [foldl_scStep_of_unique d f idx upd i n₀ h₀ L _ hnd'.2 hm' (fun n hn => hu n (List.mem_cons_of_mem _ hn))]
      rw [scStep_of_ne d f idx upd x a i (fun e => ha (hu a (List.mem_cons_self ..) e))]

theorem scatter_apply_of_none (d : ScatterDims s si u) (f : α → α → α) (x : s.Idx → α) (idx : IVec si w) (upd : u.Idx → α) (i : s.Idx)
    (h : ∀ j, d.resultIdx? j idx ≠ some i) : Host.scatter d f x idx upd i = x i := by
  rw [scatter_eq_foldl]
  exact foldl_scStep_of_none d f idx upd i _ x (fun n _ => h _)

theorem scatter_apply_of_unique (d : ScatterDims s si u) (f : α → α → α) (x : s.Idx → α) (idx : IVec si w) (upd : u.Idx → α) (i : s.Idx)
    (j₀ : u.Idx) (h₀ : d.resultIdx? j₀ idx = some i) (hu : ∀ j, d.resultIdx? j idx = some i → j = j₀) :
    Host.scatter d f x idx upd i = f (x i) (upd j₀) := by
  rw [scatter_eq_foldl]
  have e := foldl_scStep_of_unique d f idx upd i (u.rowMajor j₀) (by rw [Equiv.symm_apply_apply]; exact h₀)
    (List.finRange u.numel) x (List.nodup_finRange _) (List.mem_finRange _)
    (fun n _ hn => by rw [← hu _ hn, Equiv.apply_symm_apply])
  rw [e, Equiv.symm_apply_apply]

end ScatterFold

attribute [local irreducible] Host.scatter

section AtIdeal
variable (M : Vec Ideal S16x2048x22x3x3 .f32) (J : Vec Ideal S55x3 .f32)

theorem eyeBit : ∀ r c : Fin 3,
    IntOp.cmpi .eq (IntOp.addi (BitVec.ofNat 32 r.val) 0#32) (BitVec.ofNat 32 c.val) = if r.val = c.val then 1#1 else 0#1 := by
  decide

theorem v6_apply (r c : Fin 3) : s_v6 (F := Ideal) M J (ix2 r c) = if r.val = c.val then 1 else 0 := by
  have h3 : s_v3 (F := Ideal) M J (ix2 r c) = 0#32 := by
    show broadcastInDim S3x3 ![] _ (s_c_1 (F := Ideal) M J) (ix2 r c) = 0#32
    rw [broadcastInDim_scalar_apply]; rfl
  show FloatOps.uitofp (F := Ideal) .f32
    (IntOp.cmpi .eq (IntOp.addi (BitVec.ofNat 32 r.val) (s_v3 (F := Ideal) M J (ix2 r c))) (BitVec.ofNat 32 c.val)) = _
  rw [h3, eyeBit]
  split
  · show (((1#1 : BitVec 1).toNat : ℝ) : EReal) = 1
    simp
  · show (((0#1 : BitVec 1).toNat : ℝ) : EReal) = 0
    simp

theorem v7_apply (n : Fin 32768) (j : Fin 33) (r c : Fin 3) :
    s_v7 (F := Ideal) M J (ix4 n j r c) = if r.val = c.val then 1 else 0 := by
  refine (broadcastInDim_apply _ _ (s_v6 (F := Ideal) M J) (ix4 n j r c) (ix2 r c) (fun a => ?_)).trans (v6_apply M J r c)
  match a with
  | ⟨0, _⟩ => rfl
  | ⟨1, _⟩ => rfl

theorem v0_apply (b : Fin 16) (t : Fin 2048) (j : Fin 22) (r c : Fin 3) (h : 2048 * b.val + t.val < 32768) :
    s_v0 (F := Ideal) M J (ix4 (⟨2048 * b.val + t.val, h⟩ : Fin 32768) j r c) = M (ix5 b t j r c) := by
  refine shapeCast_apply M _ _ (ix5 b t j r c) ?_
  rw [Shape.rowMajor_val_five, Shape.rowMajor_val_four]
  show ((((b.val * 2048 + t.val) * 22 + j.val) * 3 + r.val) * 3 + c.val = (((2048 * b.val + t.val) * 22 + j.val) * 3 + r.val) * 3 + c.val)
  omega

theorem v8_apply_lt (n : Fin 32768) (j : Fin 55) (r c : Fin 3) (hj : j.val < 22) :
    s_v8 (F := Ideal) M J (ix4 n j r c) = s_v0 (F := Ideal) M J (ix4 n (⟨j.val, hj⟩ : Fin 22) r c) := by
  refine concatenate_pair_apply_left _ (s_v0 (F := Ideal) M J) (s_v7 (F := Ideal) M J)
    concatenates_S32768x22x3x3_S32768x33x3x3_S32768x55x3x3_d1 (ix4 n j r c) rfl
    (ix4 n (⟨j.val, hj⟩ : Fin 22) r c) (fun b => ?_)
  match b with
  | ⟨0, _⟩ => rfl
  | ⟨1, _⟩ => rfl
  | ⟨2, _⟩ => rfl
  | ⟨3, _⟩ => rfl

theorem v8_apply_ge (n : Fin 32768) (j : Fin 55) (r c : Fin 3) (hj : 22 ≤ j.val) :
    s_v8 (F := Ideal) M J (ix4 n j r c)
      = s_v7 (F := Ideal) M J (ix4 n (⟨j.val - 22, by have := j.isLt; omega⟩ : Fin 33) r c) := by
  refine concatenate_pair_apply_right _ (s_v0 (F := Ideal) M J) (s_v7 (F := Ideal) M J)
    concatenates_S32768x22x3x3_S32768x33x3x3_S32768x55x3x3_d1 (ix4 n j r c) rfl rfl
    (ix4 n (⟨j.val - 22, by have := j.isLt; omega⟩ : Fin 33) r c) (fun b hb => ?_) ?_
  · match b, hb with
    | ⟨0, _⟩, _ => rfl
    | ⟨1, _⟩, hb => exact absurd rfl hb
    | ⟨2, _⟩, _ => rfl
    | ⟨3, _⟩, _ => rfl
  · show (j.val - 22) + 22 = j.val
    omega

end AtIdeal

section AtIdeal2
variable (M : Vec Ideal S16x2048x22x3x3 .f32) (J : Vec Ideal S55x3 .f32)

theorem v9_apply (n : Fin 32768) (k : Fin 55) (c : Fin 3) : s_v9 (F := Ideal) M J (ix3 n k c) = J (ix2 k c) := by
  refine broadcastInDim_apply _ _ J (ix3 n k c) (ix2 k c) (fun a => ?_)
  match a with
  | ⟨0, _⟩ => rfl
  | ⟨1, _⟩ => rfl

theorem v13_apply (k : Fin 54) : s_v13 (F := Ideal) M J (ix2 k (0 : Fin 1)) = lit0 k := by
  refine (broadcastInDim_apply _ _ (s_v12 (F := Ideal) M J) (ix2 k (0 : Fin 1)) (ix1 k) (fun a => ?_)).trans ?_
  · match a with
    | ⟨0, _⟩ => rfl
  · show Scalar.select (0#1) (s_v11 (F := Ideal) M J (ix1 k)) (lit0 (S54.rowMajor (ix1 k))) = lit0 k
    rw [select_zero]
    congr 1
    exact Fin.ext (Shape.rowMajor_val_one _)

theorem lit0_par : ∀ k : Fin 54, min (lit0 k).toInt.toNat 54 = par (k.val + 1) := by
  decide

local notation "GaD" => gather_S32768x55x3_S54x1_S32768x54x3_02_1_n_n_1_1_3276813
local notation "ScD" => scatter_S32768x55x3_S1_S32768x54x3_012_n_1_0

theorem ga_siIdx (n : Fin 32768) (k : Fin 54) (c : Fin 3) (q : Fin (GatherDims.startIndexMap GaD).length) :
    GatherDims.siIdx GaD (ix3 n k c) q = ix2 k (0 : Fin 1) := by
  funext b
  match b with
  | ⟨0, _⟩ => rfl
  | ⟨1, _⟩ =>
    refine Fin.ext ?_
    show q.val = 0
    have h1 : q.val < 1 := q.isLt
    omega

theorem v14_apply (n : Fin 32768) (k : Fin 54) (c : Fin 3) :
    s_v14 (F := Ideal) M J (ix3 n k c)
      = s_v9 (F := Ideal) M J (ix3 n (⟨min (lit0 k).toInt.toNat 54, by omega⟩ : Fin 55) c) := by
  show Host.gather GaD (s_v9 (F := Ideal) M J) (s_v13 (F := Ideal) M J) (ix3 n k c) = _
  unfold Host.gather
  congr 1
  funext a
  refine Fin.ext ?_
  match a with
  | ⟨0, _⟩ => exact Nat.zero_add _
  | ⟨1, _⟩ =>
    show min (s_v13 (F := Ideal) M J (GatherDims.siIdx GaD (ix3 n k c) _)).toInt.toNat (55 - 1) + 0 + 0 = min (lit0 k).toInt.toNat 54
    rw [ga_siIdx, v13_apply]
    rfl
  | ⟨2, _⟩ => exact Nat.zero_add _

theorem v15_apply (n : Fin 32768) (k : Fin 54) (c : Fin 3) :
    s_v15 (F := Ideal) M J (ix3 n k c) = -(s_v14 (F := Ideal) M J (ix3 n k c)) := rfl

theorem v16_apply (k : S1.Idx) : s_v16 (F := Ideal) M J k = 1#32 := by
  show broadcastInDim S1 ![] _ (s_c_3 (F := Ideal) M J) k = 1#32
  rw [broadcastInDim_scalar_apply]; rfl

theorem sc_start (j : S32768x54x3.Idx) (a : Fin 3) :
    ScatterDims.start ScD j (s_v16 (F := Ideal) M J) a = if a.val = 1 then 1 else 0 := by
  match a with
  | ⟨0, _⟩ => rfl
  | ⟨1, _⟩ =>
    show (s_v16 (F := Ideal) M J _).toInt = 1
    rw [v16_apply]; rfl
  | ⟨2, _⟩ => rfl

theorem sc_window (j : S32768x54x3.Idx) (a : Fin 3) : ScatterDims.window ScD j a = (j a).val := by
  match a with
  | ⟨0, _⟩ => rfl
  | ⟨1, _⟩ => rfl
  | ⟨2, _⟩ => rfl

theorem sc_result (n : Fin 32768) (k : Fin 54) (c : Fin 3) :
    ScatterDims.resultIdx? ScD (ix3 n k c) (s_v16 (F := Ideal) M J) = some (ix3 n (⟨k.val + 1, by omega⟩ : Fin 55) c) := by
  unfold ScatterDims.resultIdx?
  have hcond : ∀ a : Fin 3, 0 ≤ ScatterDims.start ScD (ix3 n k c) (s_v16 (F := Ideal) M J) a + (ScatterDims.window ScD (ix3 n k c) a : ℤ) ∧
      ScatterDims.start ScD (ix3 n k c) (s_v16 (F := Ideal) M J) a + (ScatterDims.window ScD (ix3 n k c) a : ℤ) < (S32768x55x3.size a : ℤ) := by
    intro a
    rw [sc_start, sc_window]
    match a with
    | ⟨0, _⟩ => exact ⟨by simp, by show (0 : ℤ) + (n.val : ℤ) < (32768 : ℤ); omega⟩
    | ⟨1, _⟩ => exact ⟨by simp; omega, by show (1 : ℤ) + (k.val : ℤ) < (55 : ℤ); omega⟩
    | ⟨2, _⟩ => exact ⟨by simp, by show (0 : ℤ) + (c.val : ℤ) < (3 : ℤ); omega⟩
  rw [dif_pos hcond]
  congr 1
  funext a
  refine Fin.ext ?_
  show (ScatterDims.start ScD (ix3 n k c) (s_v16 (F := Ideal) M J) a + (ScatterDims.window ScD (ix3 n k c) a : ℤ)).toNat = _
  rw [sc_start, sc_window]
  match a with
  | ⟨0, _⟩ => show ((0 : ℤ) + (n.val : ℤ)).toNat = n.val; omega
  | ⟨1, _⟩ => show ((1 : ℤ) + (k.val : ℤ)).toNat = k.val + 1; omega
  | ⟨2, _⟩ => show ((0 : ℤ) + (c.val : ℤ)).toNat = c.val; omega

theorem v17_apply_zero (n : Fin 32768) (c : Fin 3) :
    s_v17 (F := Ideal) M J (ix3 n (0 : Fin 55) c) = s_v9 (F := Ideal) M J (ix3 n (0 : Fin 55) c) := by
  refine scatter_apply_of_none ScD _ (s_v9 (F := Ideal) M J) (s_v16 (F := Ideal) M J) (s_v15 (F := Ideal) M J) (ix3 n (0 : Fin 55) c) (fun j e => ?_)
  obtain ⟨n', k', c', rfl⟩ : ∃ (n' : Fin 32768) (k' : Fin 54) (c' : Fin 3), j = ix3 n' k' c' := ⟨j 0, j 1, j 2, eq_ix3 j⟩
  rw [sc_result] at e
  have e1 := congrArg Fin.val (congrFun (Option.some.inj e) 1)
  have e2 : k'.val + 1 = 0 := e1
  omega

theorem v17_apply_succ (n : Fin 32768) (k : Fin 54) (c : Fin 3) :
    s_v17 (F := Ideal) M J (ix3 n (⟨k.val + 1, by omega⟩ : Fin 55) c)
      = s_v9 (F := Ideal) M J (ix3 n (⟨k.val + 1, by omega⟩ : Fin 55) c) + s_v15 (F := Ideal) M J (ix3 n k c) := by
  refine scatter_apply_of_unique ScD _ (s_v9 (F := Ideal) M J) (s_v16 (F := Ideal) M J) (s_v15 (F := Ideal) M J) (ix3 n (⟨k.val + 1, by omega⟩ : Fin 55) c) (ix3 n k c) (sc_result M J n k c) (fun j e => ?_)
  obtain ⟨n', k', c', rfl⟩ : ∃ (n' : Fin 32768) (k' : Fin 54) (c' : Fin 3), j = ix3 n' k' c' := ⟨j 0, j 1, j 2, eq_ix3 j⟩
  rw [sc_result] at e
  have e' := Option.some.inj e
  have h0 : n' = n := congrFun e' 0
  have h1 : k' = k := Fin.ext (by
    have e1 : k'.val + 1 = k.val + 1 := congrArg Fin.val (congrFun e' 1)
    omega)
  have h2 : c' = c := congrFun e' 2
  rw [h0, h1, h2]

theorem v18_apply (n : Fin 32768) (j : Fin 55) (r : Fin 3) :
    s_v18 (F := Ideal) M J (ix4 n j r (0 : Fin 1)) = s_v17 (F := Ideal) M J (ix3 n j r) := by
  refine broadcastInDim_apply _ _ (s_v17 (F := Ideal) M J) (ix4 n j r (0 : Fin 1)) (ix3 n j r) (fun a => ?_)
  match a with
  | ⟨0, _⟩ => rfl
  | ⟨1, _⟩ => rfl
  | ⟨2, _⟩ => rfl

end AtIdeal2

section AtIdeal3
variable (M : Vec Ideal S16x2048x22x3x3 .f32) (J : Vec Ideal S55x3 .f32)

theorem v19_apply_lt (n : Fin 32768) (j : Fin 55) (r : Fin 3) (c : Fin 4) (hc : c.val < 3) :
    s_v19 (F := Ideal) M J (ix4 n j r c) = s_v8 (F := Ideal) M J (ix4 n j r (⟨c.val, hc⟩ : Fin 3)) := by
  refine concatenate_pair_apply_left _ (s_v8 (F := Ideal) M J) (s_v18 (F := Ideal) M J)
    concatenates_S32768x55x3x3_S32768x55x3x1_S32768x55x3x4_d3 (ix4 n j r c) rfl
    (ix4 n j r (⟨c.val, hc⟩ : Fin 3)) (fun b => ?_)
  match b with
  | ⟨0, _⟩ => rfl
  | ⟨1, _⟩ => rfl
  | ⟨2, _⟩ => rfl
  | ⟨3, _⟩ => rfl

theorem v19_apply_ge (n : Fin 32768) (j : Fin 55) (r : Fin 3) (c : Fin 4) (hc : ¬ c.val < 3) :
    s_v19 (F := Ideal) M J (ix4 n j r c) = s_v18 (F := Ideal) M J (ix4 n j r (0 : Fin 1)) := by
  refine concatenate_pair_apply_right _ (s_v8 (F := Ideal) M J) (s_v18 (F := Ideal) M J)
    concatenates_S32768x55x3x3_S32768x55x3x1_S32768x55x3x4_d3 (ix4 n j r c) rfl rfl
    (ix4 n j r (0 : Fin 1)) (fun b hb => ?_) ?_
  · match b, hb with
    | ⟨0, _⟩, _ => rfl
    | ⟨1, _⟩, _ => rfl
    | ⟨2, _⟩, _ => rfl
    | ⟨3, _⟩, hb => exact absurd rfl hb
  · show 0 + 3 = c.val
    have := c.isLt
    omega

theorem cst_apply (c : Fin 4) : s_cst (F := Ideal) M J (ix1 c) = if c.val = 3 then 1 else 0 := by
  show Ideal.ofBits .f32 (lit1 (S4.rowMajor (ix1 c))) = _
  have e : S4.rowMajor (ix1 c) = c := Fin.ext (Shape.rowMajor_val_one _)
  rw [e]
  have h0 : Ideal.ofBits .f32 0x00000000#32 = 0 := by simp [Ideal.ofBits, Ideal.ieee]
  have h1 : Ideal.ofBits .f32 0x3F800000#32 = 1 := by simp [Ideal.ofBits, Ideal.ieee, -EReal.coe_mul]; norm_num
  match c with
  | ⟨0, _⟩ => exact h0
  | ⟨1, _⟩ => exact h0
  | ⟨2, _⟩ => exact h0
  | ⟨3, _⟩ => exact h1

theorem v20_apply (n : Fin 32768) (j : Fin 55) (c : Fin 4) :
    s_v20 (F := Ideal) M J (ix4 n j (0 : Fin 1) c) = if c.val = 3 then 1 else 0 := by
  refine (broadcastInDim_apply _ _ (s_cst (F := Ideal) M J) (ix4 n j (0 : Fin 1) c) (ix1 c) (fun a => ?_)).trans (cst_apply M J c)
  match a with
  | ⟨0, _⟩ => rfl

theorem v21_apply_lt (n : Fin 32768) (j : Fin 55) (r c : Fin 4) (hr : r.val < 3) :
    s_v21 (F := Ideal) M J (ix4 n j r c) = s_v19 (F := Ideal) M J (ix4 n j (⟨r.val, hr⟩ : Fin 3) c) := by
  refine concatenate_pair_apply_left _ (s_v19 (F := Ideal) M J) (s_v20 (F := Ideal) M J)
    concatenates_S32768x55x3x4_S32768x55x1x4_S32768x55x4x4_d2 (ix4 n j r c) rfl
    (ix4 n j (⟨r.val, hr⟩ : Fin 3) c) (fun b => ?_)
  match b with
  | ⟨0, _⟩ => rfl
  | ⟨1, _⟩ => rfl
  | ⟨2, _⟩ => rfl
  | ⟨3, _⟩ => rfl

theorem v21_apply_ge (n : Fin 32768) (j : Fin 55) (r c : Fin 4) (hr : ¬ r.val < 3) :
    s_v21 (F := Ideal) M J (ix4 n j r c) = s_v20 (F := Ideal) M J (ix4 n j (0 : Fin 1) c) := by
  refine concatenate_pair_apply_right _ (s_v19 (F := Ideal) M J) (s_v20 (F := Ideal) M J)
    concatenates_S32768x55x3x4_S32768x55x1x4_S32768x55x4x4_d2 (ix4 n j r c) rfl rfl
    (ix4 n j (0 : Fin 1) c) (fun b hb => ?_) ?_
  · match b, hb with
    | ⟨0, _⟩, _ => rfl
    | ⟨1, _⟩, _ => rfl
    | ⟨2, _⟩, hb => exact absurd rfl hb
    | ⟨3, _⟩, _ => rfl
  · show 0 + 3 = r.val
    have := r.isLt
    omega

theorem restAt_of_lt (J : SJ.Idx → EReal) (j : ℕ) (h : j < 55) (r : Fin 3) : restAt J j r = J (ix2 (⟨j, h⟩ : Fin 55) r) := dif_pos h

theorem v17_apply (n : Fin 32768) (j : Fin 55) (r : Fin 3) :
    s_v17 (F := Ideal) M J (ix3 n j r)
      = if j.val = 0 then restAt J 0 r else restAt J j.val r + -(restAt J (par j.val) r) := by
  by_cases hj : j.val = 0
  · rw [if_pos hj]
    have e : j = (0 : Fin 55) := Fin.ext hj
    rw [e, v17_apply_zero, v9_apply, restAt_of_lt J 0 (by omega)]
    rfl
  · rw [if_neg hj]
    have hk : j.val - 1 < 54 := by have := j.isLt; omega
    have e : j = (⟨(⟨j.val - 1, hk⟩ : Fin 54).val + 1, by omega⟩ : Fin 55) := Fin.ext (by show j.val = j.val - 1 + 1; omega)
    have hp : par j.val = min (lit0 ⟨j.val - 1, hk⟩).toInt.toNat 54 := by
      rw [lit0_par]
      show par j.val = par (j.val - 1 + 1)
      rw [Nat.sub_add_cancel (by omega)]
    have hlt : par j.val < 55 := by rw [hp]; omega
    rw [restAt_of_lt J j.val j.isLt, restAt_of_lt J (par j.val) hlt]
    conv_lhs => rw [e]
    rw [v17_apply_succ, v15_apply, v14_apply, v9_apply, v9_apply]
    have e1 : (⟨(⟨j.val - 1, hk⟩ : Fin 54).val + 1, by omega⟩ : Fin 55) = ⟨j.val, j.isLt⟩ :=
      Fin.ext (by show j.val - 1 + 1 = j.val; omega)
    have e2 : (⟨min (lit0 ⟨j.val - 1, hk⟩).toInt.toNat 54, by omega⟩ : Fin 55) = ⟨par j.val, hlt⟩ := Fin.ext hp.symm
    rw [e1, e2]

theorem tmats_apply (M : SM.Idx → EReal) (J : SJ.Idx → EReal) (b : Fin 16) (t : Fin 2048) (j : Fin 55) (r c : Fin 4) :
    s_v21 (F := Ideal) M J (ix4 (⟨2048 * b.val + t.val, by omega⟩ : Fin 32768) j r c)
      = if hr : r.val < 3 then (if hc : c.val < 3 then (if j.val < 22 then rotOf M b t j.val ⟨r.val, hr⟩ ⟨c.val, hc⟩ else (if r.val = c.val then 1 else 0))
                                 else (if j.val = 0 then restAt J 0 ⟨r.val, hr⟩ else restAt J j.val ⟨r.val, hr⟩ + -(restAt J (par j.val) ⟨r.val, hr⟩)))
        else (if c.val = 3 then 1 else 0) := by
  by_cases hr : r.val < 3
  · rw [dif_pos hr, v21_apply_lt M J _ j r c hr]
    by_cases hc : c.val < 3
    · rw [dif_pos hc, v19_apply_lt M J _ j _ c hc]
      by_cases hj : j.val < 22
      · rw [if_pos hj, v8_apply_lt M J _ j _ _ hj, v0_apply M J b t ⟨j.val, hj⟩]
        unfold rotOf
        rw [dif_pos hj]
      · rw [if_neg hj, v8_apply_ge M J _ j _ _ (by omega), v7_apply]
    · rw [dif_neg hc, v19_apply_ge M J _ j _ c hc, v18_apply, v17_apply]
  · rw [dif_neg hr, v21_apply_ge M J _ j r c hr, v20_apply]

end AtIdeal3

end Cert.FK.Ref

end
-- ==== Proof.RefStack.lean ====
import proofs.«134826_j18760417149409_1_alg».proof.Proof.RefStages
import proofs.«134826_j18760417149409_1_alg».proof.Proof.Target
import Idealize.ShloMosaic.Lib.Pipeline.Value
import Idealize.ShloMosaic.Lib.ValueIdx

-- The reference's result at (b, t, j, r) is entry (r, 3) of joint j's transform for sample 2048·b + t.

set_option maxRecDepth 16384

noncomputable section

namespace Cert.FK.Ref

open Cert.ReferenceIdeal Cert.ReferenceIdeal.Gen Idealize.ShloMosaic Idealize.ShloMosaic.ValueIdx

section General
variable {α : Type}

theorem unitStack_apply {N : Nat} (f : Fin N → (S32768x1x4x4.Idx → α))
    (h : Shape.Concatenates ((List.ofFn fun q : Fin N => (⟨S32768x1x4x4, f q⟩ : (s : Shape) × (s.Idx → α))).map (·.1)) ⟨4, ![32768, N, 4, 4]⟩ 1)
    (n : Fin 32768) (q : Fin N) (r c : Fin 4) :
    concatenate ⟨4, ![32768, N, 4, 4]⟩ 1 (List.ofFn fun q : Fin N => (⟨S32768x1x4x4, f q⟩ : (s : Shape) × (s.Idx → α))) h (ix4 n q r c)
      = f q (ix4 n (0 : Fin 1) r c) :=
  concatenate_ofFn_unit_apply 1 f h rfl rfl (ix4 n q r c) q rfl (ix4 n (0 : Fin 1) r c)
    (fun b hb => match b with
      | ⟨0, _⟩ => rfl
      | ⟨1, _⟩ => absurd rfl hb
      | ⟨2, _⟩ => rfl
      | ⟨3, _⟩ => rfl)

theorem stack4_apply (x0 x1 x2 : S32768x16x4x4.Idx → α) (x3 : S32768x7x4x4.Idx → α)
    (h : Shape.Concatenates (([⟨S32768x16x4x4, x0⟩, ⟨S32768x16x4x4, x1⟩, ⟨S32768x16x4x4, x2⟩, ⟨S32768x7x4x4, x3⟩] :
      List ((s : Shape) × (s.Idx → α))).map (·.1)) S32768x55x4x4 1)
    (n : Fin 32768) (j : Fin 55) (r c : Fin 4) :
    concatenate S32768x55x4x4 1 [⟨S32768x16x4x4, x0⟩, ⟨S32768x16x4x4, x1⟩, ⟨S32768x16x4x4, x2⟩, ⟨S32768x7x4x4, x3⟩] h (ix4 n j r c)
      = if h0 : j.val < 16 then x0 (ix4 n (⟨j.val, h0⟩ : Fin 16) r c)
        else if h1 : j.val < 32 then x1 (ix4 n (⟨j.val - 16, by omega⟩ : Fin 16) r c)
        else if h2 : j.val < 48 then x2 (ix4 n (⟨j.val - 32, by omega⟩ : Fin 16) r c)
        else x3 (ix4 n (⟨j.val - 48, by omega⟩ : Fin 7) r c) := by
  have hj := j.isLt
  split
  · next h0 =>
    exact concatenate_apply_piece 1 _ h (ix4 n j r c) 0 (by show (0 : Nat) < 4; decide) S32768x16x4x4 x0 rfl rfl 0 rfl _
      (fun b hb => match b with
        | ⟨0, _⟩ => rfl
        | ⟨1, _⟩ => absurd rfl hb
        | ⟨2, _⟩ => rfl
        | ⟨3, _⟩ => rfl)
      (by show 0 + j.val = j.val; omega)
  · next h0 =>
    split
    · next h1 =>
      exact concatenate_apply_piece 1 _ h (ix4 n j r c) 1 (by show (1 : Nat) < 4; decide) S32768x16x4x4 x1 rfl rfl 16 rfl _
        (fun b hb => match b with
        | ⟨0, _⟩ => rfl
        | ⟨1, _⟩ => absurd rfl hb
        | ⟨2, _⟩ => rfl
        | ⟨3, _⟩ => rfl)
        (by show 16 + (j.val - 16) = j.val; omega)
    · next h1 =>
      split
      · next h2 =>
        exact concatenate_apply_piece 1 _ h (ix4 n j r c) 2 (by show (2 : Nat) < 4; decide) S32768x16x4x4 x2 rfl rfl 32 rfl _
          (fun b hb => match b with
        | ⟨0, _⟩ => rfl
        | ⟨1, _⟩ => absurd rfl hb
        | ⟨2, _⟩ => rfl
        | ⟨3, _⟩ => rfl)
          (by show 32 + (j.val - 32) = j.val; omega)
      · next h2 =>
        exact concatenate_apply_piece 1 _ h (ix4 n j r c) 3 (by show (3 : Nat) < 4; decide) S32768x7x4x4 x3 rfl rfl 48 rfl _
          (fun b hb => match b with
        | ⟨0, _⟩ => rfl
        | ⟨1, _⟩ => absurd rfl hb
        | ⟨2, _⟩ => rfl
        | ⟨3, _⟩ => rfl)
          (by show 48 + (j.val - 48) = j.val; omega)

end General

def chainAt (M : Vec Ideal S16x2048x22x3x3 .f32) (J : Vec Ideal S55x3 .f32)
    (j : Fin 55) : Vec Ideal S32768x4x4 .f32 :=
  match j.val with
  | 0 => s_v23 M J
  | 1 => s_v26 M J
  | 2 => s_v29 M J
  | 3 => s_v32 M J
  | 4 => s_v35 M J
  | 5 => s_v38 M J
  | 6 => s_v41 M J
  | 7 => s_v44 M J
  | 8 => s_v47 M J
  | 9 => s_v50 M J
  | 10 => s_v53 M J
  | 11 => s_v56 M J
  | 12 => s_v59 M J
  | 13 => s_v62 M J
  | 14 => s_v65 M J
  | 15 => s_v68 M J
  | 16 => s_v71 M J
  | 17 => s_v74 M J
  | 18 => s_v77 M J
  | 19 => s_v80 M J
  | 20 => s_v83 M J
  | 21 => s_v86 M J
  | 22 => s_v89 M J
  | 23 => s_v92 M J
  | 24 => s_v95 M J
  | 25 => s_v98 M J
  | 26 => s_v101 M J
  | 27 => s_v104 M J
  | 28 => s_v107 M J
  | 29 => s_v110 M J
  | 30 => s_v113 M J
  | 31 => s_v116 M J
  | 32 => s_v119 M J
  | 33 => s_v122 M J
  | 34 => s_v125 M J
  | 35 => s_v128 M J
  | 36 => s_v131 M J
  | 37 => s_v134 M J
  | 38 => s_v137 M J
  | 39 => s_v140 M J
  | 40 => s_v143 M J
  | 41 => s_v146 M J
  | 42 => s_v149 M J
  | 43 => s_v152 M J
  | 44 => s_v155 M J
  | 45 => s_v158 M J
  | 46 => s_v161 M J
  | 47 => s_v164 M J
  | 48 => s_v167 M J
  | 49 => s_v170 M J
  | 50 => s_v173 M J
  | 51 => s_v176 M J
  | 52 => s_v179 M J
  | 53 => s_v182 M J
  | _ => s_v185 M J

def unitAt (M : Vec Ideal S16x2048x22x3x3 .f32) (J : Vec Ideal S55x3 .f32)
    (base N : Nat) (hb : base + N ≤ 55) (q : Fin N) : S32768x1x4x4.Idx → Elt Ideal .f32 :=
  broadcastInDim S32768x1x4x4 ![0, 2, 3] bcast_S32768x4x4_S32768x1x4x4_0_2_3 (chainAt M J ⟨base + q.val, by have := q.isLt; omega⟩)

theorem unitAt_apply (M : Vec Ideal S16x2048x22x3x3 .f32) (J : Vec Ideal S55x3 .f32)
    (base N : Nat) (hb : base + N ≤ 55) (q : Fin N) (n : Fin 32768) (u : Fin 1) (r c : Fin 4) :
    unitAt M J base N hb q (ix4 n u r c) = chainAt M J ⟨base + q.val, by have := q.isLt; omega⟩ (ix3 n r c) :=
  broadcastInDim_apply _ _ _ (ix4 n u r c) (ix3 n r c) (fun a => match a with
    | ⟨0, _⟩ => rfl
    | ⟨1, _⟩ => rfl
    | ⟨2, _⟩ => rfl)

theorem s_v241_eq (M : Vec Ideal S16x2048x22x3x3 .f32) (J : Vec Ideal S55x3 .f32) :
    s_v241 M J = concatenate S32768x16x4x4 1 (List.ofFn fun q : Fin 16 => (⟨S32768x1x4x4, unitAt M J 0 16 (by omega) q⟩ : (s : Shape) × (s.Idx → Elt Ideal .f32)))
      concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1 := rfl

theorem s_v242_eq (M : Vec Ideal S16x2048x22x3x3 .f32) (J : Vec Ideal S55x3 .f32) :
    s_v242 M J = concatenate S32768x16x4x4 1 (List.ofFn fun q : Fin 16 => (⟨S32768x1x4x4, unitAt M J 16 16 (by omega) q⟩ : (s : Shape) × (s.Idx → Elt Ideal .f32)))
      concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1 := rfl

theorem s_v243_eq (M : Vec Ideal S16x2048x22x3x3 .f32) (J : Vec Ideal S55x3 .f32) :
    s_v243 M J = concatenate S32768x16x4x4 1 (List.ofFn fun q : Fin 16 => (⟨S32768x1x4x4, unitAt M J 32 16 (by omega) q⟩ : (s : Shape) × (s.Idx → Elt Ideal .f32)))
      concatenates_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x1x4x4_S32768x16x4x4_d1 := rfl

theorem s_v244_eq (M : Vec Ideal S16x2048x22x3x3 .f32) (J : Vec Ideal S55x3 .f32) :
    s_v244 M J = concatenate S32768x7x4x4 1 (List.ofFn fun q : Fin 7 => (⟨S32768x1x4x4, unitAt M J 48 7 (by omega) q⟩ : (s : Shape) × (s.Idx → Elt Ideal .f32)))
      concatenates_S32768x1x4x4_S32768x1x4x4_S32768x1x4x4_S32768x1x4x4_S32768x1x4x4_S32768x1x4x4_S32768x1x4x4_S32768x7x4x4_d1 := rfl

theorem s_v241_apply (M : Vec Ideal S16x2048x22x3x3 .f32) (J : Vec Ideal S55x3 .f32) (n : Fin 32768) (q : Fin 16) (r c : Fin 4) :
    s_v241 M J (ix4 n q r c) = chainAt M J ⟨0 + q.val, by have := q.isLt; omega⟩ (ix3 n r c) := by
  rw [s_v241_eq]
  exact (unitStack_apply _ _ n q r c).trans (unitAt_apply M J 0 16 _ q n 0 r c)

theorem s_v242_apply (M : Vec Ideal S16x2048x22x3x3 .f32) (J : Vec Ideal S55x3 .f32) (n : Fin 32768) (q : Fin 16) (r c : Fin 4) :
    s_v242 M J (ix4 n q r c) = chainAt M J ⟨16 + q.val, by have := q.isLt; omega⟩ (ix3 n r c) := by
  rw [s_v242_eq]
  exact (unitStack_apply _ _ n q r c).trans (unitAt_apply M J 16 16 _ q n 0 r c)

theorem s_v243_apply (M : Vec Ideal S16x2048x22x3x3 .f32) (J : Vec Ideal S55x3 .f32) (n : Fin 32768) (q : Fin 16) (r c : Fin 4) :
    s_v243 M J (ix4 n q r c) = chainAt M J ⟨32 + q.val, by have := q.isLt; omega⟩ (ix3 n r c) := by
  rw [s_v243_eq]
  exact (unitStack_apply _ _ n q r c).trans (unitAt_apply M J 32 16 _ q n 0 r c)

theorem s_v244_apply (M : Vec Ideal S16x2048x22x3x3 .f32) (J : Vec Ideal S55x3 .f32) (n : Fin 32768) (q : Fin 7) (r c : Fin 4) :
    s_v244 M J (ix4 n q r c) = chainAt M J ⟨48 + q.val, by have := q.isLt; omega⟩ (ix3 n r c) := by
  rw [s_v244_eq]
  exact (unitStack_apply _ _ n q r c).trans (unitAt_apply M J 48 7 _ q n 0 r c)

theorem s_v245_apply (M : Vec Ideal S16x2048x22x3x3 .f32) (J : Vec Ideal S55x3 .f32) (n : Fin 32768) (j : Fin 55) (r c : Fin 4) :
    s_v245 M J (ix4 n j r c) = chainAt M J j (ix3 n r c) := by
  have hj := j.isLt
  unfold s_v245
  rw [stack4_apply]
  split
  · next h0 =>
    rw [s_v241_apply]
    exact congrArg (fun k => chainAt M J k (ix3 n r c)) (Fin.ext (by show 0 + j.val = j.val; omega))
  · next h0 =>
    split
    · next h1 =>
      rw [s_v242_apply]
      exact congrArg (fun k => chainAt M J k (ix3 n r c)) (Fin.ext (by show 16 + (j.val - 16) = j.val; omega))
    · next h1 =>
      split
      · next h2 =>
        rw [s_v243_apply]
        exact congrArg (fun k => chainAt M J k (ix3 n r c)) (Fin.ext (by show 32 + (j.val - 32) = j.val; omega))
      · next h2 =>
        rw [s_v244_apply]
        exact congrArg (fun k => chainAt M J k (ix3 n r c)) (Fin.ext (by show 48 + (j.val - 48) = j.val; omega))

theorem result_apply (M : Vec Ideal S16x2048x22x3x3 .f32) (J : Vec Ideal S55x3 .f32) (b : Fin 16) (t : Fin 2048) (j : Fin 55) (r : Fin 3) :
    s_v248 (F := Ideal) M J (ix4 b t j r)
      = chainAt M J j (ix3 (⟨2048 * b.val + t.val, by omega⟩ : Fin 32768) (⟨r.val, by omega⟩ : Fin 4) (3 : Fin 4)) := by
  have hb := b.isLt
  have ht := t.isLt
  have hj := j.isLt
  have hr := r.isLt
  have hn : 2048 * b.val + t.val < 32768 := by omega
  unfold s_v248

  refine (shapeCast_apply _ _ (ix4 b t j r) (ix3 (⟨2048 * b.val + t.val, hn⟩ : Fin 32768) j r) (by
    rw [Shape.rowMajor_val_three, Shape.rowMajor_val_four]
    show ((2048 * b.val + t.val) * 55 + j.val) * 3 + r.val = ((b.val * 2048 + t.val) * 55 + j.val) * 3 + r.val
    omega)).trans ?_
  unfold s_v247

  refine (shapeCast_apply _ _ _ (ix4 (⟨2048 * b.val + t.val, hn⟩ : Fin 32768) j r (0 : Fin 1)) (by
    rw [Shape.rowMajor_val_four, Shape.rowMajor_val_three]
    show (((2048 * b.val + t.val) * 55 + j.val) * 3 + r.val) * 1 + 0 = ((2048 * b.val + t.val) * 55 + j.val) * 3 + r.val
    omega)).trans ?_
  unfold s_v246

  refine (extractStridedSlice_apply _ _ _ _
    (ix4 (⟨2048 * b.val + t.val, hn⟩ : Fin 32768) j (⟨r.val, by omega⟩ : Fin 4) (3 : Fin 4))
    (fun a => match a with
      | ⟨0, _⟩ => by show 2048 * b.val + t.val = 0 + (2048 * b.val + t.val); omega
      | ⟨1, _⟩ => by show j.val = 0 + j.val; omega
      | ⟨2, _⟩ => by show r.val = 0 + r.val; omega
      | ⟨3, _⟩ => by show 3 = 3 + 0; omega)).trans ?_
  exact s_v245_apply M J _ j _ _

end Cert.FK.Ref

end
-- ==== Proof.RefChain.lean ====
import proofs.«134826_j18760417149409_1_alg».proof.Proof.RefStack
import proofs.«134826_j18760417149409_1_alg».proof.Proof.Target
import Idealize.ShloMosaic.Lib.StackMember
import Idealize.ShloMosaic.Lib.ValueLayout

-- The reference's chain of 4×4 global transforms read entry by entry: a product [[C, p], [0, 1]]·[[R, t], [0, 1]] is [[C·R, C·t + p], [0, 1]].

noncomputable section

namespace Cert.FK.Ref

open Cert.ReferenceIdeal Cert.ReferenceIdeal.Gen Idealize.ShloMosaic Idealize.ShloMosaic.ValueIdx Idealize.ShloMosaic.StackMember

def hom (k : Pose) (r c : Fin 4) : EReal :=
  if hr : r.val < 3 then (if hc : c.val < 3 then k.c ⟨r.val, hr⟩ ⟨c.val, hc⟩ else k.p ⟨r.val, hr⟩) else (if c.val = 3 then 1 else 0)

def hmat (R : Fin 3 → Fin 3 → EReal) (t : Fin 3 → EReal) (r c : Fin 4) : EReal :=
  if hr : r.val < 3 then (if hc : c.val < 3 then R ⟨r.val, hr⟩ ⟨c.val, hc⟩ else t ⟨r.val, hr⟩) else (if c.val = 3 then 1 else 0)

def idm (r c : Fin 3) : EReal := if r.val = c.val then 1 else 0

theorem hom_eq_hmat (k : Pose) : hom k = hmat k.c k.p := rfl

theorem hmat_mul_hmat (C : Fin 3 → Fin 3 → EReal) (p : Fin 3 → EReal) (R : Fin 3 → Fin 3 → EReal) (t : Fin 3 → EReal) (r c : Fin 4) :
    ∑ q : Fin 4, hmat C p r q * hmat R t q c
      = hmat (fun r c => C r 0 * R 0 c + C r 1 * R 1 c + C r 2 * R 2 c) (fun r => C r 0 * t 0 + C r 1 * t 1 + C r 2 * t 2 + p r) r c := by
  rw [Fin.sum_univ_four]
  fin_cases r <;> fin_cases c <;> simp [hmat]

theorem hmat_mul_id (C : Fin 3 → Fin 3 → EReal) (p : Fin 3 → EReal) (t : Fin 3 → EReal) (r c : Fin 4) :
    ∑ q : Fin 4, hmat C p r q * hmat idm t q c = hmat C (fun r => C r 0 * t 0 + C r 1 * t 1 + C r 2 * t 2 + p r) r c := by
  rw [Fin.sum_univ_four]
  fin_cases r <;> fin_cases c <;> simp [hmat, idm]

theorem joint_apply (X : FVec Ideal S32768x55x4x4 .f32) (o : ℕ) (ho : o < 55)
    (h : S32768x55x4x4.Slices ![0, o, 0, 0] S32768x1x4x4) (n : Fin 32768) (r c : Fin 4) :
    shapeCast S32768x4x4 (extractStridedSlice S32768x1x4x4 ![0, o, 0, 0] X h) shapeCasts_S32768x1x4x4_S32768x4x4 (ix3 n r c)
      = X (ix4 n ⟨o, ho⟩ r c) := by
  refine (shapeCast_apply _ _ (ix3 n r c) (ix4 n (0 : Fin 1) r c) ?_).trans ?_
  · rw [Shape.rowMajor_val_four, Shape.rowMajor_val_three]
    show ((n.val * 1 + 0) * 4 + r.val) * 4 + c.val = (n.val * 4 + r.val) * 4 + c.val
    omega
  · exact slice4_axis1_apply o X h n 0 r c ⟨o, ho⟩ rfl

theorem dot_apply (P T : FVec Ideal S32768x4x4 .f32) (n : Fin 32768) (r c : Fin 4) :
    Host.dotGeneral (F := Ideal) dot_S32768x4x4_S32768x4x4_S32768x4x4_2_1_1_2_0_0 none P T (ix3 n r c)
      = ∑ k : Fin 4, P (ix3 n r k) * T (ix3 n k c) :=
  dotGeneral_stack_apply (φ₁ := .f32) (φ₂ := .f32) dot_S32768x4x4_S32768x4x4_S32768x4x4_2_1_1_2_0_0_wf none P T n r c

theorem local_eq_hmat (M : SM.Idx → EReal) (J : SJ.Idx → EReal) (b : Fin 16) (t : Fin 2048) (j : ℕ) (r c : Fin 4) :
    (if hr : r.val < 3 then (if hc : c.val < 3 then (if j < 22 then rotOf M b t j ⟨r.val, hr⟩ ⟨c.val, hc⟩ else (if r.val = c.val then 1 else 0))
                               else (if j = 0 then restAt J 0 ⟨r.val, hr⟩ else restAt J j ⟨r.val, hr⟩ + -(restAt J (par j) ⟨r.val, hr⟩)))
      else (if c.val = 3 then 1 else 0))
      = hmat (if j < 22 then rotOf M b t j else idm) (offOf J j) r c := by
  unfold hmat offOf idm
  split_ifs <;> first | rfl | simp_all [sub_eq_add_neg]

section Chain

variable (X : FVec Ideal S32768x55x4x4 .f32) (M : SM.Idx → EReal) (J : SJ.Idx → EReal)
  (htm : ∀ (b : Fin 16) (t : Fin 2048) (j : Fin 55) (r c : Fin 4), X (ix4 (⟨2048 * b.val + t.val, by omega⟩ : Fin 32768) j r c)
      = if hr : r.val < 3 then (if hc : c.val < 3 then (if j.val < 22 then rotOf M b t j.val ⟨r.val, hr⟩ ⟨c.val, hc⟩ else (if r.val = c.val then 1 else 0))
                                 else (if j.val = 0 then restAt J 0 ⟨r.val, hr⟩ else restAt J j.val ⟨r.val, hr⟩ + -(restAt J (par j.val) ⟨r.val, hr⟩)))
        else (if c.val = 3 then 1 else 0))
include htm

theorem chain_root (hs : S32768x55x4x4.Slices ![0, 0, 0, 0] S32768x1x4x4) (b : Fin 16) (t : Fin 2048) (r c : Fin 4) :
    shapeCast S32768x4x4 (extractStridedSlice S32768x1x4x4 ![0, 0, 0, 0] X hs) shapeCasts_S32768x1x4x4_S32768x4x4
        (ix3 (⟨2048 * b.val + t.val, by omega⟩ : Fin 32768) r c)
      = hom (pose (rotOf M b t) (offOf J) 0) r c := by
  rw [joint_apply X 0 (by norm_num) hs, pose_root, hom_eq_hmat]
  exact (htm b t ⟨0, by norm_num⟩ r c).trans ((local_eq_hmat M J b t 0 r c).trans (by rw [if_pos (by norm_num)]))

theorem chain_step (P : FVec Ideal S32768x4x4 .f32) (j p : ℕ) (h1 : 1 ≤ j) (hj : j < 55) (hp : par j = p)
    (hP : ∀ (b : Fin 16) (t : Fin 2048) (r c : Fin 4), P (ix3 (⟨2048 * b.val + t.val, by omega⟩ : Fin 32768) r c)
      = hom (pose (rotOf M b t) (offOf J) p) r c)
    (hs : S32768x55x4x4.Slices ![0, j, 0, 0] S32768x1x4x4) (b : Fin 16) (t : Fin 2048) (r c : Fin 4) :
    Host.dotGeneral (F := Ideal) dot_S32768x4x4_S32768x4x4_S32768x4x4_2_1_1_2_0_0 none P
        (shapeCast S32768x4x4 (extractStridedSlice S32768x1x4x4 ![0, j, 0, 0] X hs) shapeCasts_S32768x1x4x4_S32768x4x4)
        (ix3 (⟨2048 * b.val + t.val, by omega⟩ : Fin 32768) r c)
      = hom (pose (rotOf M b t) (offOf J) j) r c := by
  subst hp
  rw [dot_apply]
  have e : ∀ q : Fin 4, P (ix3 (⟨2048 * b.val + t.val, by omega⟩ : Fin 32768) r q)
        * shapeCast S32768x4x4 (extractStridedSlice S32768x1x4x4 ![0, j, 0, 0] X hs) shapeCasts_S32768x1x4x4_S32768x4x4
            (ix3 (⟨2048 * b.val + t.val, by omega⟩ : Fin 32768) q c)
      = hmat (pose (rotOf M b t) (offOf J) (par j)).c (pose (rotOf M b t) (offOf J) (par j)).p r q
        * hmat (if j < 22 then rotOf M b t j else idm) (offOf J j) q c := fun q => by
    rw [hP, joint_apply X j hj hs, hom_eq_hmat]
    exact congrArg _ ((htm b t ⟨j, hj⟩ q c).trans (local_eq_hmat M J b t j q c))
  rw [Finset.sum_congr rfl fun q _ => e q]
  by_cases h22 : j < 22
  · rw [pose_body _ _ j h1 h22, if_pos h22]; exact hmat_mul_hmat _ _ _ _ r c
  · rw [pose_tip _ _ j (by omega) hj, if_neg h22]; exact hmat_mul_id _ _ _ r c

end Chain

section Joints

variable (M : SM.Idx → EReal) (J : SJ.Idx → EReal)

theorem slices_joint (j : ℕ) (hj : j < 55) : S32768x55x4x4.Slices ![0, j, 0, 0] S32768x1x4x4 :=
  ⟨rfl, fun a => match a with
    | ⟨0, _⟩ => by show 0 + 32768 ≤ 32768; omega
    | ⟨1, _⟩ => by show j + 1 ≤ 55; omega
    | ⟨2, _⟩ => by show 0 + 4 ≤ 4; omega
    | ⟨3, _⟩ => by show 0 + 4 ≤ 4; omega⟩

-- The program's statement for joint j ≥ 1: its chain entry is its parent's times j's local transform.
theorem chainAt_step (j : Fin 55) (h1 : 1 ≤ j.val) :
    chainAt M J j = Host.dotGeneral (F := Ideal) (φ₁ := .f32) (φ₂ := .f32) dot_S32768x4x4_S32768x4x4_S32768x4x4_2_1_1_2_0_0 none
      (chainAt M J ⟨par j.val, (par_lt j.val h1 j.isLt).trans j.isLt⟩ : FVec Ideal S32768x4x4 .f32)
      (shapeCast S32768x4x4 (extractStridedSlice S32768x1x4x4 ![0, j.val, 0, 0] (s_v21 (F := Ideal) M J : FVec Ideal S32768x55x4x4 .f32)
        (slices_joint j.val j.isLt)) shapeCasts_S32768x1x4x4_S32768x4x4) := by
  fin_cases j <;> first | exact absurd h1 (by decide) | rfl

variable
  (htm : ∀ (b : Fin 16) (t : Fin 2048) (j : Fin 55) (r c : Fin 4), s_v21 (F := Ideal) M J (ix4 (⟨2048 * b.val + t.val, by omega⟩ : Fin 32768) j r c)
      = if hr : r.val < 3 then (if hc : c.val < 3 then (if j.val < 22 then rotOf M b t j.val ⟨r.val, hr⟩ ⟨c.val, hc⟩ else (if r.val = c.val then 1 else 0))
                                 else (if j.val = 0 then restAt J 0 ⟨r.val, hr⟩ else restAt J j.val ⟨r.val, hr⟩ + -(restAt J (par j.val) ⟨r.val, hr⟩)))
        else (if c.val = 3 then 1 else 0))
include htm

-- Every joint's chain entry is the homogeneous matrix of its global transform, by induction along the parent table.
theorem chainAt_apply : ∀ (n : ℕ) (hn : n < 55) (b : Fin 16) (t : Fin 2048) (r c : Fin 4),
    chainAt M J ⟨n, hn⟩ (ix3 (⟨2048 * b.val + t.val, by omega⟩ : Fin 32768) r c) = hom (pose (rotOf M b t) (offOf J) n) r c := by
  intro n
  induction n using Nat.strong_induction_on with
  | _ n ih =>
    intro hn b t r c
    by_cases h0 : 1 ≤ n
    · rw [chainAt_step M J ⟨n, hn⟩ h0]
      exact chain_step (s_v21 (F := Ideal) M J) M J htm _ n (par n) h0 hn rfl
        (fun b t r c => ih (par n) (par_lt n h0 hn) _ b t r c) _ b t r c
    · obtain rfl : n = 0 := by omega
      exact chain_root (s_v21 (F := Ideal) M J) M J htm slices_S32768x55x4x4_S32768x1x4x4_0_0_0_0 b t r c

end Joints

end Cert.FK.Ref

end
-- ==== Proof.BridgeRef.lean ====
import proofs.«134826_j18760417149409_1_alg».proof.Proof.Target
import proofs.«134826_j18760417149409_1_alg».proof.Proof.RefTmats
import proofs.«134826_j18760417149409_1_alg».proof.Proof.RefStack
import proofs.«134826_j18760417149409_1_alg».proof.Proof.RefChain

-- The reference's result at (b, t, j, r) is `posed`: the last column of joint j's homogeneous transform is its global translation.

noncomputable section

namespace Cert.FK

open Idealize.ShloMosaic Idealize.ShloMosaic.TcCoe Idealize.ShloMosaic.ValueIdx Idealize.SL.Sem

theorem hom_last (k : Pose) (r : Fin 3) : Ref.hom k ⟨r.val, by omega⟩ 3 = k.p r := by
  unfold Ref.hom
  rw [dif_pos (show (⟨r.val, by omega⟩ : Fin 4).val < 3 from r.isLt), dif_neg (by decide)]

theorem ref_posed (M : SM.Idx → EReal) (J : SJ.Idx → EReal) (b : Fin 16) (t : Fin 2048) (j : Fin 55) (r : Fin 3) :
    Ref.s_v248 (F := Ideal) M J (ix4 b t j r) = posed M J b t j r := by
  have htm := fun b t j r c => Ref.tmats_apply M J b t j r c
  rw [Ref.result_apply]
  unfold posed
  exact (Ref.chainAt_apply M J htm j.val j.isLt b t ⟨r.val, by omega⟩ 3).trans (hom_last _ r)

end Cert.FK

end
-- ==== Proof.Lanes.lean ====
import Idealize.ShloMosaic.Lib.Pipeline.Value
import Idealize.ShloMosaic.Lib.ValueIdx

set_option maxRecDepth 16384

noncomputable section

namespace Cert.FK

open Idealize.ShloMosaic

abbrev SBlk : Shape := ⟨2, ![198, 4096]⟩
abbrev SRel : Shape := ⟨2, ![3, 55]⟩
abbrev SLane : Shape := ⟨1, ![4096]⟩
abbrev SRow : Shape := ⟨2, ![1, 4096]⟩
abbrev SOne : Shape := ⟨2, ![1, 1]⟩

theorem row_lane : SRow.ShapeCasts SLane := by decide
theorem lane_row : SLane.ShapeCasts SRow := by decide
theorem one_pos : ∀ a, (![0, 0] : Fin 2 → ℕ) a < SOne.size a := by decide

theorem inb_row (a : ℕ) (h : a < 198) : ∀ ax, (![a, 0] : Fin 2 → ℕ) ax + SRow.size ax ≤ SBlk.size ax :=
  Rect.inb₂ (by show a + 1 ≤ 198; omega) (by show 0 + 4096 ≤ 4096; omega)

theorem inb_rel (k j : ℕ) (hk : k < 3) (hj : j < 55) : ∀ ax, (![k, j] : Fin 2 → ℕ) ax + SOne.size ax ≤ SRel.size ax :=
  Rect.inb₂ (by show k + 1 ≤ 3; omega) (by show j + 1 ≤ 55; omega)

variable {F : FTy → Type} [FloatOps F]

-- Row a of a block of samples, one entry per lane.
def rowv (x0 : Vec F SBlk .f32) (a : ℕ) (h : a < 198) : FVec F SLane .f32 :=
  shapeCast SLane (View.ld x0 (Rect.unit (s := SBlk) ![a, 0] SRow.size (inb_row a h))) row_lane

-- Entry (k, j) of the offsets, the same on every lane.
def relv (x1 : Vec F SRel .f32) (k j : ℕ) (hk : k < 3) (hj : j < 55) : FVec F SLane .f32 :=
  broadcast SLane (extractAt ![0, 0] (View.ld x1 (Rect.unit (s := SRel) ![k, j] SOne.size (inb_rel k j hk hj))) one_pos)

def rot3 (x0 : Vec F SBlk .f32) (b : ℕ) (hb : b + 9 ≤ 198) : Fin 3 → Fin 3 → FVec F SLane .f32 :=
  fun k c => rowv x0 (b + 3 * k.val + c.val) (by have := k.isLt; have := c.isLt; omega)

def tvec (x1 : Vec F SRel .f32) (j : ℕ) (hj : j < 55) : Fin 3 → FVec F SLane .f32 :=
  fun k => relv x1 k.val j k.isLt hj

-- A joint's global transform on all lanes at once: a 3×3 matrix and a translation.
structure Lanes (F : FTy → Type) where
  c : Fin 3 → Fin 3 → FVec F SLane .f32
  p : Fin 3 → FVec F SLane .f32

def Lanes.rot (k : Lanes F) (R : Fin 3 → Fin 3 → FVec F SLane .f32) (t : Fin 3 → FVec F SLane .f32) : Lanes F :=
  ⟨fun r c => addf (addf (mulf (k.c r 0) (R 0 c)) (mulf (k.c r 1) (R 1 c))) (mulf (k.c r 2) (R 2 c)),
   fun r => addf (addf (addf (mulf (k.c r 0) (t 0)) (mulf (k.c r 1) (t 1))) (mulf (k.c r 2) (t 2))) (k.p r)⟩

def Lanes.move (k : Lanes F) (t : Fin 3 → FVec F SLane .f32) : Lanes F :=
  ⟨k.c, fun r => addf (addf (addf (mulf (k.c r 0) (t 0)) (mulf (k.c r 1) (t 1))) (mulf (k.c r 2) (t 2))) (k.p r)⟩

-- Coordinate r of the translation as one row of the output block.
def Lanes.row (k : Lanes F) (r : Fin 3) : FVec F SRow .f32 := shapeCast SRow (k.p r) lane_row

end Cert.FK

end
-- ==== Proof.Joints.lean ====
import proofs.«134826_j18760417149409_1_alg».proof.Proof.Lanes

noncomputable section

namespace Cert.FK

open Idealize.ShloMosaic

variable {F : FTy → Type} [FloatOps F] (x0 : Vec F SBlk .f32) (x1 : Vec F SRel .f32)

def K0 : Lanes F := ⟨rot3 x0 0 (by decide), tvec x1 0 (by decide)⟩
def K1 : Lanes F := (K0 x0 x1).rot (rot3 x0 9 (by decide)) (tvec x1 1 (by decide))
def K2 : Lanes F := (K0 x0 x1).rot (rot3 x0 18 (by decide)) (tvec x1 2 (by decide))
def K3 : Lanes F := (K0 x0 x1).rot (rot3 x0 27 (by decide)) (tvec x1 3 (by decide))
def K4 : Lanes F := (K1 x0 x1).rot (rot3 x0 36 (by decide)) (tvec x1 4 (by decide))
def K5 : Lanes F := (K2 x0 x1).rot (rot3 x0 45 (by decide)) (tvec x1 5 (by decide))
def K6 : Lanes F := (K3 x0 x1).rot (rot3 x0 54 (by decide)) (tvec x1 6 (by decide))
def K7 : Lanes F := (K4 x0 x1).rot (rot3 x0 63 (by decide)) (tvec x1 7 (by decide))
def K8 : Lanes F := (K5 x0 x1).rot (rot3 x0 72 (by decide)) (tvec x1 8 (by decide))
def K9 : Lanes F := (K6 x0 x1).rot (rot3 x0 81 (by decide)) (tvec x1 9 (by decide))
def K10 : Lanes F := (K7 x0 x1).rot (rot3 x0 90 (by decide)) (tvec x1 10 (by decide))
def K11 : Lanes F := (K8 x0 x1).rot (rot3 x0 99 (by decide)) (tvec x1 11 (by decide))
def K12 : Lanes F := (K9 x0 x1).rot (rot3 x0 108 (by decide)) (tvec x1 12 (by decide))
def K13 : Lanes F := (K9 x0 x1).rot (rot3 x0 117 (by decide)) (tvec x1 13 (by decide))
def K14 : Lanes F := (K9 x0 x1).rot (rot3 x0 126 (by decide)) (tvec x1 14 (by decide))
def K15 : Lanes F := (K12 x0 x1).rot (rot3 x0 135 (by decide)) (tvec x1 15 (by decide))
def K16 : Lanes F := (K13 x0 x1).rot (rot3 x0 144 (by decide)) (tvec x1 16 (by decide))
def K17 : Lanes F := (K14 x0 x1).rot (rot3 x0 153 (by decide)) (tvec x1 17 (by decide))
def K18 : Lanes F := (K16 x0 x1).rot (rot3 x0 162 (by decide)) (tvec x1 18 (by decide))
def K19 : Lanes F := (K17 x0 x1).rot (rot3 x0 171 (by decide)) (tvec x1 19 (by decide))
def K20 : Lanes F := (K18 x0 x1).rot (rot3 x0 180 (by decide)) (tvec x1 20 (by decide))
def K21 : Lanes F := (K19 x0 x1).rot (rot3 x0 189 (by decide)) (tvec x1 21 (by decide))
def K22 : Lanes F := (K15 x0 x1).move (tvec x1 22 (by decide))
def K23 : Lanes F := (K15 x0 x1).move (tvec x1 23 (by decide))
def K24 : Lanes F := (K15 x0 x1).move (tvec x1 24 (by decide))
def K25 : Lanes F := (K20 x0 x1).move (tvec x1 25 (by decide))
def K26 : Lanes F := (K25 x0 x1).move (tvec x1 26 (by decide))
def K27 : Lanes F := (K26 x0 x1).move (tvec x1 27 (by decide))
def K28 : Lanes F := (K20 x0 x1).move (tvec x1 28 (by decide))
def K29 : Lanes F := (K28 x0 x1).move (tvec x1 29 (by decide))
def K30 : Lanes F := (K29 x0 x1).move (tvec x1 30 (by decide))
def K31 : Lanes F := (K20 x0 x1).move (tvec x1 31 (by decide))
def K32 : Lanes F := (K31 x0 x1).move (tvec x1 32 (by decide))
def K33 : Lanes F := (K32 x0 x1).move (tvec x1 33 (by decide))
def K34 : Lanes F := (K20 x0 x1).move (tvec x1 34 (by decide))
def K35 : Lanes F := (K34 x0 x1).move (tvec x1 35 (by decide))
def K36 : Lanes F := (K35 x0 x1).move (tvec x1 36 (by decide))
def K37 : Lanes F := (K20 x0 x1).move (tvec x1 37 (by decide))
def K38 : Lanes F := (K37 x0 x1).move (tvec x1 38 (by decide))
def K39 : Lanes F := (K38 x0 x1).move (tvec x1 39 (by decide))
def K40 : Lanes F := (K21 x0 x1).move (tvec x1 40 (by decide))
def K41 : Lanes F := (K40 x0 x1).move (tvec x1 41 (by decide))
def K42 : Lanes F := (K41 x0 x1).move (tvec x1 42 (by decide))
def K43 : Lanes F := (K21 x0 x1).move (tvec x1 43 (by decide))
def K44 : Lanes F := (K43 x0 x1).move (tvec x1 44 (by decide))
def K45 : Lanes F := (K44 x0 x1).move (tvec x1 45 (by decide))
def K46 : Lanes F := (K21 x0 x1).move (tvec x1 46 (by decide))
def K47 : Lanes F := (K46 x0 x1).move (tvec x1 47 (by decide))
def K48 : Lanes F := (K47 x0 x1).move (tvec x1 48 (by decide))
def K49 : Lanes F := (K21 x0 x1).move (tvec x1 49 (by decide))
def K50 : Lanes F := (K49 x0 x1).move (tvec x1 50 (by decide))
def K51 : Lanes F := (K50 x0 x1).move (tvec x1 51 (by decide))
def K52 : Lanes F := (K21 x0 x1).move (tvec x1 52 (by decide))
def K53 : Lanes F := (K52 x0 x1).move (tvec x1 53 (by decide))
def K54 : Lanes F := (K53 x0 x1).move (tvec x1 54 (by decide))

end Cert.FK

end
-- ==== Proof.KerBodyDefs.lean ====
import proofs.«134826_j18760417149409_1_alg».proof.Proof.Gen.KernelIdeal
import proofs.«134826_j18760417149409_1_alg».proof.Proof.Joints
import proofs.«134826_j18760417149409_1_alg».proof.Proof.Target
import Idealize.ShloMosaic.Lib.Pipeline.Value
import Idealize.ShloMosaic.Lib.ValueIdx

set_option maxRecDepth 16384

noncomputable section

namespace Cert.FK.Ker

open Idealize.ShloMosaic Idealize.ShloMosaic.ValueIdx
open Cert.KernelIdeal Cert.KernelIdeal.Gen

variable {F : FTy → Type} [FloatOps F]

theorem rowv_apply (x0 : Vec F S198x4096 .f32) (a : ℕ) (h : a < 198) (ℓ : Fin 4096) :
    rowv x0 a h (ix1 ℓ) = x0 (ix2 (⟨a, h⟩ : Fin 198) ℓ) := by
  unfold rowv
  refine (shapeCast_apply _ _ (ix1 ℓ) (ix2 (0 : Fin 1) ℓ) ?_).trans ?_
  · rw [Shape.rowMajor_val_two, Shape.rowMajor_val_one]
    show 0 * 4096 + ℓ.val = ℓ.val
    omega
  · show x0 _ = x0 _
    congr 1
    funext ax
    match ax with
    | ⟨0, _⟩ => exact Fin.ext (by show a + 1 * 0 = a; omega)
    | ⟨1, _⟩ => exact Fin.ext (by show 0 + 1 * ℓ.val = ℓ.val; omega)

theorem relv_apply (x1 : Vec F S3x55 .f32) (k j : ℕ) (hk : k < 3) (hj : j < 55) (i : S4096.Idx) :
    relv x1 k j hk hj i = x1 (ix2 (⟨k, hk⟩ : Fin 3) (⟨j, hj⟩ : Fin 55)) := by
  unfold relv
  show x1 _ = x1 _
  congr 1
  funext ax
  match ax with
  | ⟨0, _⟩ => exact Fin.ext (by show k + 1 * 0 = k; omega)
  | ⟨1, _⟩ => exact Fin.ext (by show j + 1 * 0 = j; omega)

def lane (k : Lanes Ideal) (ℓ : Fin 4096) : Pose :=
  ⟨fun r c => k.c r c (ix1 ℓ), fun r => k.p r (ix1 ℓ)⟩

theorem lane_rot (k : Lanes Ideal) (R : Fin 3 → Fin 3 → FVec Ideal S4096 .f32) (t : Fin 3 → FVec Ideal S4096 .f32) (ℓ : Fin 4096) :
    lane (k.rot R t) ℓ = (lane k ℓ).rot (fun a b => R a b (ix1 ℓ)) (fun a => t a (ix1 ℓ)) := rfl

theorem lane_move (k : Lanes Ideal) (t : Fin 3 → FVec Ideal S4096 .f32) (ℓ : Fin 4096) :
    lane (k.move t) ℓ = (lane k ℓ).move (fun a => t a (ix1 ℓ)) := rfl

def Rf (x0 : Vec Ideal S198x4096 .f32) (ℓ : Fin 4096) : ℕ → Fin 3 → Fin 3 → EReal :=
  fun j' r' c' => if h : j' < 22 then x0 (ix2 (⟨9 * j' + 3 * r'.val + c'.val, by omega⟩ : Fin 198) ℓ) else 0

def tf (x1 : Vec Ideal S3x55 .f32) : ℕ → Fin 3 → EReal :=
  fun j' r' => if h : j' < 55 then x1 (ix2 r' (⟨j', h⟩ : Fin 55)) else 0

theorem rot3_lane (x0 : Vec Ideal S198x4096 .f32) (ℓ : Fin 4096) (b j : ℕ) (e : b = 9 * j) (hj : j < 22) (hb : b + 9 ≤ 198) :
    (fun a c => rot3 x0 b hb a c (ix1 ℓ)) = Rf x0 ℓ j := by
  subst e
  funext a c
  unfold rot3 Rf
  rw [rowv_apply, dif_pos hj]

theorem tvec_lane (x1 : Vec Ideal S3x55 .f32) (ℓ : Fin 4096) (j : ℕ) (hj : j < 55) :
    (fun a => tvec x1 j hj a (ix1 ℓ)) = tf x1 j := by
  funext a
  unfold tvec tf
  rw [relv_apply, dif_pos hj]

theorem lane_root (x0 : Vec Ideal S198x4096 .f32) (x1 : Vec Ideal S3x55 .f32) (ℓ : Fin 4096) (hb : 0 + 9 ≤ 198) (hj : 0 < 55) :
    lane ⟨rot3 x0 0 hb, tvec x1 0 hj⟩ ℓ = pose (Rf x0 ℓ) (tf x1) 0 := by
  rw [pose_root]
  show Pose.mk (fun a c => rot3 x0 0 hb a c (ix1 ℓ)) (fun a => tvec x1 0 hj a (ix1 ℓ)) = _
  rw [rot3_lane x0 ℓ 0 0 rfl (by decide) hb, tvec_lane]

theorem step_body (x0 : Vec Ideal S198x4096 .f32) (x1 : Vec Ideal S3x55 .f32) (ℓ : Fin 4096) (k : Lanes Ideal) (j p b : ℕ)
    (e : b = 9 * j) (h1 : 1 ≤ j) (h2 : j < 22) (hp : par j = p) (hb : b + 9 ≤ 198) (hj : j < 55)
    (ih : lane k ℓ = pose (Rf x0 ℓ) (tf x1) p) :
    lane (k.rot (rot3 x0 b hb) (tvec x1 j hj)) ℓ = pose (Rf x0 ℓ) (tf x1) j := by
  rw [pose_body _ _ j h1 h2, hp, ← ih, lane_rot, rot3_lane x0 ℓ b j e h2 hb, tvec_lane]

theorem step_tip (x0 : Vec Ideal S198x4096 .f32) (x1 : Vec Ideal S3x55 .f32) (ℓ : Fin 4096) (k : Lanes Ideal) (j p : ℕ)
    (h1 : 22 ≤ j) (hj : j < 55) (hp : par j = p)
    (ih : lane k ℓ = pose (Rf x0 ℓ) (tf x1) p) :
    lane (k.move (tvec x1 j hj)) ℓ = pose (Rf x0 ℓ) (tf x1) j := by
  rw [pose_tip _ _ j h1 hj, hp, ← ih, lane_move, tvec_lane]

def G (x0 : Vec Ideal S198x4096 .f32) (x1 : Vec Ideal S3x55 .f32) (y : S165x4096.Idx) : EReal :=
  (pose (Rf x0 (y 1)) (tf x1) ((y 0).val / 3)).p ⟨(y 0).val % 3, Nat.mod_lt _ (by decide)⟩

theorem G_eq (x0 : Vec Ideal S198x4096 .f32) (x1 : Vec Ideal S3x55 .f32) (y : S165x4096.Idx) (j : ℕ) (r : Fin 3) (ℓ : Fin 4096)
    (h0 : (y 0).val = 3 * j + r.val) (h1 : (y 1).val = ℓ.val) :
    G x0 x1 y = (pose (Rf x0 ℓ) (tf x1) j).p r := by
  unfold G
  have e1 : (y 1 : Fin 4096) = ℓ := Fin.ext h1
  have e2 : (y 0).val / 3 = j := by have := r.isLt; omega
  have e3 : (⟨(y 0).val % 3, Nat.mod_lt _ (by decide)⟩ : Fin 3) = r := Fin.ext (by show (y 0).val % 3 = r.val; have := r.isLt; omega)
  rw [e1, e2, e3]

def Pok (x0 : Vec Ideal S198x4096 .f32) (x1 : Vec Ideal S3x55 .f32) (p : View.Piece (Elt Ideal) S165x4096 .f32) : Prop :=
  ∀ x : p.1.shape.Idx, p.2 x = G x0 x1 (p.1.emb x)

-- A row store of coordinate r of joint j's translation agrees with G under its rectangle.
theorem piece_ok (x0 : Vec Ideal S198x4096 .f32) (x1 : Vec Ideal S3x55 .f32) (k : Lanes Ideal) (j : ℕ) (r : Fin 3) (ρ : ℕ)
    (hρ : ρ = 3 * j + r.val) (inb : ∀ ax, (![ρ, 0] : Fin 2 → ℕ) ax + S1x4096.size ax ≤ S165x4096.size ax)
    (hk : ∀ ℓ, lane k ℓ = pose (Rf x0 ℓ) (tf x1) j) {w : FVec Ideal S1x4096 .f32} {v : FVec Ideal S4096 .f32}
    (hv : v = k.p r) (hw : w = shapeCast S1x4096 v shapeCasts_S4096_S1x4096) :
    Pok x0 x1 ⟨Rect.unit (s := S165x4096) ![ρ, 0] S1x4096.size inb, w⟩ := by
  subst hw hv
  intro x
  obtain ⟨a, ℓ, rfl⟩ : ∃ (a : Fin 1) (ℓ : Fin 4096), x = ix2 a ℓ := ⟨x 0, x 1, eq_ix2 x⟩
  show shapeCast S1x4096 (k.p r) shapeCasts_S4096_S1x4096 (ix2 a ℓ) = _
  refine (shapeCast_apply _ _ (ix2 a ℓ) (ix1 ℓ) ?_).trans ?_
  · rw [Shape.rowMajor_val_two, Shape.rowMajor_val_one]
    show ℓ.val = a.val * 4096 + ℓ.val
    have := a.isLt
    omega
  · show (lane k ℓ).p r = _
    rw [hk]
    exact (G_eq x0 x1 _ j r ℓ (by show ρ + 1 * a.val = _; have := a.isLt; omega) (by show 0 + 1 * ℓ.val = ℓ.val; omega)).symm

theorem all_cons {α : Type} (P : α → Prop) {a : α} {l : List α} (h : P a) (hl : ∀ x ∈ l, P x) : ∀ x ∈ a :: l, P x :=
  List.forall_mem_cons.mpr ⟨h, hl⟩

theorem all_nil {α : Type} (P : α → Prop) : ∀ x ∈ ([] : List α), P x := fun _ h => absurd h List.not_mem_nil

-- A joint's three stores, rows 3j + 2, 3j + 1, 3j of the block, in front of stores that agree with G.
theorem joint_ok (x0 : Vec Ideal S198x4096 .f32) (x1 : Vec Ideal S3x55 .f32) (k : Lanes Ideal) (j : ℕ)
    (i2 : ∀ ax, (![3 * j + 2, 0] : Fin 2 → ℕ) ax + S1x4096.size ax ≤ S165x4096.size ax)
    (i1 : ∀ ax, (![3 * j + 1, 0] : Fin 2 → ℕ) ax + S1x4096.size ax ≤ S165x4096.size ax)
    (i0 : ∀ ax, (![3 * j, 0] : Fin 2 → ℕ) ax + S1x4096.size ax ≤ S165x4096.size ax)
    (hk : ∀ ℓ, lane k ℓ = pose (Rf x0 ℓ) (tf x1) j) {w2 w1 w0 : FVec Ideal S1x4096 .f32} {v2 v1 v0 : FVec Ideal S4096 .f32}
    (h2 : v2 = k.p 2) (h1 : v1 = k.p 1) (h0 : v0 = k.p 0)
    (e2 : w2 = shapeCast S1x4096 v2 shapeCasts_S4096_S1x4096) (e1 : w1 = shapeCast S1x4096 v1 shapeCasts_S4096_S1x4096)
    (e0 : w0 = shapeCast S1x4096 v0 shapeCasts_S4096_S1x4096) {l : List (View.Piece (Elt Ideal) S165x4096 .f32)}
    (hl : ∀ p ∈ l, Pok x0 x1 p) :
    ∀ p ∈ (⟨Rect.unit (s := S165x4096) ![3 * j + 2, 0] S1x4096.size i2, w2⟩ :: ⟨Rect.unit (s := S165x4096) ![3 * j + 1, 0] S1x4096.size i1, w1⟩
        :: ⟨Rect.unit (s := S165x4096) ![3 * j, 0] S1x4096.size i0, w0⟩ :: l : List (View.Piece (Elt Ideal) S165x4096 .f32)), Pok x0 x1 p :=
  all_cons _ (piece_ok x0 x1 k j 2 _ rfl i2 hk h2 e2) <| all_cons _ (piece_ok x0 x1 k j 1 _ rfl i1 hk h1 e1) <| all_cons _ (piece_ok x0 x1 k j 0 _ rfl i0 hk h0 e0) hl

end Cert.FK.Ker

end
-- ==== Proof.KerBodyTable.lean ====
import proofs.«134826_j18760417149409_1_alg».proof.Proof.KernelIdealFramePatched
import proofs.«134826_j18760417149409_1_alg».proof.Proof.KerBodyDefs

set_option maxRecDepth 16384

noncomputable section

namespace Cert.FK.Ker

open Idealize.ShloMosaic Idealize.ShloMosaic.ValueIdx
open Cert.KernelIdeal Cert.KernelIdeal.Gen

section
variable {F : FTy → Type} [FloatOps F] (x0 : Vec F S198x4096 .f32) (x1 : Vec F S3x55 .f32)

theorem d10_eq : d10 x0 = (K0 x0 x1).c 2 2 := by
  unfold d10; rfl
theorem d8_eq : d8 x0 = (K0 x0 x1).c 2 0 := by
  unfold d8; rfl
theorem d9_eq : d9 x0 = (K0 x0 x1).c 2 1 := by
  unfold d9; rfl
theorem d83_eq : d83 x0 = (K3 x0 x1).c 2 0 := by
  unfold d83 d81 d82; rw [d10_eq x0 x1, d8_eq x0 x1, d9_eq x0 x1]; rfl
theorem d84_eq : d84 x0 = (K3 x0 x1).c 2 1 := by
  unfold d84; rw [d8_eq x0 x1, d9_eq x0 x1, d10_eq x0 x1]; rfl
theorem d85_eq : d85 x0 = (K3 x0 x1).c 2 2 := by
  unfold d85; rw [d8_eq x0 x1, d9_eq x0 x1, d10_eq x0 x1]; rfl
theorem d163_eq : d163 x0 = (K6 x0 x1).c 2 2 := by
  unfold d163; rw [d83_eq x0 x1, d84_eq x0 x1, d85_eq x0 x1]; rfl
theorem d161_eq : d161 x0 = (K6 x0 x1).c 2 0 := by
  unfold d161 d159 d160; rw [d85_eq x0 x1, d83_eq x0 x1, d84_eq x0 x1]; rfl
theorem d162_eq : d162 x0 = (K6 x0 x1).c 2 1 := by
  unfold d162; rw [d83_eq x0 x1, d84_eq x0 x1, d85_eq x0 x1]; rfl
theorem d239_eq : d239 x0 = (K9 x0 x1).c 2 0 := by
  unfold d239 d237 d238; rw [d163_eq x0 x1, d161_eq x0 x1, d162_eq x0 x1]; rfl
theorem d240_eq : d240 x0 = (K9 x0 x1).c 2 1 := by
  unfold d240; rw [d161_eq x0 x1, d162_eq x0 x1, d163_eq x0 x1]; rfl
theorem d241_eq : d241 x0 = (K9 x0 x1).c 2 2 := by
  unfold d241; rw [d161_eq x0 x1, d162_eq x0 x1, d163_eq x0 x1]; rfl
theorem d332_eq : d332 x0 = (K14 x0 x1).c 2 0 := by
  unfold d332; rw [d239_eq x0 x1, d240_eq x0 x1, d241_eq x0 x1]; rfl
theorem d333_eq : d333 x0 = (K14 x0 x1).c 2 1 := by
  unfold d333; rw [d239_eq x0 x1, d240_eq x0 x1, d241_eq x0 x1]; rfl
theorem d334_eq : d334 x0 = (K14 x0 x1).c 2 2 := by
  unfold d334; rw [d239_eq x0 x1, d240_eq x0 x1, d241_eq x0 x1]; rfl
theorem d413_eq : d413 x0 = (K17 x0 x1).c 2 0 := by
  unfold d413; rw [d332_eq x0 x1, d333_eq x0 x1, d334_eq x0 x1]; rfl
theorem d414_eq : d414 x0 = (K17 x0 x1).c 2 1 := by
  unfold d414; rw [d332_eq x0 x1, d333_eq x0 x1, d334_eq x0 x1]; rfl
theorem d415_eq : d415 x0 = (K17 x0 x1).c 2 2 := by
  unfold d415; rw [d332_eq x0 x1, d333_eq x0 x1, d334_eq x0 x1]; rfl
theorem d467_eq : d467 x0 = (K19 x0 x1).c 2 0 := by
  unfold d467; rw [d413_eq x0 x1, d414_eq x0 x1, d415_eq x0 x1]; rfl
theorem d468_eq : d468 x0 = (K19 x0 x1).c 2 1 := by
  unfold d468; rw [d413_eq x0 x1, d414_eq x0 x1, d415_eq x0 x1]; rfl
theorem d469_eq : d469 x0 = (K19 x0 x1).c 2 2 := by
  unfold d469; rw [d413_eq x0 x1, d414_eq x0 x1, d415_eq x0 x1]; rfl
theorem d521_eq : d521 x0 = (K21 x0 x1).c 2 0 := by
  unfold d521; rw [d467_eq x0 x1, d468_eq x0 x1, d469_eq x0 x1]; rfl
theorem d522_eq : d522 x0 = (K21 x0 x1).c 2 1 := by
  unfold d522; rw [d467_eq x0 x1, d468_eq x0 x1, d469_eq x0 x1]; rfl
theorem d523_eq : d523 x0 = (K21 x0 x1).c 2 2 := by
  unfold d523; rw [d467_eq x0 x1, d468_eq x0 x1, d469_eq x0 x1]; rfl
theorem d13_eq : d13 x1 = (K0 x0 x1).p 2 := by
  unfold d13; rfl
theorem d91_eq : d91 x0 x1 = (K3 x0 x1).p 2 := by
  unfold d91; rw [d8_eq x0 x1, d9_eq x0 x1, d10_eq x0 x1, d13_eq x0 x1]; rfl
theorem d169_eq : d169 x0 x1 = (K6 x0 x1).p 2 := by
  unfold d169; rw [d83_eq x0 x1, d84_eq x0 x1, d85_eq x0 x1, d91_eq x0 x1]; rfl
theorem d247_eq : d247 x0 x1 = (K9 x0 x1).p 2 := by
  unfold d247; rw [d161_eq x0 x1, d162_eq x0 x1, d163_eq x0 x1, d169_eq x0 x1]; rfl
theorem d341_eq : d341 x0 x1 = (K14 x0 x1).p 2 := by
  unfold d341; rw [d239_eq x0 x1, d240_eq x0 x1, d241_eq x0 x1, d247_eq x0 x1]; rfl
theorem d422_eq : d422 x0 x1 = (K17 x0 x1).p 2 := by
  unfold d422; rw [d332_eq x0 x1, d333_eq x0 x1, d334_eq x0 x1, d341_eq x0 x1]; rfl
theorem d476_eq : d476 x0 x1 = (K19 x0 x1).p 2 := by
  unfold d476; rw [d413_eq x0 x1, d414_eq x0 x1, d415_eq x0 x1, d422_eq x0 x1]; rfl
theorem d530_eq : d530 x0 x1 = (K21 x0 x1).p 2 := by
  unfold d530; rw [d467_eq x0 x1, d468_eq x0 x1, d469_eq x0 x1, d476_eq x0 x1]; rfl
theorem d737_eq : d737 x0 x1 = (K53 x0 x1).p 2 := by
  unfold d737; rw [d521_eq x0 x1, d522_eq x0 x1, d523_eq x0 x1, d530_eq x0 x1]; rfl
theorem d743_eq : d743 x0 x1 = (K54 x0 x1).p 2 := by
  unfold d743; rw [d521_eq x0 x1, d522_eq x0 x1, d523_eq x0 x1, d737_eq x0 x1]; rfl
theorem d5_eq : d5 x0 = (K0 x0 x1).c 1 0 := by
  unfold d5; rfl
theorem d6_eq : d6 x0 = (K0 x0 x1).c 1 1 := by
  unfold d6; rfl
theorem d7_eq : d7 x0 = (K0 x0 x1).c 1 2 := by
  unfold d7; rfl
theorem d78_eq : d78 x0 = (K3 x0 x1).c 1 0 := by
  unfold d78; rw [d5_eq x0 x1, d6_eq x0 x1, d7_eq x0 x1]; rfl
theorem d79_eq : d79 x0 = (K3 x0 x1).c 1 1 := by
  unfold d79; rw [d5_eq x0 x1, d6_eq x0 x1, d7_eq x0 x1]; rfl
theorem d80_eq : d80 x0 = (K3 x0 x1).c 1 2 := by
  unfold d80; rw [d5_eq x0 x1, d6_eq x0 x1, d7_eq x0 x1]; rfl
theorem d156_eq : d156 x0 = (K6 x0 x1).c 1 0 := by
  unfold d156; rw [d78_eq x0 x1, d79_eq x0 x1, d80_eq x0 x1]; rfl
theorem d157_eq : d157 x0 = (K6 x0 x1).c 1 1 := by
  unfold d157; rw [d78_eq x0 x1, d79_eq x0 x1, d80_eq x0 x1]; rfl
theorem d158_eq : d158 x0 = (K6 x0 x1).c 1 2 := by
  unfold d158; rw [d78_eq x0 x1, d79_eq x0 x1, d80_eq x0 x1]; rfl
theorem d234_eq : d234 x0 = (K9 x0 x1).c 1 0 := by
  unfold d234; rw [d156_eq x0 x1, d157_eq x0 x1, d158_eq x0 x1]; rfl
theorem d235_eq : d235 x0 = (K9 x0 x1).c 1 1 := by
  unfold d235; rw [d156_eq x0 x1, d157_eq x0 x1, d158_eq x0 x1]; rfl
theorem d236_eq : d236 x0 = (K9 x0 x1).c 1 2 := by
  unfold d236; rw [d156_eq x0 x1, d157_eq x0 x1, d158_eq x0 x1]; rfl
theorem d329_eq : d329 x0 = (K14 x0 x1).c 1 0 := by
  unfold d329; rw [d234_eq x0 x1, d235_eq x0 x1, d236_eq x0 x1]; rfl
theorem d330_eq : d330 x0 = (K14 x0 x1).c 1 1 := by
  unfold d330; rw [d234_eq x0 x1, d235_eq x0 x1, d236_eq x0 x1]; rfl
theorem d331_eq : d331 x0 = (K14 x0 x1).c 1 2 := by
  unfold d331; rw [d234_eq x0 x1, d235_eq x0 x1, d236_eq x0 x1]; rfl
theorem d410_eq : d410 x0 = (K17 x0 x1).c 1 0 := by
  unfold d410; rw [d329_eq x0 x1, d330_eq x0 x1, d331_eq x0 x1]; rfl
theorem d411_eq : d411 x0 = (K17 x0 x1).c 1 1 := by
  unfold d411; rw [d329_eq x0 x1, d330_eq x0 x1, d331_eq x0 x1]; rfl
theorem d412_eq : d412 x0 = (K17 x0 x1).c 1 2 := by
  unfold d412; rw [d329_eq x0 x1, d330_eq x0 x1, d331_eq x0 x1]; rfl
theorem d464_eq : d464 x0 = (K19 x0 x1).c 1 0 := by
  unfold d464; rw [d410_eq x0 x1, d411_eq x0 x1, d412_eq x0 x1]; rfl
theorem d465_eq : d465 x0 = (K19 x0 x1).c 1 1 := by
  unfold d465; rw [d410_eq x0 x1, d411_eq x0 x1, d412_eq x0 x1]; rfl
theorem d466_eq : d466 x0 = (K19 x0 x1).c 1 2 := by
  unfold d466; rw [d410_eq x0 x1, d411_eq x0 x1, d412_eq x0 x1]; rfl
theorem d518_eq : d518 x0 = (K21 x0 x1).c 1 0 := by
  unfold d518; rw [d464_eq x0 x1, d465_eq x0 x1, d466_eq x0 x1]; rfl
theorem d519_eq : d519 x0 = (K21 x0 x1).c 1 1 := by
  unfold d519; rw [d464_eq x0 x1, d465_eq x0 x1, d466_eq x0 x1]; rfl
theorem d520_eq : d520 x0 = (K21 x0 x1).c 1 2 := by
  unfold d520; rw [d464_eq x0 x1, d465_eq x0 x1, d466_eq x0 x1]; rfl
theorem d12_eq : d12 x1 = (K0 x0 x1).p 1 := by
  unfold d12; rfl
theorem d90_eq : d90 x0 x1 = (K3 x0 x1).p 1 := by
  unfold d90; rw [d5_eq x0 x1, d6_eq x0 x1, d7_eq x0 x1, d12_eq x0 x1]; rfl
theorem d168_eq : d168 x0 x1 = (K6 x0 x1).p 1 := by
  unfold d168; rw [d78_eq x0 x1, d79_eq x0 x1, d80_eq x0 x1, d90_eq x0 x1]; rfl
theorem d246_eq : d246 x0 x1 = (K9 x0 x1).p 1 := by
  unfold d246; rw [d156_eq x0 x1, d157_eq x0 x1, d158_eq x0 x1, d168_eq x0 x1]; rfl
theorem d340_eq : d340 x0 x1 = (K14 x0 x1).p 1 := by
  unfold d340 d339; rw [d246_eq x0 x1, d234_eq x0 x1, d235_eq x0 x1, d236_eq x0 x1]; rfl
theorem d421_eq : d421 x0 x1 = (K17 x0 x1).p 1 := by
  unfold d421 d420; rw [d340_eq x0 x1, d329_eq x0 x1, d330_eq x0 x1, d331_eq x0 x1]; rfl
theorem d475_eq : d475 x0 x1 = (K19 x0 x1).p 1 := by
  unfold d475 d474; rw [d421_eq x0 x1, d410_eq x0 x1, d411_eq x0 x1, d412_eq x0 x1]; rfl
theorem d529_eq : d529 x0 x1 = (K21 x0 x1).p 1 := by
  unfold d529 d528; rw [d475_eq x0 x1, d464_eq x0 x1, d465_eq x0 x1, d466_eq x0 x1]; rfl
theorem d736_eq : d736 x0 x1 = (K53 x0 x1).p 1 := by
  unfold d736; rw [d518_eq x0 x1, d519_eq x0 x1, d520_eq x0 x1, d529_eq x0 x1]; rfl
theorem d742_eq : d742 x0 x1 = (K54 x0 x1).p 1 := by
  unfold d742; rw [d518_eq x0 x1, d519_eq x0 x1, d520_eq x0 x1, d736_eq x0 x1]; rfl
theorem d2_eq : d2 x0 = (K0 x0 x1).c 0 0 := by
  unfold d2; rfl
theorem d3_eq : d3 x0 = (K0 x0 x1).c 0 1 := by
  unfold d3; rfl
theorem d4_eq : d4 x0 = (K0 x0 x1).c 0 2 := by
  unfold d4; rfl
theorem d75_eq : d75 x0 = (K3 x0 x1).c 0 0 := by
  unfold d75; rw [d2_eq x0 x1, d3_eq x0 x1, d4_eq x0 x1]; rfl
theorem d76_eq : d76 x0 = (K3 x0 x1).c 0 1 := by
  unfold d76; rw [d2_eq x0 x1, d3_eq x0 x1, d4_eq x0 x1]; rfl
theorem d77_eq : d77 x0 = (K3 x0 x1).c 0 2 := by
  unfold d77; rw [d2_eq x0 x1, d3_eq x0 x1, d4_eq x0 x1]; rfl
theorem d153_eq : d153 x0 = (K6 x0 x1).c 0 0 := by
  unfold d153; rw [d75_eq x0 x1, d76_eq x0 x1, d77_eq x0 x1]; rfl
theorem d154_eq : d154 x0 = (K6 x0 x1).c 0 1 := by
  unfold d154; rw [d75_eq x0 x1, d76_eq x0 x1, d77_eq x0 x1]; rfl
theorem d155_eq : d155 x0 = (K6 x0 x1).c 0 2 := by
  unfold d155; rw [d75_eq x0 x1, d76_eq x0 x1, d77_eq x0 x1]; rfl
theorem d231_eq : d231 x0 = (K9 x0 x1).c 0 0 := by
  unfold d231; rw [d153_eq x0 x1, d154_eq x0 x1, d155_eq x0 x1]; rfl
theorem d232_eq : d232 x0 = (K9 x0 x1).c 0 1 := by
  unfold d232; rw [d153_eq x0 x1, d154_eq x0 x1, d155_eq x0 x1]; rfl
theorem d233_eq : d233 x0 = (K9 x0 x1).c 0 2 := by
  unfold d233; rw [d153_eq x0 x1, d154_eq x0 x1, d155_eq x0 x1]; rfl
theorem d324_eq : d324 x0 = (K14 x0 x1).c 0 0 := by
  unfold d324; rw [d231_eq x0 x1, d232_eq x0 x1, d233_eq x0 x1]; rfl
theorem d325_eq : d325 x0 = (K14 x0 x1).c 0 1 := by
  unfold d325; rw [d231_eq x0 x1, d232_eq x0 x1, d233_eq x0 x1]; rfl
theorem d328_eq : d328 x0 = (K14 x0 x1).c 0 2 := by
  unfold d328 d326 d327; rw [d231_eq x0 x1, d232_eq x0 x1, d233_eq x0 x1]; rfl
theorem d405_eq : d405 x0 = (K17 x0 x1).c 0 0 := by
  unfold d405; rw [d324_eq x0 x1, d325_eq x0 x1, d328_eq x0 x1]; rfl
theorem d406_eq : d406 x0 = (K17 x0 x1).c 0 1 := by
  unfold d406; rw [d324_eq x0 x1, d325_eq x0 x1, d328_eq x0 x1]; rfl
theorem d409_eq : d409 x0 = (K17 x0 x1).c 0 2 := by
  unfold d409 d407 d408; rw [d324_eq x0 x1, d325_eq x0 x1, d328_eq x0 x1]; rfl
theorem d459_eq : d459 x0 = (K19 x0 x1).c 0 0 := by
  unfold d459; rw [d405_eq x0 x1, d406_eq x0 x1, d409_eq x0 x1]; rfl
theorem d460_eq : d460 x0 = (K19 x0 x1).c 0 1 := by
  unfold d460; rw [d405_eq x0 x1, d406_eq x0 x1, d409_eq x0 x1]; rfl
theorem d463_eq : d463 x0 = (K19 x0 x1).c 0 2 := by
  unfold d463 d461 d462; rw [d405_eq x0 x1, d406_eq x0 x1, d409_eq x0 x1]; rfl
theorem d513_eq : d513 x0 = (K21 x0 x1).c 0 0 := by
  unfold d513; rw [d459_eq x0 x1, d460_eq x0 x1, d463_eq x0 x1]; rfl
theorem d514_eq : d514 x0 = (K21 x0 x1).c 0 1 := by
  unfold d514; rw [d459_eq x0 x1, d460_eq x0 x1, d463_eq x0 x1]; rfl
theorem d517_eq : d517 x0 = (K21 x0 x1).c 0 2 := by
  unfold d517 d515 d516; rw [d459_eq x0 x1, d460_eq x0 x1, d463_eq x0 x1]; rfl
theorem d11_eq : d11 x1 = (K0 x0 x1).p 0 := by
  unfold d11; rfl
theorem d89_eq : d89 x0 x1 = (K3 x0 x1).p 0 := by
  unfold d89; rw [d2_eq x0 x1, d3_eq x0 x1, d4_eq x0 x1, d11_eq x0 x1]; rfl
theorem d167_eq : d167 x0 x1 = (K6 x0 x1).p 0 := by
  unfold d167; rw [d75_eq x0 x1, d76_eq x0 x1, d77_eq x0 x1, d89_eq x0 x1]; rfl
theorem d245_eq : d245 x0 x1 = (K9 x0 x1).p 0 := by
  unfold d245; rw [d153_eq x0 x1, d154_eq x0 x1, d155_eq x0 x1, d167_eq x0 x1]; rfl
theorem d338_eq : d338 x0 x1 = (K14 x0 x1).p 0 := by
  unfold d338; rw [d231_eq x0 x1, d232_eq x0 x1, d233_eq x0 x1, d245_eq x0 x1]; rfl
theorem d419_eq : d419 x0 x1 = (K17 x0 x1).p 0 := by
  unfold d419; rw [d324_eq x0 x1, d325_eq x0 x1, d328_eq x0 x1, d338_eq x0 x1]; rfl
theorem d473_eq : d473 x0 x1 = (K19 x0 x1).p 0 := by
  unfold d473; rw [d405_eq x0 x1, d406_eq x0 x1, d409_eq x0 x1, d419_eq x0 x1]; rfl
theorem d527_eq : d527 x0 x1 = (K21 x0 x1).p 0 := by
  unfold d527; rw [d459_eq x0 x1, d460_eq x0 x1, d463_eq x0 x1, d473_eq x0 x1]; rfl
theorem d735_eq : d735 x0 x1 = (K53 x0 x1).p 0 := by
  unfold d735 d728; rw [d513_eq x0 x1, d514_eq x0 x1, d517_eq x0 x1, d527_eq x0 x1]; rfl
theorem d741_eq : d741 x0 x1 = (K54 x0 x1).p 0 := by
  unfold d741; rw [d513_eq x0 x1, d514_eq x0 x1, d517_eq x0 x1, d735_eq x0 x1]; rfl
theorem d731_eq : d731 x0 x1 = (K52 x0 x1).p 2 := by
  unfold d731; rw [d521_eq x0 x1, d522_eq x0 x1, d523_eq x0 x1, d530_eq x0 x1]; rfl
theorem d730_eq : d730 x0 x1 = (K52 x0 x1).p 1 := by
  unfold d730; rw [d518_eq x0 x1, d519_eq x0 x1, d520_eq x0 x1, d529_eq x0 x1]; rfl
theorem d729_eq : d729 x0 x1 = (K52 x0 x1).p 0 := by
  unfold d729 d728; rw [d527_eq x0 x1, d513_eq x0 x1, d514_eq x0 x1, d517_eq x0 x1]; rfl
theorem d711_eq : d711 x0 x1 = (K49 x0 x1).p 2 := by
  unfold d711; rw [d521_eq x0 x1, d522_eq x0 x1, d523_eq x0 x1, d530_eq x0 x1]; rfl
theorem d724_eq : d724 x0 x1 = (K51 x0 x1).p 2 := by
  unfold d724 d717; rw [d521_eq x0 x1, d522_eq x0 x1, d523_eq x0 x1, d711_eq x0 x1]; rfl
theorem d716_eq : d716 x0 x1 = (K50 x0 x1).p 1 := by
  unfold d716; rw [d518_eq x0 x1, d519_eq x0 x1, d520_eq x0 x1, d529_eq x0 x1]; rfl
theorem d723_eq : d723 x0 x1 = (K51 x0 x1).p 1 := by
  unfold d723; rw [d518_eq x0 x1, d519_eq x0 x1, d520_eq x0 x1, d716_eq x0 x1]; rfl
theorem d715_eq : d715 x0 x1 = (K50 x0 x1).p 0 := by
  unfold d715 d708; rw [d513_eq x0 x1, d514_eq x0 x1, d517_eq x0 x1, d527_eq x0 x1]; rfl
theorem d722_eq : d722 x0 x1 = (K51 x0 x1).p 0 := by
  unfold d722; rw [d513_eq x0 x1, d514_eq x0 x1, d517_eq x0 x1, d715_eq x0 x1]; rfl
theorem d718_eq : d718 x0 x1 = (K50 x0 x1).p 2 := by
  unfold d718 d717; rw [d711_eq x0 x1, d521_eq x0 x1, d522_eq x0 x1, d523_eq x0 x1]; rfl
theorem d710_eq : d710 x0 x1 = (K49 x0 x1).p 1 := by
  unfold d710; rw [d518_eq x0 x1, d519_eq x0 x1, d520_eq x0 x1, d529_eq x0 x1]; rfl
theorem d709_eq : d709 x0 x1 = (K49 x0 x1).p 0 := by
  unfold d709 d708; rw [d517_eq x0 x1, d527_eq x0 x1, d513_eq x0 x1, d514_eq x0 x1]; rfl
theorem d691_eq : d691 x0 x1 = (K46 x0 x1).p 2 := by
  unfold d691; rw [d521_eq x0 x1, d522_eq x0 x1, d523_eq x0 x1, d530_eq x0 x1]; rfl
theorem d704_eq : d704 x0 x1 = (K48 x0 x1).p 2 := by
  unfold d704 d697; rw [d521_eq x0 x1, d522_eq x0 x1, d523_eq x0 x1, d691_eq x0 x1]; rfl
theorem d696_eq : d696 x0 x1 = (K47 x0 x1).p 1 := by
  unfold d696; rw [d518_eq x0 x1, d519_eq x0 x1, d520_eq x0 x1, d529_eq x0 x1]; rfl
theorem d703_eq : d703 x0 x1 = (K48 x0 x1).p 1 := by
  unfold d703; rw [d518_eq x0 x1, d519_eq x0 x1, d520_eq x0 x1, d696_eq x0 x1]; rfl
theorem d695_eq : d695 x0 x1 = (K47 x0 x1).p 0 := by
  unfold d695 d688; rw [d513_eq x0 x1, d514_eq x0 x1, d517_eq x0 x1, d527_eq x0 x1]; rfl
theorem d702_eq : d702 x0 x1 = (K48 x0 x1).p 0 := by
  unfold d702; rw [d513_eq x0 x1, d514_eq x0 x1, d517_eq x0 x1, d695_eq x0 x1]; rfl
theorem d698_eq : d698 x0 x1 = (K47 x0 x1).p 2 := by
  unfold d698 d697; rw [d523_eq x0 x1, d691_eq x0 x1, d521_eq x0 x1, d522_eq x0 x1]; rfl
theorem d690_eq : d690 x0 x1 = (K46 x0 x1).p 1 := by
  unfold d690; rw [d518_eq x0 x1, d519_eq x0 x1, d520_eq x0 x1, d529_eq x0 x1]; rfl
theorem d689_eq : d689 x0 x1 = (K46 x0 x1).p 0 := by
  unfold d689 d688; rw [d514_eq x0 x1, d517_eq x0 x1, d527_eq x0 x1, d513_eq x0 x1]; rfl
theorem d671_eq : d671 x0 x1 = (K43 x0 x1).p 2 := by
  unfold d671; rw [d521_eq x0 x1, d522_eq x0 x1, d523_eq x0 x1, d530_eq x0 x1]; rfl
theorem d684_eq : d684 x0 x1 = (K45 x0 x1).p 2 := by
  unfold d684 d677; rw [d521_eq x0 x1, d522_eq x0 x1, d523_eq x0 x1, d671_eq x0 x1]; rfl
theorem d676_eq : d676 x0 x1 = (K44 x0 x1).p 1 := by
  unfold d676; rw [d518_eq x0 x1, d519_eq x0 x1, d520_eq x0 x1, d529_eq x0 x1]; rfl
theorem d683_eq : d683 x0 x1 = (K45 x0 x1).p 1 := by
  unfold d683; rw [d518_eq x0 x1, d519_eq x0 x1, d520_eq x0 x1, d676_eq x0 x1]; rfl
theorem d675_eq : d675 x0 x1 = (K44 x0 x1).p 0 := by
  unfold d675; rw [d513_eq x0 x1, d514_eq x0 x1, d517_eq x0 x1, d527_eq x0 x1]; rfl
theorem d682_eq : d682 x0 x1 = (K45 x0 x1).p 0 := by
  unfold d682; rw [d513_eq x0 x1, d514_eq x0 x1, d517_eq x0 x1, d675_eq x0 x1]; rfl
theorem d678_eq : d678 x0 x1 = (K44 x0 x1).p 2 := by
  unfold d678 d677; rw [d522_eq x0 x1, d523_eq x0 x1, d671_eq x0 x1, d521_eq x0 x1]; rfl
theorem d670_eq : d670 x0 x1 = (K43 x0 x1).p 1 := by
  unfold d670; rw [d518_eq x0 x1, d519_eq x0 x1, d520_eq x0 x1, d529_eq x0 x1]; rfl
theorem d669_eq : d669 x0 x1 = (K43 x0 x1).p 0 := by
  unfold d669; rw [d513_eq x0 x1, d514_eq x0 x1, d517_eq x0 x1, d527_eq x0 x1]; rfl
theorem d652_eq : d652 x0 x1 = (K40 x0 x1).p 2 := by
  unfold d652; rw [d521_eq x0 x1, d522_eq x0 x1, d523_eq x0 x1, d530_eq x0 x1]; rfl
theorem d665_eq : d665 x0 x1 = (K42 x0 x1).p 2 := by
  unfold d665; rw [d521_eq x0 x1, d522_eq x0 x1, d523_eq x0 x1, d652_eq x0 x1]; rfl
theorem d651_eq : d651 x0 x1 = (K40 x0 x1).p 1 := by
  unfold d651; rw [d518_eq x0 x1, d519_eq x0 x1, d520_eq x0 x1, d529_eq x0 x1]; rfl
theorem d664_eq : d664 x0 x1 = (K42 x0 x1).p 1 := by
  unfold d664 d657; rw [d518_eq x0 x1, d519_eq x0 x1, d520_eq x0 x1, d651_eq x0 x1]; rfl
theorem d656_eq : d656 x0 x1 = (K41 x0 x1).p 0 := by
  unfold d656; rw [d513_eq x0 x1, d514_eq x0 x1, d517_eq x0 x1, d527_eq x0 x1]; rfl
theorem d663_eq : d663 x0 x1 = (K42 x0 x1).p 0 := by
  unfold d663; rw [d513_eq x0 x1, d514_eq x0 x1, d517_eq x0 x1, d656_eq x0 x1]; rfl
theorem d659_eq : d659 x0 x1 = (K41 x0 x1).p 2 := by
  unfold d659; rw [d521_eq x0 x1, d522_eq x0 x1, d523_eq x0 x1, d652_eq x0 x1]; rfl
theorem d658_eq : d658 x0 x1 = (K41 x0 x1).p 1 := by
  unfold d658 d657; rw [d651_eq x0 x1, d518_eq x0 x1, d519_eq x0 x1, d520_eq x0 x1]; rfl
theorem d650_eq : d650 x0 x1 = (K40 x0 x1).p 0 := by
  unfold d650; rw [d513_eq x0 x1, d514_eq x0 x1, d517_eq x0 x1, d527_eq x0 x1]; rfl
theorem d305_eq : d305 x0 = (K13 x0 x1).c 2 0 := by
  unfold d305; rw [d239_eq x0 x1, d240_eq x0 x1, d241_eq x0 x1]; rfl
theorem d306_eq : d306 x0 = (K13 x0 x1).c 2 1 := by
  unfold d306; rw [d239_eq x0 x1, d240_eq x0 x1, d241_eq x0 x1]; rfl
theorem d307_eq : d307 x0 = (K13 x0 x1).c 2 2 := by
  unfold d307; rw [d239_eq x0 x1, d240_eq x0 x1, d241_eq x0 x1]; rfl
theorem d386_eq : d386 x0 = (K16 x0 x1).c 2 0 := by
  unfold d386; rw [d305_eq x0 x1, d306_eq x0 x1, d307_eq x0 x1]; rfl
theorem d387_eq : d387 x0 = (K16 x0 x1).c 2 1 := by
  unfold d387; rw [d305_eq x0 x1, d306_eq x0 x1, d307_eq x0 x1]; rfl
theorem d388_eq : d388 x0 = (K16 x0 x1).c 2 2 := by
  unfold d388; rw [d305_eq x0 x1, d306_eq x0 x1, d307_eq x0 x1]; rfl
theorem d440_eq : d440 x0 = (K18 x0 x1).c 2 0 := by
  unfold d440; rw [d386_eq x0 x1, d387_eq x0 x1, d388_eq x0 x1]; rfl
theorem d441_eq : d441 x0 = (K18 x0 x1).c 2 1 := by
  unfold d441; rw [d386_eq x0 x1, d387_eq x0 x1, d388_eq x0 x1]; rfl
theorem d442_eq : d442 x0 = (K18 x0 x1).c 2 2 := by
  unfold d442; rw [d386_eq x0 x1, d387_eq x0 x1, d388_eq x0 x1]; rfl
theorem d494_eq : d494 x0 = (K20 x0 x1).c 2 0 := by
  unfold d494; rw [d440_eq x0 x1, d441_eq x0 x1, d442_eq x0 x1]; rfl
theorem d495_eq : d495 x0 = (K20 x0 x1).c 2 1 := by
  unfold d495; rw [d440_eq x0 x1, d441_eq x0 x1, d442_eq x0 x1]; rfl
theorem d496_eq : d496 x0 = (K20 x0 x1).c 2 2 := by
  unfold d496; rw [d440_eq x0 x1, d441_eq x0 x1, d442_eq x0 x1]; rfl
theorem d314_eq : d314 x0 x1 = (K13 x0 x1).p 2 := by
  unfold d314; rw [d239_eq x0 x1, d240_eq x0 x1, d241_eq x0 x1, d247_eq x0 x1]; rfl
theorem d395_eq : d395 x0 x1 = (K16 x0 x1).p 2 := by
  unfold d395; rw [d305_eq x0 x1, d306_eq x0 x1, d307_eq x0 x1, d314_eq x0 x1]; rfl
theorem d449_eq : d449 x0 x1 = (K18 x0 x1).p 2 := by
  unfold d449; rw [d386_eq x0 x1, d387_eq x0 x1, d388_eq x0 x1, d395_eq x0 x1]; rfl
theorem d503_eq : d503 x0 x1 = (K20 x0 x1).p 2 := by
  unfold d503; rw [d440_eq x0 x1, d441_eq x0 x1, d442_eq x0 x1, d449_eq x0 x1]; rfl
theorem d633_eq : d633 x0 x1 = (K37 x0 x1).p 2 := by
  unfold d633; rw [d494_eq x0 x1, d495_eq x0 x1, d496_eq x0 x1, d503_eq x0 x1]; rfl
theorem d646_eq : d646 x0 x1 = (K39 x0 x1).p 2 := by
  unfold d646; rw [d494_eq x0 x1, d495_eq x0 x1, d496_eq x0 x1, d633_eq x0 x1]; rfl
theorem d302_eq : d302 x0 = (K13 x0 x1).c 1 0 := by
  unfold d302; rw [d234_eq x0 x1, d235_eq x0 x1, d236_eq x0 x1]; rfl
theorem d303_eq : d303 x0 = (K13 x0 x1).c 1 1 := by
  unfold d303; rw [d234_eq x0 x1, d235_eq x0 x1, d236_eq x0 x1]; rfl
theorem d304_eq : d304 x0 = (K13 x0 x1).c 1 2 := by
  unfold d304; rw [d234_eq x0 x1, d235_eq x0 x1, d236_eq x0 x1]; rfl
theorem d383_eq : d383 x0 = (K16 x0 x1).c 1 0 := by
  unfold d383; rw [d302_eq x0 x1, d303_eq x0 x1, d304_eq x0 x1]; rfl
theorem d384_eq : d384 x0 = (K16 x0 x1).c 1 1 := by
  unfold d384; rw [d302_eq x0 x1, d303_eq x0 x1, d304_eq x0 x1]; rfl
theorem d385_eq : d385 x0 = (K16 x0 x1).c 1 2 := by
  unfold d385; rw [d302_eq x0 x1, d303_eq x0 x1, d304_eq x0 x1]; rfl
theorem d437_eq : d437 x0 = (K18 x0 x1).c 1 0 := by
  unfold d437; rw [d383_eq x0 x1, d384_eq x0 x1, d385_eq x0 x1]; rfl
theorem d438_eq : d438 x0 = (K18 x0 x1).c 1 1 := by
  unfold d438; rw [d383_eq x0 x1, d384_eq x0 x1, d385_eq x0 x1]; rfl
theorem d439_eq : d439 x0 = (K18 x0 x1).c 1 2 := by
  unfold d439; rw [d383_eq x0 x1, d384_eq x0 x1, d385_eq x0 x1]; rfl
theorem d491_eq : d491 x0 = (K20 x0 x1).c 1 0 := by
  unfold d491; rw [d437_eq x0 x1, d438_eq x0 x1, d439_eq x0 x1]; rfl
theorem d492_eq : d492 x0 = (K20 x0 x1).c 1 1 := by
  unfold d492; rw [d437_eq x0 x1, d438_eq x0 x1, d439_eq x0 x1]; rfl
theorem d493_eq : d493 x0 = (K20 x0 x1).c 1 2 := by
  unfold d493; rw [d437_eq x0 x1, d438_eq x0 x1, d439_eq x0 x1]; rfl
theorem d313_eq : d313 x0 x1 = (K13 x0 x1).p 1 := by
  unfold d313 d312; rw [d246_eq x0 x1, d234_eq x0 x1, d235_eq x0 x1, d236_eq x0 x1]; rfl
theorem d394_eq : d394 x0 x1 = (K16 x0 x1).p 1 := by
  unfold d394 d393; rw [d313_eq x0 x1, d302_eq x0 x1, d303_eq x0 x1, d304_eq x0 x1]; rfl
theorem d448_eq : d448 x0 x1 = (K18 x0 x1).p 1 := by
  unfold d448 d447; rw [d394_eq x0 x1, d383_eq x0 x1, d384_eq x0 x1, d385_eq x0 x1]; rfl
theorem d502_eq : d502 x0 x1 = (K20 x0 x1).p 1 := by
  unfold d502 d501; rw [d448_eq x0 x1, d437_eq x0 x1, d438_eq x0 x1, d439_eq x0 x1]; rfl
theorem d632_eq : d632 x0 x1 = (K37 x0 x1).p 1 := by
  unfold d632; rw [d491_eq x0 x1, d492_eq x0 x1, d493_eq x0 x1, d502_eq x0 x1]; rfl
theorem d645_eq : d645 x0 x1 = (K39 x0 x1).p 1 := by
  unfold d645 d638; rw [d491_eq x0 x1, d492_eq x0 x1, d493_eq x0 x1, d632_eq x0 x1]; rfl
theorem d297_eq : d297 x0 = (K13 x0 x1).c 0 0 := by
  unfold d297; rw [d231_eq x0 x1, d232_eq x0 x1, d233_eq x0 x1]; rfl
theorem d298_eq : d298 x0 = (K13 x0 x1).c 0 1 := by
  unfold d298; rw [d231_eq x0 x1, d232_eq x0 x1, d233_eq x0 x1]; rfl
theorem d301_eq : d301 x0 = (K13 x0 x1).c 0 2 := by
  unfold d301 d299 d300; rw [d231_eq x0 x1, d232_eq x0 x1, d233_eq x0 x1]; rfl
theorem d378_eq : d378 x0 = (K16 x0 x1).c 0 0 := by
  unfold d378; rw [d297_eq x0 x1, d298_eq x0 x1, d301_eq x0 x1]; rfl
theorem d379_eq : d379 x0 = (K16 x0 x1).c 0 1 := by
  unfold d379; rw [d297_eq x0 x1, d298_eq x0 x1, d301_eq x0 x1]; rfl
theorem d382_eq : d382 x0 = (K16 x0 x1).c 0 2 := by
  unfold d382 d380 d381; rw [d297_eq x0 x1, d298_eq x0 x1, d301_eq x0 x1]; rfl
theorem d432_eq : d432 x0 = (K18 x0 x1).c 0 0 := by
  unfold d432; rw [d378_eq x0 x1, d379_eq x0 x1, d382_eq x0 x1]; rfl
theorem d433_eq : d433 x0 = (K18 x0 x1).c 0 1 := by
  unfold d433; rw [d378_eq x0 x1, d379_eq x0 x1, d382_eq x0 x1]; rfl
theorem d436_eq : d436 x0 = (K18 x0 x1).c 0 2 := by
  unfold d436 d434 d435; rw [d378_eq x0 x1, d379_eq x0 x1, d382_eq x0 x1]; rfl
theorem d486_eq : d486 x0 = (K20 x0 x1).c 0 0 := by
  unfold d486; rw [d432_eq x0 x1, d433_eq x0 x1, d436_eq x0 x1]; rfl
theorem d487_eq : d487 x0 = (K20 x0 x1).c 0 1 := by
  unfold d487; rw [d432_eq x0 x1, d433_eq x0 x1, d436_eq x0 x1]; rfl
theorem d490_eq : d490 x0 = (K20 x0 x1).c 0 2 := by
  unfold d490 d488 d489; rw [d432_eq x0 x1, d433_eq x0 x1, d436_eq x0 x1]; rfl
theorem d311_eq : d311 x0 x1 = (K13 x0 x1).p 0 := by
  unfold d311; rw [d231_eq x0 x1, d232_eq x0 x1, d233_eq x0 x1, d245_eq x0 x1]; rfl
theorem d392_eq : d392 x0 x1 = (K16 x0 x1).p 0 := by
  unfold d392; rw [d297_eq x0 x1, d298_eq x0 x1, d301_eq x0 x1, d311_eq x0 x1]; rfl
theorem d446_eq : d446 x0 x1 = (K18 x0 x1).p 0 := by
  unfold d446; rw [d378_eq x0 x1, d379_eq x0 x1, d382_eq x0 x1, d392_eq x0 x1]; rfl
theorem d500_eq : d500 x0 x1 = (K20 x0 x1).p 0 := by
  unfold d500; rw [d432_eq x0 x1, d433_eq x0 x1, d436_eq x0 x1, d446_eq x0 x1]; rfl
theorem d637_eq : d637 x0 x1 = (K38 x0 x1).p 0 := by
  unfold d637; rw [d486_eq x0 x1, d487_eq x0 x1, d490_eq x0 x1, d500_eq x0 x1]; rfl
theorem d644_eq : d644 x0 x1 = (K39 x0 x1).p 0 := by
  unfold d644; rw [d486_eq x0 x1, d487_eq x0 x1, d490_eq x0 x1, d637_eq x0 x1]; rfl
theorem d640_eq : d640 x0 x1 = (K38 x0 x1).p 2 := by
  unfold d640; rw [d494_eq x0 x1, d495_eq x0 x1, d496_eq x0 x1, d633_eq x0 x1]; rfl
theorem d639_eq : d639 x0 x1 = (K38 x0 x1).p 1 := by
  unfold d639 d638; rw [d493_eq x0 x1, d632_eq x0 x1, d491_eq x0 x1, d492_eq x0 x1]; rfl
theorem d631_eq : d631 x0 x1 = (K37 x0 x1).p 0 := by
  unfold d631; rw [d486_eq x0 x1, d487_eq x0 x1, d490_eq x0 x1, d500_eq x0 x1]; rfl
theorem d614_eq : d614 x0 x1 = (K34 x0 x1).p 2 := by
  unfold d614; rw [d494_eq x0 x1, d495_eq x0 x1, d496_eq x0 x1, d503_eq x0 x1]; rfl
theorem d627_eq : d627 x0 x1 = (K36 x0 x1).p 2 := by
  unfold d627; rw [d494_eq x0 x1, d495_eq x0 x1, d496_eq x0 x1, d614_eq x0 x1]; rfl
theorem d613_eq : d613 x0 x1 = (K34 x0 x1).p 1 := by
  unfold d613; rw [d491_eq x0 x1, d492_eq x0 x1, d493_eq x0 x1, d502_eq x0 x1]; rfl
theorem d626_eq : d626 x0 x1 = (K36 x0 x1).p 1 := by
  unfold d626 d619; rw [d491_eq x0 x1, d492_eq x0 x1, d493_eq x0 x1, d613_eq x0 x1]; rfl
theorem d618_eq : d618 x0 x1 = (K35 x0 x1).p 0 := by
  unfold d618; rw [d486_eq x0 x1, d487_eq x0 x1, d490_eq x0 x1, d500_eq x0 x1]; rfl
theorem d625_eq : d625 x0 x1 = (K36 x0 x1).p 0 := by
  unfold d625; rw [d486_eq x0 x1, d487_eq x0 x1, d490_eq x0 x1, d618_eq x0 x1]; rfl
theorem d621_eq : d621 x0 x1 = (K35 x0 x1).p 2 := by
  unfold d621; rw [d494_eq x0 x1, d495_eq x0 x1, d496_eq x0 x1, d614_eq x0 x1]; rfl
theorem d620_eq : d620 x0 x1 = (K35 x0 x1).p 1 := by
  unfold d620 d619; rw [d492_eq x0 x1, d493_eq x0 x1, d613_eq x0 x1, d491_eq x0 x1]; rfl
theorem d612_eq : d612 x0 x1 = (K34 x0 x1).p 0 := by
  unfold d612; rw [d486_eq x0 x1, d487_eq x0 x1, d490_eq x0 x1, d500_eq x0 x1]; rfl
theorem d595_eq : d595 x0 x1 = (K31 x0 x1).p 2 := by
  unfold d595; rw [d494_eq x0 x1, d495_eq x0 x1, d496_eq x0 x1, d503_eq x0 x1]; rfl
theorem d608_eq : d608 x0 x1 = (K33 x0 x1).p 2 := by
  unfold d608; rw [d494_eq x0 x1, d495_eq x0 x1, d496_eq x0 x1, d595_eq x0 x1]; rfl
theorem d594_eq : d594 x0 x1 = (K31 x0 x1).p 1 := by
  unfold d594; rw [d491_eq x0 x1, d492_eq x0 x1, d493_eq x0 x1, d502_eq x0 x1]; rfl
theorem d607_eq : d607 x0 x1 = (K33 x0 x1).p 1 := by
  unfold d607; rw [d491_eq x0 x1, d492_eq x0 x1, d493_eq x0 x1, d594_eq x0 x1]; rfl
theorem d593_eq : d593 x0 x1 = (K31 x0 x1).p 0 := by
  unfold d593; rw [d486_eq x0 x1, d487_eq x0 x1, d490_eq x0 x1, d500_eq x0 x1]; rfl
theorem d606_eq : d606 x0 x1 = (K33 x0 x1).p 0 := by
  unfold d606 d599; rw [d486_eq x0 x1, d487_eq x0 x1, d490_eq x0 x1, d593_eq x0 x1]; rfl
theorem d602_eq : d602 x0 x1 = (K32 x0 x1).p 2 := by
  unfold d602; rw [d494_eq x0 x1, d495_eq x0 x1, d496_eq x0 x1, d595_eq x0 x1]; rfl
theorem d601_eq : d601 x0 x1 = (K32 x0 x1).p 1 := by
  unfold d601; rw [d491_eq x0 x1, d492_eq x0 x1, d493_eq x0 x1, d594_eq x0 x1]; rfl
theorem d600_eq : d600 x0 x1 = (K32 x0 x1).p 0 := by
  unfold d600 d599; rw [d593_eq x0 x1, d486_eq x0 x1, d487_eq x0 x1, d490_eq x0 x1]; rfl
theorem d575_eq : d575 x0 x1 = (K28 x0 x1).p 2 := by
  unfold d575; rw [d494_eq x0 x1, d495_eq x0 x1, d496_eq x0 x1, d503_eq x0 x1]; rfl
theorem d582_eq : d582 x0 x1 = (K29 x0 x1).p 2 := by
  unfold d582; rw [d494_eq x0 x1, d495_eq x0 x1, d496_eq x0 x1, d575_eq x0 x1]; rfl
theorem d589_eq : d589 x0 x1 = (K30 x0 x1).p 2 := by
  unfold d589 d588; rw [d582_eq x0 x1, d494_eq x0 x1, d495_eq x0 x1, d496_eq x0 x1]; rfl
theorem d574_eq : d574 x0 x1 = (K28 x0 x1).p 1 := by
  unfold d574; rw [d491_eq x0 x1, d492_eq x0 x1, d493_eq x0 x1, d502_eq x0 x1]; rfl
theorem d587_eq : d587 x0 x1 = (K30 x0 x1).p 1 := by
  unfold d587; rw [d491_eq x0 x1, d492_eq x0 x1, d493_eq x0 x1, d574_eq x0 x1]; rfl
theorem d573_eq : d573 x0 x1 = (K28 x0 x1).p 0 := by
  unfold d573; rw [d486_eq x0 x1, d487_eq x0 x1, d490_eq x0 x1, d500_eq x0 x1]; rfl
theorem d586_eq : d586 x0 x1 = (K30 x0 x1).p 0 := by
  unfold d586 d579; rw [d486_eq x0 x1, d487_eq x0 x1, d490_eq x0 x1, d573_eq x0 x1]; rfl
theorem d581_eq : d581 x0 x1 = (K29 x0 x1).p 1 := by
  unfold d581; rw [d491_eq x0 x1, d492_eq x0 x1, d493_eq x0 x1, d574_eq x0 x1]; rfl
theorem d580_eq : d580 x0 x1 = (K29 x0 x1).p 0 := by
  unfold d580 d579; rw [d490_eq x0 x1, d573_eq x0 x1, d486_eq x0 x1, d487_eq x0 x1]; rfl
theorem d555_eq : d555 x0 x1 = (K25 x0 x1).p 2 := by
  unfold d555; rw [d494_eq x0 x1, d495_eq x0 x1, d496_eq x0 x1, d503_eq x0 x1]; rfl
theorem d562_eq : d562 x0 x1 = (K26 x0 x1).p 2 := by
  unfold d562; rw [d494_eq x0 x1, d495_eq x0 x1, d496_eq x0 x1, d555_eq x0 x1]; rfl
theorem d569_eq : d569 x0 x1 = (K27 x0 x1).p 2 := by
  unfold d569 d568; rw [d496_eq x0 x1, d562_eq x0 x1, d494_eq x0 x1, d495_eq x0 x1]; rfl
theorem d554_eq : d554 x0 x1 = (K25 x0 x1).p 1 := by
  unfold d554; rw [d491_eq x0 x1, d492_eq x0 x1, d493_eq x0 x1, d502_eq x0 x1]; rfl
theorem d567_eq : d567 x0 x1 = (K27 x0 x1).p 1 := by
  unfold d567; rw [d491_eq x0 x1, d492_eq x0 x1, d493_eq x0 x1, d554_eq x0 x1]; rfl
theorem d553_eq : d553 x0 x1 = (K25 x0 x1).p 0 := by
  unfold d553; rw [d486_eq x0 x1, d487_eq x0 x1, d490_eq x0 x1, d500_eq x0 x1]; rfl
theorem d566_eq : d566 x0 x1 = (K27 x0 x1).p 0 := by
  unfold d566 d559; rw [d486_eq x0 x1, d487_eq x0 x1, d490_eq x0 x1, d553_eq x0 x1]; rfl
theorem d561_eq : d561 x0 x1 = (K26 x0 x1).p 1 := by
  unfold d561; rw [d491_eq x0 x1, d492_eq x0 x1, d493_eq x0 x1, d554_eq x0 x1]; rfl
theorem d560_eq : d560 x0 x1 = (K26 x0 x1).p 0 := by
  unfold d560 d559; rw [d487_eq x0 x1, d490_eq x0 x1, d553_eq x0 x1, d486_eq x0 x1]; rfl
theorem d278_eq : d278 x0 = (K12 x0 x1).c 2 0 := by
  unfold d278; rw [d239_eq x0 x1, d240_eq x0 x1, d241_eq x0 x1]; rfl
theorem d279_eq : d279 x0 = (K12 x0 x1).c 2 1 := by
  unfold d279; rw [d239_eq x0 x1, d240_eq x0 x1, d241_eq x0 x1]; rfl
theorem d280_eq : d280 x0 = (K12 x0 x1).c 2 2 := by
  unfold d280; rw [d239_eq x0 x1, d240_eq x0 x1, d241_eq x0 x1]; rfl
theorem d360_eq : d360 x0 = (K15 x0 x1).c 2 1 := by
  unfold d360; rw [d278_eq x0 x1, d279_eq x0 x1, d280_eq x0 x1]; rfl
theorem d361_eq : d361 x0 = (K15 x0 x1).c 2 2 := by
  unfold d361; rw [d278_eq x0 x1, d279_eq x0 x1, d280_eq x0 x1]; rfl
theorem d287_eq : d287 x0 x1 = (K12 x0 x1).p 2 := by
  unfold d287; rw [d239_eq x0 x1, d240_eq x0 x1, d241_eq x0 x1, d247_eq x0 x1]; rfl
theorem d368_eq : d368 x0 x1 = (K15 x0 x1).p 2 := by
  unfold d368; rw [d278_eq x0 x1, d279_eq x0 x1, d280_eq x0 x1, d287_eq x0 x1]; rfl
theorem d359_eq : d359 x0 = (K15 x0 x1).c 2 0 := by
  unfold d359; rw [d278_eq x0 x1, d279_eq x0 x1, d280_eq x0 x1]; rfl
theorem d549_eq : d549 x0 x1 = (K24 x0 x1).p 2 := by
  unfold d549 d548; rw [d360_eq x0 x1, d361_eq x0 x1, d368_eq x0 x1, d359_eq x0 x1]; rfl
theorem d275_eq : d275 x0 = (K12 x0 x1).c 1 0 := by
  unfold d275; rw [d234_eq x0 x1, d235_eq x0 x1, d236_eq x0 x1]; rfl
theorem d276_eq : d276 x0 = (K12 x0 x1).c 1 1 := by
  unfold d276; rw [d234_eq x0 x1, d235_eq x0 x1, d236_eq x0 x1]; rfl
theorem d277_eq : d277 x0 = (K12 x0 x1).c 1 2 := by
  unfold d277; rw [d234_eq x0 x1, d235_eq x0 x1, d236_eq x0 x1]; rfl
theorem d356_eq : d356 x0 = (K15 x0 x1).c 1 0 := by
  unfold d356; rw [d275_eq x0 x1, d276_eq x0 x1, d277_eq x0 x1]; rfl
theorem d357_eq : d357 x0 = (K15 x0 x1).c 1 1 := by
  unfold d357; rw [d275_eq x0 x1, d276_eq x0 x1, d277_eq x0 x1]; rfl
theorem d358_eq : d358 x0 = (K15 x0 x1).c 1 2 := by
  unfold d358; rw [d275_eq x0 x1, d276_eq x0 x1, d277_eq x0 x1]; rfl
theorem d286_eq : d286 x0 x1 = (K12 x0 x1).p 1 := by
  unfold d286 d285; rw [d246_eq x0 x1, d234_eq x0 x1, d235_eq x0 x1, d236_eq x0 x1]; rfl
theorem d367_eq : d367 x0 x1 = (K15 x0 x1).p 1 := by
  unfold d367 d366; rw [d286_eq x0 x1, d275_eq x0 x1, d276_eq x0 x1, d277_eq x0 x1]; rfl
theorem d547_eq : d547 x0 x1 = (K24 x0 x1).p 1 := by
  unfold d547; rw [d356_eq x0 x1, d357_eq x0 x1, d358_eq x0 x1, d367_eq x0 x1]; rfl
theorem d270_eq : d270 x0 = (K12 x0 x1).c 0 0 := by
  unfold d270; rw [d231_eq x0 x1, d232_eq x0 x1, d233_eq x0 x1]; rfl
theorem d271_eq : d271 x0 = (K12 x0 x1).c 0 1 := by
  unfold d271; rw [d231_eq x0 x1, d232_eq x0 x1, d233_eq x0 x1]; rfl
theorem d274_eq : d274 x0 = (K12 x0 x1).c 0 2 := by
  unfold d274 d272 d273; rw [d231_eq x0 x1, d232_eq x0 x1, d233_eq x0 x1]; rfl
theorem d351_eq : d351 x0 = (K15 x0 x1).c 0 0 := by
  unfold d351; rw [d270_eq x0 x1, d271_eq x0 x1, d274_eq x0 x1]; rfl
theorem d352_eq : d352 x0 = (K15 x0 x1).c 0 1 := by
  unfold d352; rw [d270_eq x0 x1, d271_eq x0 x1, d274_eq x0 x1]; rfl
theorem d355_eq : d355 x0 = (K15 x0 x1).c 0 2 := by
  unfold d355 d353 d354; rw [d270_eq x0 x1, d271_eq x0 x1, d274_eq x0 x1]; rfl
theorem d284_eq : d284 x0 x1 = (K12 x0 x1).p 0 := by
  unfold d284; rw [d231_eq x0 x1, d232_eq x0 x1, d233_eq x0 x1, d245_eq x0 x1]; rfl
theorem d365_eq : d365 x0 x1 = (K15 x0 x1).p 0 := by
  unfold d365; rw [d270_eq x0 x1, d271_eq x0 x1, d274_eq x0 x1, d284_eq x0 x1]; rfl
theorem d546_eq : d546 x0 x1 = (K24 x0 x1).p 0 := by
  unfold d546; rw [d351_eq x0 x1, d352_eq x0 x1, d355_eq x0 x1, d365_eq x0 x1]; rfl
theorem d542_eq : d542 x0 x1 = (K23 x0 x1).p 2 := by
  unfold d542; rw [d359_eq x0 x1, d360_eq x0 x1, d361_eq x0 x1, d368_eq x0 x1]; rfl
theorem d541_eq : d541 x0 x1 = (K23 x0 x1).p 1 := by
  unfold d541; rw [d356_eq x0 x1, d357_eq x0 x1, d358_eq x0 x1, d367_eq x0 x1]; rfl
theorem d540_eq : d540 x0 x1 = (K23 x0 x1).p 0 := by
  unfold d540; rw [d351_eq x0 x1, d352_eq x0 x1, d355_eq x0 x1, d365_eq x0 x1]; rfl
theorem d536_eq : d536 x0 x1 = (K22 x0 x1).p 2 := by
  unfold d536; rw [d359_eq x0 x1, d360_eq x0 x1, d361_eq x0 x1, d368_eq x0 x1]; rfl
theorem d535_eq : d535 x0 x1 = (K22 x0 x1).p 1 := by
  unfold d535; rw [d356_eq x0 x1, d357_eq x0 x1, d358_eq x0 x1, d367_eq x0 x1]; rfl
theorem d534_eq : d534 x0 x1 = (K22 x0 x1).p 0 := by
  unfold d534; rw [d351_eq x0 x1, d352_eq x0 x1, d355_eq x0 x1, d365_eq x0 x1]; rfl
theorem d57_eq : d57 x0 = (K2 x0 x1).c 2 0 := by
  unfold d57 d55 d56; rw [d10_eq x0 x1, d8_eq x0 x1, d9_eq x0 x1]; rfl
theorem d58_eq : d58 x0 = (K2 x0 x1).c 2 1 := by
  unfold d58; rw [d8_eq x0 x1, d9_eq x0 x1, d10_eq x0 x1]; rfl
theorem d59_eq : d59 x0 = (K2 x0 x1).c 2 2 := by
  unfold d59; rw [d8_eq x0 x1, d9_eq x0 x1, d10_eq x0 x1]; rfl
theorem d137_eq : d137 x0 = (K5 x0 x1).c 2 2 := by
  unfold d137; rw [d57_eq x0 x1, d58_eq x0 x1, d59_eq x0 x1]; rfl
theorem d135_eq : d135 x0 = (K5 x0 x1).c 2 0 := by
  unfold d135 d133 d134; rw [d59_eq x0 x1, d57_eq x0 x1, d58_eq x0 x1]; rfl
theorem d136_eq : d136 x0 = (K5 x0 x1).c 2 1 := by
  unfold d136; rw [d57_eq x0 x1, d58_eq x0 x1, d59_eq x0 x1]; rfl
theorem d213_eq : d213 x0 = (K8 x0 x1).c 2 0 := by
  unfold d213 d211 d212; rw [d137_eq x0 x1, d135_eq x0 x1, d136_eq x0 x1]; rfl
theorem d214_eq : d214 x0 = (K8 x0 x1).c 2 1 := by
  unfold d214; rw [d135_eq x0 x1, d136_eq x0 x1, d137_eq x0 x1]; rfl
theorem d215_eq : d215 x0 = (K8 x0 x1).c 2 2 := by
  unfold d215; rw [d135_eq x0 x1, d136_eq x0 x1, d137_eq x0 x1]; rfl
theorem d65_eq : d65 x0 x1 = (K2 x0 x1).p 2 := by
  unfold d65; rw [d8_eq x0 x1, d9_eq x0 x1, d10_eq x0 x1, d13_eq x0 x1]; rfl
theorem d143_eq : d143 x0 x1 = (K5 x0 x1).p 2 := by
  unfold d143; rw [d57_eq x0 x1, d58_eq x0 x1, d59_eq x0 x1, d65_eq x0 x1]; rfl
theorem d221_eq : d221 x0 x1 = (K8 x0 x1).p 2 := by
  unfold d221; rw [d135_eq x0 x1, d136_eq x0 x1, d137_eq x0 x1, d143_eq x0 x1]; rfl
theorem d260_eq : d260 x0 x1 = (K11 x0 x1).p 2 := by
  unfold d260; rw [d213_eq x0 x1, d214_eq x0 x1, d215_eq x0 x1, d221_eq x0 x1]; rfl
theorem d52_eq : d52 x0 = (K2 x0 x1).c 1 0 := by
  unfold d52; rw [d5_eq x0 x1, d6_eq x0 x1, d7_eq x0 x1]; rfl
theorem d53_eq : d53 x0 = (K2 x0 x1).c 1 1 := by
  unfold d53; rw [d5_eq x0 x1, d6_eq x0 x1, d7_eq x0 x1]; rfl
theorem d54_eq : d54 x0 = (K2 x0 x1).c 1 2 := by
  unfold d54; rw [d5_eq x0 x1, d6_eq x0 x1, d7_eq x0 x1]; rfl
theorem d130_eq : d130 x0 = (K5 x0 x1).c 1 0 := by
  unfold d130; rw [d52_eq x0 x1, d53_eq x0 x1, d54_eq x0 x1]; rfl
theorem d131_eq : d131 x0 = (K5 x0 x1).c 1 1 := by
  unfold d131; rw [d52_eq x0 x1, d53_eq x0 x1, d54_eq x0 x1]; rfl
theorem d132_eq : d132 x0 = (K5 x0 x1).c 1 2 := by
  unfold d132; rw [d52_eq x0 x1, d53_eq x0 x1, d54_eq x0 x1]; rfl
theorem d64_eq : d64 x0 x1 = (K2 x0 x1).p 1 := by
  unfold d64; rw [d5_eq x0 x1, d6_eq x0 x1, d7_eq x0 x1, d12_eq x0 x1]; rfl
theorem d142_eq : d142 x0 x1 = (K5 x0 x1).p 1 := by
  unfold d142; rw [d52_eq x0 x1, d53_eq x0 x1, d54_eq x0 x1, d64_eq x0 x1]; rfl
theorem d220_eq : d220 x0 x1 = (K8 x0 x1).p 1 := by
  unfold d220; rw [d130_eq x0 x1, d131_eq x0 x1, d132_eq x0 x1, d142_eq x0 x1]; rfl
theorem d208_eq : d208 x0 = (K8 x0 x1).c 1 0 := by
  unfold d208; rw [d130_eq x0 x1, d131_eq x0 x1, d132_eq x0 x1]; rfl
theorem d209_eq : d209 x0 = (K8 x0 x1).c 1 1 := by
  unfold d209; rw [d130_eq x0 x1, d131_eq x0 x1, d132_eq x0 x1]; rfl
theorem d210_eq : d210 x0 = (K8 x0 x1).c 1 2 := by
  unfold d210; rw [d130_eq x0 x1, d131_eq x0 x1, d132_eq x0 x1]; rfl
theorem d259_eq : d259 x0 x1 = (K11 x0 x1).p 1 := by
  unfold d259 d258; rw [d220_eq x0 x1, d208_eq x0 x1, d209_eq x0 x1, d210_eq x0 x1]; rfl
theorem d49_eq : d49 x0 = (K2 x0 x1).c 0 0 := by
  unfold d49; rw [d2_eq x0 x1, d3_eq x0 x1, d4_eq x0 x1]; rfl
theorem d50_eq : d50 x0 = (K2 x0 x1).c 0 1 := by
  unfold d50; rw [d2_eq x0 x1, d3_eq x0 x1, d4_eq x0 x1]; rfl
theorem d51_eq : d51 x0 = (K2 x0 x1).c 0 2 := by
  unfold d51; rw [d2_eq x0 x1, d3_eq x0 x1, d4_eq x0 x1]; rfl
theorem d127_eq : d127 x0 = (K5 x0 x1).c 0 0 := by
  unfold d127; rw [d49_eq x0 x1, d50_eq x0 x1, d51_eq x0 x1]; rfl
theorem d128_eq : d128 x0 = (K5 x0 x1).c 0 1 := by
  unfold d128; rw [d49_eq x0 x1, d50_eq x0 x1, d51_eq x0 x1]; rfl
theorem d129_eq : d129 x0 = (K5 x0 x1).c 0 2 := by
  unfold d129; rw [d49_eq x0 x1, d50_eq x0 x1, d51_eq x0 x1]; rfl
theorem d205_eq : d205 x0 = (K8 x0 x1).c 0 0 := by
  unfold d205; rw [d127_eq x0 x1, d128_eq x0 x1, d129_eq x0 x1]; rfl
theorem d206_eq : d206 x0 = (K8 x0 x1).c 0 1 := by
  unfold d206; rw [d127_eq x0 x1, d128_eq x0 x1, d129_eq x0 x1]; rfl
theorem d207_eq : d207 x0 = (K8 x0 x1).c 0 2 := by
  unfold d207; rw [d127_eq x0 x1, d128_eq x0 x1, d129_eq x0 x1]; rfl
theorem d63_eq : d63 x0 x1 = (K2 x0 x1).p 0 := by
  unfold d63; rw [d2_eq x0 x1, d3_eq x0 x1, d4_eq x0 x1, d11_eq x0 x1]; rfl
theorem d141_eq : d141 x0 x1 = (K5 x0 x1).p 0 := by
  unfold d141; rw [d49_eq x0 x1, d50_eq x0 x1, d51_eq x0 x1, d63_eq x0 x1]; rfl
theorem d219_eq : d219 x0 x1 = (K8 x0 x1).p 0 := by
  unfold d219; rw [d127_eq x0 x1, d128_eq x0 x1, d129_eq x0 x1, d141_eq x0 x1]; rfl
theorem d257_eq : d257 x0 x1 = (K11 x0 x1).p 0 := by
  unfold d257; rw [d205_eq x0 x1, d206_eq x0 x1, d207_eq x0 x1, d219_eq x0 x1]; rfl
theorem d31_eq : d31 x0 = (K1 x0 x1).c 2 0 := by
  unfold d31 d29 d30; rw [d10_eq x0 x1, d8_eq x0 x1, d9_eq x0 x1]; rfl
theorem d32_eq : d32 x0 = (K1 x0 x1).c 2 1 := by
  unfold d32; rw [d8_eq x0 x1, d9_eq x0 x1, d10_eq x0 x1]; rfl
theorem d33_eq : d33 x0 = (K1 x0 x1).c 2 2 := by
  unfold d33; rw [d8_eq x0 x1, d9_eq x0 x1, d10_eq x0 x1]; rfl
theorem d111_eq : d111 x0 = (K4 x0 x1).c 2 2 := by
  unfold d111; rw [d31_eq x0 x1, d32_eq x0 x1, d33_eq x0 x1]; rfl
theorem d109_eq : d109 x0 = (K4 x0 x1).c 2 0 := by
  unfold d109 d107 d108; rw [d33_eq x0 x1, d31_eq x0 x1, d32_eq x0 x1]; rfl
theorem d110_eq : d110 x0 = (K4 x0 x1).c 2 1 := by
  unfold d110; rw [d31_eq x0 x1, d32_eq x0 x1, d33_eq x0 x1]; rfl
theorem d187_eq : d187 x0 = (K7 x0 x1).c 2 0 := by
  unfold d187 d185 d186; rw [d111_eq x0 x1, d109_eq x0 x1, d110_eq x0 x1]; rfl
theorem d188_eq : d188 x0 = (K7 x0 x1).c 2 1 := by
  unfold d188; rw [d109_eq x0 x1, d110_eq x0 x1, d111_eq x0 x1]; rfl
theorem d189_eq : d189 x0 = (K7 x0 x1).c 2 2 := by
  unfold d189; rw [d109_eq x0 x1, d110_eq x0 x1, d111_eq x0 x1]; rfl
theorem d39_eq : d39 x0 x1 = (K1 x0 x1).p 2 := by
  unfold d39; rw [d8_eq x0 x1, d9_eq x0 x1, d10_eq x0 x1, d13_eq x0 x1]; rfl
theorem d117_eq : d117 x0 x1 = (K4 x0 x1).p 2 := by
  unfold d117; rw [d31_eq x0 x1, d32_eq x0 x1, d33_eq x0 x1, d39_eq x0 x1]; rfl
theorem d195_eq : d195 x0 x1 = (K7 x0 x1).p 2 := by
  unfold d195; rw [d109_eq x0 x1, d110_eq x0 x1, d111_eq x0 x1, d117_eq x0 x1]; rfl
theorem d253_eq : d253 x0 x1 = (K10 x0 x1).p 2 := by
  unfold d253; rw [d187_eq x0 x1, d188_eq x0 x1, d189_eq x0 x1, d195_eq x0 x1]; rfl
theorem d26_eq : d26 x0 = (K1 x0 x1).c 1 0 := by
  unfold d26; rw [d5_eq x0 x1, d6_eq x0 x1, d7_eq x0 x1]; rfl
theorem d27_eq : d27 x0 = (K1 x0 x1).c 1 1 := by
  unfold d27; rw [d5_eq x0 x1, d6_eq x0 x1, d7_eq x0 x1]; rfl
theorem d28_eq : d28 x0 = (K1 x0 x1).c 1 2 := by
  unfold d28; rw [d5_eq x0 x1, d6_eq x0 x1, d7_eq x0 x1]; rfl
theorem d104_eq : d104 x0 = (K4 x0 x1).c 1 0 := by
  unfold d104; rw [d26_eq x0 x1, d27_eq x0 x1, d28_eq x0 x1]; rfl
theorem d105_eq : d105 x0 = (K4 x0 x1).c 1 1 := by
  unfold d105; rw [d26_eq x0 x1, d27_eq x0 x1, d28_eq x0 x1]; rfl
theorem d106_eq : d106 x0 = (K4 x0 x1).c 1 2 := by
  unfold d106; rw [d26_eq x0 x1, d27_eq x0 x1, d28_eq x0 x1]; rfl
theorem d182_eq : d182 x0 = (K7 x0 x1).c 1 0 := by
  unfold d182; rw [d104_eq x0 x1, d105_eq x0 x1, d106_eq x0 x1]; rfl
theorem d183_eq : d183 x0 = (K7 x0 x1).c 1 1 := by
  unfold d183; rw [d104_eq x0 x1, d105_eq x0 x1, d106_eq x0 x1]; rfl
theorem d184_eq : d184 x0 = (K7 x0 x1).c 1 2 := by
  unfold d184; rw [d104_eq x0 x1, d105_eq x0 x1, d106_eq x0 x1]; rfl
theorem d38_eq : d38 x0 x1 = (K1 x0 x1).p 1 := by
  unfold d38; rw [d5_eq x0 x1, d6_eq x0 x1, d7_eq x0 x1, d12_eq x0 x1]; rfl
theorem d116_eq : d116 x0 x1 = (K4 x0 x1).p 1 := by
  unfold d116; rw [d26_eq x0 x1, d27_eq x0 x1, d28_eq x0 x1, d38_eq x0 x1]; rfl
theorem d194_eq : d194 x0 x1 = (K7 x0 x1).p 1 := by
  unfold d194; rw [d104_eq x0 x1, d105_eq x0 x1, d106_eq x0 x1, d116_eq x0 x1]; rfl
theorem d252_eq : d252 x0 x1 = (K10 x0 x1).p 1 := by
  unfold d252; rw [d182_eq x0 x1, d183_eq x0 x1, d184_eq x0 x1, d194_eq x0 x1]; rfl
theorem d23_eq : d23 x0 = (K1 x0 x1).c 0 0 := by
  unfold d23; rw [d2_eq x0 x1, d3_eq x0 x1, d4_eq x0 x1]; rfl
theorem d24_eq : d24 x0 = (K1 x0 x1).c 0 1 := by
  unfold d24; rw [d2_eq x0 x1, d3_eq x0 x1, d4_eq x0 x1]; rfl
theorem d25_eq : d25 x0 = (K1 x0 x1).c 0 2 := by
  unfold d25; rw [d2_eq x0 x1, d3_eq x0 x1, d4_eq x0 x1]; rfl
theorem d101_eq : d101 x0 = (K4 x0 x1).c 0 0 := by
  unfold d101; rw [d23_eq x0 x1, d24_eq x0 x1, d25_eq x0 x1]; rfl
theorem d102_eq : d102 x0 = (K4 x0 x1).c 0 1 := by
  unfold d102; rw [d23_eq x0 x1, d24_eq x0 x1, d25_eq x0 x1]; rfl
theorem d103_eq : d103 x0 = (K4 x0 x1).c 0 2 := by
  unfold d103; rw [d23_eq x0 x1, d24_eq x0 x1, d25_eq x0 x1]; rfl
theorem d179_eq : d179 x0 = (K7 x0 x1).c 0 0 := by
  unfold d179; rw [d101_eq x0 x1, d102_eq x0 x1, d103_eq x0 x1]; rfl
theorem d180_eq : d180 x0 = (K7 x0 x1).c 0 1 := by
  unfold d180; rw [d101_eq x0 x1, d102_eq x0 x1, d103_eq x0 x1]; rfl
theorem d181_eq : d181 x0 = (K7 x0 x1).c 0 2 := by
  unfold d181; rw [d101_eq x0 x1, d102_eq x0 x1, d103_eq x0 x1]; rfl
theorem d37_eq : d37 x0 x1 = (K1 x0 x1).p 0 := by
  unfold d37; rw [d2_eq x0 x1, d3_eq x0 x1, d4_eq x0 x1, d11_eq x0 x1]; rfl
theorem d115_eq : d115 x0 x1 = (K4 x0 x1).p 0 := by
  unfold d115; rw [d23_eq x0 x1, d24_eq x0 x1, d25_eq x0 x1, d37_eq x0 x1]; rfl
theorem d193_eq : d193 x0 x1 = (K7 x0 x1).p 0 := by
  unfold d193; rw [d101_eq x0 x1, d102_eq x0 x1, d103_eq x0 x1, d115_eq x0 x1]; rfl
theorem d251_eq : d251 x0 x1 = (K10 x0 x1).p 0 := by
  unfold d251; rw [d179_eq x0 x1, d180_eq x0 x1, d181_eq x0 x1, d193_eq x0 x1]; rfl

end

variable (x0 : Vec Ideal S198x4096 .f32) (x1 : Vec Ideal S3x55 .f32)

theorem lane_K0 (ℓ : Fin 4096) : lane (K0 x0 x1) ℓ = pose (Rf x0 ℓ) (tf x1) 0 := lane_root x0 x1 ℓ (by decide) (by decide)
theorem lane_K1 (ℓ : Fin 4096) : lane (K1 x0 x1) ℓ = pose (Rf x0 ℓ) (tf x1) 1 :=
  step_body x0 x1 ℓ (K0 x0 x1) 1 0 9 rfl (by decide) (by decide) rfl (by decide) (by decide) (lane_K0 x0 x1 ℓ)
theorem lane_K2 (ℓ : Fin 4096) : lane (K2 x0 x1) ℓ = pose (Rf x0 ℓ) (tf x1) 2 :=
  step_body x0 x1 ℓ (K0 x0 x1) 2 0 18 rfl (by decide) (by decide) rfl (by decide) (by decide) (lane_K0 x0 x1 ℓ)
theorem lane_K3 (ℓ : Fin 4096) : lane (K3 x0 x1) ℓ = pose (Rf x0 ℓ) (tf x1) 3 :=
  step_body x0 x1 ℓ (K0 x0 x1) 3 0 27 rfl (by decide) (by decide) rfl (by decide) (by decide) (lane_K0 x0 x1 ℓ)
theorem lane_K4 (ℓ : Fin 4096) : lane (K4 x0 x1) ℓ = pose (Rf x0 ℓ) (tf x1) 4 :=
  step_body x0 x1 ℓ (K1 x0 x1) 4 1 36 rfl (by decide) (by decide) rfl (by decide) (by decide) (lane_K1 x0 x1 ℓ)
theorem lane_K5 (ℓ : Fin 4096) : lane (K5 x0 x1) ℓ = pose (Rf x0 ℓ) (tf x1) 5 :=
  step_body x0 x1 ℓ (K2 x0 x1) 5 2 45 rfl (by decide) (by decide) rfl (by decide) (by decide) (lane_K2 x0 x1 ℓ)
theorem lane_K6 (ℓ : Fin 4096) : lane (K6 x0 x1) ℓ = pose (Rf x0 ℓ) (tf x1) 6 :=
  step_body x0 x1 ℓ (K3 x0 x1) 6 3 54 rfl (by decide) (by decide) rfl (by decide) (by decide) (lane_K3 x0 x1 ℓ)
theorem lane_K7 (ℓ : Fin 4096) : lane (K7 x0 x1) ℓ = pose (Rf x0 ℓ) (tf x1) 7 :=
  step_body x0 x1 ℓ (K4 x0 x1) 7 4 63 rfl (by decide) (by decide) rfl (by decide) (by decide) (lane_K4 x0 x1 ℓ)
theorem lane_K8 (ℓ : Fin 4096) : lane (K8 x0 x1) ℓ = pose (Rf x0 ℓ) (tf x1) 8 :=
  step_body x0 x1 ℓ (K5 x0 x1) 8 5 72 rfl (by decide) (by decide) rfl (by decide) (by decide) (lane_K5 x0 x1 ℓ)
theorem lane_K9 (ℓ : Fin 4096) : lane (K9 x0 x1) ℓ = pose (Rf x0 ℓ) (tf x1) 9 :=
  step_body x0 x1 ℓ (K6 x0 x1) 9 6 81 rfl (by decide) (by decide) rfl (by decide) (by decide) (lane_K6 x0 x1 ℓ)
theorem lane_K10 (ℓ : Fin 4096) : lane (K10 x0 x1) ℓ = pose (Rf x0 ℓ) (tf x1) 10 :=
  step_body x0 x1 ℓ (K7 x0 x1) 10 7 90 rfl (by decide) (by decide) rfl (by decide) (by decide) (lane_K7 x0 x1 ℓ)
theorem lane_K11 (ℓ : Fin 4096) : lane (K11 x0 x1) ℓ = pose (Rf x0 ℓ) (tf x1) 11 :=
  step_body x0 x1 ℓ (K8 x0 x1) 11 8 99 rfl (by decide) (by decide) rfl (by decide) (by decide) (lane_K8 x0 x1 ℓ)
theorem lane_K12 (ℓ : Fin 4096) : lane (K12 x0 x1) ℓ = pose (Rf x0 ℓ) (tf x1) 12 :=
  step_body x0 x1 ℓ (K9 x0 x1) 12 9 108 rfl (by decide) (by decide) rfl (by decide) (by decide) (lane_K9 x0 x1 ℓ)
theorem lane_K13 (ℓ : Fin 4096) : lane (K13 x0 x1) ℓ = pose (Rf x0 ℓ) (tf x1) 13 :=
  step_body x0 x1 ℓ (K9 x0 x1) 13 9 117 rfl (by decide) (by decide) rfl (by decide) (by decide) (lane_K9 x0 x1 ℓ)
theorem lane_K14 (ℓ : Fin 4096) : lane (K14 x0 x1) ℓ = pose (Rf x0 ℓ) (tf x1) 14 :=
  step_body x0 x1 ℓ (K9 x0 x1) 14 9 126 rfl (by decide) (by decide) rfl (by decide) (by decide) (lane_K9 x0 x1 ℓ)
theorem lane_K15 (ℓ : Fin 4096) : lane (K15 x0 x1) ℓ = pose (Rf x0 ℓ) (tf x1) 15 :=
  step_body x0 x1 ℓ (K12 x0 x1) 15 12 135 rfl (by decide) (by decide) rfl (by decide) (by decide) (lane_K12 x0 x1 ℓ)
theorem lane_K16 (ℓ : Fin 4096) : lane (K16 x0 x1) ℓ = pose (Rf x0 ℓ) (tf x1) 16 :=
  step_body x0 x1 ℓ (K13 x0 x1) 16 13 144 rfl (by decide) (by decide) rfl (by decide) (by decide) (lane_K13 x0 x1 ℓ)
theorem lane_K17 (ℓ : Fin 4096) : lane (K17 x0 x1) ℓ = pose (Rf x0 ℓ) (tf x1) 17 :=
  step_body x0 x1 ℓ (K14 x0 x1) 17 14 153 rfl (by decide) (by decide) rfl (by decide) (by decide) (lane_K14 x0 x1 ℓ)
theorem lane_K18 (ℓ : Fin 4096) : lane (K18 x0 x1) ℓ = pose (Rf x0 ℓ) (tf x1) 18 :=
  step_body x0 x1 ℓ (K16 x0 x1) 18 16 162 rfl (by decide) (by decide) rfl (by decide) (by decide) (lane_K16 x0 x1 ℓ)
theorem lane_K19 (ℓ : Fin 4096) : lane (K19 x0 x1) ℓ = pose (Rf x0 ℓ) (tf x1) 19 :=
  step_body x0 x1 ℓ (K17 x0 x1) 19 17 171 rfl (by decide) (by decide) rfl (by decide) (by decide) (lane_K17 x0 x1 ℓ)
theorem lane_K20 (ℓ : Fin 4096) : lane (K20 x0 x1) ℓ = pose (Rf x0 ℓ) (tf x1) 20 :=
  step_body x0 x1 ℓ (K18 x0 x1) 20 18 180 rfl (by decide) (by decide) rfl (by decide) (by decide) (lane_K18 x0 x1 ℓ)
theorem lane_K21 (ℓ : Fin 4096) : lane (K21 x0 x1) ℓ = pose (Rf x0 ℓ) (tf x1) 21 :=
  step_body x0 x1 ℓ (K19 x0 x1) 21 19 189 rfl (by decide) (by decide) rfl (by decide) (by decide) (lane_K19 x0 x1 ℓ)
theorem lane_K22 (ℓ : Fin 4096) : lane (K22 x0 x1) ℓ = pose (Rf x0 ℓ) (tf x1) 22 :=
  step_tip x0 x1 ℓ (K15 x0 x1) 22 15 (by decide) (by decide) rfl (lane_K15 x0 x1 ℓ)
theorem lane_K23 (ℓ : Fin 4096) : lane (K23 x0 x1) ℓ = pose (Rf x0 ℓ) (tf x1) 23 :=
  step_tip x0 x1 ℓ (K15 x0 x1) 23 15 (by decide) (by decide) rfl (lane_K15 x0 x1 ℓ)
theorem lane_K24 (ℓ : Fin 4096) : lane (K24 x0 x1) ℓ = pose (Rf x0 ℓ) (tf x1) 24 :=
  step_tip x0 x1 ℓ (K15 x0 x1) 24 15 (by decide) (by decide) rfl (lane_K15 x0 x1 ℓ)
theorem lane_K25 (ℓ : Fin 4096) : lane (K25 x0 x1) ℓ = pose (Rf x0 ℓ) (tf x1) 25 :=
  step_tip x0 x1 ℓ (K20 x0 x1) 25 20 (by decide) (by decide) rfl (lane_K20 x0 x1 ℓ)
theorem lane_K26 (ℓ : Fin 4096) : lane (K26 x0 x1) ℓ = pose (Rf x0 ℓ) (tf x1) 26 :=
  step_tip x0 x1 ℓ (K25 x0 x1) 26 25 (by decide) (by decide) rfl (lane_K25 x0 x1 ℓ)
theorem lane_K27 (ℓ : Fin 4096) : lane (K27 x0 x1) ℓ = pose (Rf x0 ℓ) (tf x1) 27 :=
  step_tip x0 x1 ℓ (K26 x0 x1) 27 26 (by decide) (by decide) rfl (lane_K26 x0 x1 ℓ)
theorem lane_K28 (ℓ : Fin 4096) : lane (K28 x0 x1) ℓ = pose (Rf x0 ℓ) (tf x1) 28 :=
  step_tip x0 x1 ℓ (K20 x0 x1) 28 20 (by decide) (by decide) rfl (lane_K20 x0 x1 ℓ)
theorem lane_K29 (ℓ : Fin 4096) : lane (K29 x0 x1) ℓ = pose (Rf x0 ℓ) (tf x1) 29 :=
  step_tip x0 x1 ℓ (K28 x0 x1) 29 28 (by decide) (by decide) rfl (lane_K28 x0 x1 ℓ)
theorem lane_K30 (ℓ : Fin 4096) : lane (K30 x0 x1) ℓ = pose (Rf x0 ℓ) (tf x1) 30 :=
  step_tip x0 x1 ℓ (K29 x0 x1) 30 29 (by decide) (by decide) rfl (lane_K29 x0 x1 ℓ)
theorem lane_K31 (ℓ : Fin 4096) : lane (K31 x0 x1) ℓ = pose (Rf x0 ℓ) (tf x1) 31 :=
  step_tip x0 x1 ℓ (K20 x0 x1) 31 20 (by decide) (by decide) rfl (lane_K20 x0 x1 ℓ)
theorem lane_K32 (ℓ : Fin 4096) : lane (K32 x0 x1) ℓ = pose (Rf x0 ℓ) (tf x1) 32 :=
  step_tip x0 x1 ℓ (K31 x0 x1) 32 31 (by decide) (by decide) rfl (lane_K31 x0 x1 ℓ)
theorem lane_K33 (ℓ : Fin 4096) : lane (K33 x0 x1) ℓ = pose (Rf x0 ℓ) (tf x1) 33 :=
  step_tip x0 x1 ℓ (K32 x0 x1) 33 32 (by decide) (by decide) rfl (lane_K32 x0 x1 ℓ)
theorem lane_K34 (ℓ : Fin 4096) : lane (K34 x0 x1) ℓ = pose (Rf x0 ℓ) (tf x1) 34 :=
  step_tip x0 x1 ℓ (K20 x0 x1) 34 20 (by decide) (by decide) rfl (lane_K20 x0 x1 ℓ)
theorem lane_K35 (ℓ : Fin 4096) : lane (K35 x0 x1) ℓ = pose (Rf x0 ℓ) (tf x1) 35 :=
  step_tip x0 x1 ℓ (K34 x0 x1) 35 34 (by decide) (by decide) rfl (lane_K34 x0 x1 ℓ)
theorem lane_K36 (ℓ : Fin 4096) : lane (K36 x0 x1) ℓ = pose (Rf x0 ℓ) (tf x1) 36 :=
  step_tip x0 x1 ℓ (K35 x0 x1) 36 35 (by decide) (by decide) rfl (lane_K35 x0 x1 ℓ)
theorem lane_K37 (ℓ : Fin 4096) : lane (K37 x0 x1) ℓ = pose (Rf x0 ℓ) (tf x1) 37 :=
  step_tip x0 x1 ℓ (K20 x0 x1) 37 20 (by decide) (by decide) rfl (lane_K20 x0 x1 ℓ)
theorem lane_K38 (ℓ : Fin 4096) : lane (K38 x0 x1) ℓ = pose (Rf x0 ℓ) (tf x1) 38 :=
  step_tip x0 x1 ℓ (K37 x0 x1) 38 37 (by decide) (by decide) rfl (lane_K37 x0 x1 ℓ)
theorem lane_K39 (ℓ : Fin 4096) : lane (K39 x0 x1) ℓ = pose (Rf x0 ℓ) (tf x1) 39 :=
  step_tip x0 x1 ℓ (K38 x0 x1) 39 38 (by decide) (by decide) rfl (lane_K38 x0 x1 ℓ)
theorem lane_K40 (ℓ : Fin 4096) : lane (K40 x0 x1) ℓ = pose (Rf x0 ℓ) (tf x1) 40 :=
  step_tip x0 x1 ℓ (K21 x0 x1) 40 21 (by decide) (by decide) rfl (lane_K21 x0 x1 ℓ)
theorem lane_K41 (ℓ : Fin 4096) : lane (K41 x0 x1) ℓ = pose (Rf x0 ℓ) (tf x1) 41 :=
  step_tip x0 x1 ℓ (K40 x0 x1) 41 40 (by decide) (by decide) rfl (lane_K40 x0 x1 ℓ)
theorem lane_K42 (ℓ : Fin 4096) : lane (K42 x0 x1) ℓ = pose (Rf x0 ℓ) (tf x1) 42 :=
  step_tip x0 x1 ℓ (K41 x0 x1) 42 41 (by decide) (by decide) rfl (lane_K41 x0 x1 ℓ)
theorem lane_K43 (ℓ : Fin 4096) : lane (K43 x0 x1) ℓ = pose (Rf x0 ℓ) (tf x1) 43 :=
  step_tip x0 x1 ℓ (K21 x0 x1) 43 21 (by decide) (by decide) rfl (lane_K21 x0 x1 ℓ)
theorem lane_K44 (ℓ : Fin 4096) : lane (K44 x0 x1) ℓ = pose (Rf x0 ℓ) (tf x1) 44 :=
  step_tip x0 x1 ℓ (K43 x0 x1) 44 43 (by decide) (by decide) rfl (lane_K43 x0 x1 ℓ)
theorem lane_K45 (ℓ : Fin 4096) : lane (K45 x0 x1) ℓ = pose (Rf x0 ℓ) (tf x1) 45 :=
  step_tip x0 x1 ℓ (K44 x0 x1) 45 44 (by decide) (by decide) rfl (lane_K44 x0 x1 ℓ)
theorem lane_K46 (ℓ : Fin 4096) : lane (K46 x0 x1) ℓ = pose (Rf x0 ℓ) (tf x1) 46 :=
  step_tip x0 x1 ℓ (K21 x0 x1) 46 21 (by decide) (by decide) rfl (lane_K21 x0 x1 ℓ)
theorem lane_K47 (ℓ : Fin 4096) : lane (K47 x0 x1) ℓ = pose (Rf x0 ℓ) (tf x1) 47 :=
  step_tip x0 x1 ℓ (K46 x0 x1) 47 46 (by decide) (by decide) rfl (lane_K46 x0 x1 ℓ)
theorem lane_K48 (ℓ : Fin 4096) : lane (K48 x0 x1) ℓ = pose (Rf x0 ℓ) (tf x1) 48 :=
  step_tip x0 x1 ℓ (K47 x0 x1) 48 47 (by decide) (by decide) rfl (lane_K47 x0 x1 ℓ)
theorem lane_K49 (ℓ : Fin 4096) : lane (K49 x0 x1) ℓ = pose (Rf x0 ℓ) (tf x1) 49 :=
  step_tip x0 x1 ℓ (K21 x0 x1) 49 21 (by decide) (by decide) rfl (lane_K21 x0 x1 ℓ)
theorem lane_K50 (ℓ : Fin 4096) : lane (K50 x0 x1) ℓ = pose (Rf x0 ℓ) (tf x1) 50 :=
  step_tip x0 x1 ℓ (K49 x0 x1) 50 49 (by decide) (by decide) rfl (lane_K49 x0 x1 ℓ)
theorem lane_K51 (ℓ : Fin 4096) : lane (K51 x0 x1) ℓ = pose (Rf x0 ℓ) (tf x1) 51 :=
  step_tip x0 x1 ℓ (K50 x0 x1) 51 50 (by decide) (by decide) rfl (lane_K50 x0 x1 ℓ)
theorem lane_K52 (ℓ : Fin 4096) : lane (K52 x0 x1) ℓ = pose (Rf x0 ℓ) (tf x1) 52 :=
  step_tip x0 x1 ℓ (K21 x0 x1) 52 21 (by decide) (by decide) rfl (lane_K21 x0 x1 ℓ)
theorem lane_K53 (ℓ : Fin 4096) : lane (K53 x0 x1) ℓ = pose (Rf x0 ℓ) (tf x1) 53 :=
  step_tip x0 x1 ℓ (K52 x0 x1) 53 52 (by decide) (by decide) rfl (lane_K52 x0 x1 ℓ)
theorem lane_K54 (ℓ : Fin 4096) : lane (K54 x0 x1) ℓ = pose (Rf x0 ℓ) (tf x1) 54 :=
  step_tip x0 x1 ℓ (K53 x0 x1) 54 53 (by decide) (by decide) rfl (lane_K53 x0 x1 ℓ)

abbrev stores : List (View.Piece (Elt Ideal) S165x4096 .f32) :=
  [⟨r0_509, d1 x0 x1⟩,
    ⟨r0_508, d907 x0 x1⟩,
    ⟨r0_507, d906 x0 x1⟩,
    ⟨r0_506, d905 x0 x1⟩,
    ⟨r0_505, d904 x0 x1⟩,
    ⟨r0_504, d903 x0 x1⟩,
    ⟨r0_503, d902 x0 x1⟩,
    ⟨r0_502, d901 x0 x1⟩,
    ⟨r0_501, d900 x0 x1⟩,
    ⟨r0_500, d899 x0 x1⟩,
    ⟨r0_499, d898 x0 x1⟩,
    ⟨r0_498, d897 x0 x1⟩,
    ⟨r0_497, d896 x0 x1⟩,
    ⟨r0_496, d895 x0 x1⟩,
    ⟨r0_495, d894 x0 x1⟩,
    ⟨r0_494, d893 x0 x1⟩,
    ⟨r0_493, d892 x0 x1⟩,
    ⟨r0_492, d891 x0 x1⟩,
    ⟨r0_491, d890 x0 x1⟩,
    ⟨r0_490, d889 x0 x1⟩,
    ⟨r0_489, d888 x0 x1⟩,
    ⟨r0_488, d887 x0 x1⟩,
    ⟨r0_487, d886 x0 x1⟩,
    ⟨r0_486, d885 x0 x1⟩,
    ⟨r0_485, d884 x0 x1⟩,
    ⟨r0_484, d883 x0 x1⟩,
    ⟨r0_483, d882 x0 x1⟩,
    ⟨r0_482, d881 x0 x1⟩,
    ⟨r0_481, d880 x0 x1⟩,
    ⟨r0_480, d879 x0 x1⟩,
    ⟨r0_479, d878 x0 x1⟩,
    ⟨r0_478, d877 x0 x1⟩,
    ⟨r0_477, d876 x0 x1⟩,
    ⟨r0_476, d875 x0 x1⟩,
    ⟨r0_475, d874 x0 x1⟩,
    ⟨r0_474, d873 x0 x1⟩,
    ⟨r0_473, d872 x0 x1⟩,
    ⟨r0_472, d871 x0 x1⟩,
    ⟨r0_471, d870 x0 x1⟩,
    ⟨r0_470, d869 x0 x1⟩,
    ⟨r0_469, d868 x0 x1⟩,
    ⟨r0_468, d867 x0 x1⟩,
    ⟨r0_467, d866 x0 x1⟩,
    ⟨r0_466, d865 x0 x1⟩,
    ⟨r0_465, d864 x0 x1⟩,
    ⟨r0_464, d863 x0 x1⟩,
    ⟨r0_463, d862 x0 x1⟩,
    ⟨r0_462, d861 x0 x1⟩,
    ⟨r0_461, d860 x0 x1⟩,
    ⟨r0_460, d859 x0 x1⟩,
    ⟨r0_459, d858 x0 x1⟩,
    ⟨r0_458, d857 x0 x1⟩,
    ⟨r0_457, d856 x0 x1⟩,
    ⟨r0_456, d855 x0 x1⟩,
    ⟨r0_455, d854 x0 x1⟩,
    ⟨r0_454, d853 x0 x1⟩,
    ⟨r0_453, d852 x0 x1⟩,
    ⟨r0_452, d851 x0 x1⟩,
    ⟨r0_451, d850 x0 x1⟩,
    ⟨r0_450, d849 x0 x1⟩,
    ⟨r0_449, d848 x0 x1⟩,
    ⟨r0_448, d847 x0 x1⟩,
    ⟨r0_447, d846 x0 x1⟩,
    ⟨r0_446, d845 x0 x1⟩,
    ⟨r0_445, d844 x0 x1⟩,
    ⟨r0_444, d843 x0 x1⟩,
    ⟨r0_443, d842 x0 x1⟩,
    ⟨r0_442, d841 x0 x1⟩,
    ⟨r0_441, d840 x0 x1⟩,
    ⟨r0_440, d839 x0 x1⟩,
    ⟨r0_439, d838 x0 x1⟩,
    ⟨r0_438, d837 x0 x1⟩,
    ⟨r0_437, d836 x0 x1⟩,
    ⟨r0_436, d835 x0 x1⟩,
    ⟨r0_435, d834 x0 x1⟩,
    ⟨r0_434, d833 x0 x1⟩,
    ⟨r0_433, d832 x0 x1⟩,
    ⟨r0_432, d831 x0 x1⟩,
    ⟨r0_431, d830 x0 x1⟩,
    ⟨r0_430, d829 x0 x1⟩,
    ⟨r0_429, d828 x0 x1⟩,
    ⟨r0_428, d827 x0 x1⟩,
    ⟨r0_427, d826 x0 x1⟩,
    ⟨r0_426, d825 x0 x1⟩,
    ⟨r0_425, d824 x0 x1⟩,
    ⟨r0_424, d823 x0 x1⟩,
    ⟨r0_423, d822 x0 x1⟩,
    ⟨r0_422, d821 x0 x1⟩,
    ⟨r0_421, d820 x0 x1⟩,
    ⟨r0_420, d819 x0 x1⟩,
    ⟨r0_419, d818 x0 x1⟩,
    ⟨r0_418, d817 x0 x1⟩,
    ⟨r0_417, d816 x0 x1⟩,
    ⟨r0_416, d815 x0 x1⟩,
    ⟨r0_415, d814 x0 x1⟩,
    ⟨r0_414, d813 x0 x1⟩,
    ⟨r0_413, d812 x0 x1⟩,
    ⟨r0_412, d811 x0 x1⟩,
    ⟨r0_411, d810 x0 x1⟩,
    ⟨r0_410, d809 x0 x1⟩,
    ⟨r0_409, d808 x0 x1⟩,
    ⟨r0_408, d807 x0 x1⟩,
    ⟨r0_407, d806 x0 x1⟩,
    ⟨r0_406, d805 x0 x1⟩,
    ⟨r0_405, d804 x0 x1⟩,
    ⟨r0_404, d803 x0 x1⟩,
    ⟨r0_403, d802 x0 x1⟩,
    ⟨r0_402, d801 x0 x1⟩,
    ⟨r0_401, d800 x0 x1⟩,
    ⟨r0_400, d799 x0 x1⟩,
    ⟨r0_399, d798 x0 x1⟩,
    ⟨r0_398, d797 x0 x1⟩,
    ⟨r0_397, d796 x0 x1⟩,
    ⟨r0_396, d795 x0 x1⟩,
    ⟨r0_395, d794 x0 x1⟩,
    ⟨r0_394, d793 x0 x1⟩,
    ⟨r0_393, d792 x0 x1⟩,
    ⟨r0_392, d791 x0 x1⟩,
    ⟨r0_391, d790 x0 x1⟩,
    ⟨r0_390, d789 x0 x1⟩,
    ⟨r0_389, d788 x0 x1⟩,
    ⟨r0_388, d787 x0 x1⟩,
    ⟨r0_387, d786 x0 x1⟩,
    ⟨r0_386, d785 x0 x1⟩,
    ⟨r0_385, d784 x0 x1⟩,
    ⟨r0_384, d783 x0 x1⟩,
    ⟨r0_383, d782 x0 x1⟩,
    ⟨r0_382, d781 x0 x1⟩,
    ⟨r0_381, d780 x0 x1⟩,
    ⟨r0_380, d779 x0 x1⟩,
    ⟨r0_379, d778 x0 x1⟩,
    ⟨r0_378, d777 x0 x1⟩,
    ⟨r0_377, d776 x0 x1⟩,
    ⟨r0_376, d775 x0 x1⟩,
    ⟨r0_375, d774 x0 x1⟩,
    ⟨r0_374, d773 x0 x1⟩,
    ⟨r0_373, d772 x0 x1⟩,
    ⟨r0_372, d771 x0 x1⟩,
    ⟨r0_371, d770 x0 x1⟩,
    ⟨r0_370, d769 x0 x1⟩,
    ⟨r0_369, d768 x0 x1⟩,
    ⟨r0_368, d767 x0 x1⟩,
    ⟨r0_367, d766 x0 x1⟩,
    ⟨r0_366, d765 x0 x1⟩,
    ⟨r0_365, d764 x0 x1⟩,
    ⟨r0_364, d763 x0 x1⟩,
    ⟨r0_363, d762 x0 x1⟩,
    ⟨r0_362, d761 x0 x1⟩,
    ⟨r0_361, d760 x0 x1⟩,
    ⟨r0_360, d759 x0 x1⟩,
    ⟨r0_359, d758 x0 x1⟩,
    ⟨r0_358, d757 x0 x1⟩,
    ⟨r0_357, d756 x0 x1⟩,
    ⟨r0_356, d755 x0 x1⟩,
    ⟨r0_355, d754 x0 x1⟩,
    ⟨r0_354, d753 x0 x1⟩,
    ⟨r0_353, d752 x0 x1⟩,
    ⟨r0_352, d751 x0 x1⟩,
    ⟨r0_351, d750 x0 x1⟩,
    ⟨r0_350, d749 x0 x1⟩,
    ⟨r0_349, d748 x0 x1⟩,
    ⟨r0_348, d747 x0 x1⟩,
    ⟨r0_347, d746 x1⟩,
    ⟨r0_346, d745 x1⟩,
    ⟨r0_345, d744 x1⟩]

theorem out_stores : out0_2 x0 x1 = View.canon (stores x0 x1) := rfl

theorem stores_ok : ∀ p ∈ stores x0 x1, Pok x0 x1 p :=
  joint_ok x0 x1 (K54 x0 x1) 54 _ _ _ (lane_K54 x0 x1) (d743_eq x0 x1) (d742_eq x0 x1) (d741_eq x0 x1) rfl rfl rfl <|
  joint_ok x0 x1 (K53 x0 x1) 53 _ _ _ (lane_K53 x0 x1) (d737_eq x0 x1) (d736_eq x0 x1) (d735_eq x0 x1) rfl rfl rfl <|
  joint_ok x0 x1 (K52 x0 x1) 52 _ _ _ (lane_K52 x0 x1) (d731_eq x0 x1) (d730_eq x0 x1) (d729_eq x0 x1) rfl rfl rfl <|
  joint_ok x0 x1 (K51 x0 x1) 51 _ _ _ (lane_K51 x0 x1) (d724_eq x0 x1) (d723_eq x0 x1) (d722_eq x0 x1) rfl rfl rfl <|
  joint_ok x0 x1 (K50 x0 x1) 50 _ _ _ (lane_K50 x0 x1) (d718_eq x0 x1) (d716_eq x0 x1) (d715_eq x0 x1) rfl rfl rfl <|
  joint_ok x0 x1 (K49 x0 x1) 49 _ _ _ (lane_K49 x0 x1) (d711_eq x0 x1) (d710_eq x0 x1) (d709_eq x0 x1) rfl rfl rfl <|
  joint_ok x0 x1 (K48 x0 x1) 48 _ _ _ (lane_K48 x0 x1) (d704_eq x0 x1) (d703_eq x0 x1) (d702_eq x0 x1) rfl rfl rfl <|
  joint_ok x0 x1 (K47 x0 x1) 47 _ _ _ (lane_K47 x0 x1) (d698_eq x0 x1) (d696_eq x0 x1) (d695_eq x0 x1) rfl rfl rfl <|
  joint_ok x0 x1 (K46 x0 x1) 46 _ _ _ (lane_K46 x0 x1) (d691_eq x0 x1) (d690_eq x0 x1) (d689_eq x0 x1) rfl rfl rfl <|
  joint_ok x0 x1 (K45 x0 x1) 45 _ _ _ (lane_K45 x0 x1) (d684_eq x0 x1) (d683_eq x0 x1) (d682_eq x0 x1) rfl rfl rfl <|
  joint_ok x0 x1 (K44 x0 x1) 44 _ _ _ (lane_K44 x0 x1) (d678_eq x0 x1) (d676_eq x0 x1) (d675_eq x0 x1) rfl rfl rfl <|
  joint_ok x0 x1 (K43 x0 x1) 43 _ _ _ (lane_K43 x0 x1) (d671_eq x0 x1) (d670_eq x0 x1) (d669_eq x0 x1) rfl rfl rfl <|
  joint_ok x0 x1 (K42 x0 x1) 42 _ _ _ (lane_K42 x0 x1) (d665_eq x0 x1) (d664_eq x0 x1) (d663_eq x0 x1) rfl rfl rfl <|
  joint_ok x0 x1 (K41 x0 x1) 41 _ _ _ (lane_K41 x0 x1) (d659_eq x0 x1) (d658_eq x0 x1) (d656_eq x0 x1) rfl rfl rfl <|
  joint_ok x0 x1 (K40 x0 x1) 40 _ _ _ (lane_K40 x0 x1) (d652_eq x0 x1) (d651_eq x0 x1) (d650_eq x0 x1) rfl rfl rfl <|
  joint_ok x0 x1 (K39 x0 x1) 39 _ _ _ (lane_K39 x0 x1) (d646_eq x0 x1) (d645_eq x0 x1) (d644_eq x0 x1) rfl rfl rfl <|
  joint_ok x0 x1 (K38 x0 x1) 38 _ _ _ (lane_K38 x0 x1) (d640_eq x0 x1) (d639_eq x0 x1) (d637_eq x0 x1) rfl rfl rfl <|
  joint_ok x0 x1 (K37 x0 x1) 37 _ _ _ (lane_K37 x0 x1) (d633_eq x0 x1) (d632_eq x0 x1) (d631_eq x0 x1) rfl rfl rfl <|
  joint_ok x0 x1 (K36 x0 x1) 36 _ _ _ (lane_K36 x0 x1) (d627_eq x0 x1) (d626_eq x0 x1) (d625_eq x0 x1) rfl rfl rfl <|
  joint_ok x0 x1 (K35 x0 x1) 35 _ _ _ (lane_K35 x0 x1) (d621_eq x0 x1) (d620_eq x0 x1) (d618_eq x0 x1) rfl rfl rfl <|
  joint_ok x0 x1 (K34 x0 x1) 34 _ _ _ (lane_K34 x0 x1) (d614_eq x0 x1) (d613_eq x0 x1) (d612_eq x0 x1) rfl rfl rfl <|
  joint_ok x0 x1 (K33 x0 x1) 33 _ _ _ (lane_K33 x0 x1) (d608_eq x0 x1) (d607_eq x0 x1) (d606_eq x0 x1) rfl rfl rfl <|
  joint_ok x0 x1 (K32 x0 x1) 32 _ _ _ (lane_K32 x0 x1) (d602_eq x0 x1) (d601_eq x0 x1) (d600_eq x0 x1) rfl rfl rfl <|
  joint_ok x0 x1 (K31 x0 x1) 31 _ _ _ (lane_K31 x0 x1) (d595_eq x0 x1) (d594_eq x0 x1) (d593_eq x0 x1) rfl rfl rfl <|
  joint_ok x0 x1 (K30 x0 x1) 30 _ _ _ (lane_K30 x0 x1) (d589_eq x0 x1) (d587_eq x0 x1) (d586_eq x0 x1) rfl rfl rfl <|
  joint_ok x0 x1 (K29 x0 x1) 29 _ _ _ (lane_K29 x0 x1) (d582_eq x0 x1) (d581_eq x0 x1) (d580_eq x0 x1) rfl rfl rfl <|
  joint_ok x0 x1 (K28 x0 x1) 28 _ _ _ (lane_K28 x0 x1) (d575_eq x0 x1) (d574_eq x0 x1) (d573_eq x0 x1) rfl rfl rfl <|
  joint_ok x0 x1 (K27 x0 x1) 27 _ _ _ (lane_K27 x0 x1) (d569_eq x0 x1) (d567_eq x0 x1) (d566_eq x0 x1) rfl rfl rfl <|
  joint_ok x0 x1 (K26 x0 x1) 26 _ _ _ (lane_K26 x0 x1) (d562_eq x0 x1) (d561_eq x0 x1) (d560_eq x0 x1) rfl rfl rfl <|
  joint_ok x0 x1 (K25 x0 x1) 25 _ _ _ (lane_K25 x0 x1) (d555_eq x0 x1) (d554_eq x0 x1) (d553_eq x0 x1) rfl rfl rfl <|
  joint_ok x0 x1 (K24 x0 x1) 24 _ _ _ (lane_K24 x0 x1) (d549_eq x0 x1) (d547_eq x0 x1) (d546_eq x0 x1) rfl rfl rfl <|
  joint_ok x0 x1 (K23 x0 x1) 23 _ _ _ (lane_K23 x0 x1) (d542_eq x0 x1) (d541_eq x0 x1) (d540_eq x0 x1) rfl rfl rfl <|
  joint_ok x0 x1 (K22 x0 x1) 22 _ _ _ (lane_K22 x0 x1) (d536_eq x0 x1) (d535_eq x0 x1) (d534_eq x0 x1) rfl rfl rfl <|
  joint_ok x0 x1 (K21 x0 x1) 21 _ _ _ (lane_K21 x0 x1) (d530_eq x0 x1) (d529_eq x0 x1) (d527_eq x0 x1) rfl rfl rfl <|
  joint_ok x0 x1 (K20 x0 x1) 20 _ _ _ (lane_K20 x0 x1) (d503_eq x0 x1) (d502_eq x0 x1) (d500_eq x0 x1) rfl rfl rfl <|
  joint_ok x0 x1 (K19 x0 x1) 19 _ _ _ (lane_K19 x0 x1) (d476_eq x0 x1) (d475_eq x0 x1) (d473_eq x0 x1) rfl rfl rfl <|
  joint_ok x0 x1 (K18 x0 x1) 18 _ _ _ (lane_K18 x0 x1) (d449_eq x0 x1) (d448_eq x0 x1) (d446_eq x0 x1) rfl rfl rfl <|
  joint_ok x0 x1 (K17 x0 x1) 17 _ _ _ (lane_K17 x0 x1) (d422_eq x0 x1) (d421_eq x0 x1) (d419_eq x0 x1) rfl rfl rfl <|
  joint_ok x0 x1 (K16 x0 x1) 16 _ _ _ (lane_K16 x0 x1) (d395_eq x0 x1) (d394_eq x0 x1) (d392_eq x0 x1) rfl rfl rfl <|
  joint_ok x0 x1 (K15 x0 x1) 15 _ _ _ (lane_K15 x0 x1) (d368_eq x0 x1) (d367_eq x0 x1) (d365_eq x0 x1) rfl rfl rfl <|
  joint_ok x0 x1 (K14 x0 x1) 14 _ _ _ (lane_K14 x0 x1) (d341_eq x0 x1) (d340_eq x0 x1) (d338_eq x0 x1) rfl rfl rfl <|
  joint_ok x0 x1 (K13 x0 x1) 13 _ _ _ (lane_K13 x0 x1) (d314_eq x0 x1) (d313_eq x0 x1) (d311_eq x0 x1) rfl rfl rfl <|
  joint_ok x0 x1 (K12 x0 x1) 12 _ _ _ (lane_K12 x0 x1) (d287_eq x0 x1) (d286_eq x0 x1) (d284_eq x0 x1) rfl rfl rfl <|
  joint_ok x0 x1 (K11 x0 x1) 11 _ _ _ (lane_K11 x0 x1) (d260_eq x0 x1) (d259_eq x0 x1) (d257_eq x0 x1) rfl rfl rfl <|
  joint_ok x0 x1 (K10 x0 x1) 10 _ _ _ (lane_K10 x0 x1) (d253_eq x0 x1) (d252_eq x0 x1) (d251_eq x0 x1) rfl rfl rfl <|
  joint_ok x0 x1 (K9 x0 x1) 9 _ _ _ (lane_K9 x0 x1) (d247_eq x0 x1) (d246_eq x0 x1) (d245_eq x0 x1) rfl rfl rfl <|
  joint_ok x0 x1 (K8 x0 x1) 8 _ _ _ (lane_K8 x0 x1) (d221_eq x0 x1) (d220_eq x0 x1) (d219_eq x0 x1) rfl rfl rfl <|
  joint_ok x0 x1 (K7 x0 x1) 7 _ _ _ (lane_K7 x0 x1) (d195_eq x0 x1) (d194_eq x0 x1) (d193_eq x0 x1) rfl rfl rfl <|
  joint_ok x0 x1 (K6 x0 x1) 6 _ _ _ (lane_K6 x0 x1) (d169_eq x0 x1) (d168_eq x0 x1) (d167_eq x0 x1) rfl rfl rfl <|
  joint_ok x0 x1 (K5 x0 x1) 5 _ _ _ (lane_K5 x0 x1) (d143_eq x0 x1) (d142_eq x0 x1) (d141_eq x0 x1) rfl rfl rfl <|
  joint_ok x0 x1 (K4 x0 x1) 4 _ _ _ (lane_K4 x0 x1) (d117_eq x0 x1) (d116_eq x0 x1) (d115_eq x0 x1) rfl rfl rfl <|
  joint_ok x0 x1 (K3 x0 x1) 3 _ _ _ (lane_K3 x0 x1) (d91_eq x0 x1) (d90_eq x0 x1) (d89_eq x0 x1) rfl rfl rfl <|
  joint_ok x0 x1 (K2 x0 x1) 2 _ _ _ (lane_K2 x0 x1) (d65_eq x0 x1) (d64_eq x0 x1) (d63_eq x0 x1) rfl rfl rfl <|
  joint_ok x0 x1 (K1 x0 x1) 1 _ _ _ (lane_K1 x0 x1) (d39_eq x0 x1) (d38_eq x0 x1) (d37_eq x0 x1) rfl rfl rfl <|
  joint_ok x0 x1 (K0 x0 x1) 0 _ _ _ (lane_K0 x0 x1) (d13_eq x0 x1) (d12_eq x0 x1) (d11_eq x0 x1) rfl rfl rfl <|
  all_nil _

theorem stores_cover (y : S165x4096.Idx) : ∃ p ∈ stores x0 x1, y ∈ p.1.set :=
  cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

end Cert.FK.Ker

end
-- ==== Proof.KerBody.lean ====
import proofs.«134826_j18760417149409_1_alg».proof.Proof.KerBodyTable

set_option maxRecDepth 16384

noncomputable section

namespace Cert.FK.Ker

open Idealize.ShloMosaic Idealize.ShloMosaic.ValueIdx
open Cert.KernelIdeal Cert.KernelIdeal.Gen

-- The stores cover the block and each agrees with G under its rectangle, so the block read at (3j + r, ℓ) is G there.
theorem out_lane (x0 : Vec Ideal S198x4096 .f32) (x1 : Vec Ideal S3x55 .f32) (j : Fin 55) (r : Fin 3) (ℓ : Fin 4096) :
    out0_2 (F := Ideal) x0 x1 (ix2 (⟨3 * j.val + r.val, by omega⟩ : Fin 165) ℓ)
      = (pose (fun j' r' c' => if h : j' < 22 then x0 (ix2 (⟨9 * j' + 3 * r'.val + c'.val, by omega⟩ : Fin 198) ℓ) else 0)
              (fun j' r' => if h : j' < 55 then x1 (ix2 r' (⟨j', h⟩ : Fin 55)) else 0) j.val).p r := by
  rw [out_stores]
  refine (View.canon_apply_of_pieces (Val := Elt Ideal) (S := S165x4096) (e := .f32) (G x0 x1) (stores x0 x1) (stores_ok x0 x1) _ (stores_cover x0 x1 _)).trans ?_
  exact G_eq x0 x1 _ j.val r ℓ rfl rfl

end Cert.FK.Ker

end
-- ==== Proof.KerBlocks.lean ====
import proofs.«134826_j18760417149409_1_alg».proof.Proof.KernelIdealFramePatched
import proofs.«134826_j18760417149409_1_alg».proof.Proof.Target
import Idealize.ShloMosaic.Lib.Pipeline.Value
import Idealize.ShloMosaic.Lib.Tactic
import Idealize.ShloMosaic.Lib.ValueIdx
import Idealize.ShloMosaic.Lib.ValueLayout

-- What the two input windows' blocks hold in terms of the argument arrays: sample n's rotations down column n, and the joints' local offsets.

set_option maxRecDepth 16384

noncomputable section

namespace Cert.FK.Ker

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ)

theorem V1_eq (c : Dev nD) : (V m c main_v1 : S198x32768.Idx → EReal)
    = transpose S198x32768 [1, 0] (shapeCast S32768x198 (m ((c : Thread nD τ).loc main_arg0) : S16x2048x22x3x3.Idx → EReal) shapeCasts_S16x2048x22x3x3_S32768x198) transposes_S32768x198_S198x32768_1_0 := by
  dsimp only [Gen.V, Gen.V0]
  simp only [Gen.hostOps0, List.flatten_cons, List.flatten_nil, List.append_nil]
  after_results
  rfl

theorem V1_apply (c : Dev nD) (row : Fin 198) (col : Fin 32768) (b : Fin 16) (t : Fin 2048) (j' : Fin 22) (r' c' : Fin 3)
    (hrow : row.val = 9 * j'.val + 3 * r'.val + c'.val) (hcol : col.val = 2048 * b.val + t.val) :
    (V m c main_v1 : S198x32768.Idx → EReal) (ix2 row col)
      = (m ((c : Thread nD τ).loc main_arg0) : S16x2048x22x3x3.Idx → EReal) (ix5 b t j' r' c') := by
  rw [V1_eq, transpose_ix2_apply]
  refine shapeCast_apply _ _ _ _ ?_
  show (S16x2048x22x3x3.rowMajor (ix5 b t j' r' c')).val = (S32768x198.rowMajor (ix2 col row)).val
  rw [Shape.rowMajor_val_two, Shape.rowMajor_val_five]
  show ((((b.val * 2048 + t.val) * 22 + j'.val) * 3 + r'.val) * 3 + c'.val) = col.val * 198 + row.val
  have := r'.isLt; have := c'.isLt
  omega

theorem iblk0_arr (c : Dev nD) (tt : Fin cfg0.N) (x : S198x4096.Idx) (k : S198x32768.Idx)
    (hk0 : (k 0).val = (x 0).val) (hk1 : (k 1).val = 4096 * tt.val + (x 1).val) :
    (iblk m c 0 tt : S198x4096.Idx → EReal) x = (V m c main_v1 : S198x32768.Idx → EReal) k := by
  have hi : win0_0.index tt 0 = 0 ∧ win0_0.index tt 1 = tt.val :=
    (by decide +kernel : ∀ t : Fin grid0.N, win0_0.index t 0 = 0 ∧ win0_0.index t 1 = t.val) tt
  unfold iblk
  rw [View.read_apply]
  show V m c main_v1 _ = V m c main_v1 _
  congr 1
  funext a
  apply Fin.ext
  match a with
  | ⟨0, _⟩ => show win0_0.index tt 0 * 198 + 1 * (x 0).val = (k 0).val; rw [hi.1, hk0]; omega
  | ⟨1, _⟩ => show win0_0.index tt 1 * 4096 + 1 * (x 1).val = (k 1).val; rw [hi.2, hk1]; omega

theorem iblk0_apply (c : Dev nD) (tt : Fin cfg0.N) (j' : Fin 22) (r' c' : Fin 3) (ℓ : Fin 4096) (b : Fin 16) (t : Fin 2048)
    (h : 4096 * tt.val + ℓ.val = 2048 * b.val + t.val) :
    (iblk m c 0 tt : S198x4096.Idx → EReal) (ix2 (⟨9 * j'.val + 3 * r'.val + c'.val, by omega⟩ : Fin 198) ℓ)
      = (m ((c : Thread nD τ).loc main_arg0) : S16x2048x22x3x3.Idx → EReal) (ix5 b t j' r' c') := by
  have hN : tt.val < 8 := by have h1 := tt.isLt; have h2 : cfg0.N = 8 := N_0; omega
  rw [iblk0_arr m c tt _ (ix2 (⟨9 * j'.val + 3 * r'.val + c'.val, by omega⟩ : Fin 198) (⟨4096 * tt.val + ℓ.val, by omega⟩ : Fin 32768)) rfl rfl]
  exact V1_apply m c _ _ b t j' r' c' rfl h

theorem gather_rows_apply (x : S55x3.Idx → EReal) (idx : IVec S54x1 32) (p : Fin 54) (k : Fin 3) :
    Host.gather gather_S55x3_S54x1_S54x3_1_0_n_n_0_1_13 x idx (ix2 p k)
      = x (ix2 (⟨min (idx (ix2 p (0 : Fin 1))).toInt.toNat 54, by omega⟩ : Fin 55) k) := by
  unfold Host.gather
  congr 1
  funext a
  apply Fin.ext
  match a with
  | ⟨0, _⟩ =>
    show GatherDims.start gather_S55x3_S54x1_S54x3_1_0_n_n_0_1_13 (ix2 p k) idx 0 + GatherDims.batchCoord gather_S55x3_S54x1_S54x3_1_0_n_n_0_1_13 (ix2 p k) 0 + GatherDims.offCoord gather_S55x3_S54x1_S54x3_1_0_n_n_0_1_13 (ix2 p k) 0 = min (idx (ix2 p (0 : Fin 1))).toInt.toNat 54
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S55x3_S54x1_S54x3_1_0_n_n_0_1_13.startIndexMap from List.mem_singleton.mpr rfl)]
    have hsi : GatherDims.siIdx gather_S55x3_S54x1_S54x3_1_0_n_n_0_1_13 (ix2 p k)
        ⟨List.idxOf (0 : Fin 2) gather_S55x3_S54x1_S54x3_1_0_n_n_0_1_13.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start gather_S55x3_S54x1_S54x3_1_0_n_n_0_1_13 (ix2 p k) idx 1 + GatherDims.batchCoord gather_S55x3_S54x1_S54x3_1_0_n_n_0_1_13 (ix2 p k) 1 + GatherDims.offCoord gather_S55x3_S54x1_S54x3_1_0_n_n_0_1_13 (ix2 p k) 1 = k.val
    rw [GatherDims.batchCoord_eq_zero _ _ _ List.not_mem_nil]
    unfold GatherDims.start
    rw [dif_neg (show ¬ (1 : Fin 2) ∈ gather_S55x3_S54x1_S54x3_1_0_n_n_0_1_13.startIndexMap by decide)]
    unfold GatherDims.offCoord
    rw [dif_pos (show (1 : Fin 2) ∈ GatherDims.sKept gather_S55x3_S54x1_S54x3_1_0_n_n_0_1_13 by decide)]
    simp only [Nat.zero_add]
    rfl

abbrev parTab : IVec S54x1 32 :=
  broadcastInDim S54x1 ![0] bcast_S54_S54x1_0
    (select (constantI S54 1 0#1)
      (addi (fun i => lit0 (S54.rowMajor i)) (broadcastInDim S54 ![] bcast_S_S54 (constantI S_ 32 55#32)))
      fun i => lit0 (S54.rowMajor i))

theorem parTab_apply (p : Fin 54) : parTab (ix2 p (0 : Fin 1)) = lit0 p := by
  unfold parTab
  rw [broadcastInDim_apply ![0] bcast_S54_S54x1_0 _ (ix2 p (0 : Fin 1)) (ix1 p) (fun a => by match a with | ⟨0, _⟩ => rfl)]
  rw [select_apply, constantI_apply, select_zero]
  show lit0 (S54.rowMajor (ix1 p)) = lit0 p
  congr 1
  apply Fin.ext
  exact Shape.rowMajor_val_one _

theorem V11_eq (c : Dev nD) : (V m c main_v11 : S3x55.Idx → EReal)
    = transpose S3x55 [1, 0]
      (concatenate S55x3 0
        [⟨S1x3, extractStridedSlice S1x3 ![0, 0] (m ((c : Thread nD τ).loc main_arg1) : S55x3.Idx → EReal) slices_S55x3_S1x3_0_0⟩,
          ⟨S54x3,
            subf (F := Ideal) (φ := .f32) (extractStridedSlice S54x3 ![1, 0] (m ((c : Thread nD τ).loc main_arg1) : S55x3.Idx → EReal) slices_S55x3_S54x3_1_0)
              (Host.gather gather_S55x3_S54x1_S54x3_1_0_n_n_0_1_13 (m ((c : Thread nD τ).loc main_arg1) : S55x3.Idx → EReal) parTab)⟩]
        concatenates_S1x3_S54x3_S55x3_d0)
      transposes_S55x3_S3x55_1_0 := by
  dsimp only [Gen.V, Gen.V0]
  simp only [Gen.hostOps0, List.flatten_cons, List.flatten_nil, List.append_nil]
  after_results
  rfl

theorem lit0_par : ∀ p : Fin 54, min (lit0 p).toInt.toNat 54 = Cert.FK.par (p.val + 1) := by decide

theorem gather_par_apply (x : S55x3.Idx → EReal) (p : Fin 54) (k : Fin 3) (q : Fin 55) (hq : q.val = Cert.FK.par (p.val + 1)) :
    Host.gather gather_S55x3_S54x1_S54x3_1_0_n_n_0_1_13 x parTab (ix2 p k) = x (ix2 q k) := by
  rw [gather_rows_apply]
  refine congrArg (fun z : Fin 55 => x (ix2 z k)) (Fin.ext ?_)
  show min (parTab (ix2 p (0 : Fin 1))).toInt.toNat 54 = q.val
  rw [parTab_apply, lit0_par, hq]

theorem V11_apply (c : Dev nD) (k : Fin 3) (j : Fin 55) :
    (V m c main_v11 : S3x55.Idx → EReal) (ix2 k j) = Cert.FK.offOf (m ((c : Thread nD τ).loc main_arg1)) j.val k := by
  rw [V11_eq, transpose_ix2_apply]
  by_cases hj : j.val = 0
  · rw [concatenate_pair_apply_left (t := S55x3) (s₁ := S1x3) (s₂ := S54x3) (0 : Fin 2) _ _ concatenates_S1x3_S54x3_S55x3_d0 (ix2 j k) rfl (ix2 (0 : Fin 1) k)
        (fun b => by match b with | ⟨0, _⟩ => exact hj.symm | ⟨1, _⟩ => rfl)]
    rw [slice2_axis0_apply 0 _ slices_S55x3_S1x3_0_0 (0 : Fin 1) k (⟨0, by omega⟩ : Fin 55) rfl]
    unfold Cert.FK.offOf Cert.FK.restAt
    rw [if_pos hj, dif_pos (by omega)]
  · have h1 : 1 ≤ j.val := by omega
    have hp : Cert.FK.par j.val < 55 := by have := Cert.FK.par_lt j.val h1 j.isLt; omega
    rw [concatenate_pair_apply_right (t := S55x3) (s₁ := S1x3) (s₂ := S54x3) (0 : Fin 2) _ _ concatenates_S1x3_S54x3_S55x3_d0 (ix2 j k) rfl rfl (ix2 (⟨j.val - 1, by omega⟩ : Fin 54) k)
        (fun b hb => by match b with | ⟨0, _⟩ => exact absurd rfl hb | ⟨1, _⟩ => rfl)
        (by show j.val - 1 + 1 = j.val; omega)]
    rw [subf_apply, slice2_axis0_apply 1 _ slices_S55x3_S54x3_1_0 (⟨j.val - 1, by omega⟩ : Fin 54) k j (by show j.val = 1 + (j.val - 1); omega),
      gather_par_apply _ _ k (⟨Cert.FK.par j.val, hp⟩ : Fin 55) (by show Cert.FK.par j.val = Cert.FK.par (j.val - 1 + 1); rw [Nat.sub_add_cancel h1])]
    unfold Cert.FK.offOf Cert.FK.restAt
    rw [if_neg hj, dif_pos j.isLt, dif_pos hp]

theorem iblk1_arr (c : Dev nD) (tt : Fin cfg0.N) (x : S3x55.Idx) :
    (iblk m c 1 tt : S3x55.Idx → EReal) x = (V m c main_v11 : S3x55.Idx → EReal) x := by
  have hi : win0_1.index tt 0 = 0 ∧ win0_1.index tt 1 = 0 :=
    (by decide +kernel : ∀ t : Fin grid0.N, win0_1.index t 0 = 0 ∧ win0_1.index t 1 = 0) tt
  unfold iblk
  rw [View.read_apply]
  show V m c main_v11 _ = V m c main_v11 _
  congr 1
  funext a
  apply Fin.ext
  match a with
  | ⟨0, _⟩ => show win0_1.index tt 0 * 3 + 1 * (x 0).val = (x 0).val; rw [hi.1]; omega
  | ⟨1, _⟩ => show win0_1.index tt 1 * 55 + 1 * (x 1).val = (x 1).val; rw [hi.2]; omega

theorem iblk1_apply (c : Dev nD) (tt : Fin cfg0.N) (k : Fin 3) (j : Fin 55) :
    (iblk m c 1 tt : S3x55.Idx → EReal) (ix2 k j) = Cert.FK.offOf (m ((c : Thread nD τ).loc main_arg1)) j.val k := by
  rw [iblk1_arr, V11_apply]

end Cert.FK.Ker

end
-- ==== Proof.KerRun.lean ====
import proofs.«134826_j18760417149409_1_alg».proof.Proof.KernelIdealFramePatched
import proofs.«134826_j18760417149409_1_alg».proof.Proof.Target
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

-- Block t of the result array is the body's output on block t of the inputs, so the array is one function of the inputs; then the transpose and reshape read at a coordinate.

noncomputable section

open Idealize.ShloMosaic Idealize.ShloMosaic.TcCoe Idealize.SL.Sem
open Idealize.ShloMosaic.Pipeline (Dat)
open Idealize.ShloMosaic.ValueIdx

namespace Cert.FK.Ker

open Cert.KernelIdeal Cert.KernelIdeal.Gen

variable {F : FTy → Type} [FloatOps F]
variable (m : (ℓ : Loc nD τ sig) → Buf (Elt F) ℓ) (ρ : Dev nD → PrngReg)

theorem N8 : cfg0.N = 8 := N_0

def ptOf (n : Fin 32768) : Fin cfg0.N := ⟨n.val / 4096, by rw [N8]; have := n.isLt; omega⟩

def laneOf (n : Fin 32768) : Fin 4096 := ⟨n.val % 4096, Nat.mod_lt _ (by norm_num)⟩

def col (b : Fin 16) (t : Fin 2048) : Fin 32768 := ⟨2048 * b.val + t.val, by have := b.isLt; have := t.isLt; omega⟩

def row (j : Fin 55) (r : Fin 3) : Fin 165 := ⟨3 * j.val + r.val, by have := j.isLt; have := r.isLt; omega⟩

@[simp] theorem ptOf_val (n : Fin 32768) : (ptOf n).val = n.val / 4096 := rfl
@[simp] theorem laneOf_val (n : Fin 32768) : (laneOf n).val = n.val % 4096 := rfl
@[simp] theorem col_val (b : Fin 16) (t : Fin 2048) : (col b t).val = 2048 * b.val + t.val := rfl
@[simp] theorem row_val (j : Fin 55) (r : Fin 3) : (row j r).val = 3 * j.val + r.val := rfl

def oblk (c : Dev nD) (t : Fin cfg0.N) : Vec F S165x4096 .f32 := out0_2 (iblk m c 0 t) (iblk m c 1 t)

def outArr (c : Dev nD) : Vec F S165x32768 .f32 := fun i => oblk m c (ptOf (i 1)) (ix2 (i 0) (laneOf (i 1)))

theorem outArr_emb (c : Dev nD) (t : Fin cfg0.N) (y : S165x4096.Idx) (i : S165x32768.Idx)
    (h0 : (i 0).val = (y 0).val) (h1 : (i 1).val = 4096 * t.val + (y 1).val) : outArr m c i = oblk m c t y := by
  have hy1 : (y 1).val < 4096 := (y 1).isLt
  have hp : ptOf (i 1) = t := Fin.ext (by show (i 1).val / 4096 = t.val; omega)
  have hl : laneOf (i 1) = y 1 := Fin.ext (by show (i 1).val % 4096 = (y 1).val; omega)
  have hr : (i 0 : Fin 165) = y 0 := Fin.ext h0
  show oblk m c (ptOf (i 1)) (ix2 (i 0) (laneOf (i 1))) = oblk m c t y
  rw [hp, hl, hr]
  exact congrArg (oblk m c t) (eq_ix2 y).symm

theorem idx_facts : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

theorem cut_xinj {α : Type} (t : Fin cfg0.N) (X : S165x4096.Idx → α) (y : ((cfg0.win 2).xblock (grid0.coords t)).Idx) :
    (cfg0.win 2).cut (grid0.coords t) X y = X ((cfg0.win 2).xinj (grid0.coords t) y) := rfl

theorem read_blk {t : Fin cfg0.N} (X : Vec F S165x32768 .f32) (y : ((cfg0.win 2).xblock (grid0.coords t)).Idx) :
    ((cfg0.win 2).blk t).view.read (Elt F) X y = X (((cfg0.win 2).blk t).view.emb y) := rfl

theorem flushed_eq (c : Dev nD) (t : Fin cfg0.N) :
    (dats m 0 c).flushed 2 t = ((cfg0.win 2).blk t).view.read (Elt F) (outArr m c) := by
  show (cfg0.win 2).cut (grid0.coords t) ((dats m 0 c).after 2 t) = _
  rw [show (dats m 0 c).after 2 t = oblk m c t from after0_2 m c t]
  obtain ⟨e0, e1⟩ := idx_facts t
  funext y
  rw [cut_xinj, read_blk]
  refine (outArr_emb m c t ((cfg0.win 2).xinj (grid0.coords t) y) _ ?_ ?_).symm
  · show win0_2.index t (0 : Fin 2) * 165 + 1 * (y 0).val = (y 0).val
    rw [e0]; omega
  · show win0_2.index t (1 : Fin 2) * 4096 + 1 * (y 1).val = 4096 * t.val + (y 1).val
    rw [e1]; omega

theorem mem_blk (t : Fin cfg0.N) (i : S165x32768.Idx) :
    i ∈ ((cfg0.win 2).blk t).view.set ↔ ∀ a : Fin 2, win0_2.index t a * S165x4096.size a ≤ (i a).val
      ∧ (i a).val < win0_2.index t a * S165x4096.size a + S165x4096.size a := by
  show i ∈ ((View.whole main_v12).slice (win0_2.rect t)).set ↔ _
  rw [View.set_slice_whole, Rect.mem_set_unit]
  exact Iff.rfl

theorem cover (i : S165x32768.Idx) :
    ∃ t : Fin cfg0.N, (cfg0.win 2).flush t = true ∧ i ∈ ((cfg0.win 2).blk t).view.set := by
  have hi0 : (i 0).val < 165 := (i 0).isLt
  have hi1 : (i 1).val < 32768 := (i 1).isLt
  refine ⟨ptOf (i 1), flush0_2 _, ?_⟩
  rw [mem_blk]
  obtain ⟨e0, e1⟩ := idx_facts (ptOf (i 1))
  intro a
  match a with
  | ⟨0, _⟩ =>
    show win0_2.index (ptOf (i 1)) (0 : Fin 2) * 165 ≤ (i 0).val
      ∧ (i 0).val < win0_2.index (ptOf (i 1)) (0 : Fin 2) * 165 + 165
    rw [e0]; omega
  | ⟨1, _⟩ =>
    show win0_2.index (ptOf (i 1)) (1 : Fin 2) * 4096 ≤ (i 1).val
      ∧ (i 1).val < win0_2.index (ptOf (i 1)) (1 : Fin 2) * 4096 + 4096
    have hv : (ptOf (i 1)).val = (i 1).val / 4096 := rfl
    rw [e1]; omega

theorem final (c : Dev nD) : (dats m 0 c).arrAt 2 cfg0.N = outArr m c :=
  (dats m 0 c).arrAt_eq_of_cover 2 (outArr m c) (fun t _ => flushed_eq m c t) (fun i => cover i)

def kres (c : Dev nD) : Buf (Elt F) ((c.tc : Thread nD τ).loc main_v14) :=
  Pipeline.afterTail₀ cfgs (dats m) 0 (V0 m) [hostOps1] c main_v14

theorem kres_eq (c : Dev nD) :
    kres m c = shapeCast S16x2048x55x3 (transpose S32768x165 [1, 0] (outArr m c) transposes_S165x32768_S32768x165_1_0)
      shapeCasts_S32768x165_S16x2048x55x3 := by
  have hW := (Pipeline.withArrays_arr spec0 launch0.win.arr_inj c (V0 m c) (fun w => (dats m 0 c).arrAt w cfg0.N) 2).trans (final m c)
  unfold kres Pipeline.afterTail₀
  show StableHlo.after hostOps1 _ (Proc.devRef .tc main_v14) = _
  after_results
  exact congrArg (fun X : Vec F S165x32768 .f32 => shapeCast S16x2048x55x3
    (transpose S32768x165 [1, 0] X transposes_S165x32768_S32768x165_1_0) shapeCasts_S32768x165_S16x2048x55x3) hW

theorem run : θ_run defs (onTc (τ := τ) (main (F := F))) ⟨m, fun _ => 0, ρ⟩ fun r => ∀ c : Dev nD,
      r.2.mem ((c.tc : Thread nD τ).loc main_v14) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).2 main_v14 (Pipeline.mem_restRefs_of main_v14 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

theorem tail_at {α : Type} (X : S165x32768.Idx → α) (b : Fin 16) (t : Fin 2048) (j : Fin 55) (r : Fin 3) :
    shapeCast S16x2048x55x3 (transpose S32768x165 [1, 0] X transposes_S165x32768_S32768x165_1_0)
        shapeCasts_S32768x165_S16x2048x55x3 (ix4 b t j r) = X (ix2 (row j r) (col b t)) := by
  have hb := b.isLt; have ht := t.isLt; have hj := j.isLt; have hr := r.isLt
  refine (shapeCast_apply (transpose S32768x165 [1, 0] X transposes_S165x32768_S32768x165_1_0)
    shapeCasts_S32768x165_S16x2048x55x3 (ix4 b t j r) (ix2 (col b t) (row j r)) ?_).trans ?_
  · rw [Shape.rowMajor_val_two, Shape.rowMajor_val_four]
    show (2048 * b.val + t.val) * 165 + (3 * j.val + r.val) = ((b.val * 2048 + t.val) * 55 + j.val) * 3 + r.val
    omega
  · exact transpose_ix2_apply X transposes_S165x32768_S32768x165_1_0 (col b t) (row j r)

theorem kres_at (c : Dev nD) (b : Fin 16) (t : Fin 2048) (j : Fin 55) (r : Fin 3) :
    (kres m c : Vec F S16x2048x55x3 .f32) (ix4 b t j r)
      = out0_2 (iblk m c 0 (ptOf (col b t))) (iblk m c 1 (ptOf (col b t))) (ix2 (row j r) (laneOf (col b t))) := by
  rw [kres_eq]
  exact tail_at (outArr m c) b t j r

end Cert.FK.Ker

end
-- ==== Proof.Bridge.lean ====
import proofs.«134826_j18760417149409_1_alg».proof.Proof.BridgeRef
import proofs.«134826_j18760417149409_1_alg».proof.Proof.KerBody
import proofs.«134826_j18760417149409_1_alg».proof.Proof.KerBlocks
import proofs.«134826_j18760417149409_1_alg».proof.Proof.KerRun

-- Both idealized results are `posed` of the arguments, entry by entry, hence equal.

noncomputable section

namespace Cert.FK

open Idealize.ShloMosaic Idealize.ShloMosaic.TcCoe Idealize.ShloMosaic.ValueIdx Idealize.SL.Sem

section Kernel

open Cert.KernelIdeal Cert.KernelIdeal.Gen

variable (m : (ℓ : Loc nD τ sig) → Buf (Elt Ideal) ℓ)

theorem ker_posed (c : Dev nD) (b : Fin 16) (t : Fin 2048) (j : Fin 55) (r : Fin 3) :
    (Ker.kres m c : SO.Idx → EReal) (ix4 b t j r)
      = posed (m ((c : Thread nD τ).loc main_arg0)) (m ((c : Thread nD τ).loc main_arg1)) b t j r := by
  rw [Ker.kres_at]
  refine (Ker.out_lane _ _ j r _).trans ?_
  unfold posed
  refine congrArg (fun k : Pose => k.p r) (pose_congr ?_ ?_ j.val j.isLt)
  · intro i _
    funext r' c'
    unfold rotOf
    by_cases h : i < 22
    · rw [dif_pos h, dif_pos h]
      exact Ker.iblk0_apply m c _ ⟨i, h⟩ r' c' _ b t (by
        simp only [Ker.ptOf_val, Ker.laneOf_val, Ker.col_val]; exact Nat.div_add_mod _ 4096)
    · rw [dif_neg h, dif_neg h]
  · intro i hi
    funext r'
    rw [dif_pos hi]
    exact Ker.iblk1_apply m c _ r' ⟨i, hi⟩

end Kernel

theorem ref_eq_ker (m : (ℓ : Loc Cert.KernelIdeal.nD Cert.KernelIdeal.τ Cert.KernelIdeal.sig) → Buf (Elt Ideal) ℓ) (c : Dev Cert.KernelIdeal.nD) :
    Ref.s_v248 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Ker.kres m c :=
  ext_posed (ref_posed _ _) (ker_posed m c)

end Cert.FK

end
-- ==== Proof.lean ====
-- A 55-joint forward-kinematics kernel against its reference: at the ideal instance both results are `Cert.FK.posed` of the arguments, entry by entry.
import proofs.«134826_j18760417149409_1_alg».proof.Defs
import proofs.«134826_j18760417149409_1_alg».proof.Proof.Gen.Kernel
import proofs.«134826_j18760417149409_1_alg».proof.Proof.Gen.KernelIdeal
import proofs.«134826_j18760417149409_1_alg».proof.Proof.Gen.ReferenceIdeal
import proofs.«134826_j18760417149409_1_alg».proof.Proof.Gen.Pre_finite_inputs
import proofs.«134826_j18760417149409_1_alg».proof.Proof.KernelFramePatched
import proofs.«134826_j18760417149409_1_alg».proof.Proof.KernelIdealFramePatched
import proofs.«134826_j18760417149409_1_alg».proof.Proof.RefRun
import proofs.«134826_j18760417149409_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.FK.Ref.run (F := Ideal) m ρ)

theorem algebraic : Cert.algebraic_KernelIdeal_ReferenceIdeal := by
  intro m ρ m' ρ' _ hagree
  refine ⟨fun c => Cert.FK.Ker.kres m c, Cert.FK.Ker.run m ρ, ?_⟩
  refine (θ_run Cert.ReferenceIdeal.defs _ _).mono (fun _ h c => ⟨(h c).1.trans ?_, (h c).2⟩)
    (Cert.FK.Ref.run (F := Ideal) m' ρ')
  rw [(hagree c).1, (hagree c).2.1]
  exact Cert.FK.ref_eq_ker m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
